-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v192) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S128x1 .f32) (main_arg14 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x1 .f32 := Host.absf main_arg13
  let main_cst_20 : FVec F S_ .f32 := constant S_ .f32 0x7F800000#32
  let main_v55 : FVec F S128x1 .f32 := broadcastInDim S128x1 ![] bcast_S_S128x1 main_cst_20
  let main_v56 : IVec S128x1 1 := cmpf .olt main_v54 main_v55
  let main_c_21 : IVec S_ 1 := constantI S_ 1 1#1
  let main_v57 : IVec S_ 1 := (fun x v => Host.reduce IntOp.andi x v reducesTo_S128x1_S_d0_1 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg9 : FVec F S128 .f32) (main_arg10 : FVec F S128 .f32) (main_arg11 : FVec F S128x128 .f32) (main_arg12 : FVec F S128 .f32) (main_arg13 : FVec F S128x1 .f32) (main_arg14 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_v48 main_v49 main_v50

def fn_part1 {F : FTy → Type} [FloatOps F] (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_arg13 : FVec F S128x1 .f32) (main_arg14 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x128 .f32) (main_arg1 : IVec S2x600000 32) (main_arg2 : IVec S50000 32) (main_arg3 : FVec F S128x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_arg13 : FVec F S128x1 .f32) (main_arg14 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_v13 main_v16
-- ==== Kernel.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S50000x1 : Shape := ⟨2, ![50000, 1]⟩
abbrev S5000x128 : Shape := ⟨2, ![5000, 128]⟩
abbrev S600000x128 : Shape := ⟨2, ![600000, 128]⟩
abbrev S1x128 : Shape := ⟨2, ![1, 128]⟩
abbrev S5000x1 : Shape := ⟨2, ![5000, 1]⟩
abbrev S256x128 : Shape := ⟨2, ![256, 128]⟩
abbrev S256 : Shape := ⟨1, ![256]⟩
abbrev S256x1 : Shape := ⟨2, ![256, 1]⟩
abbrev S1x1 : Shape := ⟨2, ![1, 1]⟩

abbrev nBuf : Space → Nat
  | .hbm => 137
  | .vmem => 70
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x128, .f32⟩
  | 12 => ⟨S128, .f32⟩
  | 13 => ⟨S128x1, .f32⟩
  | 14 => ⟨S1, .f32⟩
  | 15 => ⟨S1x600000, .i32⟩
  | 16 => ⟨S600000, .i32⟩
  | 17 => ⟨S1x600000, .i32⟩
  | 18 => ⟨S600000, .i32⟩
  | 19 => ⟨S_, .f32⟩
  | 20 => ⟨S600000, .f32⟩
  | 21 => ⟨S_, .f32⟩
  | 22 => ⟨S50000, .f32⟩
  | 23 => ⟨S600000x1, .i32⟩
  | 24 => ⟨S50000, .f32⟩
  | 25 => ⟨S_, .f32⟩
  | 26 => ⟨S50000, .f32⟩
  | 27 => ⟨S50000, .f32⟩
  | 28 => ⟨S50000, .f32⟩
  | 29 => ⟨S_, .i32⟩
  | 30 => ⟨S600000, .i32⟩
  | 31 => ⟨S600000, .i1⟩
  | 32 => ⟨S_, .i32⟩
  | 33 => ⟨S600000, .i32⟩
  | 34 => ⟨S600000, .i32⟩
  | 35 => ⟨S600000, .i32⟩
  | 36 => ⟨S600000x1, .i32⟩
  | 37 => ⟨S600000, .f32⟩
  | 38 => ⟨S_, .i32⟩
  | 39 => ⟨S600000, .i32⟩
  | 40 => ⟨S600000, .i1⟩
  | 41 => ⟨S_, .i32⟩
  | 42 => ⟨S600000, .i32⟩
  | 43 => ⟨S600000, .i32⟩
  | 44 => ⟨S600000, .i32⟩
  | 45 => ⟨S600000x1, .i32⟩
  | 46 => ⟨S600000, .f32⟩
  | 47 => ⟨S600000, .f32⟩
  | 48 => ⟨S50000, .f32⟩
  | 49 => ⟨S50000x1, .f32⟩
  | 50 => ⟨S50000x128, .f32⟩
  | 51 => ⟨S600000x1, .f32⟩
  | 52 => ⟨S_, .i32⟩
  | 53 => ⟨S600000, .i32⟩
  | 54 => ⟨S600000, .i1⟩
  | 55 => ⟨S_, .i32⟩
  | 56 => ⟨S600000, .i32⟩
  | 57 => ⟨S600000, .i32⟩
  | 58 => ⟨S600000, .i32⟩
  | 59 => ⟨S600000x1, .i32⟩
  | 60 => ⟨S600000x128, .f32⟩
  | 61 => ⟨S600000x128, .f32⟩
  | 62 => ⟨S600000x128, .f32⟩
  | 63 => ⟨S_, .f32⟩
  | 64 => ⟨S50000x128, .f32⟩
  | 65 => ⟨S600000x1, .i32⟩
  | 66 => ⟨S50000x128, .f32⟩
  | 67 => ⟨S1x128, .f32⟩
  | 68 => ⟨S50000x128, .f32⟩
  | 69 => ⟨S1x128, .f32⟩
  | 70 => ⟨S1x128, .f32⟩
  | 71 => ⟨S1x128, .f32⟩
  | 72 => ⟨S1x128, .f32⟩
  | 73 => ⟨S50000x128, .f32⟩
  | 74 => ⟨S50000x128, .f32⟩
  | 75 => ⟨S600000x1, .f32⟩
  | 76 => ⟨S_, .i32⟩
  | 77 => ⟨S600000, .i32⟩
  | 78 => ⟨S600000, .i1⟩
  | 79 => ⟨S_, .i32⟩
  | 80 => ⟨S600000, .i32⟩
  | 81 => ⟨S600000, .i32⟩
  | 82 => ⟨S600000, .i32⟩
  | 83 => ⟨S600000x1, .i32⟩
  | 84 => ⟨S600000x128, .f32⟩
  | 85 => ⟨S600000x128, .f32⟩
  | 86 => ⟨S600000x128, .f32⟩
  | 87 => ⟨S_, .f32⟩
  | 88 => ⟨S50000x128, .f32⟩
  | 89 => ⟨S600000x1, .i32⟩
  | 90 => ⟨S50000x128, .f32⟩
  | 91 => ⟨S1x128, .f32⟩
  | 92 => ⟨S50000x128, .f32⟩
  | 93 => ⟨S1x128, .f32⟩
  | 94 => ⟨S1x128, .f32⟩
  | 95 => ⟨S1x128, .f32⟩
  | 96 => ⟨S1x128, .f32⟩
  | 97 => ⟨S50000x128, .f32⟩
  | 98 => ⟨S50000x128, .f32⟩
  | 99 => ⟨S600000x1, .f32⟩
  | 100 => ⟨S_, .i32⟩
  | 101 => ⟨S600000, .i32⟩
  | 102 => ⟨S600000, .i1⟩
  | 103 => ⟨S_, .i32⟩
  | 104 => ⟨S600000, .i32⟩
  | 105 => ⟨S600000, .i32⟩
  | 106 => ⟨S600000, .i32⟩
  | 107 => ⟨S600000x1, .i32⟩
  | 108 => ⟨S600000x128, .f32⟩
  | 109 => ⟨S600000x128, .f32⟩
  | 110 => ⟨S600000x128, .f32⟩
  | 111 => ⟨S_, .f32⟩
  | 112 => ⟨S50000x128, .f32⟩
  | 113 => ⟨S600000x1, .i32⟩
  | 114 => ⟨S50000x128, .f32⟩
  | 115 => ⟨S1x128, .f32⟩
  | 116 => ⟨S50000x128, .f32⟩
  | 117 => ⟨S_, .f32⟩
  | 118 => ⟨S256x128, .f32⟩
  | 119 => ⟨S50000x1, .i32⟩
  | 120 => ⟨S256x128, .f32⟩
  | 121 => ⟨S_, .f32⟩
  | 122 => ⟨S50000, .f32⟩
  | 123 => ⟨S_, .f32⟩
  | 124 => ⟨S256, .f32⟩
  | 125 => ⟨S50000x1, .i32⟩
  | 126 => ⟨S256, .f32⟩
  | 127 => ⟨S_, .f32⟩
  | _ => ⟨S50000x128, .f32⟩

abbrev hbmTy0_1 (i : Nat) : BufTy := match i % 128 with
  | 0 => ⟨S256, .f32⟩
  | 1 => ⟨S256, .f32⟩
  | 2 => ⟨S256x1, .f32⟩
  | 3 => ⟨S256x128, .f32⟩
  | 4 => ⟨S256x128, .f32⟩
  | 5 => ⟨S256x1, .f32⟩
  | 6 => ⟨S1x1, .f32⟩
  | 7 => ⟨S256x1, .f32⟩
  | 8 => ⟨S256x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x1, .f32⟩
  | .local _ .vmem, ⟨38, _⟩ => ⟨S5000x1, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S1x128, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | .local _ .vmem, ⟨48, _⟩ => ⟨S5000x128, .f32⟩
  | .local _ .vmem, ⟨49, _⟩ => ⟨S5000x128, .f32⟩
  | .local _ .vmem, ⟨50, _⟩ => ⟨S1x128, .f32⟩
  | .local _ .vmem, ⟨51, _⟩ => ⟨S1x128, .f32⟩
  | .local _ .vmem, ⟨52, _⟩ => ⟨S1x128, .f32⟩
  | .local _ .vmem, ⟨53, _⟩ => ⟨S1x128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S128x128, .f32⟩
  | .local _ .vmem, ⟨59, _⟩ => ⟨S5000x128, .f32⟩
  | .local _ .vmem, ⟨60, _⟩ => ⟨S5000x128, .f32⟩
  | .local _ .vmem, ⟨61, _⟩ => ⟨S5000x128, .f32⟩
  | .local _ .vmem, ⟨62, _⟩ => ⟨S5000x128, .f32⟩
  | .local _ .vmem, ⟨63, _⟩ => ⟨S5000x128, .f32⟩
  | .local _ .vmem, ⟨64, _⟩ => ⟨S5000x128, .f32⟩
  | .local _ .vmem, ⟨65, _⟩ => ⟨S5000x1, .f32⟩
  | .local _ .vmem, ⟨66, _⟩ => ⟨S5000x1, .f32⟩
  | .local _ .vmem, ⟨67, _⟩ => ⟨S1x128, .f32⟩
  | .local _ .vmem, ⟨68, _⟩ => ⟨S5000x128, .f32⟩
  | .local _ .vmem, ⟨69, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_c_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_5 : Ref sig .tc := ⟨.hbm, 52, rfl⟩
abbrev main_v30 : Ref sig .tc := ⟨.hbm, 53, rfl⟩
abbrev main_v31 : Ref sig .tc := ⟨.hbm, 54, rfl⟩
abbrev main_c_6 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_7 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44_0 : Ref sig .tc := ⟨.hbm, 69, rfl⟩
abbrev main_v44_1 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_8 : Ref sig .tc := ⟨.hbm, 76, rfl⟩
abbrev main_v50 : Ref sig .tc := ⟨.hbm, 77, rfl⟩
abbrev main_v51 : Ref sig .tc := ⟨.hbm, 78, rfl⟩
abbrev main_c_9 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_10 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64_0 : Ref sig .tc := ⟨.hbm, 93, rfl⟩
abbrev main_v64_1 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_11 : Ref sig .tc := ⟨.hbm, 100, rfl⟩
abbrev main_v70 : Ref sig .tc := ⟨.hbm, 101, rfl⟩
abbrev main_v71 : Ref sig .tc := ⟨.hbm, 102, rfl⟩
abbrev main_c_12 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_13 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_14 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_15 : Ref sig .tc := ⟨.hbm, 121, rfl⟩
abbrev main_v87 : Ref sig .tc := ⟨.hbm, 122, rfl⟩
abbrev main_cst_16 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_cst_17 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_scratch0 : Ref sig .tc := ⟨.vmem, 18, rfl⟩
abbrev cc2_scratch1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg5_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_scratch0 : Ref sig .tc := ⟨.vmem, 46, rfl⟩
abbrev cc6_scratch1 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg2_0 : Ref sig .tc := ⟨.vmem, 51, rfl⟩
abbrev cc7_stg3_0 : Ref sig .tc := ⟨.vmem, 52, rfl⟩
abbrev cc7_stg4_0 : Ref sig .tc := ⟨.vmem, 53, rfl⟩
abbrev cc7_stg5_0 : Ref sig .tc := ⟨.vmem, 54, rfl⟩
abbrev cc7_stg5_1 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg2_0 : Ref sig .tc := ⟨.vmem, 59, rfl⟩
abbrev cc8_stg2_1 : Ref sig .tc := ⟨.vmem, 60, rfl⟩
abbrev cc9_stg0_0 : Ref sig .tc := ⟨.vmem, 61, rfl⟩
abbrev cc9_stg0_1 : Ref sig .tc := ⟨.vmem, 62, rfl⟩
abbrev cc9_stg1_0 : Ref sig .tc := ⟨.vmem, 63, rfl⟩
abbrev cc9_stg1_1 : Ref sig .tc := ⟨.vmem, 64, rfl⟩
abbrev cc9_stg2_0 : Ref sig .tc := ⟨.vmem, 65, rfl⟩
abbrev cc9_stg2_1 : Ref sig .tc := ⟨.vmem, 66, rfl⟩
abbrev cc9_stg3_0 : Ref sig .tc := ⟨.vmem, 67, rfl⟩
abbrev cc9_stg4_0 : Ref sig .tc := ⟨.vmem, 68, rfl⟩
abbrev cc9_stg4_1 : Ref sig .tc := ⟨.vmem, 69, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem5_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem1_1 : DmaSem sig := 34
abbrev cc5_sem2_0 : DmaSem sig := 35
abbrev cc5_sem2_1 : DmaSem sig := 36
abbrev cc5_sem3_0 : DmaSem sig := 37
abbrev cc5_sem4_0 : DmaSem sig := 38
abbrev cc5_sem4_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc7_sem0_0 : DmaSem sig := 44
abbrev cc7_sem0_1 : DmaSem sig := 45
abbrev cc7_sem1_0 : DmaSem sig := 46
abbrev cc7_sem2_0 : DmaSem sig := 47
abbrev cc7_sem3_0 : DmaSem sig := 48
abbrev cc7_sem4_0 : DmaSem sig := 49
abbrev cc7_sem5_0 : DmaSem sig := 50
abbrev cc7_sem5_1 : DmaSem sig := 51
abbrev cc8_sem0_0 : DmaSem sig := 52
abbrev cc8_sem0_1 : DmaSem sig := 53
abbrev cc8_sem1_0 : DmaSem sig := 54
abbrev cc8_sem2_0 : DmaSem sig := 55
abbrev cc8_sem2_1 : DmaSem sig := 56
abbrev cc9_sem0_0 : DmaSem sig := 57
abbrev cc9_sem0_1 : DmaSem sig := 58
abbrev cc9_sem1_0 : DmaSem sig := 59
abbrev cc9_sem1_1 : DmaSem sig := 60
abbrev cc9_sem2_0 : DmaSem sig := 61
abbrev cc9_sem2_1 : DmaSem sig := 62
abbrev cc9_sem3_0 : DmaSem sig := 63
abbrev cc9_sem4_0 : DmaSem sig := 64
abbrev cc9_sem4_1 : DmaSem sig := 65

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_11 : BitVec 32 := 0#32
  let v22 : BitVec 1 := Scalar.cmpi .ne v21 c0_i32_11
  v22

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![10], ![false]⟩

def k6_cond2 (i : grid6.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_11 : BitVec 32 := 0#32
  let v22 : BitVec 1 := Scalar.cmpi .ne v21 c0_i32_11
  v22

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S5000x1 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S5000x128 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S128 : S5000x128.Reduces [0] S128
  bcast_S_S256x128 : S_.BroadcastsInDim S256x128 (![] : Fin 0 → Fin S256x128.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  dot_S5000x128_S128x128_S5000x128_1_0_0_1_n_n_wf : DotDims.WF S5000x128 S128x128 S5000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S256x128_S50000x1_S50000x128_1_0_0_1_wf : ScatterDims.WF S256x128 S50000x1 S50000x128 [1] [0] [0] 1
  scatter_S256_S50000x1_S50000_n_0_0_1_wf : ScatterDims.WF S256 S50000x1 S50000 [] [0] [0] 1
  dot_S256x128_S128x1_S256x1_1_0_0_1_n_n_wf : DotDims.WF S256x128 S128x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S50000x1.size a
  hwx5_2 : ∀ i : grid5.Coords, EltTy.bits .f32 = 32 ∨ (Rect.block (s := S50000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S50000x128.size a
  hwx5_4 : ∀ i : grid5.Coords, EltTy.bits .f32 = 32 ∨ (Rect.block (s := S50000x128) S5000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x128.size a ≤ S50000x128.size a
  hwx7_5 : ∀ i : grid7.Coords, EltTy.bits .f32 = 32 ∨ (Rect.block (s := S50000x128) S5000x128.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .f32 = 32 ∨ (Rect.block (s := S128x128) S128x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x128.size a ≤ S50000x128.size a
  hwx8_2 : ∀ i : grid8.Coords, EltTy.bits .f32 = 32 ∨ (Rect.block (s := S50000x128) S5000x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x128.size a ≤ S50000x128.size a
  hwx9_1 : ∀ i : grid9.Coords, EltTy.bits .f32 = 32 ∨ (Rect.block (s := S50000x128) S5000x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x1.size a ≤ S50000x1.size a
  hwx9_2 : ∀ i : grid9.Coords, EltTy.bits .f32 = 32 ∨ (Rect.block (s := S50000x1) S5000x1.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S5000x128.size a ≤ S50000x128.size a
  hwx9_4 : ∀ i : grid9.Coords, EltTy.bits .f32 = 32 ∨ (Rect.block (s := S50000x128) S5000x128.size (cc9_transform_4 i) (hinb9_4 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44_0) S1x128.size cc2_transform_1 reads2_1 true true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44_1) S1x128.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun i => !(k2_cond2 i == 1#1) | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v43) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44_0) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v44_1) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v45) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v46) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v47) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v47) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v48) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v61) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v48) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v27) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v62) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v63) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v63) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v64_0) S1x128.size cc6_transform_1 reads6_1 true true 1 stage6_1 sem6_1
    hrank6 hreads6_1 hinb6_1 nbuf6_1 (Memref.isWhole_whole _) hwx6_1 hstage6_1

abbrev win6_2 : Pipeline.Window sig grid6 :=
  Pipeline.Window.ofSpec (Memref.whole main_v64_1) S1x128.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev idle6 : Fin 3 → grid6.Coords → Bool := fun | 0 => fun _ => false | 1 => fun i => !(k6_cond2 i == 1#1) | 2 => fun i => !(k6_cond2 i == 1#1) | ⟨_ + 3, h⟩ => absurd h (Nat.not_lt.2 (Nat.le_add_left _ _))

abbrev win7_0 : Pipeline.Window sig grid7 :=
  Pipeline.Window.ofSpec (Memref.whole main_v63) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v64_0) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v64_1) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v65) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v66) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v67) S5000x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v67) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg11) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v68) S5000x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v81) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v68) S5000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v27) S5000x1.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v82) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v83) S5000x128.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩
abbrev S256x128 : Shape := ⟨2, ![256, 128]⟩
abbrev S256 : Shape := ⟨1, ![256]⟩
abbrev S256x1 : Shape := ⟨2, ![256, 1]⟩
abbrev S1x1 : Shape := ⟨2, ![1, 1]⟩

abbrev nBuf : Space → Nat
  | .hbm => 298
  | .vmem => 0
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x128, .f32⟩
  | 12 => ⟨S128, .f32⟩
  | 13 => ⟨S128x1, .f32⟩
  | 14 => ⟨S1, .f32⟩
  | 15 => ⟨S1x600000, .i32⟩
  | 16 => ⟨S600000, .i32⟩
  | 17 => ⟨S1x600000, .i32⟩
  | 18 => ⟨S600000, .i32⟩
  | 19 => ⟨S50000x128, .f32⟩
  | 20 => ⟨S_, .f32⟩
  | 21 => ⟨S600000, .f32⟩
  | 22 => ⟨S_, .f32⟩
  | 23 => ⟨S50000, .f32⟩
  | 24 => ⟨S600000x1, .i32⟩
  | 25 => ⟨S50000, .f32⟩
  | 26 => ⟨S_, .f32⟩
  | 27 => ⟨S50000, .f32⟩
  | 28 => ⟨S50000, .f32⟩
  | 29 => ⟨S50000, .f32⟩
  | 30 => ⟨S_, .i32⟩
  | 31 => ⟨S600000, .i32⟩
  | 32 => ⟨S600000, .i1⟩
  | 33 => ⟨S_, .i32⟩
  | 34 => ⟨S600000, .i32⟩
  | 35 => ⟨S600000, .i32⟩
  | 36 => ⟨S600000, .i32⟩
  | 37 => ⟨S600000x1, .i32⟩
  | 38 => ⟨S600000, .f32⟩
  | 39 => ⟨S_, .i32⟩
  | 40 => ⟨S600000, .i32⟩
  | 41 => ⟨S600000, .i1⟩
  | 42 => ⟨S_, .i32⟩
  | 43 => ⟨S600000, .i32⟩
  | 44 => ⟨S600000, .i32⟩
  | 45 => ⟨S600000, .i32⟩
  | 46 => ⟨S600000x1, .i32⟩
  | 47 => ⟨S600000, .f32⟩
  | 48 => ⟨S600000, .f32⟩
  | 49 => ⟨S600000x1, .f32⟩
  | 50 => ⟨S_, .i32⟩
  | 51 => ⟨S600000, .i32⟩
  | 52 => ⟨S600000, .i1⟩
  | 53 => ⟨S_, .i32⟩
  | 54 => ⟨S600000, .i32⟩
  | 55 => ⟨S600000, .i32⟩
  | 56 => ⟨S600000, .i32⟩
  | 57 => ⟨S600000x1, .i32⟩
  | 58 => ⟨S600000x128, .f32⟩
  | 59 => ⟨S600000x128, .f32⟩
  | 60 => ⟨S600000x128, .f32⟩
  | 61 => ⟨S_, .f32⟩
  | 62 => ⟨S50000x128, .f32⟩
  | 63 => ⟨S600000x1, .i32⟩
  | 64 => ⟨S50000x128, .f32⟩
  | 65 => ⟨S50000, .f32⟩
  | 66 => ⟨S50000x1, .f32⟩
  | 67 => ⟨S50000x128, .f32⟩
  | 68 => ⟨S50000x128, .f32⟩
  | 69 => ⟨S50000x128, .f32⟩
  | 70 => ⟨S1x128, .f32⟩
  | 71 => ⟨S50000x128, .f32⟩
  | 72 => ⟨S50000x128, .f32⟩
  | 73 => ⟨S_, .f32⟩
  | 74 => ⟨S128, .f32⟩
  | 75 => ⟨S_, .f32⟩
  | 76 => ⟨S128, .f32⟩
  | 77 => ⟨S128, .f32⟩
  | 78 => ⟨S_, .i32⟩
  | 79 => ⟨S_, .f32⟩
  | 80 => ⟨S128, .f32⟩
  | 81 => ⟨S1x128, .f32⟩
  | 82 => ⟨S_, .f32⟩
  | 83 => ⟨S1x128, .f32⟩
  | 84 => ⟨S1x128, .f32⟩
  | 85 => ⟨S50000x128, .f32⟩
  | 86 => ⟨S50000x128, .f32⟩
  | 87 => ⟨S50000x128, .f32⟩
  | 88 => ⟨S_, .f32⟩
  | 89 => ⟨S_, .f32⟩
  | 90 => ⟨S_, .f32⟩
  | 91 => ⟨S_, .f32⟩
  | 92 => ⟨S128, .f32⟩
  | 93 => ⟨S128, .f32⟩
  | 94 => ⟨S128, .f32⟩
  | 95 => ⟨S_, .f32⟩
  | 96 => ⟨S_, .i1⟩
  | 97 => ⟨S_, .f32⟩
  | 98 => ⟨S_, .f32⟩
  | 99 => ⟨S128, .f32⟩
  | 100 => ⟨S128, .f32⟩
  | 101 => ⟨S1x128, .f32⟩
  | 102 => ⟨S50000x128, .f32⟩
  | 103 => ⟨S50000x128, .f32⟩
  | 104 => ⟨S1x128, .f32⟩
  | 105 => ⟨S50000x128, .f32⟩
  | 106 => ⟨S50000x128, .f32⟩
  | 107 => ⟨S_, .f32⟩
  | 108 => ⟨S128, .f32⟩
  | 109 => ⟨S128, .f32⟩
  | 110 => ⟨S128, .f32⟩
  | 111 => ⟨S1x128, .f32⟩
  | 112 => ⟨S50000x128, .f32⟩
  | 113 => ⟨S50000x128, .f32⟩
  | 114 => ⟨S1x128, .f32⟩
  | 115 => ⟨S50000x128, .f32⟩
  | 116 => ⟨S50000x128, .f32⟩
  | 117 => ⟨S_, .f32⟩
  | 118 => ⟨S50000x128, .f32⟩
  | 119 => ⟨S50000x128, .f32⟩
  | 120 => ⟨S50000x128, .f32⟩
  | 121 => ⟨S_, .f32⟩
  | 122 => ⟨S600000, .f32⟩
  | 123 => ⟨S_, .f32⟩
  | 124 => ⟨S50000, .f32⟩
  | 125 => ⟨S600000x1, .i32⟩
  | 126 => ⟨S50000, .f32⟩
  | 127 => ⟨S_, .f32⟩
  | _ => ⟨S50000x128, .f32⟩

abbrev hbmTy0_1 (i : Nat) : BufTy := match i % 128 with
  | 0 => ⟨S50000, .f32⟩
  | 1 => ⟨S50000, .f32⟩
  | 2 => ⟨S50000, .f32⟩
  | 3 => ⟨S_, .i32⟩
  | 4 => ⟨S600000, .i32⟩
  | 5 => ⟨S600000, .i1⟩
  | 6 => ⟨S_, .i32⟩
  | 7 => ⟨S600000, .i32⟩
  | 8 => ⟨S600000, .i32⟩
  | 9 => ⟨S600000, .i32⟩
  | 10 => ⟨S600000x1, .i32⟩
  | 11 => ⟨S600000, .f32⟩
  | 12 => ⟨S_, .i32⟩
  | 13 => ⟨S600000, .i32⟩
  | 14 => ⟨S600000, .i1⟩
  | 15 => ⟨S_, .i32⟩
  | 16 => ⟨S600000, .i32⟩
  | 17 => ⟨S600000, .i32⟩
  | 18 => ⟨S600000, .i32⟩
  | 19 => ⟨S600000x1, .i32⟩
  | 20 => ⟨S600000, .f32⟩
  | 21 => ⟨S600000, .f32⟩
  | 22 => ⟨S600000x1, .f32⟩
  | 23 => ⟨S_, .i32⟩
  | 24 => ⟨S600000, .i32⟩
  | 25 => ⟨S600000, .i1⟩
  | 26 => ⟨S_, .i32⟩
  | 27 => ⟨S600000, .i32⟩
  | 28 => ⟨S600000, .i32⟩
  | 29 => ⟨S600000, .i32⟩
  | 30 => ⟨S600000x1, .i32⟩
  | 31 => ⟨S600000x128, .f32⟩
  | 32 => ⟨S600000x128, .f32⟩
  | 33 => ⟨S600000x128, .f32⟩
  | 34 => ⟨S_, .f32⟩
  | 35 => ⟨S50000x128, .f32⟩
  | 36 => ⟨S600000x1, .i32⟩
  | 37 => ⟨S50000x128, .f32⟩
  | 38 => ⟨S50000, .f32⟩
  | 39 => ⟨S50000x1, .f32⟩
  | 40 => ⟨S50000x128, .f32⟩
  | 41 => ⟨S50000x128, .f32⟩
  | 42 => ⟨S50000x128, .f32⟩
  | 43 => ⟨S1x128, .f32⟩
  | 44 => ⟨S50000x128, .f32⟩
  | 45 => ⟨S50000x128, .f32⟩
  | 46 => ⟨S_, .f32⟩
  | 47 => ⟨S128, .f32⟩
  | 48 => ⟨S_, .f32⟩
  | 49 => ⟨S128, .f32⟩
  | 50 => ⟨S128, .f32⟩
  | 51 => ⟨S_, .i32⟩
  | 52 => ⟨S_, .f32⟩
  | 53 => ⟨S128, .f32⟩
  | 54 => ⟨S1x128, .f32⟩
  | 55 => ⟨S_, .f32⟩
  | 56 => ⟨S1x128, .f32⟩
  | 57 => ⟨S1x128, .f32⟩
  | 58 => ⟨S50000x128, .f32⟩
  | 59 => ⟨S50000x128, .f32⟩
  | 60 => ⟨S50000x128, .f32⟩
  | 61 => ⟨S_, .f32⟩
  | 62 => ⟨S_, .f32⟩
  | 63 => ⟨S_, .f32⟩
  | 64 => ⟨S_, .f32⟩
  | 65 => ⟨S128, .f32⟩
  | 66 => ⟨S128, .f32⟩
  | 67 => ⟨S128, .f32⟩
  | 68 => ⟨S_, .f32⟩
  | 69 => ⟨S_, .i1⟩
  | 70 => ⟨S_, .f32⟩
  | 71 => ⟨S_, .f32⟩
  | 72 => ⟨S128, .f32⟩
  | 73 => ⟨S128, .f32⟩
  | 74 => ⟨S1x128, .f32⟩
  | 75 => ⟨S50000x128, .f32⟩
  | 76 => ⟨S50000x128, .f32⟩
  | 77 => ⟨S1x128, .f32⟩
  | 78 => ⟨S50000x128, .f32⟩
  | 79 => ⟨S50000x128, .f32⟩
  | 80 => ⟨S_, .f32⟩
  | 81 => ⟨S128, .f32⟩
  | 82 => ⟨S128, .f32⟩
  | 83 => ⟨S128, .f32⟩
  | 84 => ⟨S1x128, .f32⟩
  | 85 => ⟨S50000x128, .f32⟩
  | 86 => ⟨S50000x128, .f32⟩
  | 87 => ⟨S1x128, .f32⟩
  | 88 => ⟨S50000x128, .f32⟩
  | 89 => ⟨S50000x128, .f32⟩
  | 90 => ⟨S_, .f32⟩
  | 91 => ⟨S50000x128, .f32⟩
  | 92 => ⟨S50000x128, .f32⟩
  | 93 => ⟨S50000x128, .f32⟩
  | 94 => ⟨S_, .f32⟩
  | 95 => ⟨S600000, .f32⟩
  | 96 => ⟨S_, .f32⟩
  | 97 => ⟨S50000, .f32⟩
  | 98 => ⟨S600000x1, .i32⟩
  | 99 => ⟨S50000, .f32⟩
  | 100 => ⟨S_, .f32⟩
  | 101 => ⟨S50000, .f32⟩
  | 102 => ⟨S50000, .f32⟩
  | 103 => ⟨S50000, .f32⟩
  | 104 => ⟨S_, .i32⟩
  | 105 => ⟨S600000, .i32⟩
  | 106 => ⟨S600000, .i1⟩
  | 107 => ⟨S_, .i32⟩
  | 108 => ⟨S600000, .i32⟩
  | 109 => ⟨S600000, .i32⟩
  | 110 => ⟨S600000, .i32⟩
  | 111 => ⟨S600000x1, .i32⟩
  | 112 => ⟨S600000, .f32⟩
  | 113 => ⟨S_, .i32⟩
  | 114 => ⟨S600000, .i32⟩
  | 115 => ⟨S600000, .i1⟩
  | 116 => ⟨S_, .i32⟩
  | 117 => ⟨S600000, .i32⟩
  | 118 => ⟨S600000, .i32⟩
  | 119 => ⟨S600000, .i32⟩
  | 120 => ⟨S600000x1, .i32⟩
  | 121 => ⟨S600000, .f32⟩
  | 122 => ⟨S600000, .f32⟩
  | 123 => ⟨S600000x1, .f32⟩
  | 124 => ⟨S_, .i32⟩
  | 125 => ⟨S600000, .i32⟩
  | 126 => ⟨S600000, .i1⟩
  | 127 => ⟨S_, .i32⟩
  | _ => ⟨S50000x128, .f32⟩

abbrev hbmTy0_2 (i : Nat) : BufTy := match i % 128 with
  | 0 => ⟨S600000, .i32⟩
  | 1 => ⟨S600000, .i32⟩
  | 2 => ⟨S600000, .i32⟩
  | 3 => ⟨S600000x1, .i32⟩
  | 4 => ⟨S600000x128, .f32⟩
  | 5 => ⟨S600000x128, .f32⟩
  | 6 => ⟨S600000x128, .f32⟩
  | 7 => ⟨S_, .f32⟩
  | 8 => ⟨S50000x128, .f32⟩
  | 9 => ⟨S600000x1, .i32⟩
  | 10 => ⟨S50000x128, .f32⟩
  | 11 => ⟨S50000, .f32⟩
  | 12 => ⟨S50000x1, .f32⟩
  | 13 => ⟨S50000x128, .f32⟩
  | 14 => ⟨S50000x128, .f32⟩
  | 15 => ⟨S50000x128, .f32⟩
  | 16 => ⟨S1x128, .f32⟩
  | 17 => ⟨S50000x128, .f32⟩
  | 18 => ⟨S50000x128, .f32⟩
  | 19 => ⟨S_, .f32⟩
  | 20 => ⟨S50000x128, .f32⟩
  | 21 => ⟨S50000x128, .f32⟩
  | 22 => ⟨S_, .f32⟩
  | 23 => ⟨S256x128, .f32⟩
  | 24 => ⟨S50000x1, .i32⟩
  | 25 => ⟨S256x128, .f32⟩
  | 26 => ⟨S_, .f32⟩
  | 27 => ⟨S50000, .f32⟩
  | 28 => ⟨S_, .f32⟩
  | 29 => ⟨S256, .f32⟩
  | 30 => ⟨S50000x1, .i32⟩
  | 31 => ⟨S256, .f32⟩
  | 32 => ⟨S_, .f32⟩
  | 33 => ⟨S256, .f32⟩
  | 34 => ⟨S256, .f32⟩
  | 35 => ⟨S256x1, .f32⟩
  | 36 => ⟨S256x128, .f32⟩
  | 37 => ⟨S256x128, .f32⟩
  | 38 => ⟨S256x1, .f32⟩
  | 39 => ⟨S1x1, .f32⟩
  | 40 => ⟨S256x1, .f32⟩
  | 41 => ⟨S256x1, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_1 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c : Ref sig .tc := ⟨.hbm, 30, rfl⟩
abbrev main_v12 : Ref sig .tc := ⟨.hbm, 31, rfl⟩
abbrev main_v13 : Ref sig .tc := ⟨.hbm, 32, rfl⟩
abbrev main_c_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_3 : Ref sig .tc := ⟨.hbm, 39, rfl⟩
abbrev main_v19 : Ref sig .tc := ⟨.hbm, 40, rfl⟩
abbrev main_v20 : Ref sig .tc := ⟨.hbm, 41, rfl⟩
abbrev main_c_4 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_5 : Ref sig .tc := ⟨.hbm, 50, rfl⟩
abbrev main_v28 : Ref sig .tc := ⟨.hbm, 51, rfl⟩
abbrev main_v29 : Ref sig .tc := ⟨.hbm, 52, rfl⟩
abbrev main_c_6 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_7 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_8 : Ref sig .tc := ⟨.hbm, 73, rfl⟩
abbrev main_v48 : Ref sig .tc := ⟨.hbm, 74, rfl⟩
abbrev main_cst_9 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_call0_cst : Ref sig .tc := ⟨.hbm, 79, rfl⟩
abbrev main_call0_v0 : Ref sig .tc := ⟨.hbm, 80, rfl⟩
abbrev main_call0_v1 : Ref sig .tc := ⟨.hbm, 81, rfl⟩
abbrev main_call0_cst_0 : Ref sig .tc := ⟨.hbm, 82, rfl⟩
abbrev main_call0_v2 : Ref sig .tc := ⟨.hbm, 83, rfl⟩
abbrev main_call0_v3 : Ref sig .tc := ⟨.hbm, 84, rfl⟩
abbrev main_call0_v4 : Ref sig .tc := ⟨.hbm, 85, rfl⟩
abbrev main_call0_v5 : Ref sig .tc := ⟨.hbm, 86, rfl⟩
abbrev main_call0_v6 : Ref sig .tc := ⟨.hbm, 87, rfl⟩
abbrev main_call0_v7 : Ref sig .tc := ⟨.hbm, 88, rfl⟩
abbrev main_call0_cst_1 : Ref sig .tc := ⟨.hbm, 89, rfl⟩
abbrev main_call0_v8 : Ref sig .tc := ⟨.hbm, 90, rfl⟩
abbrev main_call0_cst_2 : Ref sig .tc := ⟨.hbm, 91, rfl⟩
abbrev main_call0_v9 : Ref sig .tc := ⟨.hbm, 92, rfl⟩
abbrev main_call0_v10 : Ref sig .tc := ⟨.hbm, 93, rfl⟩
abbrev main_call0_v11 : Ref sig .tc := ⟨.hbm, 94, rfl⟩
abbrev main_call0_cst_3 : Ref sig .tc := ⟨.hbm, 95, rfl⟩
abbrev main_call0_v12 : Ref sig .tc := ⟨.hbm, 96, rfl⟩
abbrev main_call0_cst_4 : Ref sig .tc := ⟨.hbm, 97, rfl⟩
abbrev main_call0_call0_v0 : Ref sig .tc := ⟨.hbm, 98, rfl⟩
abbrev main_call0_call0_v1 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_cst_11 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_call1_cst : Ref sig .tc := ⟨.hbm, 117, rfl⟩
abbrev main_call1_v0 : Ref sig .tc := ⟨.hbm, 118, rfl⟩
abbrev main_v67 : Ref sig .tc := ⟨.hbm, 119, rfl⟩
abbrev main_v68 : Ref sig .tc := ⟨.hbm, 120, rfl⟩
abbrev main_cst_12 : Ref sig .tc := ⟨.hbm, 121, rfl⟩
abbrev main_v69 : Ref sig .tc := ⟨.hbm, 122, rfl⟩
abbrev main_cst_13 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_cst_14 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_c_15 : Ref sig .tc := ⟨.hbm, 131, rfl⟩
abbrev main_v76 : Ref sig .tc := ⟨.hbm, 132, rfl⟩
abbrev main_v77 : Ref sig .tc := ⟨.hbm, 133, rfl⟩
abbrev main_c_16 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_c_17 : Ref sig .tc := ⟨.hbm, 140, rfl⟩
abbrev main_v83 : Ref sig .tc := ⟨.hbm, 141, rfl⟩
abbrev main_v84 : Ref sig .tc := ⟨.hbm, 142, rfl⟩
abbrev main_c_18 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_c_19 : Ref sig .tc := ⟨.hbm, 151, rfl⟩
abbrev main_v92 : Ref sig .tc := ⟨.hbm, 152, rfl⟩
abbrev main_v93 : Ref sig .tc := ⟨.hbm, 153, rfl⟩
abbrev main_c_20 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_cst_21 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_cst_22 : Ref sig .tc := ⟨.hbm, 174, rfl⟩
abbrev main_v112 : Ref sig .tc := ⟨.hbm, 175, rfl⟩
abbrev main_cst_23 : Ref sig .tc := ⟨.hbm, 176, rfl⟩
abbrev main_v113 : Ref sig .tc := ⟨.hbm, 177, rfl⟩
abbrev main_v114 : Ref sig .tc := ⟨.hbm, 178, rfl⟩
abbrev main_c_24 : Ref sig .tc := ⟨.hbm, 179, rfl⟩
abbrev main_call2_cst : Ref sig .tc := ⟨.hbm, 180, rfl⟩
abbrev main_call2_v0 : Ref sig .tc := ⟨.hbm, 181, rfl⟩
abbrev main_call2_v1 : Ref sig .tc := ⟨.hbm, 182, rfl⟩
abbrev main_call2_cst_0 : Ref sig .tc := ⟨.hbm, 183, rfl⟩
abbrev main_call2_v2 : Ref sig .tc := ⟨.hbm, 184, rfl⟩
abbrev main_call2_v3 : Ref sig .tc := ⟨.hbm, 185, rfl⟩
abbrev main_call2_v4 : Ref sig .tc := ⟨.hbm, 186, rfl⟩
abbrev main_call2_v5 : Ref sig .tc := ⟨.hbm, 187, rfl⟩
abbrev main_call2_v6 : Ref sig .tc := ⟨.hbm, 188, rfl⟩
abbrev main_call2_v7 : Ref sig .tc := ⟨.hbm, 189, rfl⟩
abbrev main_call2_cst_1 : Ref sig .tc := ⟨.hbm, 190, rfl⟩
abbrev main_call2_v8 : Ref sig .tc := ⟨.hbm, 191, rfl⟩
abbrev main_call2_cst_2 : Ref sig .tc := ⟨.hbm, 192, rfl⟩
abbrev main_call2_v9 : Ref sig .tc := ⟨.hbm, 193, rfl⟩
abbrev main_call2_v10 : Ref sig .tc := ⟨.hbm, 194, rfl⟩
abbrev main_call2_v11 : Ref sig .tc := ⟨.hbm, 195, rfl⟩
abbrev main_call2_cst_3 : Ref sig .tc := ⟨.hbm, 196, rfl⟩
abbrev main_call2_v12 : Ref sig .tc := ⟨.hbm, 197, rfl⟩
abbrev main_call2_cst_4 : Ref sig .tc := ⟨.hbm, 198, rfl⟩
abbrev main_call2_call0_v0 : Ref sig .tc := ⟨.hbm, 199, rfl⟩
abbrev main_call2_call0_v1 : Ref sig .tc := ⟨.hbm, 200, rfl⟩
abbrev main_v115 : Ref sig .tc := ⟨.hbm, 201, rfl⟩
abbrev main_v116 : Ref sig .tc := ⟨.hbm, 202, rfl⟩
abbrev main_v117 : Ref sig .tc := ⟨.hbm, 203, rfl⟩
abbrev main_v118 : Ref sig .tc := ⟨.hbm, 204, rfl⟩
abbrev main_v119 : Ref sig .tc := ⟨.hbm, 205, rfl⟩
abbrev main_v120 : Ref sig .tc := ⟨.hbm, 206, rfl⟩
abbrev main_v121 : Ref sig .tc := ⟨.hbm, 207, rfl⟩
abbrev main_cst_25 : Ref sig .tc := ⟨.hbm, 208, rfl⟩
abbrev main_v122 : Ref sig .tc := ⟨.hbm, 209, rfl⟩
abbrev main_v123 : Ref sig .tc := ⟨.hbm, 210, rfl⟩
abbrev main_v124 : Ref sig .tc := ⟨.hbm, 211, rfl⟩
abbrev main_v125 : Ref sig .tc := ⟨.hbm, 212, rfl⟩
abbrev main_v126 : Ref sig .tc := ⟨.hbm, 213, rfl⟩
abbrev main_v127 : Ref sig .tc := ⟨.hbm, 214, rfl⟩
abbrev main_v128 : Ref sig .tc := ⟨.hbm, 215, rfl⟩
abbrev main_v129 : Ref sig .tc := ⟨.hbm, 216, rfl⟩
abbrev main_v130 : Ref sig .tc := ⟨.hbm, 217, rfl⟩
abbrev main_call3_cst : Ref sig .tc := ⟨.hbm, 218, rfl⟩
abbrev main_call3_v0 : Ref sig .tc := ⟨.hbm, 219, rfl⟩
abbrev main_v131 : Ref sig .tc := ⟨.hbm, 220, rfl⟩
abbrev main_v132 : Ref sig .tc := ⟨.hbm, 221, rfl⟩
abbrev main_cst_26 : Ref sig .tc := ⟨.hbm, 222, rfl⟩
abbrev main_v133 : Ref sig .tc := ⟨.hbm, 223, rfl⟩
abbrev main_cst_27 : Ref sig .tc := ⟨.hbm, 224, rfl⟩
abbrev main_v134 : Ref sig .tc := ⟨.hbm, 225, rfl⟩
abbrev main_v135 : Ref sig .tc := ⟨.hbm, 226, rfl⟩
abbrev main_v136 : Ref sig .tc := ⟨.hbm, 227, rfl⟩
abbrev main_cst_28 : Ref sig .tc := ⟨.hbm, 228, rfl⟩
abbrev main_v137 : Ref sig .tc := ⟨.hbm, 229, rfl⟩
abbrev main_v138 : Ref sig .tc := ⟨.hbm, 230, rfl⟩
abbrev main_v139 : Ref sig .tc := ⟨.hbm, 231, rfl⟩
abbrev main_c_29 : Ref sig .tc := ⟨.hbm, 232, rfl⟩
abbrev main_v140 : Ref sig .tc := ⟨.hbm, 233, rfl⟩
abbrev main_v141 : Ref sig .tc := ⟨.hbm, 234, rfl⟩
abbrev main_c_30 : Ref sig .tc := ⟨.hbm, 235, rfl⟩
abbrev main_v142 : Ref sig .tc := ⟨.hbm, 236, rfl⟩
abbrev main_v143 : Ref sig .tc := ⟨.hbm, 237, rfl⟩
abbrev main_v144 : Ref sig .tc := ⟨.hbm, 238, rfl⟩
abbrev main_v145 : Ref sig .tc := ⟨.hbm, 239, rfl⟩
abbrev main_v146 : Ref sig .tc := ⟨.hbm, 240, rfl⟩
abbrev main_c_31 : Ref sig .tc := ⟨.hbm, 241, rfl⟩
abbrev main_v147 : Ref sig .tc := ⟨.hbm, 242, rfl⟩
abbrev main_v148 : Ref sig .tc := ⟨.hbm, 243, rfl⟩
abbrev main_c_32 : Ref sig .tc := ⟨.hbm, 244, rfl⟩
abbrev main_v149 : Ref sig .tc := ⟨.hbm, 245, rfl⟩
abbrev main_v150 : Ref sig .tc := ⟨.hbm, 246, rfl⟩
abbrev main_v151 : Ref sig .tc := ⟨.hbm, 247, rfl⟩
abbrev main_v152 : Ref sig .tc := ⟨.hbm, 248, rfl⟩
abbrev main_v153 : Ref sig .tc := ⟨.hbm, 249, rfl⟩
abbrev main_v154 : Ref sig .tc := ⟨.hbm, 250, rfl⟩
abbrev main_v155 : Ref sig .tc := ⟨.hbm, 251, rfl⟩
abbrev main_c_33 : Ref sig .tc := ⟨.hbm, 252, rfl⟩
abbrev main_v156 : Ref sig .tc := ⟨.hbm, 253, rfl⟩
abbrev main_v157 : Ref sig .tc := ⟨.hbm, 254, rfl⟩
abbrev main_c_34 : Ref sig .tc := ⟨.hbm, 255, rfl⟩
abbrev main_v158 : Ref sig .tc := ⟨.hbm, 256, rfl⟩
abbrev main_v159 : Ref sig .tc := ⟨.hbm, 257, rfl⟩
abbrev main_v160 : Ref sig .tc := ⟨.hbm, 258, rfl⟩
abbrev main_v161 : Ref sig .tc := ⟨.hbm, 259, rfl⟩
abbrev main_v162 : Ref sig .tc := ⟨.hbm, 260, rfl⟩
abbrev main_v163 : Ref sig .tc := ⟨.hbm, 261, rfl⟩
abbrev main_v164 : Ref sig .tc := ⟨.hbm, 262, rfl⟩
abbrev main_cst_35 : Ref sig .tc := ⟨.hbm, 263, rfl⟩
abbrev main_v165 : Ref sig .tc := ⟨.hbm, 264, rfl⟩
abbrev main_v166 : Ref sig .tc := ⟨.hbm, 265, rfl⟩
abbrev main_v167 : Ref sig .tc := ⟨.hbm, 266, rfl⟩
abbrev main_v168 : Ref sig .tc := ⟨.hbm, 267, rfl⟩
abbrev main_v169 : Ref sig .tc := ⟨.hbm, 268, rfl⟩
abbrev main_v170 : Ref sig .tc := ⟨.hbm, 269, rfl⟩
abbrev main_v171 : Ref sig .tc := ⟨.hbm, 270, rfl⟩
abbrev main_v172 : Ref sig .tc := ⟨.hbm, 271, rfl⟩
abbrev main_v173 : Ref sig .tc := ⟨.hbm, 272, rfl⟩
abbrev main_v174 : Ref sig .tc := ⟨.hbm, 273, rfl⟩
abbrev main_v175 : Ref sig .tc := ⟨.hbm, 274, rfl⟩
abbrev main_call4_cst : Ref sig .tc := ⟨.hbm, 275, rfl⟩
abbrev main_call4_v0 : Ref sig .tc := ⟨.hbm, 276, rfl⟩
abbrev main_v176 : Ref sig .tc := ⟨.hbm, 277, rfl⟩
abbrev main_cst_36 : Ref sig .tc := ⟨.hbm, 278, rfl⟩
abbrev main_v177 : Ref sig .tc := ⟨.hbm, 279, rfl⟩
abbrev main_v178 : Ref sig .tc := ⟨.hbm, 280, rfl⟩
abbrev main_v179 : Ref sig .tc := ⟨.hbm, 281, rfl⟩
abbrev main_cst_37 : Ref sig .tc := ⟨.hbm, 282, rfl⟩
abbrev main_v180 : Ref sig .tc := ⟨.hbm, 283, rfl⟩
abbrev main_cst_38 : Ref sig .tc := ⟨.hbm, 284, rfl⟩
abbrev main_v181 : Ref sig .tc := ⟨.hbm, 285, rfl⟩
abbrev main_v182 : Ref sig .tc := ⟨.hbm, 286, rfl⟩
abbrev main_v183 : Ref sig .tc := ⟨.hbm, 287, rfl⟩
abbrev main_cst_39 : Ref sig .tc := ⟨.hbm, 288, rfl⟩
abbrev main_v184 : Ref sig .tc := ⟨.hbm, 289, rfl⟩
abbrev main_v185 : Ref sig .tc := ⟨.hbm, 290, rfl⟩
abbrev main_v186 : Ref sig .tc := ⟨.hbm, 291, rfl⟩
abbrev main_v187 : Ref sig .tc := ⟨.hbm, 292, rfl⟩
abbrev main_v188 : Ref sig .tc := ⟨.hbm, 293, rfl⟩
abbrev main_v189 : Ref sig .tc := ⟨.hbm, 294, rfl⟩
abbrev main_v190 : Ref sig .tc := ⟨.hbm, 295, rfl⟩
abbrev main_v191 : Ref sig .tc := ⟨.hbm, 296, rfl⟩
abbrev main_v192 : Ref sig .tc := ⟨.hbm, 297, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S256x128 : S_.BroadcastsInDim S256x128 (![] : Fin 0 → Fin S256x128.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  dot_S50000x128_S128x128_S50000x128_1_0_0_1_n_n_wf : DotDims.WF S50000x128 S128x128 S50000x128 [1] [0] [0] [1] [] []
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S256x128_S50000x1_S50000x128_1_0_0_1_wf : ScatterDims.WF S256x128 S50000x1 S50000x128 [1] [0] [0] 1
  scatter_S256_S50000x1_S50000_n_0_0_1_wf : ScatterDims.WF S256 S50000x1 S50000 [] [0] [0] 1
  dot_S256x128_S128x1_S256x1_1_0_0_1_n_n_wf : DotDims.WF S256x128 S128x1 S256x1 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

class Facts : Prop extends Facts₀ where

variable [Facts]
-- ==== Proof.K.Reg0.lean ====
import proofs.«171585_j55456617726008_1_alg».proof.Proof.Gen.Kernel.Launch
import proofs.«171585_j55456617726008_1_alg».proof.Proof.Gen.Kernel.Skeleton
import proofs.«171585_j55456617726008_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S5000x128 := Rect.unit (s := S5000x128) ![0, 0] S5000x128.size inb_S5000x128_S5000x128_0_0
abbrev r0_w : Rect S128x128 := Rect.unit (s := S128x128) ![0, 0] S128x128.size inb_S128x128_S128x128_0_0

def out0_2 (x0 : Vec F S5000x128 .f32) (x1 : Vec F S128x128 .f32) : Vec F S5000x128 .f32 :=
  View.canon [⟨r0_x, k0_pay1 (View.ld x0 r0_x) (View.ld x1 r0_w)⟩]

theorem cover0_2 (p0 : Vec F S5000x128 .f32) (y : S5000x128.Idx) :
    ∃ pc ∈ ([⟨r0_x, p0⟩] : List (View.Piece (Elt F) S5000x128 .f32)), y ∈ pc.1.set :=
  View.cover_of_tiled [⟨r0_x, p0⟩] S5000x128.size (by rfl) y

set_option maxHeartbeats 1000000 in

theorem sound_kernel0 (c : Dev nD) (E : Set ℕ) (i : grid0.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  show _ ⊢ wp _ _ _ (cc0__matmul_kernel (grid0.coords t) _ (hstage0_0 _) _ (hstage0_1 _) _ (hstage0_2 _)) _
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
import proofs.«171585_j55456617726008_1_alg».proof.Proof.Gen.Kernel.Launch
import proofs.«171585_j55456617726008_1_alg».proof.Proof.Gen.Kernel.Skeleton
import proofs.«171585_j55456617726008_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S5000x128 := Rect.unit (s := S5000x128) ![0, 0] S5000x128.size inb_S5000x128_S5000x128_0_0

abbrev r1_1 : Rect S5000x1 := Rect.unit (s := S5000x1) ![0, 0] S5000x1.size inb_S5000x1_S5000x1_0_0

abbrev r1_2 : Rect S1x128 := Rect.unit (s := S1x128) ![0, 0] S1x128.size inb_S1x128_S1x128_0_0

def out1_4 (xa : Vec F S5000x128 .f32) (xh : Vec F S5000x128 .f32) (xd : Vec F S5000x1 .f32) (xb : Vec F S1x128 .f32) : Vec F S5000x128 .f32 :=
  View.canon [⟨r1_0, k1_pay1 (View.ld xa r1_0) (View.ld xd r1_1) (View.ld xh r1_0) (View.ld xb r1_2)⟩]

theorem cover1_4 (p : Vec F S5000x128 .f32) (y : S5000x128.Idx) :
    ∃ pc ∈ ([⟨r1_0, p⟩] : List (View.Piece (Elt F) S5000x128 .f32)), y ∈ pc.1.set :=
  View.cover_of_tiled [⟨r1_0, p⟩] S5000x128.size (by rfl) y

set_option maxHeartbeats 1000000 in

theorem sound_kernel1 (c : Dev nD) (E : Set ℕ) (i : grid1.Coords)
    (ma : Memref sig .tc .vmem S5000x128 .f32) (hma : ma.IsWhole) (mh : Memref sig .tc .vmem S5000x128 .f32) (hmh : mh.IsWhole)
    (md : Memref sig .tc .vmem S5000x1 .f32) (hmd : md.IsWhole) (mb : Memref sig .tc .vmem S1x128 .f32) (hmb : mb.IsWhole)
    (mo : Memref sig .tc .vmem S5000x128 .f32) (hmo : mo.IsWhole)
    (xa : Vec F S5000x128 .f32) (xh : Vec F S5000x128 .f32) (xd : Vec F S5000x1 .f32) (xb : Vec F S1x128 .f32) (K : PUnit → sProp 𝕄) :
    iprop(owns (c : Thread nD τ) ma fullShare xa ∗ owns (c : Thread nD τ) mh fullShare xh ∗ owns (c : Thread nD τ) md fullShare xd
        ∗ owns (c : Thread nD τ) mb fullShare xb ∗ (∃ d, owns (c : Thread nD τ) mo fullShare d)
        ∗ (iprop(owns (c : Thread nD τ) ma fullShare xa ∗ owns (c : Thread nD τ) mh fullShare xh ∗ owns (c : Thread nD τ) md fullShare xd
            ∗ owns (c : Thread nD τ) mb fullShare xb ∗ owns (c : Thread nD τ) mo fullShare (out1_4 xa xh xd xb)) -∗ K ⟨⟩))
      ⊢ wp frame (wpE (defs₀ (F := F)) Variants.none c none) E (cc1__combine_kernel i ma hma mh hmh md hmd mb hmb mo hmo) K := by
  simp only [cc1__combine_kernel_eq_skeleton]; unfold cc1__combine_kernel_skel
  unfold owns
  iintro ⟨⟨%fa, %hfa, Ha⟩, ⟨%fh, %hfh, Hh⟩, ⟨%fd, %hfd, Hd⟩, ⟨%fb, %hfb, Hb⟩, ⟨%dd, %fo, -, Ho⟩, Hk⟩
  subst hfa; subst hfh; subst hfd; subst hfb
  sl_exec
  sl_step
  iapply Hk
  isplitl [Ha]
  · iexists fa; isplitr; · ipureintro; rfl
    iexact Ha
  isplitl [Hh]
  · iexists fh; isplitr; · ipureintro; rfl
    iexact Hh
  isplitl [Hd]
  · iexists fd; isplitr; · ipureintro; rfl
    iexact Hd
  isplitl [Hb]
  · iexists fb; isplitr; · ipureintro; rfl
    iexact Hb
  iexists _; isplitr
  swap; · iexact Ho
  ipureintro
  exact View.read_writes_eq_canon _ _ _ (cover1_4 _)

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  show _ ⊢ wp _ _ _ (cc1__combine_kernel (grid1.coords t) _ (hstage1_0 _) _ (hstage1_1 _) _ (hstage1_2 _) _ (hstage1_3 _) _ (hstage1_4 _)) _
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Hw, ⟨%da, Ha⟩, ⟨%dh, Hh⟩, ⟨%dd, Hd⟩, ⟨%db, Hb⟩, ⟨%dz, Ho⟩⟩
  iapply (sound_kernel1 c Set.univ (grid1.coords t) _ _ _ _ _ _ _ _ _ _
    (iblk1 V c 0 t) (iblk1 V c 1 t) (iblk1 V c 2 t) (iblk1 V c 3 t) _)
  isplitl [Ha]; · iexact Ha
  isplitl [Hh]; · iexact Hh
  isplitl [Hd]; · iexact Hd
  isplitl [Hb]; · iexact Hb
  isplitl [Ho]; · iexists _; iexact Ho
  iintro ⟨Ha, Hh, Hd, Hb, Ho⟩
  isplitl [HΦ]; · iexact HΦ
  isplitl [Hw]; · iexact Hw
  isplitl [Ha]; · iexact Ha
  isplitl [Hh]; · iexact Hh
  isplitl [Hd]; · iexact Hd
  isplitl [Hb]; · iexact Hb
  iexact Ho

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.LibWhole.lean ====
import Idealize.ShloMosaic.Lib.Pipeline.FrameBody
import Idealize.ShloMosaic.Lib.Pipeline.FrameSuffix
import Idealize.ShloMosaic.Lib.Tactic

namespace Cert.Whole

open Idealize.ShloMosaic Idealize.ShloMosaic.TcCoe Idealize.ShloMosaic.Tactic
open Idealize.SL Idealize.SL.RA Idealize.SL.BI

variable {sig' : RefSig} {κ : Kind} {sp : Space} {s : Shape} {e : EltTy} {Val : EltTy → Type}

theorem idx_whole (off : Fin s.rank → ℕ) (inb : ∀ a, off a + s.size a ≤ s.size a) (h0 : ∀ a, off a = 0)
    (j : s.Idx) : (Rect.unit (s := s) off s.size inb).idx j = j :=
  funext fun a => Fin.ext (by rw [LoadRect.idx_apply]; simp [h0 a])

theorem ld_whole (off : Fin s.rank → ℕ) (inb : ∀ a, off a + s.size a ≤ s.size a) (h0 : ∀ a, off a = 0)
    (X : s.Idx → Val e) : View.ld X (Rect.unit (s := s) off s.size inb) = X :=
  funext fun j => congrArg X (idx_whole off inb h0 j)

theorem mem_whole (off : Fin s.rank → ℕ) (inb : ∀ a, off a + s.size a ≤ s.size a) (h0 : ∀ a, off a = 0)
    (y : s.Idx) : y ∈ (Rect.unit (s := s) off s.size inb).set :=
  Rect.mem_set_unit.mpr fun a => ⟨by rw [h0 a]; exact Nat.zero_le _, by rw [h0 a, Nat.zero_add]; exact (y a).isLt⟩

theorem read_writes_whole (v : View sig' κ sp s e) (f : v.ty.Contents Val)
    (off : Fin s.rank → ℕ) (inb : ∀ a, off a + s.size a ≤ s.size a) (h0 : ∀ a, off a = 0)
    (p : s.Idx → Val e) (L : List (View.Piece Val s e)) :
    v.read Val (v.writes Val f (⟨Rect.unit (s := s) off s.size inb, p⟩ :: L)) = p :=
  funext fun x => by
    have h := View.read_writes_cons_emb (v := v) (f := f) (Rect.unit (s := s) off s.size inb) p L x
    rwa [show (Rect.unit (s := s) off s.size inb).emb x = x from idx_whole off inb h0 x] at h

theorem readCov_whole [∀ e, Nonempty (Val e)] (v : View sig' κ sp s e)
    (off : Fin s.rank → ℕ) (inb : ∀ a, off a + s.size a ≤ s.size a) (h0 : ∀ a, off a = 0)
    (p : s.Idx → Val e) (L : List (View.Piece Val s e)) :
    v.readCov (⟨Rect.unit (s := s) off s.size inb, p⟩ :: L) (Rect.unit (s := s) off s.size inb).toLoadRect = p := by
  rw [View.readCov_eq_canon_ld v _ (Rect.unit (s := s) off s.size inb)
    (fun y => ⟨_, List.mem_cons_self, mem_whole off inb h0 y⟩)]
  rw [ld_whole off inb h0]
  funext x
  have h := View.canon_cons_emb (Rect.unit (s := s) off s.size inb) p L x
  rwa [show (Rect.unit (s := s) off s.size inb).emb x = x from idx_whole off inb h0 x] at h

theorem readAt_whole_unread {m : Memref sig' κ sp s e} (h : m.IsWhole)
    (off : Fin s.rank → ℕ) (inb : ∀ a, off a + s.size a ≤ s.size a) (h0 : ∀ a, off a = 0) (X : s.Idx → Val e) :
    View.readAt Val m.view (Rect.unit (s := s) off s.size inb).toLoadRect (h.unread X) = X :=
  funext fun x => (congrFun (h.read_unread X) _).trans (congrArg X (idx_whole off inb h0 x))

end Cert.Whole
-- ==== Proof.K.Reg2.lean ====
import proofs.«171585_j55456617726008_1_alg».proof.Proof.Gen.Kernel.Launch
import proofs.«171585_j55456617726008_1_alg».proof.Proof.Gen.Kernel.Skeleton
import proofs.«171585_j55456617726008_1_alg».proof.Proof.Gen.Kernel.Points
import proofs.«171585_j55456617726008_1_alg».proof.Proof.LibWhole
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

theorem off0_S1x128 : ∀ a : Fin S1x128.rank, (![0, 0] : Fin S1x128.rank → ℕ) a = 0 := by decide
theorem off0_S5000x128 : ∀ a : Fin S5000x128.rank, (![0, 0] : Fin S5000x128.rank → ℕ) a = 0 := by decide

abbrev cond2_0 (i : grid2.Coords) : Prop :=
  (Scalar.cmpi .ne (Scalar.extui (Scalar.cmpi .eq (BitVec.ofNat 32 (i 0).val) 0#32)) 0#32) = 1#1

abbrev cond2_1 (i : grid2.Coords) : Prop := k2_cond2 i = 1#1

theorem hcond2_0 : ∀ t : Fin cfg2.N, cond2_0 (grid2.coords t) ↔ t.val = 0 :=
  (by decide +kernel : ∀ t : Fin grid2.N, cond2_0 (grid2.coords t) ↔ t.val = 0)
theorem hcond2_1 : ∀ t : Fin cfg2.N, cond2_1 (grid2.coords t) ↔ t.val = 9 :=
  (by decide +kernel : ∀ t : Fin grid2.N, cond2_1 (grid2.coords t) ↔ t.val = 9)

set_option maxHeartbeats 1000000 in

theorem run2_A (c : Dev nD) (E : Set ℕ) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole)
    (hc0 : cond2_0 i) (hc1 : ¬cond2_1 i)
    (x0 : Vec F S5000x128 .f32) (xi1 xi2 : Vec F S1x128 .f32) (K : PUnit → sProp 𝕄) :
    iprop(owns (c : Thread nD τ) arg1 fullShare x0 ∗ owns (c : Thread nD τ) arg2 fullShare xi1 ∗ owns (c : Thread nD τ) arg3 fullShare xi2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare xi1 ∗ owns (c : Thread nD τ) arg3 fullShare xi2
            ∗ owns (c : Thread nD τ) arg4 fullShare (k2_pay4 x0 k2_pay1) ∗ owns (c : Thread nD τ) arg5 fullShare (k2_pay5 x0 k2_pay2)) -∗ K ⟨⟩))
      ⊢ wp frame (wpE (defs₀ (F := F)) Variants.none c none) E (cc2__bn_stats_kernel i arg1 harg1 arg2 harg2 arg3 harg3 arg4 harg4 arg5 harg5) K := by
  simp only [cc2__bn_stats_kernel_eq_skeleton]; unfold cc2__bn_stats_kernel_skel
  unfold owns
  iintro ⟨⟨%f0, %hf0, H0⟩, ⟨%f1, %hf1, H1⟩, ⟨%f2, %hf2, H2⟩, ⟨%ds0, %fs0, -, HS0⟩, ⟨%ds1, %fs1, -, HS1⟩, Hk⟩
  obtain rfl := harg1.eq_unread hf0; obtain rfl := harg2.eq_unread hf1; obtain rfl := harg3.eq_unread hf2
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [HS0]
  · iexists _; isplitr
    swap; · iexact HS0
    ipureintro
    refine (read_writes_whole _ _ _ _ off0_S1x128 _ _).trans ?_
    rw [readAt_whole_unread harg1 _ _ off0_S5000x128]
    exact congrArg (k2_pay4 x0) (readCov_whole _ _ _ off0_S1x128 _ _)
  iexists _; isplitr
  swap; · iexact HS1
  ipureintro
  refine (read_writes_whole _ _ _ _ off0_S1x128 _ _).trans ?_
  rw [readAt_whole_unread harg1 _ _ off0_S5000x128]
  exact congrArg (k2_pay5 x0) (readCov_whole _ _ _ off0_S1x128 _ _)

set_option maxHeartbeats 1000000 in

theorem run2_B (c : Dev nD) (E : Set ℕ) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole)
    (hc0 : ¬cond2_0 i) (hc1 : ¬cond2_1 i)
    (x0 : Vec F S5000x128 .f32) (xi1 xi2 xs0 xs1 : Vec F S1x128 .f32) (K : PUnit → sProp 𝕄) :
    iprop(owns (c : Thread nD τ) arg1 fullShare x0 ∗ owns (c : Thread nD τ) arg2 fullShare xi1 ∗ owns (c : Thread nD τ) arg3 fullShare xi2
        ∗ owns (c : Thread nD τ) arg4 fullShare xs0 ∗ owns (c : Thread nD τ) arg5 fullShare xs1
        ∗ (iprop(owns (c : Thread nD τ) arg1 fullShare x0 ∗ owns (c : Thread nD τ) arg2 fullShare xi1 ∗ owns (c : Thread nD τ) arg3 fullShare xi2
            ∗ owns (c : Thread nD τ) arg4 fullShare (k2_pay4 x0 xs0) ∗ owns (c : Thread nD τ) arg5 fullShare (k2_pay5 x0 xs1)) -∗ K ⟨⟩))
      ⊢ wp frame (wpE (defs₀ (F := F)) Variants.none c none) E (cc2__bn_stats_kernel i arg1 harg1 arg2 harg2 arg3 harg3 arg4 harg4 arg5 harg5) K := by
  simp only [cc2__bn_stats_kernel_eq_skeleton]; unfold cc2__bn_stats_kernel_skel
  unfold owns
  iintro ⟨⟨%f0, %hf0, H0⟩, ⟨%f1, %hf1, H1⟩, ⟨%f2, %hf2, H2⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hfs0; obtain rfl := harg5.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [HS0]
  · iexists _; isplitr
    swap; · iexact HS0
    ipureintro
    refine (read_writes_whole _ _ _ _ off0_S1x128 _ _).trans ?_
    rw [readAt_whole_unread harg1 _ _ off0_S5000x128, readAt_whole_unread harg4 _ _ off0_S1x128]
  iexists _; isplitr
  swap; · iexact HS1
  ipureintro
  refine (read_writes_whole _ _ _ _ off0_S1x128 _ _).trans ?_
  rw [readAt_whole_unread harg1 _ _ off0_S5000x128, readAt_whole_unread harg5 _ _ off0_S1x128]

set_option maxHeartbeats 1000000 in

theorem run2_C (c : Dev nD) (E : Set ℕ) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole)
    (hc0 : ¬cond2_0 i) (hc1 : cond2_1 i)
    (x0 : Vec F S5000x128 .f32) (xs0 xs1 : Vec F S1x128 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare xs0 ∗ owns (c : Thread nD τ) arg5 fullShare xs1
        ∗ (iprop(owns (c : Thread nD τ) arg1 fullShare x0
            ∗ owns (c : Thread nD τ) arg2 fullShare (k2_pay6 (k2_pay4 x0 xs0))
            ∗ owns (c : Thread nD τ) arg3 fullShare (k2_pay7 (k2_pay4 x0 xs0) (k2_pay5 x0 xs1))
            ∗ owns (c : Thread nD τ) arg4 fullShare (k2_pay4 x0 xs0) ∗ owns (c : Thread nD τ) arg5 fullShare (k2_pay5 x0 xs1)) -∗ K ⟨⟩))
      ⊢ wp frame (wpE (defs₀ (F := F)) Variants.none c none) E (cc2__bn_stats_kernel i arg1 harg1 arg2 harg2 arg3 harg3 arg4 harg4 arg5 harg5) K := by
  simp only [cc2__bn_stats_kernel_eq_skeleton]; unfold cc2__bn_stats_kernel_skel
  unfold owns
  iintro ⟨⟨%f0, %hf0, H0⟩, ⟨%d1, %f1, -, H1⟩, ⟨%d2, %f2, -, H2⟩, ⟨%fs0, %hfs0, HS0⟩, ⟨%fs1, %hfs1, HS1⟩, Hk⟩
  obtain rfl := harg1.eq_unread hf0
  obtain rfl := harg4.eq_unread hfs0; obtain rfl := harg5.eq_unread hfs1
  sl_exec (disch := first | exact hc0 | exact hc1)
  sl_step
  have hv0 : k2_pay4 (View.readAt (Elt F) arg1.view (Rect.unit (s := S5000x128) ![0, 0] S5000x128.size inb_S5000x128_S5000x128_0_0).toLoadRect (harg1.unread x0))
      (View.readAt (Elt F) arg4.view (Rect.unit (s := S1x128) ![0, 0] S1x128.size inb_S1x128_S1x128_0_0).toLoadRect (harg4.unread xs0)) = k2_pay4 x0 xs0 := by
    rw [readAt_whole_unread harg1 _ _ off0_S5000x128, readAt_whole_unread harg4 _ _ off0_S1x128]
  have hv1 : k2_pay5 (View.readAt (Elt F) arg1.view (Rect.unit (s := S5000x128) ![0, 0] S5000x128.size inb_S5000x128_S5000x128_0_0).toLoadRect (harg1.unread x0))
      (View.readAt (Elt F) arg5.view (Rect.unit (s := S1x128) ![0, 0] S1x128.size inb_S1x128_S1x128_0_0).toLoadRect (harg5.unread xs1)) = k2_pay5 x0 xs1 := by
    rw [readAt_whole_unread harg1 _ _ off0_S5000x128, readAt_whole_unread harg5 _ _ off0_S1x128]
  iapply Hk
  isplitl [H0]
  · iexists _; isplitr; · ipureintro; exact harg1.read_unread _
    iexact H0
  isplitl [H1]
  · iexists _; isplitr
    swap; · iexact H1
    ipureintro
    refine (read_writes_whole _ _ _ _ off0_S1x128 _ _).trans ?_
    exact congrArg k2_pay6 ((readCov_whole _ _ _ off0_S1x128 _ _).trans hv0)
  isplitl [H2]
  · iexists _; isplitr
    swap; · iexact H2
    ipureintro
    refine (read_writes_whole _ _ _ _ off0_S1x128 _ _).trans ?_
    exact congrArg₂ k2_pay7 ((readCov_whole _ _ _ off0_S1x128 _ _).trans hv0) ((readCov_whole _ _ _ off0_S1x128 _ _).trans hv1)
  isplitl [HS0]
  · iexists _; isplitr
    swap; · iexact HS0
    ipureintro
    exact (read_writes_whole _ _ _ _ off0_S1x128 _ _).trans hv0
  iexists _; isplitr
  swap; · iexact HS1
  ipureintro
  exact (read_writes_whole _ _ _ _ off0_S1x128 _ _).trans hv1

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def scAt2 (c : Dev nD) : ℕ → Vec F S1x128 .f32 × Vec F S1x128 .f32
  | 0 => (k2_pay1, k2_pay2)
  | n + 1 =>
    if h : n < cfg2.N then
      (k2_pay4 (iblk2 V c 0 ⟨n, h⟩) (scAt2 c n).1, k2_pay5 (iblk2 V c 0 ⟨n, h⟩) (scAt2 c n).2)
    else scAt2 c n

theorem scAt2_zero (c : Dev nD) : scAt2 V c 0 = (k2_pay1, k2_pay2) := rfl

theorem scAt2_succ (c : Dev nD) (t : Fin cfg2.N) :
    scAt2 V c (t.val + 1) = (k2_pay4 (iblk2 V c 0 t) (scAt2 V c t.val).1, k2_pay5 (iblk2 V c 0 t) (scAt2 V c t.val).2) :=
  dif_pos t.isLt

def Phi2_at (c : Dev nD) (n : ℕ) : sProp 𝕄 :=
  iprop((∃ d0 d1, ⌜n ≠ 0 → d0 = (scAt2 V c n).1 ∧ d1 = (scAt2 V c n).2⌝
        ∗ owns (c : Thread nD τ) (Memref.whole cc2_scratch0 : Memref sig .tc .vmem S1x128 .f32) fullShare d0
        ∗ owns (c : Thread nD τ) (Memref.whole cc2_scratch1 : Memref sig .tc .vmem S1x128 .f32) fullShare d1)
    ∗ Pipeline.scopedRestBut (Ix := Unit) (Name := ℕ) (U := Pipeline.UD sig nD τ) (Lvl := ℕ) (Val := Elt F) spec2 c [cc2_scratch0, cc2_scratch1]
    ∗ (∃ r, prngReg c r))

def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => k2_pay6 (scAt2 V c (t.val + 1)).1
    | ⟨2, _⟩ => k2_pay7 (scAt2 V c (t.val + 1)).1 (scAt2 V c (t.val + 1)).2
  Φ j := Phi2_at V c j.val
  q _ := fullShare
  owed _ := 0

theorem A_eq2 (c : Dev nD) (w : Fin cfg2.W) : (dat2 V c).A w = V c (Pipeline.arrRef spec2 w) := by
  dsimp only [dat2]

theorem dat2_after_0 (c : Dev nD) (t : Fin cfg2.N) : (dat2 V c).after 0 t = iblk2 V c 0 t := by dsimp only [dat2]
theorem dat2_after_1 (c : Dev nD) (t : Fin cfg2.N) : (dat2 V c).after 1 t = k2_pay6 (scAt2 V c (t.val + 1)).1 := by dsimp only [dat2]
theorem dat2_after_2 (c : Dev nD) (t : Fin cfg2.N) :
    (dat2 V c).after 2 t = k2_pay7 (scAt2 V c (t.val + 1)).1 (scAt2 V c (t.val + 1)).2 := by dsimp only [dat2]

theorem dat2_before_0 (c : Dev nD) (t : Fin cfg2.N) (d) : (dat2 V c).before 0 t d = iblk2 V c 0 t :=
  ((dat2 V c).before_in_eq_fetched 0 rfl (fun _ => rfl) (fun _ _ _ => rfl)
      (fun t => by rw [dat2_after_0]; unfold Dat.blockOf iblk2; rw [A_eq2]; try rfl) t d).trans
    (by unfold Dat.fetched Dat.blockOf iblk2; rw [A_eq2]; try rfl)

private theorem live2_0 : ∀ t : Fin cfg2.N, cfg2.idle 0 (grid2.coords t) = false := fun _ => rfl

private theorem idle2_1 : ∀ t : Fin cfg2.N, t.val ≠ 9 → cfg2.idle 1 (grid2.coords t) = true :=
  (by decide +kernel : ∀ t : Fin grid2.N, t.val ≠ 9 → idle2 1 (grid2.coords t) = true)
private theorem idle2_2 : ∀ t : Fin cfg2.N, t.val ≠ 9 → cfg2.idle 2 (grid2.coords t) = true :=
  (by decide +kernel : ∀ t : Fin grid2.N, t.val ≠ 9 → idle2 2 (grid2.coords t) = true)

private theorem live2_1 : ∀ t : Fin cfg2.N, t.val = 9 → cfg2.idle 1 (grid2.coords t) = false :=
  (by decide +kernel : ∀ t : Fin grid2.N, t.val = 9 → idle2 1 (grid2.coords t) = false)
private theorem live2_2 : ∀ t : Fin cfg2.N, t.val = 9 → cfg2.idle 2 (grid2.coords t) = false :=
  (by decide +kernel : ∀ t : Fin grid2.N, t.val = 9 → idle2 2 (grid2.coords t) = false)

private theorem noflush2_1 (t : Fin cfg2.N) (h : t.val ≠ 9) : (cfg2.win 1).flush t = false :=
  Bool.eq_false_iff.mpr fun hf => by
    have h1 := (flush2_1 t).mp hf
    have hN : t.val < 10 := lt_of_lt_of_eq t.isLt (show cfg2.N = 10 from N_2)
    omega
private theorem noflush2_2 (t : Fin cfg2.N) (h : t.val ≠ 9) : (cfg2.win 2).flush t = false :=
  Bool.eq_false_iff.mpr fun hf => by
    have h1 := (flush2_2 t).mp hf
    have hN : t.val < 10 := lt_of_lt_of_eq t.isLt (show cfg2.N = 10 from N_2)
    omega

private abbrev ms2_0 (t : Fin cfg2.N) : Memref sig .tc .vmem S5000x128 .f32 := win2_0.stage (cfg2.slots t 0)
private abbrev ms2_1 (t : Fin cfg2.N) : Memref sig .tc .vmem S1x128 .f32 := win2_1.stage (cfg2.slots t 1)
private abbrev ms2_2 (t : Fin cfg2.N) : Memref sig .tc .vmem S1x128 .f32 := win2_2.stage (cfg2.slots t 2)

private def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

private def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t)

set_option maxHeartbeats 1000000 in

private theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  show _ ⊢ wp _ _ _ (cc2__bn_stats_kernel (grid2.coords t) _ (hstage2_0 _) _ (hstage2_1 _) _ (hstage2_2 _) _ (Memref.isWhole_whole _) _ (Memref.isWhole_whole _)) _
  simp only [dat2_before_0]
  rw [show (dat2 V c).owesAt () t.succ = (dat2 V c).owesAt () t.castSucc from rfl,
    show (dat2 V c).Φ t.succ = Phi2_at V c (t.val + 1) from rfl,
    show (dat2 V c).Φ t.castSucc = Phi2_at V c t.val from rfl,
    show (dat2 V c).leavesExact 0 t = owns (c : Thread nD τ) (ms2_0 t) fullShare ((dat2 V c).after 0 t) from by
      unfold Dat.leavesExact; rw [live2_0 t],
    dat2_after_0]
  have hN : t.val < 10 := lt_of_lt_of_eq t.isLt (show cfg2.N = 10 from N_2)
  unfold Phi2_at
  rw [scAt2_succ V c t]
  by_cases h9 : t.val = 9
  ·
    have hc0 : ¬cond2_0 (grid2.coords t) := fun h => by have := (hcond2_0 t).mp h; omega
    have hc1 : cond2_1 (grid2.coords t) := (hcond2_1 t).mpr h9
    rw [show (dat2 V c).leavesExact 1 t = owns (c : Thread nD τ) (ms2_1 t) fullShare ((dat2 V c).after 1 t) from by
        unfold Dat.leavesExact; rw [live2_1 t h9],
      show (dat2 V c).leavesExact 2 t = owns (c : Thread nD τ) (ms2_2 t) fullShare ((dat2 V c).after 2 t) from by
        unfold Dat.leavesExact; rw [live2_2 t h9],
      dat2_after_1, dat2_after_2, scAt2_succ V c t]
    iintro ⟨⟨⟨%d0, %d1, %hd, HS0, HS1⟩, HR, Hg⟩, Ho, ⟨%e0, H0⟩, ⟨%e1, H1⟩, ⟨%e2, H2⟩⟩
    obtain ⟨rfl, rfl⟩ := hd (by omega)
    iapply (run2_C c Set.univ (grid2.coords t) _ _ _ _ _ _ _ _ _ _ hc0 hc1 (iblk2 V c 0 t) _ _ _)
    isplitl [H0]; · iexact H0
    isplitl [H1]; · iexists _; iexact H1
    isplitl [H2]; · iexists _; iexact H2
    isplitl [HS0]; · iexact HS0
    isplitl [HS1]; · iexact HS1
    iintro ⟨H0, H1, H2, HS0, HS1⟩
    isplitl [HS0 HS1 HR Hg]
    · isplitl [HS0 HS1]
      · iexists _, _; isplitr; · ipureintro; exact fun _ => ⟨rfl, rfl⟩
        isplitl [HS0]; · iexact HS0
        iexact HS1
      isplitl [HR]; · iexact HR
      iexact Hg
    isplitl [Ho]; · iexact Ho
    isplitl [H0]; · iexact H0
    isplitl [H1]; · iexact H1
    iexact H2
  · have hc1 : ¬cond2_1 (grid2.coords t) := fun h => h9 ((hcond2_1 t).mp h)
    rw [Dat.leavesExact_idle (dat2 V c) 1 t (idle2_1 t h9) (noflush2_1 t h9),
      Dat.leavesExact_idle (dat2 V c) 2 t (idle2_2 t h9) (noflush2_2 t h9)]
    by_cases h0 : t.val = 0
    ·
      have hc0 : cond2_0 (grid2.coords t) := (hcond2_0 t).mpr h0
      rw [h0, scAt2_zero]
      iintro ⟨⟨⟨%d0, %d1, -, HS0, HS1⟩, HR, Hg⟩, Ho, ⟨%e0, H0⟩, ⟨%e1, H1⟩, ⟨%e2, H2⟩⟩
      iapply (run2_A c Set.univ (grid2.coords t) _ _ _ _ _ _ _ _ _ _ hc0 hc1 (iblk2 V c 0 t) _ _ _)
      isplitl [H0]; · iexact H0
      isplitl [H1]; · iexact H1
      isplitl [H2]; · iexact H2
      isplitl [HS0]; · iexists _; iexact HS0
      isplitl [HS1]; · iexists _; iexact HS1
      iintro ⟨H0, H1, H2, HS0, HS1⟩
      isplitl [HS0 HS1 HR Hg]
      · isplitl [HS0 HS1]
        · iexists _, _; isplitr; · ipureintro; exact fun _ => ⟨rfl, rfl⟩
          isplitl [HS0]; · iexact HS0
          iexact HS1
        isplitl [HR]; · iexact HR
        iexact Hg
      isplitl [Ho]; · iexact Ho
      isplitl [H0]; · iexact H0
      isplitl [H1]; · iexists _; iexact H1
      iexists _; iexact H2
    ·
      have hc0 : ¬cond2_0 (grid2.coords t) := fun h => h0 ((hcond2_0 t).mp h)
      iintro ⟨⟨⟨%d0, %d1, %hd, HS0, HS1⟩, HR, Hg⟩, Ho, ⟨%e0, H0⟩, ⟨%e1, H1⟩, ⟨%e2, H2⟩⟩
      obtain ⟨rfl, rfl⟩ := hd h0
      iapply (run2_B c Set.univ (grid2.coords t) _ _ _ _ _ _ _ _ _ _ hc0 hc1 (iblk2 V c 0 t) _ _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0 HS1]
        · iexists _, _; isplitr; · ipureintro; exact fun _ => ⟨rfl, rfl⟩
          isplitl [HS0]; · iexact HS0
          iexact HS1
        isplitl [HR]; · iexact HR
        iexact Hg
      isplitl [Ho]; · iexact Ho
      isplitl [H0]; · iexact H0
      isplitl [H1]; · iexists _; iexact H1
      iexists _; iexact H2

theorem body_obligation2 (c : Dev nD) : BodyObligation (dat2 (F := F) V c) (defs₀ (F := F)) Variants.none () Set.univ := fun t => by
  rw [bigSep_W2, bigSep_W2]
  exact sound_body2 V c t

theorem Phi2_in (c : Dev nD) : (iprop((∃ r, prngReg c r) ∗ Pipeline.scopedRest (Ix := Unit) (Name := ℕ) (U := Pipeline.UD sig nD τ) (Lvl := ℕ) (Val := Elt F) spec2 c) : sProp 𝕄) ⊢ (dat2 V c).Φ 0 := by
  rw [show (dat2 V c).Φ 0 = Phi2_at V c 0 from rfl, scopedRest2_split]; unfold Phi2_at
  simp only [owns_whole]
  iintro ⟨Hg, ⟨⟨%f0, HS0⟩, ⟨%f1, HS1⟩⟩, HR⟩
  isplitl [HS0 HS1]
  · iexists f0, f1; isplitr; · ipureintro; exact fun h => absurd rfl h
    isplitl [HS0]; · iexact HS0
    iexact HS1
  isplitl [HR]; · iexact HR
  iexact Hg

theorem Phi2_out (c : Dev nD) : (dat2 V c).Φ (Fin.last cfg2.N) ⊢ (iprop((∃ r, prngReg c r) ∗ Pipeline.scopedRest (Ix := Unit) (Name := ℕ) (U := Pipeline.UD sig nD τ) (Lvl := ℕ) (Val := Elt F) spec2 c) : sProp 𝕄) := by
  rw [show (dat2 V c).Φ (Fin.last cfg2.N) = Phi2_at V c (Fin.last cfg2.N).val from rfl, scopedRest2_split]; unfold Phi2_at
  simp only [owns_whole]
  iintro ⟨⟨%d0, %d1, -, HS0, HS1⟩, HR, Hg⟩
  isplitl [Hg]; · iexact Hg
  isplitl [HS0 HS1]
  · isplitl [HS0]; · iexists d0; iexact HS0
    iexists d1; iexact HS1
  iexact HR

end Cert.Kernel.Hand

end
-- ==== Proof.K.Reg3.lean ====
import proofs.«171585_j55456617726008_1_alg».proof.Proof.Gen.Kernel.Launch
import proofs.«171585_j55456617726008_1_alg».proof.Proof.Gen.Kernel.Skeleton
import proofs.«171585_j55456617726008_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S5000x128 := Rect.unit (s := S5000x128) ![0, 0] S5000x128.size inb_S5000x128_S5000x128_0_0

abbrev r3_1 : Rect S1x128 := Rect.unit (s := S1x128) ![0, 0] S1x128.size inb_S1x128_S1x128_0_0

def out3_5 (x0 : Vec F S5000x128 .f32) (x1 : Vec F S1x128 .f32) (x2 : Vec F S1x128 .f32) (x3 : Vec F S1x128 .f32) (x4 : Vec F S1x128 .f32) : Vec F S5000x128 .f32 :=
  View.canon [⟨r3_0, k3_pay1 (View.ld x0 r3_0) (View.ld x1 r3_1) (View.ld x2 r3_1) (View.ld x3 r3_1) (View.ld x4 r3_1)⟩]

theorem cover3_5 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

set_option maxHeartbeats 1000000 in

theorem sound_kernel3 (c : Dev nD) (E : Set ℕ) (i : grid3.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__bn_relu_kernel i arg1 harg1 arg2 harg2 arg3 harg3 arg4 harg4 arg5 harg5 arg6 harg6) K := by
  simp only [cc3__bn_relu_kernel_eq_skeleton]; unfold cc3__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl
theorem before3_3 (c : Dev nD) (t : Fin cfg3.N) (d) : (dat3 V c).before 3 t d = iblk3 V c 3 t :=
  ((dat3 V c).before_in_eq_fetched 3 rfl (fun _ => rfl) (fun _ _ _ => rfl) (fun _ => rfl) t d).trans rfl
theorem before3_4 (c : Dev nD) (t : Fin cfg3.N) (d) : (dat3 V c).before 4 t d = iblk3 V c 4 t :=
  ((dat3 V c).before_in_eq_fetched 4 rfl (fun _ => rfl) (fun _ _ _ => rfl) (fun _ => rfl) t d).trans rfl

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  show _ ⊢ wp _ _ _ (cc3__bn_relu_kernel (grid3.coords t) _ (hstage3_0 _) _ (hstage3_1 _) _ (hstage3_2 _) _ (hstage3_3 _) _ (hstage3_4 _) _ (hstage3_5 _)) _
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _
    (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Reg4.lean ====
import proofs.«171585_j55456617726008_1_alg».proof.Proof.Gen.Kernel.Launch
import proofs.«171585_j55456617726008_1_alg».proof.Proof.Gen.Kernel.Skeleton
import proofs.«171585_j55456617726008_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_x : Rect S5000x128 := Rect.unit (s := S5000x128) ![0, 0] S5000x128.size inb_S5000x128_S5000x128_0_0
abbrev r4_w : Rect S128x128 := Rect.unit (s := S128x128) ![0, 0] S128x128.size inb_S128x128_S128x128_0_0

def out4_2 (x0 : Vec F S5000x128 .f32) (x1 : Vec F S128x128 .f32) : Vec F S5000x128 .f32 :=
  View.canon [⟨r4_x, k4_pay1 (View.ld x0 r4_x) (View.ld x1 r4_w)⟩]

theorem cover4_2 (p0 : Vec F S5000x128 .f32) (y : S5000x128.Idx) :
    ∃ pc ∈ ([⟨r4_x, p0⟩] : List (View.Piece (Elt F) S5000x128 .f32)), y ∈ pc.1.set :=
  View.cover_of_tiled [⟨r4_x, p0⟩] S5000x128.size (by rfl) y

set_option maxHeartbeats 1000000 in

theorem sound_kernel4 (c : Dev nD) (E : Set ℕ) (i : grid4.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__matmul_kernel i arg1 harg1 arg2 harg2 arg3 harg3) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  show _ ⊢ wp _ _ _ (cc4__matmul_kernel (grid4.coords t) _ (hstage4_0 _) _ (hstage4_1 _) _ (hstage4_2 _)) _
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ (grid4.coords t) _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Reg5.lean ====
import proofs.«171585_j55456617726008_1_alg».proof.Proof.Gen.Kernel.Launch
import proofs.«171585_j55456617726008_1_alg».proof.Proof.Gen.Kernel.Skeleton
import proofs.«171585_j55456617726008_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«171585_j55456617726008_1_alg».proof.Proof.K.Reg1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def dat5 (c : Dev nD) : Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out1_4 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) :
    (dat5 V c).after 4 t = out1_4 (iblk5 V c 0 t) (iblk5 V c 1 t) (iblk5 V c 2 t) (iblk5 V c 3 t) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl
theorem before5_2 (c : Dev nD) (t : Fin cfg5.N) (d) : (dat5 V c).before 2 t d = iblk5 V c 2 t :=
  ((dat5 V c).before_in_eq_fetched 2 rfl (fun _ => rfl) (fun _ _ _ => rfl) (fun _ => rfl) t d).trans rfl
theorem before5_3 (c : Dev nD) (t : Fin cfg5.N) (d) : (dat5 V c).before 3 t d = iblk5 V c 3 t :=
  ((dat5 V c).before_in_eq_fetched 3 rfl (fun _ => rfl) (fun _ _ _ => rfl) (fun _ => rfl) t d).trans rfl

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  show _ ⊢ wp _ _ _ (cc1__combine_kernel (grid5.coords t) _ (hstage5_0 _) _ (hstage5_1 _) _ (hstage5_2 _) _ (hstage5_3 _) _ (hstage5_4 _)) _
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Hw, ⟨%da, Ha⟩, ⟨%dh, Hh⟩, ⟨%dd, Hd⟩, ⟨%db, Hb⟩, ⟨%dz, Ho⟩⟩
  iapply (sound_kernel1 c Set.univ (grid5.coords t) _ _ _ _ _ _ _ _ _ _
    (iblk5 V c 0 t) (iblk5 V c 1 t) (iblk5 V c 2 t) (iblk5 V c 3 t) _)
  isplitl [Ha]; · iexact Ha
  isplitl [Hh]; · iexact Hh
  isplitl [Hd]; · iexact Hd
  isplitl [Hb]; · iexact Hb
  isplitl [Ho]; · iexists _; iexact Ho
  iintro ⟨Ha, Hh, Hd, Hb, Ho⟩
  isplitl [HΦ]; · iexact HΦ
  isplitl [Hw]; · iexact Hw
  isplitl [Ha]; · iexact Ha
  isplitl [Hh]; · iexact Hh
  isplitl [Hd]; · iexact Hd
  isplitl [Hb]; · iexact Hb
  iexact Ho

theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.Reg6.lean ====
import proofs.«171585_j55456617726008_1_alg».proof.Proof.Gen.Kernel.Launch
import proofs.«171585_j55456617726008_1_alg».proof.Proof.Gen.Kernel.Skeleton
import proofs.«171585_j55456617726008_1_alg».proof.Proof.Gen.Kernel.Points
import proofs.«171585_j55456617726008_1_alg».proof.Proof.LibWhole
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«171585_j55456617726008_1_alg».proof.Proof.K.Reg2

set_option maxRecDepth 16384

noncomputable section

namespace Cert.Kernel.Hand

open Cert.Kernel Cert.Kernel.Gen Cert.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def scAt6 (c : Dev nD) : ℕ → Vec F S1x128 .f32 × Vec F S1x128 .f32
  | 0 => (k2_pay1, k2_pay2)
  | n + 1 =>
    if h : n < cfg6.N then
      (k2_pay4 (iblk6 V c 0 ⟨n, h⟩) (scAt6 c n).1, k2_pay5 (iblk6 V c 0 ⟨n, h⟩) (scAt6 c n).2)
    else scAt6 c n

theorem scAt6_zero (c : Dev nD) : scAt6 V c 0 = (k2_pay1, k2_pay2) := rfl

theorem scAt6_succ (c : Dev nD) (t : Fin cfg6.N) :
    scAt6 V c (t.val + 1) = (k2_pay4 (iblk6 V c 0 t) (scAt6 V c t.val).1, k2_pay5 (iblk6 V c 0 t) (scAt6 V c t.val).2) :=
  dif_pos t.isLt

def Phi6_at (c : Dev nD) (n : ℕ) : sProp 𝕄 :=
  iprop((∃ d0 d1, ⌜n ≠ 0 → d0 = (scAt6 V c n).1 ∧ d1 = (scAt6 V c n).2⌝
        ∗ owns (c : Thread nD τ) (Memref.whole cc6_scratch0 : Memref sig .tc .vmem S1x128 .f32) fullShare d0
        ∗ owns (c : Thread nD τ) (Memref.whole cc6_scratch1 : Memref sig .tc .vmem S1x128 .f32) fullShare d1)
    ∗ Pipeline.scopedRestBut (Ix := Unit) (Name := ℕ) (U := Pipeline.UD sig nD τ) (Lvl := ℕ) (Val := Elt F) spec6 c [cc6_scratch0, cc6_scratch1]
    ∗ (∃ r, prngReg c r))

def dat6 (c : Dev nD) : Dat τ (Elt F) Unit ℕ (Pipeline.UD sig nD τ) ℕ cfg6 c where
  A w := V c (Pipeline.arrRef spec6 w)
  after w t := match w with
    | ⟨0, _⟩ => iblk6 V c 0 t
    | ⟨1, _⟩ => k2_pay6 (scAt6 V c (t.val + 1)).1
    | ⟨2, _⟩ => k2_pay7 (scAt6 V c (t.val + 1)).1 (scAt6 V c (t.val + 1)).2
  Φ j := Phi6_at V c j.val
  q _ := fullShare
  owed _ := 0

theorem A_eq6 (c : Dev nD) (w : Fin cfg6.W) : (dat6 V c).A w = V c (Pipeline.arrRef spec6 w) := by
  dsimp only [dat6]

theorem dat6_after_0 (c : Dev nD) (t : Fin cfg6.N) : (dat6 V c).after 0 t = iblk6 V c 0 t := by dsimp only [dat6]
theorem dat6_after_1 (c : Dev nD) (t : Fin cfg6.N) : (dat6 V c).after 1 t = k2_pay6 (scAt6 V c (t.val + 1)).1 := by dsimp only [dat6]
theorem dat6_after_2 (c : Dev nD) (t : Fin cfg6.N) :
    (dat6 V c).after 2 t = k2_pay7 (scAt6 V c (t.val + 1)).1 (scAt6 V c (t.val + 1)).2 := by dsimp only [dat6]

theorem dat6_before_0 (c : Dev nD) (t : Fin cfg6.N) (d) : (dat6 V c).before 0 t d = iblk6 V c 0 t :=
  ((dat6 V c).before_in_eq_fetched 0 rfl (fun _ => rfl) (fun _ _ _ => rfl)
      (fun t => by rw [dat6_after_0]; unfold Dat.blockOf iblk6; rw [A_eq6]; try rfl) t d).trans
    (by unfold Dat.fetched Dat.blockOf iblk6; rw [A_eq6]; try rfl)

private theorem live6_0 : ∀ t : Fin cfg6.N, cfg6.idle 0 (grid6.coords t) = false := fun _ => rfl

private theorem idle6_1 : ∀ t : Fin cfg6.N, t.val ≠ 9 → cfg6.idle 1 (grid6.coords t) = true :=
  (by decide +kernel : ∀ t : Fin grid6.N, t.val ≠ 9 → idle6 1 (grid6.coords t) = true)
private theorem idle6_2 : ∀ t : Fin cfg6.N, t.val ≠ 9 → cfg6.idle 2 (grid6.coords t) = true :=
  (by decide +kernel : ∀ t : Fin grid6.N, t.val ≠ 9 → idle6 2 (grid6.coords t) = true)

private theorem live6_1 : ∀ t : Fin cfg6.N, t.val = 9 → cfg6.idle 1 (grid6.coords t) = false :=
  (by decide +kernel : ∀ t : Fin grid6.N, t.val = 9 → idle6 1 (grid6.coords t) = false)
private theorem live6_2 : ∀ t : Fin cfg6.N, t.val = 9 → cfg6.idle 2 (grid6.coords t) = false :=
  (by decide +kernel : ∀ t : Fin grid6.N, t.val = 9 → idle6 2 (grid6.coords t) = false)

private theorem noflush6_1 (t : Fin cfg6.N) (h : t.val ≠ 9) : (cfg6.win 1).flush t = false :=
  Bool.eq_false_iff.mpr fun hf => by
    have h1 := (flush6_1 t).mp hf
    have hN : t.val < 10 := lt_of_lt_of_eq t.isLt (show cfg6.N = 10 from N_6)
    omega
private theorem noflush6_2 (t : Fin cfg6.N) (h : t.val ≠ 9) : (cfg6.win 2).flush t = false :=
  Bool.eq_false_iff.mpr fun hf => by
    have h1 := (flush6_2 t).mp hf
    have hN : t.val < 10 := lt_of_lt_of_eq t.isLt (show cfg6.N = 10 from N_6)
    omega

private abbrev ms6_0 (t : Fin cfg6.N) : Memref sig .tc .vmem S5000x128 .f32 := win6_0.stage (cfg6.slots t 0)
private abbrev ms6_1 (t : Fin cfg6.N) : Memref sig .tc .vmem S1x128 .f32 := win6_1.stage (cfg6.slots t 1)
private abbrev ms6_2 (t : Fin cfg6.N) : Memref sig .tc .vmem S1x128 .f32 := win6_2.stage (cfg6.slots t 2)

private def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d)))

private def bodyPost6 (c : Dev nD) (t : Fin cfg6.N) : sProp 𝕄 :=
  iprop((dat6 V c).Φ t.succ ∗ (dat6 V c).owesAt () t.succ
    ∗ (dat6 V c).leavesExact 0 t ∗ (dat6 V c).leavesExact 1 t ∗ (dat6 V c).leavesExact 2 t)

set_option maxHeartbeats 1000000 in

private theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  show _ ⊢ wp _ _ _ (cc2__bn_stats_kernel (grid6.coords t) _ (hstage6_0 _) _ (hstage6_1 _) _ (hstage6_2 _) _ (Memref.isWhole_whole _) _ (Memref.isWhole_whole _)) _
  simp only [dat6_before_0]
  rw [show (dat6 V c).owesAt () t.succ = (dat6 V c).owesAt () t.castSucc from rfl,
    show (dat6 V c).Φ t.succ = Phi6_at V c (t.val + 1) from rfl,
    show (dat6 V c).Φ t.castSucc = Phi6_at V c t.val from rfl,
    show (dat6 V c).leavesExact 0 t = owns (c : Thread nD τ) (ms6_0 t) fullShare ((dat6 V c).after 0 t) from by
      unfold Dat.leavesExact; rw [live6_0 t],
    dat6_after_0]
  have hN : t.val < 10 := lt_of_lt_of_eq t.isLt (show cfg6.N = 10 from N_6)
  unfold Phi6_at
  rw [scAt6_succ V c t]
  by_cases h9 : t.val = 9
  ·
    have hc0 : ¬cond2_0 (grid6.coords t) := fun h => by have := (hcond2_0 t).mp h; omega
    have hc1 : cond2_1 (grid6.coords t) := (hcond2_1 t).mpr h9
    rw [show (dat6 V c).leavesExact 1 t = owns (c : Thread nD τ) (ms6_1 t) fullShare ((dat6 V c).after 1 t) from by
        unfold Dat.leavesExact; rw [live6_1 t h9],
      show (dat6 V c).leavesExact 2 t = owns (c : Thread nD τ) (ms6_2 t) fullShare ((dat6 V c).after 2 t) from by
        unfold Dat.leavesExact; rw [live6_2 t h9],
      dat6_after_1, dat6_after_2, scAt6_succ V c t]
    iintro ⟨⟨⟨%d0, %d1, %hd, HS0, HS1⟩, HR, Hg⟩, Ho, ⟨%e0, H0⟩, ⟨%e1, H1⟩, ⟨%e2, H2⟩⟩
    obtain ⟨rfl, rfl⟩ := hd (by omega)
    iapply (run2_C c Set.univ (grid6.coords t) _ _ _ _ _ _ _ _ _ _ hc0 hc1 (iblk6 V c 0 t) _ _ _)
    isplitl [H0]; · iexact H0
    isplitl [H1]; · iexists _; iexact H1
    isplitl [H2]; · iexists _; iexact H2
    isplitl [HS0]; · iexact HS0
    isplitl [HS1]; · iexact HS1
    iintro ⟨H0, H1, H2, HS0, HS1⟩
    isplitl [HS0 HS1 HR Hg]
    · isplitl [HS0 HS1]
      · iexists _, _; isplitr; · ipureintro; exact fun _ => ⟨rfl, rfl⟩
        isplitl [HS0]; · iexact HS0
        iexact HS1
      isplitl [HR]; · iexact HR
      iexact Hg
    isplitl [Ho]; · iexact Ho
    isplitl [H0]; · iexact H0
    isplitl [H1]; · iexact H1
    iexact H2
  · have hc1 : ¬cond2_1 (grid6.coords t) := fun h => h9 ((hcond2_1 t).mp h)
    rw [Dat.leavesExact_idle (dat6 V c) 1 t (idle6_1 t h9) (noflush6_1 t h9),
      Dat.leavesExact_idle (dat6 V c) 2 t (idle6_2 t h9) (noflush6_2 t h9)]
    by_cases h0 : t.val = 0
    ·
      have hc0 : cond2_0 (grid6.coords t) := (hcond2_0 t).mpr h0
      rw [h0, scAt6_zero]
      iintro ⟨⟨⟨%d0, %d1, -, HS0, HS1⟩, HR, Hg⟩, Ho, ⟨%e0, H0⟩, ⟨%e1, H1⟩, ⟨%e2, H2⟩⟩
      iapply (run2_A c Set.univ (grid6.coords t) _ _ _ _ _ _ _ _ _ _ hc0 hc1 (iblk6 V c 0 t) _ _ _)
      isplitl [H0]; · iexact H0
      isplitl [H1]; · iexact H1
      isplitl [H2]; · iexact H2
      isplitl [HS0]; · iexists _; iexact HS0
      isplitl [HS1]; · iexists _; iexact HS1
      iintro ⟨H0, H1, H2, HS0, HS1⟩
      isplitl [HS0 HS1 HR Hg]
      · isplitl [HS0 HS1]
        · iexists _, _; isplitr; · ipureintro; exact fun _ => ⟨rfl, rfl⟩
          isplitl [HS0]; · iexact HS0
          iexact HS1
        isplitl [HR]; · iexact HR
        iexact Hg
      isplitl [Ho]; · iexact Ho
      isplitl [H0]; · iexact H0
      isplitl [H1]; · iexists _; iexact H1
      iexists _; iexact H2
    ·
      have hc0 : ¬cond2_0 (grid6.coords t) := fun h => h0 ((hcond2_0 t).mp h)
      iintro ⟨⟨⟨%d0, %d1, %hd, HS0, HS1⟩, HR, Hg⟩, Ho, ⟨%e0, H0⟩, ⟨%e1, H1⟩, ⟨%e2, H2⟩⟩
      obtain ⟨rfl, rfl⟩ := hd h0
      iapply (run2_B c Set.univ (grid6.coords t) _ _ _ _ _ _ _ _ _ _ hc0 hc1 (iblk6 V c 0 t) _ _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0 HS1]
        · iexists _, _; isplitr; · ipureintro; exact fun _ => ⟨rfl, rfl⟩
          isplitl [HS0]; · iexact HS0
          iexact HS1
        isplitl [HR]; · iexact HR
        iexact Hg
      isplitl [Ho]; · iexact Ho
      isplitl [H0]; · iexact H0
      isplitl [H1]; · iexists _; iexact H1
      iexists _; iexact H2

theorem body_obligation6 (c : Dev nD) : BodyObligation (dat6 (F := F) V c) (defs₀ (F := F)) Variants.none () Set.univ := fun t => by
  rw [bigSep_W6, bigSep_W6]
  exact sound_body6 V c t

theorem Phi6_in (c : Dev nD) : (iprop((∃ r, prngReg c r) ∗ Pipeline.scopedRest (Ix := Unit) (Name := ℕ) (U := Pipeline.UD sig nD τ) (Lvl := ℕ) (Val := Elt F) spec6 c) : sProp 𝕄) ⊢ (dat6 V c).Φ 0 := by
  rw [show (dat6 V c).Φ 0 = Phi6_at V c 0 from rfl, scopedRest6_split]; unfold Phi6_at
  simp only [owns_whole]
  iintro ⟨Hg, ⟨⟨%f0, HS0⟩, ⟨%f1, HS1⟩⟩, HR⟩
  isplitl [HS0 HS1]
  · iexists f0, f1; isplitr; · ipureintro; exact fun h => absurd rfl h
    isplitl [HS0]; · iexact HS0
    iexact HS1
  isplitl [HR]; · iexact HR
  iexact Hg

theorem Phi6_out (c : Dev nD) : (dat6 V c).Φ (Fin.last cfg6.N) ⊢ (iprop((∃ r, prngReg c r) ∗ Pipeline.scopedRest (Ix := Unit) (Name := ℕ) (U := Pipeline.UD sig nD τ) (Lvl := ℕ) (Val := Elt F) spec6 c) : sProp 𝕄) := by
  rw [show (dat6 V c).Φ (Fin.last cfg6.N) = Phi6_at V c (Fin.last cfg6.N).val from rfl, scopedRest6_split]; unfold Phi6_at
  simp only [owns_whole]
  iintro ⟨⟨%d0, %d1, -, HS0, HS1⟩, HR, Hg⟩
  isplitl [Hg]; · iexact Hg
  isplitl [HS0 HS1]
  · isplitl [HS0]; · iexists d0; iexact HS0
    iexists d1; iexact HS1
  iexact HR

end Cert.Kernel.Hand

end
-- ==== Proof.K.Reg7.lean ====
import proofs.«171585_j55456617726008_1_alg».proof.Proof.Gen.Kernel.Launch
import proofs.«171585_j55456617726008_1_alg».proof.Proof.Gen.Kernel.Skeleton
import proofs.«171585_j55456617726008_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«171585_j55456617726008_1_alg».proof.Proof.K.Reg3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def dat7 (c : Dev nD) : Dat τ (Elt F) Unit ℕ (Pipeline.UD sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out3_5 (iblk7 V c 0 t) (iblk7 V c 1 t) (iblk7 V c 2 t) (iblk7 V c 3 t) (iblk7 V c 4 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) :
    (dat7 V c).after 5 t = out3_5 (iblk7 V c 0 t) (iblk7 V c 1 t) (iblk7 V c 2 t) (iblk7 V c 3 t) (iblk7 V c 4 t) := by dsimp only [dat7]

theorem before7_0 (c : Dev nD) (t : Fin cfg7.N) (d) : (dat7 V c).before 0 t d = iblk7 V c 0 t :=
  ((dat7 V c).before_in_eq_fetched 0 rfl (fun _ => rfl) (fun _ _ _ => rfl) (fun _ => rfl) t d).trans rfl
theorem before7_1 (c : Dev nD) (t : Fin cfg7.N) (d) : (dat7 V c).before 1 t d = iblk7 V c 1 t :=
  ((dat7 V c).before_in_eq_fetched 1 rfl (fun _ => rfl) (fun _ _ _ => rfl) (fun _ => rfl) t d).trans rfl
theorem before7_2 (c : Dev nD) (t : Fin cfg7.N) (d) : (dat7 V c).before 2 t d = iblk7 V c 2 t :=
  ((dat7 V c).before_in_eq_fetched 2 rfl (fun _ => rfl) (fun _ _ _ => rfl) (fun _ => rfl) t d).trans rfl
theorem before7_3 (c : Dev nD) (t : Fin cfg7.N) (d) : (dat7 V c).before 3 t d = iblk7 V c 3 t :=
  ((dat7 V c).before_in_eq_fetched 3 rfl (fun _ => rfl) (fun _ _ _ => rfl) (fun _ => rfl) t d).trans rfl
theorem before7_4 (c : Dev nD) (t : Fin cfg7.N) (d) : (dat7 V c).before 4 t d = iblk7 V c 4 t :=
  ((dat7 V c).before_in_eq_fetched 4 rfl (fun _ => rfl) (fun _ _ _ => rfl) (fun _ => rfl) t d).trans rfl

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  show _ ⊢ wp _ _ _ (cc3__bn_relu_kernel (grid7.coords t) _ (hstage7_0 _) _ (hstage7_1 _) _ (hstage7_2 _) _ (hstage7_3 _) _ (hstage7_4 _) _ (hstage7_5 _)) _
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid7.coords t) _ _ _ _ _ _ _ _ _ _ _ _
    (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.K.Reg8.lean ====
import proofs.«171585_j55456617726008_1_alg».proof.Proof.Gen.Kernel.Launch
import proofs.«171585_j55456617726008_1_alg».proof.Proof.Gen.Kernel.Skeleton
import proofs.«171585_j55456617726008_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«171585_j55456617726008_1_alg».proof.Proof.K.Reg4

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

def dat8 (c : Dev nD) : Dat τ (Elt F) Unit ℕ (Pipeline.UD sig nD τ) ℕ cfg8 c where
  A w := V c (Pipeline.arrRef spec8 w)
  after w t := match w with
    | ⟨0, _⟩ => iblk8 V c 0 t
    | ⟨1, _⟩ => iblk8 V c 1 t
    | ⟨2, _⟩ => out4_2 (iblk8 V c 0 t) (iblk8 V c 1 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = out4_2 (iblk8 V c 0 t) (iblk8 V c 1 t) := by dsimp only [dat8]

theorem before8_0 (c : Dev nD) (t : Fin cfg8.N) (d) : (dat8 V c).before 0 t d = iblk8 V c 0 t :=
  ((dat8 V c).before_in_eq_fetched 0 rfl (fun _ => rfl) (fun _ _ _ => rfl) (fun _ => rfl) t d).trans rfl
theorem before8_1 (c : Dev nD) (t : Fin cfg8.N) (d) : (dat8 V c).before 1 t d = iblk8 V c 1 t :=
  ((dat8 V c).before_in_eq_fetched 1 rfl (fun _ => rfl) (fun _ _ _ => rfl) (fun _ => rfl) t d).trans rfl

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  show _ ⊢ wp _ _ _ (cc4__matmul_kernel (grid8.coords t) _ (hstage8_0 _) _ (hstage8_1 _) _ (hstage8_2 _)) _
  simp only [before8_0, before8_1]
  rw [show (dat8 V c).Φ t.succ = (dat8 V c).Φ t.castSucc from rfl,
    show (dat8 V c).owesAt () t.succ = (dat8 V c).owesAt () t.castSucc from rfl,
    after8_0, after8_1, after8_2]
  iintro ⟨HΦ, Ho, ⟨%d0, H0⟩, ⟨%d1, H1⟩, ⟨%d2, H2⟩⟩
  iapply (sound_kernel4 c Set.univ (grid8.coords t) _ _ _ _ _ _ (iblk8 V c 0 t) (iblk8 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.K.Reg9.lean ====
import proofs.«171585_j55456617726008_1_alg».proof.Proof.Gen.Kernel.Launch
import proofs.«171585_j55456617726008_1_alg».proof.Proof.Gen.Kernel.Skeleton
import proofs.«171585_j55456617726008_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev r9_0 : Rect S5000x128 := Rect.unit (s := S5000x128) ![0, 0] S5000x128.size inb_S5000x128_S5000x128_0_0

abbrev r9_1 : Rect S5000x1 := Rect.unit (s := S5000x1) ![0, 0] S5000x1.size inb_S5000x1_S5000x1_0_0

abbrev r9_2 : Rect S1x128 := Rect.unit (s := S1x128) ![0, 0] S1x128.size inb_S1x128_S1x128_0_0

def out9_4 (xa : Vec F S5000x128 .f32) (xh : Vec F S5000x128 .f32) (xd : Vec F S5000x1 .f32) (xb : Vec F S1x128 .f32) : Vec F S5000x128 .f32 :=
  View.canon [⟨r9_0, k9_pay1 (View.ld xa r9_0) (View.ld xd r9_1) (View.ld xh r9_0) (View.ld xb r9_2)⟩]

theorem cover9_4 (p : Vec F S5000x128 .f32) (y : S5000x128.Idx) :
    ∃ pc ∈ ([⟨r9_0, p⟩] : List (View.Piece (Elt F) S5000x128 .f32)), y ∈ pc.1.set :=
  View.cover_of_tiled [⟨r9_0, p⟩] S5000x128.size (by rfl) y

set_option maxHeartbeats 1000000 in

theorem sound_kernel9 (c : Dev nD) (E : Set ℕ) (i : grid9.Coords)
    (ma : Memref sig .tc .vmem S5000x128 .f32) (hma : ma.IsWhole) (mh : Memref sig .tc .vmem S5000x128 .f32) (hmh : mh.IsWhole)
    (md : Memref sig .tc .vmem S5000x1 .f32) (hmd : md.IsWhole) (mb : Memref sig .tc .vmem S1x128 .f32) (hmb : mb.IsWhole)
    (mo : Memref sig .tc .vmem S5000x128 .f32) (hmo : mo.IsWhole)
    (xa : Vec F S5000x128 .f32) (xh : Vec F S5000x128 .f32) (xd : Vec F S5000x1 .f32) (xb : Vec F S1x128 .f32) (K : PUnit → sProp 𝕄) :
    iprop(owns (c : Thread nD τ) ma fullShare xa ∗ owns (c : Thread nD τ) mh fullShare xh ∗ owns (c : Thread nD τ) md fullShare xd
        ∗ owns (c : Thread nD τ) mb fullShare xb ∗ (∃ d, owns (c : Thread nD τ) mo fullShare d)
        ∗ (iprop(owns (c : Thread nD τ) ma fullShare xa ∗ owns (c : Thread nD τ) mh fullShare xh ∗ owns (c : Thread nD τ) md fullShare xd
            ∗ owns (c : Thread nD τ) mb fullShare xb ∗ owns (c : Thread nD τ) mo fullShare (out9_4 xa xh xd xb)) -∗ K ⟨⟩))
      ⊢ wp frame (wpE (defs₀ (F := F)) Variants.none c none) E (cc9__combine_relu_kernel i ma hma mh hmh md hmd mb hmb mo hmo) K := by
  simp only [cc9__combine_relu_kernel_eq_skeleton]; unfold cc9__combine_relu_kernel_skel
  unfold owns
  iintro ⟨⟨%fa, %hfa, Ha⟩, ⟨%fh, %hfh, Hh⟩, ⟨%fd, %hfd, Hd⟩, ⟨%fb, %hfb, Hb⟩, ⟨%dd, %fo, -, Ho⟩, Hk⟩
  subst hfa; subst hfh; subst hfd; subst hfb
  sl_exec
  sl_step
  iapply Hk
  isplitl [Ha]
  · iexists fa; isplitr; · ipureintro; rfl
    iexact Ha
  isplitl [Hh]
  · iexists fh; isplitr; · ipureintro; rfl
    iexact Hh
  isplitl [Hd]
  · iexists fd; isplitr; · ipureintro; rfl
    iexact Hd
  isplitl [Hb]
  · iexists fb; isplitr; · ipureintro; rfl
    iexact Hb
  iexists _; isplitr
  swap; · iexact Ho
  ipureintro
  exact View.read_writes_eq_canon _ _ _ (cover9_4 _)

def dat9 (c : Dev nD) : Dat τ (Elt F) Unit ℕ (Pipeline.UD sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => out9_4 (iblk9 V c 0 t) (iblk9 V c 1 t) (iblk9 V c 2 t) (iblk9 V c 3 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) :
    (dat9 V c).after 4 t = out9_4 (iblk9 V c 0 t) (iblk9 V c 1 t) (iblk9 V c 2 t) (iblk9 V c 3 t) := by dsimp only [dat9]

theorem before9_0 (c : Dev nD) (t : Fin cfg9.N) (d) : (dat9 V c).before 0 t d = iblk9 V c 0 t :=
  ((dat9 V c).before_in_eq_fetched 0 rfl (fun _ => rfl) (fun _ _ _ => rfl) (fun _ => rfl) t d).trans rfl
theorem before9_1 (c : Dev nD) (t : Fin cfg9.N) (d) : (dat9 V c).before 1 t d = iblk9 V c 1 t :=
  ((dat9 V c).before_in_eq_fetched 1 rfl (fun _ => rfl) (fun _ _ _ => rfl) (fun _ => rfl) t d).trans rfl
theorem before9_2 (c : Dev nD) (t : Fin cfg9.N) (d) : (dat9 V c).before 2 t d = iblk9 V c 2 t :=
  ((dat9 V c).before_in_eq_fetched 2 rfl (fun _ => rfl) (fun _ _ _ => rfl) (fun _ => rfl) t d).trans rfl
theorem before9_3 (c : Dev nD) (t : Fin cfg9.N) (d) : (dat9 V c).before 3 t d = iblk9 V c 3 t :=
  ((dat9 V c).before_in_eq_fetched 3 rfl (fun _ => rfl) (fun _ _ _ => rfl) (fun _ => rfl) t d).trans rfl

def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d)))

def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t))

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3]
  rw [show (dat9 V c).Φ t.succ = (dat9 V c).Φ t.castSucc from rfl,
    show (dat9 V c).owesAt () t.succ = (dat9 V c).owesAt () t.castSucc from rfl,
    after9_0, after9_1, after9_2, after9_3, after9_4]
  iintro ⟨HΦ, Hw, ⟨%da, Ha⟩, ⟨%dh, Hh⟩, ⟨%dd, Hd⟩, ⟨%db, Hb⟩, ⟨%dz, Ho⟩⟩
  iapply (sound_kernel9 c Set.univ (grid9.coords t) _ _ _ _ _ _ _ _ _ _
    (iblk9 V c 0 t) (iblk9 V c 1 t) (iblk9 V c 2 t) (iblk9 V c 3 t) _)
  isplitl [Ha]; · iexact Ha
  isplitl [Hh]; · iexact Hh
  isplitl [Hd]; · iexact Hd
  isplitl [Hb]; · iexact Hb
  isplitl [Ho]; · iexists _; iexact Ho
  iintro ⟨Ha, Hh, Hd, Hb, Ho⟩
  isplitl [HΦ]; · iexact HΦ
  isplitl [Hw]; · iexact Hw
  isplitl [Ha]; · iexact Ha
  isplitl [Hh]; · iexact Hh
  isplitl [Hd]; · iexact Hd
  isplitl [Hb]; · iexact Hb
  iexact Ho

theorem body_obligation9 (c : Dev nD) : BodyObligation (dat9 (F := F) V c) (defs₀ (F := F)) Variants.none () Set.univ := fun t => by
  rw [bigSep_W9, bigSep_W9]
  exact sound_body9 V c t

end Cert.Kernel.Hand

end
-- ==== Proof.K.Run.lean ====
import proofs.«171585_j55456617726008_1_alg».proof.Proof.K.Reg0
import proofs.«171585_j55456617726008_1_alg».proof.Proof.K.Reg1
import proofs.«171585_j55456617726008_1_alg».proof.Proof.K.Reg2
import proofs.«171585_j55456617726008_1_alg».proof.Proof.K.Reg3
import proofs.«171585_j55456617726008_1_alg».proof.Proof.K.Reg4
import proofs.«171585_j55456617726008_1_alg».proof.Proof.K.Reg5
import proofs.«171585_j55456617726008_1_alg».proof.Proof.K.Reg6
import proofs.«171585_j55456617726008_1_alg».proof.Proof.K.Reg7
import proofs.«171585_j55456617726008_1_alg».proof.Proof.K.Reg8
import proofs.«171585_j55456617726008_1_alg».proof.Proof.K.Reg9
import proofs.«171585_j55456617726008_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A valuation read at the TensorCore's references. -/
abbrev tcOf (W : Dev nD → Valuation τ sig (Elt F)) : (c : Dev nD) → (b : Ref sig .tc) → Buf (Elt F) ((c : Thread nD τ).loc b) :=
  fun c b => W c b

/-- Outside its output windows' arrays a region's exit contents are its entry contents. -/
theorem withArrays_kept {p : Fin 10} (lf : Pipeline.LaunchFacts (nD := nD) (τ := τ) cfgs p) (c : Dev nD) (W : Valuation τ sig (Elt F))
    (dat : Dat τ (Elt F) Unit ℕ (Pipeline.UD sig nD τ) ℕ (cfgs p) c) (hA : ∀ w, dat.A w = W (Proc.devRef .tc (Pipeline.arrRef (cfgs p).spec w)))
    (r : Ref sig .tc) (h : ∀ w, Pipeline.arrRef (cfgs p).spec w = r → ((cfgs p).win w).isOut = false) :
    Pipeline.withArrays (cfgs p).spec c W (fun w => dat.arrAt w (cfgs p).N) (Proc.devRef .tc r) = W (Proc.devRef .tc r) := by
  by_cases hr : ∃ w, Pipeline.arrRef (cfgs p).spec w = r
  · obtain ⟨w, rfl⟩ := hr
    rw [Pipeline.withArrays_arr _ lf.win.arr_inj, dat.arrAt_in w (h w rfl), hA]
  · exact Pipeline.withArrays_of_ne _ c _ _ r fun w e => hr ⟨w, e⟩

variable (m : (ℓ : Loc nD τ sig) → Buf (Elt F) ℓ) (ρ : Dev nD → PrngReg)

abbrev W0 : Dev nD → Valuation τ sig (Elt F) := fun c b => (s₀ m ρ).mem ((c : Dev nD), b)
abbrev V0 := tcOf (W0 m ρ)
abbrev W1 (c : Dev nD) : Valuation τ sig (Elt F) := StableHlo.after hostOps0 (W0 m ρ c)
abbrev V1 := tcOf (W1 m ρ)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
def W2 (c : Dev nD) : Valuation τ sig (Elt F) :=
  Pipeline.withArrays spec0 c (W1 m ρ c) fun w => (dat0 (V1 m ρ) c).arrAt w cfg0.N
abbrev V2 := tcOf (W2 m ρ)
theorem W2_arr (c : Dev nD) (w : Fin cfg0.W) :
    W2 m ρ c (Proc.devRef .tc (Pipeline.arrRef spec0 w)) = (dat0 (V1 m ρ) c).arrAt w cfg0.N :=
  Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb
abbrev W3 (c : Dev nD) : Valuation τ sig (Elt F) := StableHlo.after hostOps1 (W2 m ρ c)
abbrev V3 := tcOf (W3 m ρ)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
def W4 (c : Dev nD) : Valuation τ sig (Elt F) :=
  Pipeline.withArrays spec1 c (W3 m ρ c) fun w => (dat1 (V3 m ρ) c).arrAt w cfg1.N
abbrev V4 := tcOf (W4 m ρ)
theorem W4_arr (c : Dev nD) (w : Fin cfg1.W) :
    W4 m ρ c (Proc.devRef .tc (Pipeline.arrRef spec1 w)) = (dat1 (V3 m ρ) c).arrAt w cfg1.N :=
  Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) :=
  Pipeline.withArrays_of_ne spec1 c _ _ b hb
def W5 (c : Dev nD) : Valuation τ sig (Elt F) :=
  Pipeline.withArrays spec2 c (W4 m ρ c) fun w => (dat2 (V4 m ρ) c).arrAt w cfg2.N
abbrev V5 := tcOf (W5 m ρ)
theorem W5_arr (c : Dev nD) (w : Fin cfg2.W) :
    W5 m ρ c (Proc.devRef .tc (Pipeline.arrRef spec2 w)) = (dat2 (V4 m ρ) c).arrAt w cfg2.N :=
  Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) :=
  Pipeline.withArrays_of_ne spec2 c _ _ b hb
abbrev W6 (c : Dev nD) : Valuation τ sig (Elt F) := StableHlo.after hostOps3 (W5 m ρ c)
abbrev V6 := tcOf (W6 m ρ)
theorem W6_of (c : Dev nD) (r : Ref sig .tc) (h : r ∉ hostOps3_W) : W6 m ρ c (Proc.devRef .tc r) = W5 m ρ c (Proc.devRef .tc r) :=
  StableHlo.after_of_writes_sub hostOps3 _ hostOps3_writes h
def W7 (c : Dev nD) : Valuation τ sig (Elt F) :=
  Pipeline.withArrays spec3 c (W6 m ρ c) fun w => (dat3 (V6 m ρ) c).arrAt w cfg3.N
abbrev V7 := tcOf (W7 m ρ)
theorem W7_arr (c : Dev nD) (w : Fin cfg3.W) :
    W7 m ρ c (Proc.devRef .tc (Pipeline.arrRef spec3 w)) = (dat3 (V6 m ρ) c).arrAt w cfg3.N :=
  Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) :=
  Pipeline.withArrays_of_ne spec3 c _ _ b hb
def W8 (c : Dev nD) : Valuation τ sig (Elt F) :=
  Pipeline.withArrays spec4 c (W7 m ρ c) fun w => (dat4 (V7 m ρ) c).arrAt w cfg4.N
abbrev V8 := tcOf (W8 m ρ)
theorem W8_arr (c : Dev nD) (w : Fin cfg4.W) :
    W8 m ρ c (Proc.devRef .tc (Pipeline.arrRef spec4 w)) = (dat4 (V7 m ρ) c).arrAt w cfg4.N :=
  Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) :=
  Pipeline.withArrays_of_ne spec4 c _ _ b hb
abbrev W9 (c : Dev nD) : Valuation τ sig (Elt F) := StableHlo.after hostOps5 (W8 m ρ c)
abbrev V9 := tcOf (W9 m ρ)
theorem W9_of (c : Dev nD) (r : Ref sig .tc) (h : r ∉ hostOps5_W) : W9 m ρ c (Proc.devRef .tc r) = W8 m ρ c (Proc.devRef .tc r) :=
  StableHlo.after_of_writes_sub hostOps5 _ hostOps5_writes h
def W10 (c : Dev nD) : Valuation τ sig (Elt F) :=
  Pipeline.withArrays spec5 c (W9 m ρ c) fun w => (dat5 (V9 m ρ) c).arrAt w cfg5.N
abbrev V10 := tcOf (W10 m ρ)
theorem W10_arr (c : Dev nD) (w : Fin cfg5.W) :
    W10 m ρ c (Proc.devRef .tc (Pipeline.arrRef spec5 w)) = (dat5 (V9 m ρ) c).arrAt w cfg5.N :=
  Pipeline.withArrays_arr spec5 launch5.win.arr_inj c _ _ w
theorem W10_of_ne (c : Dev nD) (b : Ref sig .tc) (hb : ∀ w, Pipeline.arrRef spec5 w ≠ b) :
    W10 m ρ c (Proc.devRef .tc b) = W9 m ρ c (Proc.devRef .tc b) :=
  Pipeline.withArrays_of_ne spec5 c _ _ b hb
def W11 (c : Dev nD) : Valuation τ sig (Elt F) :=
  Pipeline.withArrays spec6 c (W10 m ρ c) fun w => (dat6 (V10 m ρ) c).arrAt w cfg6.N
abbrev V11 := tcOf (W11 m ρ)
theorem W11_arr (c : Dev nD) (w : Fin cfg6.W) :
    W11 m ρ c (Proc.devRef .tc (Pipeline.arrRef spec6 w)) = (dat6 (V10 m ρ) c).arrAt w cfg6.N :=
  Pipeline.withArrays_arr spec6 launch6.win.arr_inj c _ _ w
theorem W11_of_ne (c : Dev nD) (b : Ref sig .tc) (hb : ∀ w, Pipeline.arrRef spec6 w ≠ b) :
    W11 m ρ c (Proc.devRef .tc b) = W10 m ρ c (Proc.devRef .tc b) :=
  Pipeline.withArrays_of_ne spec6 c _ _ b hb
abbrev W12 (c : Dev nD) : Valuation τ sig (Elt F) := StableHlo.after hostOps7 (W11 m ρ c)
abbrev V12 := tcOf (W12 m ρ)
theorem W12_of (c : Dev nD) (r : Ref sig .tc) (h : r ∉ hostOps7_W) : W12 m ρ c (Proc.devRef .tc r) = W11 m ρ c (Proc.devRef .tc r) :=
  StableHlo.after_of_writes_sub hostOps7 _ hostOps7_writes h
def W13 (c : Dev nD) : Valuation τ sig (Elt F) :=
  Pipeline.withArrays spec7 c (W12 m ρ c) fun w => (dat7 (V12 m ρ) c).arrAt w cfg7.N
abbrev V13 := tcOf (W13 m ρ)
theorem W13_arr (c : Dev nD) (w : Fin cfg7.W) :
    W13 m ρ c (Proc.devRef .tc (Pipeline.arrRef spec7 w)) = (dat7 (V12 m ρ) c).arrAt w cfg7.N :=
  Pipeline.withArrays_arr spec7 launch7.win.arr_inj c _ _ w
theorem W13_of_ne (c : Dev nD) (b : Ref sig .tc) (hb : ∀ w, Pipeline.arrRef spec7 w ≠ b) :
    W13 m ρ c (Proc.devRef .tc b) = W12 m ρ c (Proc.devRef .tc b) :=
  Pipeline.withArrays_of_ne spec7 c _ _ b hb
def W14 (c : Dev nD) : Valuation τ sig (Elt F) :=
  Pipeline.withArrays spec8 c (W13 m ρ c) fun w => (dat8 (V13 m ρ) c).arrAt w cfg8.N
abbrev V14 := tcOf (W14 m ρ)
theorem W14_arr (c : Dev nD) (w : Fin cfg8.W) :
    W14 m ρ c (Proc.devRef .tc (Pipeline.arrRef spec8 w)) = (dat8 (V13 m ρ) c).arrAt w cfg8.N :=
  Pipeline.withArrays_arr spec8 launch8.win.arr_inj c _ _ w
theorem W14_of_ne (c : Dev nD) (b : Ref sig .tc) (hb : ∀ w, Pipeline.arrRef spec8 w ≠ b) :
    W14 m ρ c (Proc.devRef .tc b) = W13 m ρ c (Proc.devRef .tc b) :=
  Pipeline.withArrays_of_ne spec8 c _ _ b hb
abbrev W15 (c : Dev nD) : Valuation τ sig (Elt F) := StableHlo.after hostOps9 (W14 m ρ c)
abbrev V15 := tcOf (W15 m ρ)
theorem W15_of (c : Dev nD) (r : Ref sig .tc) (h : r ∉ hostOps9_W) : W15 m ρ c (Proc.devRef .tc r) = W14 m ρ c (Proc.devRef .tc r) :=
  StableHlo.after_of_writes_sub hostOps9 _ hostOps9_writes h
def W16 (c : Dev nD) : Valuation τ sig (Elt F) :=
  Pipeline.withArrays spec9 c (W15 m ρ c) fun w => (dat9 (V15 m ρ) c).arrAt w cfg9.N
abbrev V16 := tcOf (W16 m ρ)
theorem W16_arr (c : Dev nD) (w : Fin cfg9.W) :
    W16 m ρ c (Proc.devRef .tc (Pipeline.arrRef spec9 w)) = (dat9 (V15 m ρ) c).arrAt w cfg9.N :=
  Pipeline.withArrays_arr spec9 launch9.win.arr_inj c _ _ w
theorem W16_of_ne (c : Dev nD) (b : Ref sig .tc) (hb : ∀ w, Pipeline.arrRef spec9 w ≠ b) :
    W16 m ρ c (Proc.devRef .tc b) = W15 m ρ c (Proc.devRef .tc b) :=
  Pipeline.withArrays_of_ne spec9 c _ _ b hb
abbrev W17 (c : Dev nD) : Valuation τ sig (Elt F) := StableHlo.after hostOps10 (W16 m ρ c)
abbrev V17 := tcOf (W17 m ρ)
theorem W17_of (c : Dev nD) (r : Ref sig .tc) (h : r ∉ hostOps10_W) : W17 m ρ c (Proc.devRef .tc r) = W16 m ρ c (Proc.devRef .tc r) :=
  StableHlo.after_of_writes_sub hostOps10 _ hostOps10_writes h

/-- The argument arrays. -/
abbrev args : List (Ref sig .tc) := [main_arg0, main_arg1, main_arg2, main_arg3, main_arg4, main_arg5, main_arg6, main_arg7, main_arg8, main_arg9, main_arg10, main_arg11, main_arg12, main_arg13, main_arg14]

/-- No host operation writes an argument and no region has one as an output window's array. -/
theorem W17_arg (c : Dev nD) : ∀ r ∈ args, W17 m ρ c (Proc.devRef .tc r) = m ((c : Thread nD τ).loc r) := by
  have key : ∀ r ∈ args, r ∉ hostOps10_W
      ∧ (∀ w, Pipeline.arrRef spec9 w = r → (cfg9.win w).isOut = false)
      ∧ r ∉ hostOps9_W
      ∧ (∀ w, Pipeline.arrRef spec8 w = r → (cfg8.win w).isOut = false)
      ∧ (∀ w, Pipeline.arrRef spec7 w = r → (cfg7.win w).isOut = false)
      ∧ r ∉ hostOps7_W
      ∧ (∀ w, Pipeline.arrRef spec6 w = r → (cfg6.win w).isOut = false)
      ∧ (∀ w, Pipeline.arrRef spec5 w = r → (cfg5.win w).isOut = false)
      ∧ r ∉ hostOps5_W
      ∧ (∀ w, Pipeline.arrRef spec4 w = r → (cfg4.win w).isOut = false)
      ∧ (∀ w, Pipeline.arrRef spec3 w = r → (cfg3.win w).isOut = false)
      ∧ r ∉ hostOps3_W
      ∧ (∀ w, Pipeline.arrRef spec2 w = r → (cfg2.win w).isOut = false)
      ∧ (∀ w, Pipeline.arrRef spec1 w = r → (cfg1.win w).isOut = false)
      ∧ r ∉ hostOps1_W
      ∧ (∀ w, Pipeline.arrRef spec0 w = r → (cfg0.win w).isOut = false)
      ∧ r ∉ hostOps0_W := by decide
  intro r hr
  obtain ⟨h0, h1, h2, h3, h4, h5, h6, h7, h8, h9, h10, h11, h12, h13, h14, h15, h16⟩ := key r hr
  exact (W17_of m ρ c r h0).trans <|
    (withArrays_kept launch9 c _ (dat9 (V15 m ρ) c) (A_eq9 (V15 m ρ) c) r h1).trans <|
    (W15_of m ρ c r h2).trans <|
    (withArrays_kept launch8 c _ (dat8 (V13 m ρ) c) (A_eq8 (V13 m ρ) c) r h3).trans <|
    (withArrays_kept launch7 c _ (dat7 (V12 m ρ) c) (A_eq7 (V12 m ρ) c) r h4).trans <|
    (W12_of m ρ c r h5).trans <|
    (withArrays_kept launch6 c _ (dat6 (V10 m ρ) c) (A_eq6 (V10 m ρ) c) r h6).trans <|
    (withArrays_kept launch5 c _ (dat5 (V9 m ρ) c) (A_eq5 (V9 m ρ) c) r h7).trans <|
    (W9_of m ρ c r h8).trans <|
    (withArrays_kept launch4 c _ (dat4 (V7 m ρ) c) (A_eq4 (V7 m ρ) c) r h9).trans <|
    (withArrays_kept launch3 c _ (dat3 (V6 m ρ) c) (A_eq3 (V6 m ρ) c) r h10).trans <|
    (W6_of m ρ c r h11).trans <|
    (withArrays_kept launch2 c _ (dat2 (V4 m ρ) c) (A_eq2 (V4 m ρ) c) r h12).trans <|
    (withArrays_kept launch1 c _ (dat1 (V3 m ρ) c) (A_eq1 (V3 m ρ) c) r h13).trans <|
    (W3_of m ρ c r h14).trans <|
    (withArrays_kept launch0 c _ (dat0 (V1 m ρ) c) (A_eq0 (V1 m ρ) c) r h15).trans <|
    (W1_of m ρ c r h16)

abbrev padm : (p : Fin 10) → (pcfgs (F := F) p).Adm := fun p => (cfgs p).toPCfg_adm
def pdats : (p : Fin 10) → (c : Dev nD) → Dat τ (Elt F) Unit ℕ (Pipeline.UD sig nD τ) ℕ (Pipeline.pin (pcfgs (F := F)) padm p) c
  | ⟨0, _⟩ => fun c => dat0 (V1 m ρ) c
  | ⟨1, _⟩ => fun c => dat1 (V3 m ρ) c
  | ⟨2, _⟩ => fun c => dat2 (V4 m ρ) c
  | ⟨3, _⟩ => fun c => dat3 (V6 m ρ) c
  | ⟨4, _⟩ => fun c => dat4 (V7 m ρ) c
  | ⟨5, _⟩ => fun c => dat5 (V9 m ρ) c
  | ⟨6, _⟩ => fun c => dat6 (V10 m ρ) c
  | ⟨7, _⟩ => fun c => dat7 (V12 m ρ) c
  | ⟨8, _⟩ => fun c => dat8 (V13 m ρ) c
  | ⟨9, _⟩ => fun c => dat9 (V15 m ρ) c
abbrev 𝒱₀ : Variants := Variants.none
abbrev L : GSem nD τ sig → Finset Unit := fun _ => ∅
abbrev lv : GSem nD τ sig → Unit → ℕ := fun _ _ => 0
abbrev Rst (c : Dev nD) : sProp 𝕄 := iprop((∃ r, prngReg c r) ∗ ∃ W, owes (c : Thread nD τ) (0 : CellTallies nD τ sig Unit) W)
abbrev St (W : Dev nD → Valuation τ sig (Elt F)) (c : Dev nD) : sProp 𝕄 :=
  iprop(StableHlo.held (c : Thread nD τ) (Pipeline.ucRefs τ sig) (W c) ∗ Rst c)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W17 m ρ c) ∗ ∃ r, prngReg c r)

theorem ΦA_in {gr W : ℕ} (spec : Fin W → Pipeline.WinSpec sig gr) (c : Dev nD) :
    (iprop((∃ r, prngReg c r) ∗ Pipeline.scopedRest (Ix := Unit) (Name := ℕ) (U := Pipeline.UD sig nD τ) (Lvl := ℕ) (Val := Elt F) spec c) : sProp 𝕄)
      ⊢ Pipeline.ΦA spec c := by
  unfold Pipeline.ΦA; iintro ⟨Hp, Hr⟩; isplitl [Hr]; · iexact Hr
  iexact Hp
theorem ΦA_out {gr W : ℕ} (spec : Fin W → Pipeline.WinSpec sig gr) (c : Dev nD) :
    Pipeline.ΦA spec c ⊢ (iprop((∃ r, prngReg c r) ∗ Pipeline.scopedRest (Ix := Unit) (Name := ℕ) (U := Pipeline.UD sig nD τ) (Lvl := ℕ) (Val := Elt F) spec c) : sProp 𝕄) := by
  unfold Pipeline.ΦA; iintro ⟨Hr, Hp⟩; isplitl [Hp]; · iexact Hp
  iexact Hr

set_option backward.isDefEq.respectTransparency.types false in
/-- A region as a segment from the contents Win to the contents Wout. -/
def regSeg (p : Fin 10) (lf : Pipeline.LaunchFacts (nD := nD) (τ := τ) cfgs p) (Win Wout : Dev nD → Valuation τ sig (Elt F))
    (hbody : ∀ c, Pipeline.BodyObligationLoose (pdats m ρ p c) (defs₀ (F := F)) 𝒱₀ () Set.univ)
    (hshare : ∀ c w, (pdats m ρ p c).share w = fullShare) (howed : ∀ c t, (pdats m ρ p c).owed t = 0)
    (hrec : ∀ c t, (pdats m ρ p c).recorded t = Set.univ)
    (hA : ∀ c w, (pdats m ρ p c).A w = tcOf Win c (Pipeline.arrRef (Pipeline.pin (pcfgs (F := F)) padm p).spec w))
    (hF : ∀ c w, (pdats m ρ p c).arrAt w (Pipeline.pin (pcfgs (F := F)) padm p).N = tcOf Wout c (Pipeline.arrRef (Pipeline.pin (pcfgs (F := F)) padm p).spec w))
    (hne : ∀ c b, (∀ w, Pipeline.arrRef (Pipeline.pin (pcfgs (F := F)) padm p).spec w ≠ b) → tcOf Wout c b = tcOf Win c b)
    (hΦin : ∀ c, (iprop((∃ r, prngReg c r) ∗ Pipeline.scopedRest (Pipeline.pin (pcfgs (F := F)) padm p).spec c) : sProp 𝕄) ⊢ (pdats m ρ p c).Φ 0)
    (hΦout : ∀ c, (pdats m ρ p c).Φ (Fin.last _) ⊢ (iprop((∃ r, prngReg c r) ∗ Pipeline.scopedRest (Pipeline.pin (pcfgs (F := F)) padm p).spec c) : sProp 𝕄)) :
    Pipeline.RegionSeg (pcfgs (F := F)) padm (pdats m ρ) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p howed
  pre := St Win
  post := St Wout
  X c := iprop(∃ r, prngReg c r)
  Y c := iprop(∃ r, prngReg c r)
  Z c := Pipeline.unscopedRest (Ix := Unit) (Name := ℕ) (U := Pipeline.UD sig nD τ) (Lvl := ℕ) (Pipeline.pin (pcfgs (F := F)) padm p).spec c (tcOf Win c)
  hentry c := by
    rw [Pipeline.ownSems0_none]
    have hsplit := Pipeline.arrays_of_unscopedBufs (p := p) (pcfgs (F := F)) padm (pdats m ρ) lf.win lf.arr_whole c (hshare c) (tcOf Win c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [howed c, hrec c]
      icases HO with ⟨%W, HO⟩; iexists W; isplitr; · ipureintro; exact fun _ _ => Or.inl trivial
      iexact HO
    isplitl [Hp]; · iexact Hp
    iexact Hrest
  hin c := by
    iintro ⟨Hp, -, Hr⟩
    iapply (hΦin c)
    isplitl [Hp]; · iexact Hp
    iexact Hr
  hout c := by
    rw [Pipeline.ownSems0_none]
    iintro HΦ
    ihave H := (hΦout c) $$ HΦ
    icases H with ⟨Hp, Hr⟩
    isplitl [Hp]; · iexact Hp
    isplitr; · iempintro
    iexact Hr
  hexit c := by
    have hjoin := Pipeline.unscopedBufs_of_arrays (p := p) (pcfgs (F := F)) padm (Ix := Unit) (Name := ℕ) (U := Pipeline.UD sig nD τ) (Lvl := ℕ)
      lf.win lf.arr_whole c (pdats m ρ) (hshare c) (tcOf Win c) (tcOf Wout c) ((pdats m ρ p c).arrAt · (Pipeline.pin (pcfgs (F := F)) padm p).N) (hF c)
      fun b hb => hne c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

set_option backward.isDefEq.respectTransparency.types false in
def reg0 : Pipeline.RegionSeg (pcfgs (F := F)) padm (pdats m ρ) () defs₀ 𝒱₀ L lv 0 :=
  regSeg m ρ 0 launch0 (W1 m ρ) (W2 m ρ) (fun c => (body_obligation0 (V1 m ρ) c).loose) (fun c => (pdats m ρ 0 c).share_full fun _ => rfl)
    (fun _ _ => rfl) (fun _ _ => rfl) (fun _ _ => rfl) (fun c w => (W2_arr m ρ c w).symm) (W2_of_ne m ρ) (ΦA_in spec0) (ΦA_out spec0)
set_option backward.isDefEq.respectTransparency.types false in
def reg1 : Pipeline.RegionSeg (pcfgs (F := F)) padm (pdats m ρ) () defs₀ 𝒱₀ L lv 1 :=
  regSeg m ρ 1 launch1 (W3 m ρ) (W4 m ρ) (fun c => (body_obligation1 (V3 m ρ) c).loose) (fun c => (pdats m ρ 1 c).share_full fun _ => rfl)
    (fun _ _ => rfl) (fun _ _ => rfl) (fun _ _ => rfl) (fun c w => (W4_arr m ρ c w).symm) (W4_of_ne m ρ) (ΦA_in spec1) (ΦA_out spec1)
set_option backward.isDefEq.respectTransparency.types false in
def reg2 : Pipeline.RegionSeg (pcfgs (F := F)) padm (pdats m ρ) () defs₀ 𝒱₀ L lv 2 :=
  regSeg m ρ 2 launch2 (W4 m ρ) (W5 m ρ) (fun c => (body_obligation2 (V4 m ρ) c).loose) (fun c => (pdats m ρ 2 c).share_full fun _ => rfl)
    (fun _ _ => rfl) (fun _ _ => rfl) (fun _ _ => rfl) (fun c w => (W5_arr m ρ c w).symm) (W5_of_ne m ρ) (Phi2_in (V4 m ρ)) (Phi2_out (V4 m ρ))
set_option backward.isDefEq.respectTransparency.types false in
def reg3 : Pipeline.RegionSeg (pcfgs (F := F)) padm (pdats m ρ) () defs₀ 𝒱₀ L lv 3 :=
  regSeg m ρ 3 launch3 (W6 m ρ) (W7 m ρ) (fun c => (body_obligation3 (V6 m ρ) c).loose) (fun c => (pdats m ρ 3 c).share_full fun _ => rfl)
    (fun _ _ => rfl) (fun _ _ => rfl) (fun _ _ => rfl) (fun c w => (W7_arr m ρ c w).symm) (W7_of_ne m ρ) (ΦA_in spec3) (ΦA_out spec3)
set_option backward.isDefEq.respectTransparency.types false in
def reg4 : Pipeline.RegionSeg (pcfgs (F := F)) padm (pdats m ρ) () defs₀ 𝒱₀ L lv 4 :=
  regSeg m ρ 4 launch4 (W7 m ρ) (W8 m ρ) (fun c => (body_obligation4 (V7 m ρ) c).loose) (fun c => (pdats m ρ 4 c).share_full fun _ => rfl)
    (fun _ _ => rfl) (fun _ _ => rfl) (fun _ _ => rfl) (fun c w => (W8_arr m ρ c w).symm) (W8_of_ne m ρ) (ΦA_in spec4) (ΦA_out spec4)
set_option backward.isDefEq.respectTransparency.types false in
def reg5 : Pipeline.RegionSeg (pcfgs (F := F)) padm (pdats m ρ) () defs₀ 𝒱₀ L lv 5 :=
  regSeg m ρ 5 launch5 (W9 m ρ) (W10 m ρ) (fun c => (body_obligation5 (V9 m ρ) c).loose) (fun c => (pdats m ρ 5 c).share_full fun _ => rfl)
    (fun _ _ => rfl) (fun _ _ => rfl) (fun _ _ => rfl) (fun c w => (W10_arr m ρ c w).symm) (W10_of_ne m ρ) (ΦA_in spec5) (ΦA_out spec5)
set_option backward.isDefEq.respectTransparency.types false in
def reg6 : Pipeline.RegionSeg (pcfgs (F := F)) padm (pdats m ρ) () defs₀ 𝒱₀ L lv 6 :=
  regSeg m ρ 6 launch6 (W10 m ρ) (W11 m ρ) (fun c => (body_obligation6 (V10 m ρ) c).loose) (fun c => (pdats m ρ 6 c).share_full fun _ => rfl)
    (fun _ _ => rfl) (fun _ _ => rfl) (fun _ _ => rfl) (fun c w => (W11_arr m ρ c w).symm) (W11_of_ne m ρ) (Phi6_in (V10 m ρ)) (Phi6_out (V10 m ρ))
set_option backward.isDefEq.respectTransparency.types false in
def reg7 : Pipeline.RegionSeg (pcfgs (F := F)) padm (pdats m ρ) () defs₀ 𝒱₀ L lv 7 :=
  regSeg m ρ 7 launch7 (W12 m ρ) (W13 m ρ) (fun c => (body_obligation7 (V12 m ρ) c).loose) (fun c => (pdats m ρ 7 c).share_full fun _ => rfl)
    (fun _ _ => rfl) (fun _ _ => rfl) (fun _ _ => rfl) (fun c w => (W13_arr m ρ c w).symm) (W13_of_ne m ρ) (ΦA_in spec7) (ΦA_out spec7)
set_option backward.isDefEq.respectTransparency.types false in
def reg8 : Pipeline.RegionSeg (pcfgs (F := F)) padm (pdats m ρ) () defs₀ 𝒱₀ L lv 8 :=
  regSeg m ρ 8 launch8 (W13 m ρ) (W14 m ρ) (fun c => (body_obligation8 (V13 m ρ) c).loose) (fun c => (pdats m ρ 8 c).share_full fun _ => rfl)
    (fun _ _ => rfl) (fun _ _ => rfl) (fun _ _ => rfl) (fun c w => (W14_arr m ρ c w).symm) (W14_of_ne m ρ) (ΦA_in spec8) (ΦA_out spec8)
set_option backward.isDefEq.respectTransparency.types false in
def reg9 : Pipeline.RegionSeg (pcfgs (F := F)) padm (pdats m ρ) () defs₀ 𝒱₀ L lv 9 :=
  regSeg m ρ 9 launch9 (W15 m ρ) (W16 m ρ) (fun c => (body_obligation9 (V15 m ρ) c).loose) (fun c => (pdats m ρ 9 c).share_full fun _ => rfl)
    (fun _ _ => rfl) (fun _ _ => rfl) (fun _ _ => rfl) (fun c w => (W16_arr m ρ c w).symm) (W16_of_ne m ρ) (ΦA_in spec9) (ΦA_out spec9)

theorem last_link (c : Dev nD) : St (W17 m ρ) c ⊢ iprop(Tₙ m ρ c ∗ ∃ W, owes (c : Thread nD τ) (0 : CellTallies nD τ sig Unit) W) := by
  iintro ⟨Hh, Hp, Ho⟩
  isplitl [Hh Hp]
  · isplitl [Hh]
    · iexact Hh
    · iexact Hp
  · iexact Ho

/-- @main's 17 segments in order. -/
abbrev segs : List (Pipeline.Seg (pcfgs (F := F)) padm (pdats m ρ) () defs₀ 𝒱₀ L lv) :=
  [.host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)),
    .region (reg3 m ρ),
    .region (reg4 m ρ),
    .host (hseg hostOps5 hostOps5_sub hostOps5_fresh (W8 m ρ)),
    .region (reg5 m ρ),
    .region (reg6 m ρ),
    .host (hseg hostOps7 hostOps7_sub hostOps7_fresh (W11 m ρ)),
    .region (reg7 m ρ),
    .region (reg8 m ρ),
    .host (hseg hostOps9 hostOps9_sub hostOps9_fresh (W14 m ρ)),
    .region (reg9 m ρ),
    .host (hseg hostOps10 hostOps10_sub hostOps10_fresh (W16 m ρ))]

set_option backward.isDefEq.respectTransparency.types false in
/-- Every weakly fair execution of @main ends with every unscoped buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W17 m ρ c b) :=
  Pipeline.θ_run_regions_kit_dev (pcfgs (F := F)) padm (pdats m ρ) () cellOf_inj embL defs₀ 𝒱₀ L lv m ρ main (fun _ => segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          Prog.lift (.customCall (Pipeline.entry 6) ()),
          StableHlo.seq hostOps7,
          Prog.lift (.customCall (Pipeline.entry 7) ()),
          Prog.lift (.customCall (Pipeline.entry 8) ()),
          StableHlo.seq hostOps9,
          Prog.lift (.customCall (Pipeline.entry 9) ()),
          StableHlo.seq hostOps10 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := St (W0 m ρ)) (Tₙ := Tₙ m ρ)
    (hch := fun c => ⟨.rfl, .rfl, .rfl, .rfl, .rfl, .rfl, .rfl, .rfl, .rfl, .rfl, .rfl, .rfl, .rfl, .rfl, .rfl, .rfl, .rfl, last_link m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c => h c)

/-- A final memory that holds the last boundary's contents holds every argument as launched. -/
theorem args_kept {s : (ℓ : Loc nD τ sig) → Buf (Elt F) ℓ} (c : Dev nD) (h : ∀ b ∈ Pipeline.ucRefs τ sig, s (((c : Thread nD τ)).1, b) = W17 m ρ c b) :
    ∀ r ∈ args, s ((c.tc : Thread nD τ).loc r) = m ((c.tc : Thread nD τ).loc r) := fun r hr =>
  (h _ (mem_uc r ((by decide : ∀ r ∈ args, ¬ (Proc.devRef .tc r : DevRef τ sig).isScoped) r hr))).trans (W17_arg m ρ c r hr)

end Cert.Kernel.Hand

end
-- ==== Proof.KI.Reg0.lean ====
import proofs.«171585_j55456617726008_1_alg».proof.Proof.Gen.KernelIdeal.Launch
import proofs.«171585_j55456617726008_1_alg».proof.Proof.Gen.KernelIdeal.Skeleton
import proofs.«171585_j55456617726008_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S5000x128 := Rect.unit (s := S5000x128) ![0, 0] S5000x128.size inb_S5000x128_S5000x128_0_0
abbrev r0_w : Rect S128x128 := Rect.unit (s := S128x128) ![0, 0] S128x128.size inb_S128x128_S128x128_0_0

def out0_2 (x0 : Vec F S5000x128 .f32) (x1 : Vec F S128x128 .f32) : Vec F S5000x128 .f32 :=
  View.canon [⟨r0_x, k0_pay1 (View.ld x0 r0_x) (View.ld x1 r0_w)⟩]

theorem cover0_2 (p0 : Vec F S5000x128 .f32) (y : S5000x128.Idx) :
    ∃ pc ∈ ([⟨r0_x, p0⟩] : List (View.Piece (Elt F) S5000x128 .f32)), y ∈ pc.1.set :=
  View.cover_of_tiled [⟨r0_x, p0⟩] S5000x128.size (by rfl) y

set_option maxHeartbeats 1000000 in

theorem sound_kernel0 (c : Dev nD) (E : Set ℕ) (i : grid0.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  show _ ⊢ wp _ _ _ (cc0__matmul_kernel (grid0.coords t) _ (hstage0_0 _) _ (hstage0_1 _) _ (hstage0_2 _)) _
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
import proofs.«171585_j55456617726008_1_alg».proof.Proof.Gen.KernelIdeal.Launch
import proofs.«171585_j55456617726008_1_alg».proof.Proof.Gen.KernelIdeal.Skeleton
import proofs.«171585_j55456617726008_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S5000x128 := Rect.unit (s := S5000x128) ![0, 0] S5000x128.size inb_S5000x128_S5000x128_0_0

abbrev r1_1 : Rect S5000x1 := Rect.unit (s := S5000x1) ![0, 0] S5000x1.size inb_S5000x1_S5000x1_0_0

abbrev r1_2 : Rect S1x128 := Rect.unit (s := S1x128) ![0, 0] S1x128.size inb_S1x128_S1x128_0_0

def out1_4 (xa : Vec F S5000x128 .f32) (xh : Vec F S5000x128 .f32) (xd : Vec F S5000x1 .f32) (xb : Vec F S1x128 .f32) : Vec F S5000x128 .f32 :=
  View.canon [⟨r1_0, k1_pay1 (View.ld xa r1_0) (View.ld xd r1_1) (View.ld xh r1_0) (View.ld xb r1_2)⟩]

theorem cover1_4 (p : Vec F S5000x128 .f32) (y : S5000x128.Idx) :
    ∃ pc ∈ ([⟨r1_0, p⟩] : List (View.Piece (Elt F) S5000x128 .f32)), y ∈ pc.1.set :=
  View.cover_of_tiled [⟨r1_0, p⟩] S5000x128.size (by rfl) y

set_option maxHeartbeats 1000000 in

theorem sound_kernel1 (c : Dev nD) (E : Set ℕ) (i : grid1.Coords)
    (ma : Memref sig .tc .vmem S5000x128 .f32) (hma : ma.IsWhole) (mh : Memref sig .tc .vmem S5000x128 .f32) (hmh : mh.IsWhole)
    (md : Memref sig .tc .vmem S5000x1 .f32) (hmd : md.IsWhole) (mb : Memref sig .tc .vmem S1x128 .f32) (hmb : mb.IsWhole)
    (mo : Memref sig .tc .vmem S5000x128 .f32) (hmo : mo.IsWhole)
    (xa : Vec F S5000x128 .f32) (xh : Vec F S5000x128 .f32) (xd : Vec F S5000x1 .f32) (xb : Vec F S1x128 .f32) (K : PUnit → sProp 𝕄) :
    iprop(owns (c : Thread nD τ) ma fullShare xa ∗ owns (c : Thread nD τ) mh fullShare xh ∗ owns (c : Thread nD τ) md fullShare xd
        ∗ owns (c : Thread nD τ) mb fullShare xb ∗ (∃ d, owns (c : Thread nD τ) mo fullShare d)
        ∗ (iprop(owns (c : Thread nD τ) ma fullShare xa ∗ owns (c : Thread nD τ) mh fullShare xh ∗ owns (c : Thread nD τ) md fullShare xd
            ∗ owns (c : Thread nD τ) mb fullShare xb ∗ owns (c : Thread nD τ) mo fullShare (out1_4 xa xh xd xb)) -∗ K ⟨⟩))
      ⊢ wp frame (wpE (defs₀ (F := F)) Variants.none c none) E (cc1__combine_kernel i ma hma mh hmh md hmd mb hmb mo hmo) K := by
  simp only [cc1__combine_kernel_eq_skeleton]; unfold cc1__combine_kernel_skel
  unfold owns
  iintro ⟨⟨%fa, %hfa, Ha⟩, ⟨%fh, %hfh, Hh⟩, ⟨%fd, %hfd, Hd⟩, ⟨%fb, %hfb, Hb⟩, ⟨%dd, %fo, -, Ho⟩, Hk⟩
  subst hfa; subst hfh; subst hfd; subst hfb
  sl_exec
  sl_step
  iapply Hk
  isplitl [Ha]
  · iexists fa; isplitr; · ipureintro; rfl
    iexact Ha
  isplitl [Hh]
  · iexists fh; isplitr; · ipureintro; rfl
    iexact Hh
  isplitl [Hd]
  · iexists fd; isplitr; · ipureintro; rfl
    iexact Hd
  isplitl [Hb]
  · iexists fb; isplitr; · ipureintro; rfl
    iexact Hb
  iexists _; isplitr
  swap; · iexact Ho
  ipureintro
  exact View.read_writes_eq_canon _ _ _ (cover1_4 _)

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  show _ ⊢ wp _ _ _ (cc1__combine_kernel (grid1.coords t) _ (hstage1_0 _) _ (hstage1_1 _) _ (hstage1_2 _) _ (hstage1_3 _) _ (hstage1_4 _)) _
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Hw, ⟨%da, Ha⟩, ⟨%dh, Hh⟩, ⟨%dd, Hd⟩, ⟨%db, Hb⟩, ⟨%dz, Ho⟩⟩
  iapply (sound_kernel1 c Set.univ (grid1.coords t) _ _ _ _ _ _ _ _ _ _
    (iblk1 V c 0 t) (iblk1 V c 1 t) (iblk1 V c 2 t) (iblk1 V c 3 t) _)
  isplitl [Ha]; · iexact Ha
  isplitl [Hh]; · iexact Hh
  isplitl [Hd]; · iexact Hd
  isplitl [Hb]; · iexact Hb
  isplitl [Ho]; · iexists _; iexact Ho
  iintro ⟨Ha, Hh, Hd, Hb, Ho⟩
  isplitl [HΦ]; · iexact HΦ
  isplitl [Hw]; · iexact Hw
  isplitl [Ha]; · iexact Ha
  isplitl [Hh]; · iexact Hh
  isplitl [Hd]; · iexact Hd
  isplitl [Hb]; · iexact Hb
  iexact Ho

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
import proofs.«171585_j55456617726008_1_alg».proof.Proof.Gen.KernelIdeal.Launch
import proofs.«171585_j55456617726008_1_alg».proof.Proof.Gen.KernelIdeal.Skeleton
import proofs.«171585_j55456617726008_1_alg».proof.Proof.Gen.KernelIdeal.Points
import proofs.«171585_j55456617726008_1_alg».proof.Proof.LibWhole
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (V : (c : Dev nD) → (b : Ref sig .tc) → Buf (Elt F) ((c : Thread nD τ).loc b))

theorem off0_S1x128 : ∀ a : Fin S1x128.rank, (![0, 0] : Fin S1x128.rank → ℕ) a = 0 := by decide
theorem off0_S5000x128 : ∀ a : Fin S5000x128.rank, (![0, 0] : Fin S5000x128.rank → ℕ) a = 0 := by decide

abbrev cond2_0 (i : grid2.Coords) : Prop :=
  (Scalar.cmpi .ne (Scalar.extui (Scalar.cmpi .eq (BitVec.ofNat 32 (i 0).val) 0#32)) 0#32) = 1#1

abbrev cond2_1 (i : grid2.Coords) : Prop := k2_cond2 i = 1#1

theorem hcond2_0 : ∀ t : Fin cfg2.N, cond2_0 (grid2.coords t) ↔ t.val = 0 :=
  (by decide +kernel : ∀ t : Fin grid2.N, cond2_0 (grid2.coords t) ↔ t.val = 0)
theorem hcond2_1 : ∀ t : Fin cfg2.N, cond2_1 (grid2.coords t) ↔ t.val = 9 :=
  (by decide +kernel : ∀ t : Fin grid2.N, cond2_1 (grid2.coords t) ↔ t.val = 9)

set_option maxHeartbeats 1000000 in

theorem run2_A (c : Dev nD) (E : Set ℕ) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole)
    (hc0 : cond2_0 i) (hc1 : ¬cond2_1 i)
    (x0 : Vec F S5000x128 .f32) (xi1 xi2 : Vec F S1x128 .f32) (K : PUnit → sProp 𝕄) :
    iprop(owns (c : Thread nD τ) arg1 fullShare x0 ∗ owns (c : Thread nD τ) arg2 fullShare xi1 ∗ owns (c : Thread nD τ) arg3 fullShare xi2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare xi1 ∗ owns (c : Thread nD τ) arg3 fullShare xi2
            ∗ owns (c : Thread nD τ) arg4 fullShare (k2_pay4 x0 k2_pay1) ∗ owns (c : Thread nD τ) arg5 fullShare (k2_pay5 x0 k2_pay2)) -∗ K ⟨⟩))
      ⊢ wp frame (wpE (defs₀ (F := F)) Variants.none c none) E (cc2__bn_stats_kernel i arg1 harg1 arg2 harg2 arg3 harg3 arg4 harg4 arg5 harg5) K := by
  simp only [cc2__bn_stats_kernel_eq_skeleton]; unfold cc2__bn_stats_kernel_skel
  unfold owns
  iintro ⟨⟨%f0, %hf0, H0⟩, ⟨%f1, %hf1, H1⟩, ⟨%f2, %hf2, H2⟩, ⟨%ds0, %fs0, -, HS0⟩, ⟨%ds1, %fs1, -, HS1⟩, Hk⟩
  obtain rfl := harg1.eq_unread hf0; obtain rfl := harg2.eq_unread hf1; obtain rfl := harg3.eq_unread hf2
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [HS0]
  · iexists _; isplitr
    swap; · iexact HS0
    ipureintro
    refine (read_writes_whole _ _ _ _ off0_S1x128 _ _).trans ?_
    rw [readAt_whole_unread harg1 _ _ off0_S5000x128]
    exact congrArg (k2_pay4 x0) (readCov_whole _ _ _ off0_S1x128 _ _)
  iexists _; isplitr
  swap; · iexact HS1
  ipureintro
  refine (read_writes_whole _ _ _ _ off0_S1x128 _ _).trans ?_
  rw [readAt_whole_unread harg1 _ _ off0_S5000x128]
  exact congrArg (k2_pay5 x0) (readCov_whole _ _ _ off0_S1x128 _ _)

set_option maxHeartbeats 1000000 in

theorem run2_B (c : Dev nD) (E : Set ℕ) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole)
    (hc0 : ¬cond2_0 i) (hc1 : ¬cond2_1 i)
    (x0 : Vec F S5000x128 .f32) (xi1 xi2 xs0 xs1 : Vec F S1x128 .f32) (K : PUnit → sProp 𝕄) :
    iprop(owns (c : Thread nD τ) arg1 fullShare x0 ∗ owns (c : Thread nD τ) arg2 fullShare xi1 ∗ owns (c : Thread nD τ) arg3 fullShare xi2
        ∗ owns (c : Thread nD τ) arg4 fullShare xs0 ∗ owns (c : Thread nD τ) arg5 fullShare xs1
        ∗ (iprop(owns (c : Thread nD τ) arg1 fullShare x0 ∗ owns (c : Thread nD τ) arg2 fullShare xi1 ∗ owns (c : Thread nD τ) arg3 fullShare xi2
            ∗ owns (c : Thread nD τ) arg4 fullShare (k2_pay4 x0 xs0) ∗ owns (c : Thread nD τ) arg5 fullShare (k2_pay5 x0 xs1)) -∗ K ⟨⟩))
      ⊢ wp frame (wpE (defs₀ (F := F)) Variants.none c none) E (cc2__bn_stats_kernel i arg1 harg1 arg2 harg2 arg3 harg3 arg4 harg4 arg5 harg5) K := by
  simp only [cc2__bn_stats_kernel_eq_skeleton]; unfold cc2__bn_stats_kernel_skel
  unfold owns
  iintro ⟨⟨%f0, %hf0, H0⟩, ⟨%f1, %hf1, H1⟩, ⟨%f2, %hf2, H2⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hfs0; obtain rfl := harg5.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [HS0]
  · iexists _; isplitr
    swap; · iexact HS0
    ipureintro
    refine (read_writes_whole _ _ _ _ off0_S1x128 _ _).trans ?_
    rw [readAt_whole_unread harg1 _ _ off0_S5000x128, readAt_whole_unread harg4 _ _ off0_S1x128]
  iexists _; isplitr
  swap; · iexact HS1
  ipureintro
  refine (read_writes_whole _ _ _ _ off0_S1x128 _ _).trans ?_
  rw [readAt_whole_unread harg1 _ _ off0_S5000x128, readAt_whole_unread harg5 _ _ off0_S1x128]

set_option maxHeartbeats 1000000 in

theorem run2_C (c : Dev nD) (E : Set ℕ) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole)
    (hc0 : ¬cond2_0 i) (hc1 : cond2_1 i)
    (x0 : Vec F S5000x128 .f32) (xs0 xs1 : Vec F S1x128 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare xs0 ∗ owns (c : Thread nD τ) arg5 fullShare xs1
        ∗ (iprop(owns (c : Thread nD τ) arg1 fullShare x0
            ∗ owns (c : Thread nD τ) arg2 fullShare (k2_pay6 (k2_pay4 x0 xs0))
            ∗ owns (c : Thread nD τ) arg3 fullShare (k2_pay7 (k2_pay4 x0 xs0) (k2_pay5 x0 xs1))
            ∗ owns (c : Thread nD τ) arg4 fullShare (k2_pay4 x0 xs0) ∗ owns (c : Thread nD τ) arg5 fullShare (k2_pay5 x0 xs1)) -∗ K ⟨⟩))
      ⊢ wp frame (wpE (defs₀ (F := F)) Variants.none c none) E (cc2__bn_stats_kernel i arg1 harg1 arg2 harg2 arg3 harg3 arg4 harg4 arg5 harg5) K := by
  simp only [cc2__bn_stats_kernel_eq_skeleton]; unfold cc2__bn_stats_kernel_skel
  unfold owns
  iintro ⟨⟨%f0, %hf0, H0⟩, ⟨%d1, %f1, -, H1⟩, ⟨%d2, %f2, -, H2⟩, ⟨%fs0, %hfs0, HS0⟩, ⟨%fs1, %hfs1, HS1⟩, Hk⟩
  obtain rfl := harg1.eq_unread hf0
  obtain rfl := harg4.eq_unread hfs0; obtain rfl := harg5.eq_unread hfs1
  sl_exec (disch := first | exact hc0 | exact hc1)
  sl_step
  have hv0 : k2_pay4 (View.readAt (Elt F) arg1.view (Rect.unit (s := S5000x128) ![0, 0] S5000x128.size inb_S5000x128_S5000x128_0_0).toLoadRect (harg1.unread x0))
      (View.readAt (Elt F) arg4.view (Rect.unit (s := S1x128) ![0, 0] S1x128.size inb_S1x128_S1x128_0_0).toLoadRect (harg4.unread xs0)) = k2_pay4 x0 xs0 := by
    rw [readAt_whole_unread harg1 _ _ off0_S5000x128, readAt_whole_unread harg4 _ _ off0_S1x128]
  have hv1 : k2_pay5 (View.readAt (Elt F) arg1.view (Rect.unit (s := S5000x128) ![0, 0] S5000x128.size inb_S5000x128_S5000x128_0_0).toLoadRect (harg1.unread x0))
      (View.readAt (Elt F) arg5.view (Rect.unit (s := S1x128) ![0, 0] S1x128.size inb_S1x128_S1x128_0_0).toLoadRect (harg5.unread xs1)) = k2_pay5 x0 xs1 := by
    rw [readAt_whole_unread harg1 _ _ off0_S5000x128, readAt_whole_unread harg5 _ _ off0_S1x128]
  iapply Hk
  isplitl [H0]
  · iexists _; isplitr; · ipureintro; exact harg1.read_unread _
    iexact H0
  isplitl [H1]
  · iexists _; isplitr
    swap; · iexact H1
    ipureintro
    refine (read_writes_whole _ _ _ _ off0_S1x128 _ _).trans ?_
    exact congrArg k2_pay6 ((readCov_whole _ _ _ off0_S1x128 _ _).trans hv0)
  isplitl [H2]
  · iexists _; isplitr
    swap; · iexact H2
    ipureintro
    refine (read_writes_whole _ _ _ _ off0_S1x128 _ _).trans ?_
    exact congrArg₂ k2_pay7 ((readCov_whole _ _ _ off0_S1x128 _ _).trans hv0) ((readCov_whole _ _ _ off0_S1x128 _ _).trans hv1)
  isplitl [HS0]
  · iexists _; isplitr
    swap; · iexact HS0
    ipureintro
    exact (read_writes_whole _ _ _ _ off0_S1x128 _ _).trans hv0
  iexists _; isplitr
  swap; · iexact HS1
  ipureintro
  exact (read_writes_whole _ _ _ _ off0_S1x128 _ _).trans hv1

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def scAt2 (c : Dev nD) : ℕ → Vec F S1x128 .f32 × Vec F S1x128 .f32
  | 0 => (k2_pay1, k2_pay2)
  | n + 1 =>
    if h : n < cfg2.N then
      (k2_pay4 (iblk2 V c 0 ⟨n, h⟩) (scAt2 c n).1, k2_pay5 (iblk2 V c 0 ⟨n, h⟩) (scAt2 c n).2)
    else scAt2 c n

theorem scAt2_zero (c : Dev nD) : scAt2 V c 0 = (k2_pay1, k2_pay2) := rfl

theorem scAt2_succ (c : Dev nD) (t : Fin cfg2.N) :
    scAt2 V c (t.val + 1) = (k2_pay4 (iblk2 V c 0 t) (scAt2 V c t.val).1, k2_pay5 (iblk2 V c 0 t) (scAt2 V c t.val).2) :=
  dif_pos t.isLt

def Phi2_at (c : Dev nD) (n : ℕ) : sProp 𝕄 :=
  iprop((∃ d0 d1, ⌜n ≠ 0 → d0 = (scAt2 V c n).1 ∧ d1 = (scAt2 V c n).2⌝
        ∗ owns (c : Thread nD τ) (Memref.whole cc2_scratch0 : Memref sig .tc .vmem S1x128 .f32) fullShare d0
        ∗ owns (c : Thread nD τ) (Memref.whole cc2_scratch1 : Memref sig .tc .vmem S1x128 .f32) fullShare d1)
    ∗ Pipeline.scopedRestBut (Ix := Unit) (Name := ℕ) (U := Pipeline.UD sig nD τ) (Lvl := ℕ) (Val := Elt F) spec2 c [cc2_scratch0, cc2_scratch1]
    ∗ (∃ r, prngReg c r))

def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => k2_pay6 (scAt2 V c (t.val + 1)).1
    | ⟨2, _⟩ => k2_pay7 (scAt2 V c (t.val + 1)).1 (scAt2 V c (t.val + 1)).2
  Φ j := Phi2_at V c j.val
  q _ := fullShare
  owed _ := 0

theorem A_eq2 (c : Dev nD) (w : Fin cfg2.W) : (dat2 V c).A w = V c (Pipeline.arrRef spec2 w) := by
  dsimp only [dat2]

theorem dat2_after_0 (c : Dev nD) (t : Fin cfg2.N) : (dat2 V c).after 0 t = iblk2 V c 0 t := by dsimp only [dat2]
theorem dat2_after_1 (c : Dev nD) (t : Fin cfg2.N) : (dat2 V c).after 1 t = k2_pay6 (scAt2 V c (t.val + 1)).1 := by dsimp only [dat2]
theorem dat2_after_2 (c : Dev nD) (t : Fin cfg2.N) :
    (dat2 V c).after 2 t = k2_pay7 (scAt2 V c (t.val + 1)).1 (scAt2 V c (t.val + 1)).2 := by dsimp only [dat2]

theorem dat2_before_0 (c : Dev nD) (t : Fin cfg2.N) (d) : (dat2 V c).before 0 t d = iblk2 V c 0 t :=
  ((dat2 V c).before_in_eq_fetched 0 rfl (fun _ => rfl) (fun _ _ _ => rfl)
      (fun t => by rw [dat2_after_0]; unfold Dat.blockOf iblk2; rw [A_eq2]; try rfl) t d).trans
    (by unfold Dat.fetched Dat.blockOf iblk2; rw [A_eq2]; try rfl)

private theorem live2_0 : ∀ t : Fin cfg2.N, cfg2.idle 0 (grid2.coords t) = false := fun _ => rfl

private theorem idle2_1 : ∀ t : Fin cfg2.N, t.val ≠ 9 → cfg2.idle 1 (grid2.coords t) = true :=
  (by decide +kernel : ∀ t : Fin grid2.N, t.val ≠ 9 → idle2 1 (grid2.coords t) = true)
private theorem idle2_2 : ∀ t : Fin cfg2.N, t.val ≠ 9 → cfg2.idle 2 (grid2.coords t) = true :=
  (by decide +kernel : ∀ t : Fin grid2.N, t.val ≠ 9 → idle2 2 (grid2.coords t) = true)

private theorem live2_1 : ∀ t : Fin cfg2.N, t.val = 9 → cfg2.idle 1 (grid2.coords t) = false :=
  (by decide +kernel : ∀ t : Fin grid2.N, t.val = 9 → idle2 1 (grid2.coords t) = false)
private theorem live2_2 : ∀ t : Fin cfg2.N, t.val = 9 → cfg2.idle 2 (grid2.coords t) = false :=
  (by decide +kernel : ∀ t : Fin grid2.N, t.val = 9 → idle2 2 (grid2.coords t) = false)

private theorem noflush2_1 (t : Fin cfg2.N) (h : t.val ≠ 9) : (cfg2.win 1).flush t = false :=
  Bool.eq_false_iff.mpr fun hf => by
    have h1 := (flush2_1 t).mp hf
    have hN : t.val < 10 := lt_of_lt_of_eq t.isLt (show cfg2.N = 10 from N_2)
    omega
private theorem noflush2_2 (t : Fin cfg2.N) (h : t.val ≠ 9) : (cfg2.win 2).flush t = false :=
  Bool.eq_false_iff.mpr fun hf => by
    have h1 := (flush2_2 t).mp hf
    have hN : t.val < 10 := lt_of_lt_of_eq t.isLt (show cfg2.N = 10 from N_2)
    omega

private abbrev ms2_0 (t : Fin cfg2.N) : Memref sig .tc .vmem S5000x128 .f32 := win2_0.stage (cfg2.slots t 0)
private abbrev ms2_1 (t : Fin cfg2.N) : Memref sig .tc .vmem S1x128 .f32 := win2_1.stage (cfg2.slots t 1)
private abbrev ms2_2 (t : Fin cfg2.N) : Memref sig .tc .vmem S1x128 .f32 := win2_2.stage (cfg2.slots t 2)

private def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

private def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t)

set_option maxHeartbeats 1000000 in

private theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  show _ ⊢ wp _ _ _ (cc2__bn_stats_kernel (grid2.coords t) _ (hstage2_0 _) _ (hstage2_1 _) _ (hstage2_2 _) _ (Memref.isWhole_whole _) _ (Memref.isWhole_whole _)) _
  simp only [dat2_before_0]
  rw [show (dat2 V c).owesAt () t.succ = (dat2 V c).owesAt () t.castSucc from rfl,
    show (dat2 V c).Φ t.succ = Phi2_at V c (t.val + 1) from rfl,
    show (dat2 V c).Φ t.castSucc = Phi2_at V c t.val from rfl,
    show (dat2 V c).leavesExact 0 t = owns (c : Thread nD τ) (ms2_0 t) fullShare ((dat2 V c).after 0 t) from by
      unfold Dat.leavesExact; rw [live2_0 t],
    dat2_after_0]
  have hN : t.val < 10 := lt_of_lt_of_eq t.isLt (show cfg2.N = 10 from N_2)
  unfold Phi2_at
  rw [scAt2_succ V c t]
  by_cases h9 : t.val = 9
  ·
    have hc0 : ¬cond2_0 (grid2.coords t) := fun h => by have := (hcond2_0 t).mp h; omega
    have hc1 : cond2_1 (grid2.coords t) := (hcond2_1 t).mpr h9
    rw [show (dat2 V c).leavesExact 1 t = owns (c : Thread nD τ) (ms2_1 t) fullShare ((dat2 V c).after 1 t) from by
        unfold Dat.leavesExact; rw [live2_1 t h9],
      show (dat2 V c).leavesExact 2 t = owns (c : Thread nD τ) (ms2_2 t) fullShare ((dat2 V c).after 2 t) from by
        unfold Dat.leavesExact; rw [live2_2 t h9],
      dat2_after_1, dat2_after_2, scAt2_succ V c t]
    iintro ⟨⟨⟨%d0, %d1, %hd, HS0, HS1⟩, HR, Hg⟩, Ho, ⟨%e0, H0⟩, ⟨%e1, H1⟩, ⟨%e2, H2⟩⟩
    obtain ⟨rfl, rfl⟩ := hd (by omega)
    iapply (run2_C c Set.univ (grid2.coords t) _ _ _ _ _ _ _ _ _ _ hc0 hc1 (iblk2 V c 0 t) _ _ _)
    isplitl [H0]; · iexact H0
    isplitl [H1]; · iexists _; iexact H1
    isplitl [H2]; · iexists _; iexact H2
    isplitl [HS0]; · iexact HS0
    isplitl [HS1]; · iexact HS1
    iintro ⟨H0, H1, H2, HS0, HS1⟩
    isplitl [HS0 HS1 HR Hg]
    · isplitl [HS0 HS1]
      · iexists _, _; isplitr; · ipureintro; exact fun _ => ⟨rfl, rfl⟩
        isplitl [HS0]; · iexact HS0
        iexact HS1
      isplitl [HR]; · iexact HR
      iexact Hg
    isplitl [Ho]; · iexact Ho
    isplitl [H0]; · iexact H0
    isplitl [H1]; · iexact H1
    iexact H2
  · have hc1 : ¬cond2_1 (grid2.coords t) := fun h => h9 ((hcond2_1 t).mp h)
    rw [Dat.leavesExact_idle (dat2 V c) 1 t (idle2_1 t h9) (noflush2_1 t h9),
      Dat.leavesExact_idle (dat2 V c) 2 t (idle2_2 t h9) (noflush2_2 t h9)]
    by_cases h0 : t.val = 0
    ·
      have hc0 : cond2_0 (grid2.coords t) := (hcond2_0 t).mpr h0
      rw [h0, scAt2_zero]
      iintro ⟨⟨⟨%d0, %d1, -, HS0, HS1⟩, HR, Hg⟩, Ho, ⟨%e0, H0⟩, ⟨%e1, H1⟩, ⟨%e2, H2⟩⟩
      iapply (run2_A c Set.univ (grid2.coords t) _ _ _ _ _ _ _ _ _ _ hc0 hc1 (iblk2 V c 0 t) _ _ _)
      isplitl [H0]; · iexact H0
      isplitl [H1]; · iexact H1
      isplitl [H2]; · iexact H2
      isplitl [HS0]; · iexists _; iexact HS0
      isplitl [HS1]; · iexists _; iexact HS1
      iintro ⟨H0, H1, H2, HS0, HS1⟩
      isplitl [HS0 HS1 HR Hg]
      · isplitl [HS0 HS1]
        · iexists _, _; isplitr; · ipureintro; exact fun _ => ⟨rfl, rfl⟩
          isplitl [HS0]; · iexact HS0
          iexact HS1
        isplitl [HR]; · iexact HR
        iexact Hg
      isplitl [Ho]; · iexact Ho
      isplitl [H0]; · iexact H0
      isplitl [H1]; · iexists _; iexact H1
      iexists _; iexact H2
    ·
      have hc0 : ¬cond2_0 (grid2.coords t) := fun h => h0 ((hcond2_0 t).mp h)
      iintro ⟨⟨⟨%d0, %d1, %hd, HS0, HS1⟩, HR, Hg⟩, Ho, ⟨%e0, H0⟩, ⟨%e1, H1⟩, ⟨%e2, H2⟩⟩
      obtain ⟨rfl, rfl⟩ := hd h0
      iapply (run2_B c Set.univ (grid2.coords t) _ _ _ _ _ _ _ _ _ _ hc0 hc1 (iblk2 V c 0 t) _ _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0 HS1]
        · iexists _, _; isplitr; · ipureintro; exact fun _ => ⟨rfl, rfl⟩
          isplitl [HS0]; · iexact HS0
          iexact HS1
        isplitl [HR]; · iexact HR
        iexact Hg
      isplitl [Ho]; · iexact Ho
      isplitl [H0]; · iexact H0
      isplitl [H1]; · iexists _; iexact H1
      iexists _; iexact H2

theorem body_obligation2 (c : Dev nD) : BodyObligation (dat2 (F := F) V c) (defs₀ (F := F)) Variants.none () Set.univ := fun t => by
  rw [bigSep_W2, bigSep_W2]
  exact sound_body2 V c t

theorem Phi2_in (c : Dev nD) : (iprop((∃ r, prngReg c r) ∗ Pipeline.scopedRest (Ix := Unit) (Name := ℕ) (U := Pipeline.UD sig nD τ) (Lvl := ℕ) (Val := Elt F) spec2 c) : sProp 𝕄) ⊢ (dat2 V c).Φ 0 := by
  rw [show (dat2 V c).Φ 0 = Phi2_at V c 0 from rfl, scopedRest2_split]; unfold Phi2_at
  simp only [owns_whole]
  iintro ⟨Hg, ⟨⟨%f0, HS0⟩, ⟨%f1, HS1⟩⟩, HR⟩
  isplitl [HS0 HS1]
  · iexists f0, f1; isplitr; · ipureintro; exact fun h => absurd rfl h
    isplitl [HS0]; · iexact HS0
    iexact HS1
  isplitl [HR]; · iexact HR
  iexact Hg

theorem Phi2_out (c : Dev nD) : (dat2 V c).Φ (Fin.last cfg2.N) ⊢ (iprop((∃ r, prngReg c r) ∗ Pipeline.scopedRest (Ix := Unit) (Name := ℕ) (U := Pipeline.UD sig nD τ) (Lvl := ℕ) (Val := Elt F) spec2 c) : sProp 𝕄) := by
  rw [show (dat2 V c).Φ (Fin.last cfg2.N) = Phi2_at V c (Fin.last cfg2.N).val from rfl, scopedRest2_split]; unfold Phi2_at
  simp only [owns_whole]
  iintro ⟨⟨%d0, %d1, -, HS0, HS1⟩, HR, Hg⟩
  isplitl [Hg]; · iexact Hg
  isplitl [HS0 HS1]
  · isplitl [HS0]; · iexists d0; iexact HS0
    iexists d1; iexact HS1
  iexact HR

end Cert.KernelIdeal.Hand

end
-- ==== Proof.KI.Reg3.lean ====
import proofs.«171585_j55456617726008_1_alg».proof.Proof.Gen.KernelIdeal.Launch
import proofs.«171585_j55456617726008_1_alg».proof.Proof.Gen.KernelIdeal.Skeleton
import proofs.«171585_j55456617726008_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S5000x128 := Rect.unit (s := S5000x128) ![0, 0] S5000x128.size inb_S5000x128_S5000x128_0_0

abbrev r3_1 : Rect S1x128 := Rect.unit (s := S1x128) ![0, 0] S1x128.size inb_S1x128_S1x128_0_0

def out3_5 (x0 : Vec F S5000x128 .f32) (x1 : Vec F S1x128 .f32) (x2 : Vec F S1x128 .f32) (x3 : Vec F S1x128 .f32) (x4 : Vec F S1x128 .f32) : Vec F S5000x128 .f32 :=
  View.canon [⟨r3_0, k3_pay1 (View.ld x0 r3_0) (View.ld x1 r3_1) (View.ld x2 r3_1) (View.ld x3 r3_1) (View.ld x4 r3_1)⟩]

theorem cover3_5 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

set_option maxHeartbeats 1000000 in

theorem sound_kernel3 (c : Dev nD) (E : Set ℕ) (i : grid3.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__bn_relu_kernel i arg1 harg1 arg2 harg2 arg3 harg3 arg4 harg4 arg5 harg5 arg6 harg6) K := by
  simp only [cc3__bn_relu_kernel_eq_skeleton]; unfold cc3__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl
theorem before3_3 (c : Dev nD) (t : Fin cfg3.N) (d) : (dat3 V c).before 3 t d = iblk3 V c 3 t :=
  ((dat3 V c).before_in_eq_fetched 3 rfl (fun _ => rfl) (fun _ _ _ => rfl) (fun _ => rfl) t d).trans rfl
theorem before3_4 (c : Dev nD) (t : Fin cfg3.N) (d) : (dat3 V c).before 4 t d = iblk3 V c 4 t :=
  ((dat3 V c).before_in_eq_fetched 4 rfl (fun _ => rfl) (fun _ _ _ => rfl) (fun _ => rfl) t d).trans rfl

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  show _ ⊢ wp _ _ _ (cc3__bn_relu_kernel (grid3.coords t) _ (hstage3_0 _) _ (hstage3_1 _) _ (hstage3_2 _) _ (hstage3_3 _) _ (hstage3_4 _) _ (hstage3_5 _)) _
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _
    (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Reg4.lean ====
import proofs.«171585_j55456617726008_1_alg».proof.Proof.Gen.KernelIdeal.Launch
import proofs.«171585_j55456617726008_1_alg».proof.Proof.Gen.KernelIdeal.Skeleton
import proofs.«171585_j55456617726008_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_x : Rect S5000x128 := Rect.unit (s := S5000x128) ![0, 0] S5000x128.size inb_S5000x128_S5000x128_0_0
abbrev r4_w : Rect S128x128 := Rect.unit (s := S128x128) ![0, 0] S128x128.size inb_S128x128_S128x128_0_0

def out4_2 (x0 : Vec F S5000x128 .f32) (x1 : Vec F S128x128 .f32) : Vec F S5000x128 .f32 :=
  View.canon [⟨r4_x, k4_pay1 (View.ld x0 r4_x) (View.ld x1 r4_w)⟩]

theorem cover4_2 (p0 : Vec F S5000x128 .f32) (y : S5000x128.Idx) :
    ∃ pc ∈ ([⟨r4_x, p0⟩] : List (View.Piece (Elt F) S5000x128 .f32)), y ∈ pc.1.set :=
  View.cover_of_tiled [⟨r4_x, p0⟩] S5000x128.size (by rfl) y

set_option maxHeartbeats 1000000 in

theorem sound_kernel4 (c : Dev nD) (E : Set ℕ) (i : grid4.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__matmul_kernel i arg1 harg1 arg2 harg2 arg3 harg3) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  show _ ⊢ wp _ _ _ (cc4__matmul_kernel (grid4.coords t) _ (hstage4_0 _) _ (hstage4_1 _) _ (hstage4_2 _)) _
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ (grid4.coords t) _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Reg5.lean ====
import proofs.«171585_j55456617726008_1_alg».proof.Proof.Gen.KernelIdeal.Launch
import proofs.«171585_j55456617726008_1_alg».proof.Proof.Gen.KernelIdeal.Skeleton
import proofs.«171585_j55456617726008_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«171585_j55456617726008_1_alg».proof.Proof.KI.Reg1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def dat5 (c : Dev nD) : Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out1_4 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) :
    (dat5 V c).after 4 t = out1_4 (iblk5 V c 0 t) (iblk5 V c 1 t) (iblk5 V c 2 t) (iblk5 V c 3 t) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl
theorem before5_2 (c : Dev nD) (t : Fin cfg5.N) (d) : (dat5 V c).before 2 t d = iblk5 V c 2 t :=
  ((dat5 V c).before_in_eq_fetched 2 rfl (fun _ => rfl) (fun _ _ _ => rfl) (fun _ => rfl) t d).trans rfl
theorem before5_3 (c : Dev nD) (t : Fin cfg5.N) (d) : (dat5 V c).before 3 t d = iblk5 V c 3 t :=
  ((dat5 V c).before_in_eq_fetched 3 rfl (fun _ => rfl) (fun _ _ _ => rfl) (fun _ => rfl) t d).trans rfl

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  show _ ⊢ wp _ _ _ (cc1__combine_kernel (grid5.coords t) _ (hstage5_0 _) _ (hstage5_1 _) _ (hstage5_2 _) _ (hstage5_3 _) _ (hstage5_4 _)) _
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Hw, ⟨%da, Ha⟩, ⟨%dh, Hh⟩, ⟨%dd, Hd⟩, ⟨%db, Hb⟩, ⟨%dz, Ho⟩⟩
  iapply (sound_kernel1 c Set.univ (grid5.coords t) _ _ _ _ _ _ _ _ _ _
    (iblk5 V c 0 t) (iblk5 V c 1 t) (iblk5 V c 2 t) (iblk5 V c 3 t) _)
  isplitl [Ha]; · iexact Ha
  isplitl [Hh]; · iexact Hh
  isplitl [Hd]; · iexact Hd
  isplitl [Hb]; · iexact Hb
  isplitl [Ho]; · iexists _; iexact Ho
  iintro ⟨Ha, Hh, Hd, Hb, Ho⟩
  isplitl [HΦ]; · iexact HΦ
  isplitl [Hw]; · iexact Hw
  isplitl [Ha]; · iexact Ha
  isplitl [Hh]; · iexact Hh
  isplitl [Hd]; · iexact Hd
  isplitl [Hb]; · iexact Hb
  iexact Ho

theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Reg6.lean ====
import proofs.«171585_j55456617726008_1_alg».proof.Proof.Gen.KernelIdeal.Launch
import proofs.«171585_j55456617726008_1_alg».proof.Proof.Gen.KernelIdeal.Skeleton
import proofs.«171585_j55456617726008_1_alg».proof.Proof.Gen.KernelIdeal.Points
import proofs.«171585_j55456617726008_1_alg».proof.Proof.LibWhole
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«171585_j55456617726008_1_alg».proof.Proof.KI.Reg2

set_option maxRecDepth 16384

noncomputable section

namespace Cert.KernelIdeal.Hand

open Cert.KernelIdeal Cert.KernelIdeal.Gen Cert.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def scAt6 (c : Dev nD) : ℕ → Vec F S1x128 .f32 × Vec F S1x128 .f32
  | 0 => (k2_pay1, k2_pay2)
  | n + 1 =>
    if h : n < cfg6.N then
      (k2_pay4 (iblk6 V c 0 ⟨n, h⟩) (scAt6 c n).1, k2_pay5 (iblk6 V c 0 ⟨n, h⟩) (scAt6 c n).2)
    else scAt6 c n

theorem scAt6_zero (c : Dev nD) : scAt6 V c 0 = (k2_pay1, k2_pay2) := rfl

theorem scAt6_succ (c : Dev nD) (t : Fin cfg6.N) :
    scAt6 V c (t.val + 1) = (k2_pay4 (iblk6 V c 0 t) (scAt6 V c t.val).1, k2_pay5 (iblk6 V c 0 t) (scAt6 V c t.val).2) :=
  dif_pos t.isLt

def Phi6_at (c : Dev nD) (n : ℕ) : sProp 𝕄 :=
  iprop((∃ d0 d1, ⌜n ≠ 0 → d0 = (scAt6 V c n).1 ∧ d1 = (scAt6 V c n).2⌝
        ∗ owns (c : Thread nD τ) (Memref.whole cc6_scratch0 : Memref sig .tc .vmem S1x128 .f32) fullShare d0
        ∗ owns (c : Thread nD τ) (Memref.whole cc6_scratch1 : Memref sig .tc .vmem S1x128 .f32) fullShare d1)
    ∗ Pipeline.scopedRestBut (Ix := Unit) (Name := ℕ) (U := Pipeline.UD sig nD τ) (Lvl := ℕ) (Val := Elt F) spec6 c [cc6_scratch0, cc6_scratch1]
    ∗ (∃ r, prngReg c r))

def dat6 (c : Dev nD) : Dat τ (Elt F) Unit ℕ (Pipeline.UD sig nD τ) ℕ cfg6 c where
  A w := V c (Pipeline.arrRef spec6 w)
  after w t := match w with
    | ⟨0, _⟩ => iblk6 V c 0 t
    | ⟨1, _⟩ => k2_pay6 (scAt6 V c (t.val + 1)).1
    | ⟨2, _⟩ => k2_pay7 (scAt6 V c (t.val + 1)).1 (scAt6 V c (t.val + 1)).2
  Φ j := Phi6_at V c j.val
  q _ := fullShare
  owed _ := 0

theorem A_eq6 (c : Dev nD) (w : Fin cfg6.W) : (dat6 V c).A w = V c (Pipeline.arrRef spec6 w) := by
  dsimp only [dat6]

theorem dat6_after_0 (c : Dev nD) (t : Fin cfg6.N) : (dat6 V c).after 0 t = iblk6 V c 0 t := by dsimp only [dat6]
theorem dat6_after_1 (c : Dev nD) (t : Fin cfg6.N) : (dat6 V c).after 1 t = k2_pay6 (scAt6 V c (t.val + 1)).1 := by dsimp only [dat6]
theorem dat6_after_2 (c : Dev nD) (t : Fin cfg6.N) :
    (dat6 V c).after 2 t = k2_pay7 (scAt6 V c (t.val + 1)).1 (scAt6 V c (t.val + 1)).2 := by dsimp only [dat6]

theorem dat6_before_0 (c : Dev nD) (t : Fin cfg6.N) (d) : (dat6 V c).before 0 t d = iblk6 V c 0 t :=
  ((dat6 V c).before_in_eq_fetched 0 rfl (fun _ => rfl) (fun _ _ _ => rfl)
      (fun t => by rw [dat6_after_0]; unfold Dat.blockOf iblk6; rw [A_eq6]; try rfl) t d).trans
    (by unfold Dat.fetched Dat.blockOf iblk6; rw [A_eq6]; try rfl)

private theorem live6_0 : ∀ t : Fin cfg6.N, cfg6.idle 0 (grid6.coords t) = false := fun _ => rfl

private theorem idle6_1 : ∀ t : Fin cfg6.N, t.val ≠ 9 → cfg6.idle 1 (grid6.coords t) = true :=
  (by decide +kernel : ∀ t : Fin grid6.N, t.val ≠ 9 → idle6 1 (grid6.coords t) = true)
private theorem idle6_2 : ∀ t : Fin cfg6.N, t.val ≠ 9 → cfg6.idle 2 (grid6.coords t) = true :=
  (by decide +kernel : ∀ t : Fin grid6.N, t.val ≠ 9 → idle6 2 (grid6.coords t) = true)

private theorem live6_1 : ∀ t : Fin cfg6.N, t.val = 9 → cfg6.idle 1 (grid6.coords t) = false :=
  (by decide +kernel : ∀ t : Fin grid6.N, t.val = 9 → idle6 1 (grid6.coords t) = false)
private theorem live6_2 : ∀ t : Fin cfg6.N, t.val = 9 → cfg6.idle 2 (grid6.coords t) = false :=
  (by decide +kernel : ∀ t : Fin grid6.N, t.val = 9 → idle6 2 (grid6.coords t) = false)

private theorem noflush6_1 (t : Fin cfg6.N) (h : t.val ≠ 9) : (cfg6.win 1).flush t = false :=
  Bool.eq_false_iff.mpr fun hf => by
    have h1 := (flush6_1 t).mp hf
    have hN : t.val < 10 := lt_of_lt_of_eq t.isLt (show cfg6.N = 10 from N_6)
    omega
private theorem noflush6_2 (t : Fin cfg6.N) (h : t.val ≠ 9) : (cfg6.win 2).flush t = false :=
  Bool.eq_false_iff.mpr fun hf => by
    have h1 := (flush6_2 t).mp hf
    have hN : t.val < 10 := lt_of_lt_of_eq t.isLt (show cfg6.N = 10 from N_6)
    omega

private abbrev ms6_0 (t : Fin cfg6.N) : Memref sig .tc .vmem S5000x128 .f32 := win6_0.stage (cfg6.slots t 0)
private abbrev ms6_1 (t : Fin cfg6.N) : Memref sig .tc .vmem S1x128 .f32 := win6_1.stage (cfg6.slots t 1)
private abbrev ms6_2 (t : Fin cfg6.N) : Memref sig .tc .vmem S1x128 .f32 := win6_2.stage (cfg6.slots t 2)

private def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d)))

private def bodyPost6 (c : Dev nD) (t : Fin cfg6.N) : sProp 𝕄 :=
  iprop((dat6 V c).Φ t.succ ∗ (dat6 V c).owesAt () t.succ
    ∗ (dat6 V c).leavesExact 0 t ∗ (dat6 V c).leavesExact 1 t ∗ (dat6 V c).leavesExact 2 t)

set_option maxHeartbeats 1000000 in

private theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  show _ ⊢ wp _ _ _ (cc2__bn_stats_kernel (grid6.coords t) _ (hstage6_0 _) _ (hstage6_1 _) _ (hstage6_2 _) _ (Memref.isWhole_whole _) _ (Memref.isWhole_whole _)) _
  simp only [dat6_before_0]
  rw [show (dat6 V c).owesAt () t.succ = (dat6 V c).owesAt () t.castSucc from rfl,
    show (dat6 V c).Φ t.succ = Phi6_at V c (t.val + 1) from rfl,
    show (dat6 V c).Φ t.castSucc = Phi6_at V c t.val from rfl,
    show (dat6 V c).leavesExact 0 t = owns (c : Thread nD τ) (ms6_0 t) fullShare ((dat6 V c).after 0 t) from by
      unfold Dat.leavesExact; rw [live6_0 t],
    dat6_after_0]
  have hN : t.val < 10 := lt_of_lt_of_eq t.isLt (show cfg6.N = 10 from N_6)
  unfold Phi6_at
  rw [scAt6_succ V c t]
  by_cases h9 : t.val = 9
  ·
    have hc0 : ¬cond2_0 (grid6.coords t) := fun h => by have := (hcond2_0 t).mp h; omega
    have hc1 : cond2_1 (grid6.coords t) := (hcond2_1 t).mpr h9
    rw [show (dat6 V c).leavesExact 1 t = owns (c : Thread nD τ) (ms6_1 t) fullShare ((dat6 V c).after 1 t) from by
        unfold Dat.leavesExact; rw [live6_1 t h9],
      show (dat6 V c).leavesExact 2 t = owns (c : Thread nD τ) (ms6_2 t) fullShare ((dat6 V c).after 2 t) from by
        unfold Dat.leavesExact; rw [live6_2 t h9],
      dat6_after_1, dat6_after_2, scAt6_succ V c t]
    iintro ⟨⟨⟨%d0, %d1, %hd, HS0, HS1⟩, HR, Hg⟩, Ho, ⟨%e0, H0⟩, ⟨%e1, H1⟩, ⟨%e2, H2⟩⟩
    obtain ⟨rfl, rfl⟩ := hd (by omega)
    iapply (run2_C c Set.univ (grid6.coords t) _ _ _ _ _ _ _ _ _ _ hc0 hc1 (iblk6 V c 0 t) _ _ _)
    isplitl [H0]; · iexact H0
    isplitl [H1]; · iexists _; iexact H1
    isplitl [H2]; · iexists _; iexact H2
    isplitl [HS0]; · iexact HS0
    isplitl [HS1]; · iexact HS1
    iintro ⟨H0, H1, H2, HS0, HS1⟩
    isplitl [HS0 HS1 HR Hg]
    · isplitl [HS0 HS1]
      · iexists _, _; isplitr; · ipureintro; exact fun _ => ⟨rfl, rfl⟩
        isplitl [HS0]; · iexact HS0
        iexact HS1
      isplitl [HR]; · iexact HR
      iexact Hg
    isplitl [Ho]; · iexact Ho
    isplitl [H0]; · iexact H0
    isplitl [H1]; · iexact H1
    iexact H2
  · have hc1 : ¬cond2_1 (grid6.coords t) := fun h => h9 ((hcond2_1 t).mp h)
    rw [Dat.leavesExact_idle (dat6 V c) 1 t (idle6_1 t h9) (noflush6_1 t h9),
      Dat.leavesExact_idle (dat6 V c) 2 t (idle6_2 t h9) (noflush6_2 t h9)]
    by_cases h0 : t.val = 0
    ·
      have hc0 : cond2_0 (grid6.coords t) := (hcond2_0 t).mpr h0
      rw [h0, scAt6_zero]
      iintro ⟨⟨⟨%d0, %d1, -, HS0, HS1⟩, HR, Hg⟩, Ho, ⟨%e0, H0⟩, ⟨%e1, H1⟩, ⟨%e2, H2⟩⟩
      iapply (run2_A c Set.univ (grid6.coords t) _ _ _ _ _ _ _ _ _ _ hc0 hc1 (iblk6 V c 0 t) _ _ _)
      isplitl [H0]; · iexact H0
      isplitl [H1]; · iexact H1
      isplitl [H2]; · iexact H2
      isplitl [HS0]; · iexists _; iexact HS0
      isplitl [HS1]; · iexists _; iexact HS1
      iintro ⟨H0, H1, H2, HS0, HS1⟩
      isplitl [HS0 HS1 HR Hg]
      · isplitl [HS0 HS1]
        · iexists _, _; isplitr; · ipureintro; exact fun _ => ⟨rfl, rfl⟩
          isplitl [HS0]; · iexact HS0
          iexact HS1
        isplitl [HR]; · iexact HR
        iexact Hg
      isplitl [Ho]; · iexact Ho
      isplitl [H0]; · iexact H0
      isplitl [H1]; · iexists _; iexact H1
      iexists _; iexact H2
    ·
      have hc0 : ¬cond2_0 (grid6.coords t) := fun h => h0 ((hcond2_0 t).mp h)
      iintro ⟨⟨⟨%d0, %d1, %hd, HS0, HS1⟩, HR, Hg⟩, Ho, ⟨%e0, H0⟩, ⟨%e1, H1⟩, ⟨%e2, H2⟩⟩
      obtain ⟨rfl, rfl⟩ := hd h0
      iapply (run2_B c Set.univ (grid6.coords t) _ _ _ _ _ _ _ _ _ _ hc0 hc1 (iblk6 V c 0 t) _ _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0 HS1]
        · iexists _, _; isplitr; · ipureintro; exact fun _ => ⟨rfl, rfl⟩
          isplitl [HS0]; · iexact HS0
          iexact HS1
        isplitl [HR]; · iexact HR
        iexact Hg
      isplitl [Ho]; · iexact Ho
      isplitl [H0]; · iexact H0
      isplitl [H1]; · iexists _; iexact H1
      iexists _; iexact H2

theorem body_obligation6 (c : Dev nD) : BodyObligation (dat6 (F := F) V c) (defs₀ (F := F)) Variants.none () Set.univ := fun t => by
  rw [bigSep_W6, bigSep_W6]
  exact sound_body6 V c t

theorem Phi6_in (c : Dev nD) : (iprop((∃ r, prngReg c r) ∗ Pipeline.scopedRest (Ix := Unit) (Name := ℕ) (U := Pipeline.UD sig nD τ) (Lvl := ℕ) (Val := Elt F) spec6 c) : sProp 𝕄) ⊢ (dat6 V c).Φ 0 := by
  rw [show (dat6 V c).Φ 0 = Phi6_at V c 0 from rfl, scopedRest6_split]; unfold Phi6_at
  simp only [owns_whole]
  iintro ⟨Hg, ⟨⟨%f0, HS0⟩, ⟨%f1, HS1⟩⟩, HR⟩
  isplitl [HS0 HS1]
  · iexists f0, f1; isplitr; · ipureintro; exact fun h => absurd rfl h
    isplitl [HS0]; · iexact HS0
    iexact HS1
  isplitl [HR]; · iexact HR
  iexact Hg

theorem Phi6_out (c : Dev nD) : (dat6 V c).Φ (Fin.last cfg6.N) ⊢ (iprop((∃ r, prngReg c r) ∗ Pipeline.scopedRest (Ix := Unit) (Name := ℕ) (U := Pipeline.UD sig nD τ) (Lvl := ℕ) (Val := Elt F) spec6 c) : sProp 𝕄) := by
  rw [show (dat6 V c).Φ (Fin.last cfg6.N) = Phi6_at V c (Fin.last cfg6.N).val from rfl, scopedRest6_split]; unfold Phi6_at
  simp only [owns_whole]
  iintro ⟨⟨%d0, %d1, -, HS0, HS1⟩, HR, Hg⟩
  isplitl [Hg]; · iexact Hg
  isplitl [HS0 HS1]
  · isplitl [HS0]; · iexists d0; iexact HS0
    iexists d1; iexact HS1
  iexact HR

end Cert.KernelIdeal.Hand

end
-- ==== Proof.KI.Reg7.lean ====
import proofs.«171585_j55456617726008_1_alg».proof.Proof.Gen.KernelIdeal.Launch
import proofs.«171585_j55456617726008_1_alg».proof.Proof.Gen.KernelIdeal.Skeleton
import proofs.«171585_j55456617726008_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«171585_j55456617726008_1_alg».proof.Proof.KI.Reg3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def dat7 (c : Dev nD) : Dat τ (Elt F) Unit ℕ (Pipeline.UD sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out3_5 (iblk7 V c 0 t) (iblk7 V c 1 t) (iblk7 V c 2 t) (iblk7 V c 3 t) (iblk7 V c 4 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) :
    (dat7 V c).after 5 t = out3_5 (iblk7 V c 0 t) (iblk7 V c 1 t) (iblk7 V c 2 t) (iblk7 V c 3 t) (iblk7 V c 4 t) := by dsimp only [dat7]

theorem before7_0 (c : Dev nD) (t : Fin cfg7.N) (d) : (dat7 V c).before 0 t d = iblk7 V c 0 t :=
  ((dat7 V c).before_in_eq_fetched 0 rfl (fun _ => rfl) (fun _ _ _ => rfl) (fun _ => rfl) t d).trans rfl
theorem before7_1 (c : Dev nD) (t : Fin cfg7.N) (d) : (dat7 V c).before 1 t d = iblk7 V c 1 t :=
  ((dat7 V c).before_in_eq_fetched 1 rfl (fun _ => rfl) (fun _ _ _ => rfl) (fun _ => rfl) t d).trans rfl
theorem before7_2 (c : Dev nD) (t : Fin cfg7.N) (d) : (dat7 V c).before 2 t d = iblk7 V c 2 t :=
  ((dat7 V c).before_in_eq_fetched 2 rfl (fun _ => rfl) (fun _ _ _ => rfl) (fun _ => rfl) t d).trans rfl
theorem before7_3 (c : Dev nD) (t : Fin cfg7.N) (d) : (dat7 V c).before 3 t d = iblk7 V c 3 t :=
  ((dat7 V c).before_in_eq_fetched 3 rfl (fun _ => rfl) (fun _ _ _ => rfl) (fun _ => rfl) t d).trans rfl
theorem before7_4 (c : Dev nD) (t : Fin cfg7.N) (d) : (dat7 V c).before 4 t d = iblk7 V c 4 t :=
  ((dat7 V c).before_in_eq_fetched 4 rfl (fun _ => rfl) (fun _ _ _ => rfl) (fun _ => rfl) t d).trans rfl

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  show _ ⊢ wp _ _ _ (cc3__bn_relu_kernel (grid7.coords t) _ (hstage7_0 _) _ (hstage7_1 _) _ (hstage7_2 _) _ (hstage7_3 _) _ (hstage7_4 _) _ (hstage7_5 _)) _
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid7.coords t) _ _ _ _ _ _ _ _ _ _ _ _
    (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KI.Reg8.lean ====
import proofs.«171585_j55456617726008_1_alg».proof.Proof.Gen.KernelIdeal.Launch
import proofs.«171585_j55456617726008_1_alg».proof.Proof.Gen.KernelIdeal.Skeleton
import proofs.«171585_j55456617726008_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«171585_j55456617726008_1_alg».proof.Proof.KI.Reg4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

def dat8 (c : Dev nD) : Dat τ (Elt F) Unit ℕ (Pipeline.UD sig nD τ) ℕ cfg8 c where
  A w := V c (Pipeline.arrRef spec8 w)
  after w t := match w with
    | ⟨0, _⟩ => iblk8 V c 0 t
    | ⟨1, _⟩ => iblk8 V c 1 t
    | ⟨2, _⟩ => out4_2 (iblk8 V c 0 t) (iblk8 V c 1 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = out4_2 (iblk8 V c 0 t) (iblk8 V c 1 t) := by dsimp only [dat8]

theorem before8_0 (c : Dev nD) (t : Fin cfg8.N) (d) : (dat8 V c).before 0 t d = iblk8 V c 0 t :=
  ((dat8 V c).before_in_eq_fetched 0 rfl (fun _ => rfl) (fun _ _ _ => rfl) (fun _ => rfl) t d).trans rfl
theorem before8_1 (c : Dev nD) (t : Fin cfg8.N) (d) : (dat8 V c).before 1 t d = iblk8 V c 1 t :=
  ((dat8 V c).before_in_eq_fetched 1 rfl (fun _ => rfl) (fun _ _ _ => rfl) (fun _ => rfl) t d).trans rfl

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  show _ ⊢ wp _ _ _ (cc4__matmul_kernel (grid8.coords t) _ (hstage8_0 _) _ (hstage8_1 _) _ (hstage8_2 _)) _
  simp only [before8_0, before8_1]
  rw [show (dat8 V c).Φ t.succ = (dat8 V c).Φ t.castSucc from rfl,
    show (dat8 V c).owesAt () t.succ = (dat8 V c).owesAt () t.castSucc from rfl,
    after8_0, after8_1, after8_2]
  iintro ⟨HΦ, Ho, ⟨%d0, H0⟩, ⟨%d1, H1⟩, ⟨%d2, H2⟩⟩
  iapply (sound_kernel4 c Set.univ (grid8.coords t) _ _ _ _ _ _ (iblk8 V c 0 t) (iblk8 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KI.Reg9.lean ====
import proofs.«171585_j55456617726008_1_alg».proof.Proof.Gen.KernelIdeal.Launch
import proofs.«171585_j55456617726008_1_alg».proof.Proof.Gen.KernelIdeal.Skeleton
import proofs.«171585_j55456617726008_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev r9_0 : Rect S5000x128 := Rect.unit (s := S5000x128) ![0, 0] S5000x128.size inb_S5000x128_S5000x128_0_0

abbrev r9_1 : Rect S5000x1 := Rect.unit (s := S5000x1) ![0, 0] S5000x1.size inb_S5000x1_S5000x1_0_0

abbrev r9_2 : Rect S1x128 := Rect.unit (s := S1x128) ![0, 0] S1x128.size inb_S1x128_S1x128_0_0

def out9_4 (xa : Vec F S5000x128 .f32) (xh : Vec F S5000x128 .f32) (xd : Vec F S5000x1 .f32) (xb : Vec F S1x128 .f32) : Vec F S5000x128 .f32 :=
  View.canon [⟨r9_0, k9_pay1 (View.ld xa r9_0) (View.ld xd r9_1) (View.ld xh r9_0) (View.ld xb r9_2)⟩]

theorem cover9_4 (p : Vec F S5000x128 .f32) (y : S5000x128.Idx) :
    ∃ pc ∈ ([⟨r9_0, p⟩] : List (View.Piece (Elt F) S5000x128 .f32)), y ∈ pc.1.set :=
  View.cover_of_tiled [⟨r9_0, p⟩] S5000x128.size (by rfl) y

set_option maxHeartbeats 1000000 in

theorem sound_kernel9 (c : Dev nD) (E : Set ℕ) (i : grid9.Coords)
    (ma : Memref sig .tc .vmem S5000x128 .f32) (hma : ma.IsWhole) (mh : Memref sig .tc .vmem S5000x128 .f32) (hmh : mh.IsWhole)
    (md : Memref sig .tc .vmem S5000x1 .f32) (hmd : md.IsWhole) (mb : Memref sig .tc .vmem S1x128 .f32) (hmb : mb.IsWhole)
    (mo : Memref sig .tc .vmem S5000x128 .f32) (hmo : mo.IsWhole)
    (xa : Vec F S5000x128 .f32) (xh : Vec F S5000x128 .f32) (xd : Vec F S5000x1 .f32) (xb : Vec F S1x128 .f32) (K : PUnit → sProp 𝕄) :
    iprop(owns (c : Thread nD τ) ma fullShare xa ∗ owns (c : Thread nD τ) mh fullShare xh ∗ owns (c : Thread nD τ) md fullShare xd
        ∗ owns (c : Thread nD τ) mb fullShare xb ∗ (∃ d, owns (c : Thread nD τ) mo fullShare d)
        ∗ (iprop(owns (c : Thread nD τ) ma fullShare xa ∗ owns (c : Thread nD τ) mh fullShare xh ∗ owns (c : Thread nD τ) md fullShare xd
            ∗ owns (c : Thread nD τ) mb fullShare xb ∗ owns (c : Thread nD τ) mo fullShare (out9_4 xa xh xd xb)) -∗ K ⟨⟩))
      ⊢ wp frame (wpE (defs₀ (F := F)) Variants.none c none) E (cc9__combine_relu_kernel i ma hma mh hmh md hmd mb hmb mo hmo) K := by
  simp only [cc9__combine_relu_kernel_eq_skeleton]; unfold cc9__combine_relu_kernel_skel
  unfold owns
  iintro ⟨⟨%fa, %hfa, Ha⟩, ⟨%fh, %hfh, Hh⟩, ⟨%fd, %hfd, Hd⟩, ⟨%fb, %hfb, Hb⟩, ⟨%dd, %fo, -, Ho⟩, Hk⟩
  subst hfa; subst hfh; subst hfd; subst hfb
  sl_exec
  sl_step
  iapply Hk
  isplitl [Ha]
  · iexists fa; isplitr; · ipureintro; rfl
    iexact Ha
  isplitl [Hh]
  · iexists fh; isplitr; · ipureintro; rfl
    iexact Hh
  isplitl [Hd]
  · iexists fd; isplitr; · ipureintro; rfl
    iexact Hd
  isplitl [Hb]
  · iexists fb; isplitr; · ipureintro; rfl
    iexact Hb
  iexists _; isplitr
  swap; · iexact Ho
  ipureintro
  exact View.read_writes_eq_canon _ _ _ (cover9_4 _)

def dat9 (c : Dev nD) : Dat τ (Elt F) Unit ℕ (Pipeline.UD sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => out9_4 (iblk9 V c 0 t) (iblk9 V c 1 t) (iblk9 V c 2 t) (iblk9 V c 3 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) :
    (dat9 V c).after 4 t = out9_4 (iblk9 V c 0 t) (iblk9 V c 1 t) (iblk9 V c 2 t) (iblk9 V c 3 t) := by dsimp only [dat9]

theorem before9_0 (c : Dev nD) (t : Fin cfg9.N) (d) : (dat9 V c).before 0 t d = iblk9 V c 0 t :=
  ((dat9 V c).before_in_eq_fetched 0 rfl (fun _ => rfl) (fun _ _ _ => rfl) (fun _ => rfl) t d).trans rfl
theorem before9_1 (c : Dev nD) (t : Fin cfg9.N) (d) : (dat9 V c).before 1 t d = iblk9 V c 1 t :=
  ((dat9 V c).before_in_eq_fetched 1 rfl (fun _ => rfl) (fun _ _ _ => rfl) (fun _ => rfl) t d).trans rfl
theorem before9_2 (c : Dev nD) (t : Fin cfg9.N) (d) : (dat9 V c).before 2 t d = iblk9 V c 2 t :=
  ((dat9 V c).before_in_eq_fetched 2 rfl (fun _ => rfl) (fun _ _ _ => rfl) (fun _ => rfl) t d).trans rfl
theorem before9_3 (c : Dev nD) (t : Fin cfg9.N) (d) : (dat9 V c).before 3 t d = iblk9 V c 3 t :=
  ((dat9 V c).before_in_eq_fetched 3 rfl (fun _ => rfl) (fun _ _ _ => rfl) (fun _ => rfl) t d).trans rfl

def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d)))

def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t))

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3]
  rw [show (dat9 V c).Φ t.succ = (dat9 V c).Φ t.castSucc from rfl,
    show (dat9 V c).owesAt () t.succ = (dat9 V c).owesAt () t.castSucc from rfl,
    after9_0, after9_1, after9_2, after9_3, after9_4]
  iintro ⟨HΦ, Hw, ⟨%da, Ha⟩, ⟨%dh, Hh⟩, ⟨%dd, Hd⟩, ⟨%db, Hb⟩, ⟨%dz, Ho⟩⟩
  iapply (sound_kernel9 c Set.univ (grid9.coords t) _ _ _ _ _ _ _ _ _ _
    (iblk9 V c 0 t) (iblk9 V c 1 t) (iblk9 V c 2 t) (iblk9 V c 3 t) _)
  isplitl [Ha]; · iexact Ha
  isplitl [Hh]; · iexact Hh
  isplitl [Hd]; · iexact Hd
  isplitl [Hb]; · iexact Hb
  isplitl [Ho]; · iexists _; iexact Ho
  iintro ⟨Ha, Hh, Hd, Hb, Ho⟩
  isplitl [HΦ]; · iexact HΦ
  isplitl [Hw]; · iexact Hw
  isplitl [Ha]; · iexact Ha
  isplitl [Hh]; · iexact Hh
  isplitl [Hd]; · iexact Hd
  isplitl [Hb]; · iexact Hb
  iexact Ho

theorem body_obligation9 (c : Dev nD) : BodyObligation (dat9 (F := F) V c) (defs₀ (F := F)) Variants.none () Set.univ := fun t => by
  rw [bigSep_W9, bigSep_W9]
  exact sound_body9 V c t

end Cert.KernelIdeal.Hand

end
-- ==== Proof.KI.Run.lean ====
import proofs.«171585_j55456617726008_1_alg».proof.Proof.KI.Reg0
import proofs.«171585_j55456617726008_1_alg».proof.Proof.KI.Reg1
import proofs.«171585_j55456617726008_1_alg».proof.Proof.KI.Reg2
import proofs.«171585_j55456617726008_1_alg».proof.Proof.KI.Reg3
import proofs.«171585_j55456617726008_1_alg».proof.Proof.KI.Reg4
import proofs.«171585_j55456617726008_1_alg».proof.Proof.KI.Reg5
import proofs.«171585_j55456617726008_1_alg».proof.Proof.KI.Reg6
import proofs.«171585_j55456617726008_1_alg».proof.Proof.KI.Reg7
import proofs.«171585_j55456617726008_1_alg».proof.Proof.KI.Reg8
import proofs.«171585_j55456617726008_1_alg».proof.Proof.KI.Reg9
import proofs.«171585_j55456617726008_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-- A valuation read at the TensorCore's references. -/
abbrev tcOf (W : Dev nD → Valuation τ sig (Elt F)) : (c : Dev nD) → (b : Ref sig .tc) → Buf (Elt F) ((c : Thread nD τ).loc b) :=
  fun c b => W c b

/-- Outside its output windows' arrays a region's exit contents are its entry contents. -/
theorem withArrays_kept {p : Fin 10} (lf : Pipeline.LaunchFacts (nD := nD) (τ := τ) cfgs p) (c : Dev nD) (W : Valuation τ sig (Elt F))
    (dat : Dat τ (Elt F) Unit ℕ (Pipeline.UD sig nD τ) ℕ (cfgs p) c) (hA : ∀ w, dat.A w = W (Proc.devRef .tc (Pipeline.arrRef (cfgs p).spec w)))
    (r : Ref sig .tc) (h : ∀ w, Pipeline.arrRef (cfgs p).spec w = r → ((cfgs p).win w).isOut = false) :
    Pipeline.withArrays (cfgs p).spec c W (fun w => dat.arrAt w (cfgs p).N) (Proc.devRef .tc r) = W (Proc.devRef .tc r) := by
  by_cases hr : ∃ w, Pipeline.arrRef (cfgs p).spec w = r
  · obtain ⟨w, rfl⟩ := hr
    rw [Pipeline.withArrays_arr _ lf.win.arr_inj, dat.arrAt_in w (h w rfl), hA]
  · exact Pipeline.withArrays_of_ne _ c _ _ r fun w e => hr ⟨w, e⟩

variable (m : (ℓ : Loc nD τ sig) → Buf (Elt F) ℓ) (ρ : Dev nD → PrngReg)

abbrev W0 : Dev nD → Valuation τ sig (Elt F) := fun c b => (s₀ m ρ).mem ((c : Dev nD), b)
abbrev V0 := tcOf (W0 m ρ)
abbrev W1 (c : Dev nD) : Valuation τ sig (Elt F) := StableHlo.after hostOps0 (W0 m ρ c)
abbrev V1 := tcOf (W1 m ρ)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
def W2 (c : Dev nD) : Valuation τ sig (Elt F) :=
  Pipeline.withArrays spec0 c (W1 m ρ c) fun w => (dat0 (V1 m ρ) c).arrAt w cfg0.N
abbrev V2 := tcOf (W2 m ρ)
theorem W2_arr (c : Dev nD) (w : Fin cfg0.W) :
    W2 m ρ c (Proc.devRef .tc (Pipeline.arrRef spec0 w)) = (dat0 (V1 m ρ) c).arrAt w cfg0.N :=
  Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb
abbrev W3 (c : Dev nD) : Valuation τ sig (Elt F) := StableHlo.after hostOps1 (W2 m ρ c)
abbrev V3 := tcOf (W3 m ρ)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
def W4 (c : Dev nD) : Valuation τ sig (Elt F) :=
  Pipeline.withArrays spec1 c (W3 m ρ c) fun w => (dat1 (V3 m ρ) c).arrAt w cfg1.N
abbrev V4 := tcOf (W4 m ρ)
theorem W4_arr (c : Dev nD) (w : Fin cfg1.W) :
    W4 m ρ c (Proc.devRef .tc (Pipeline.arrRef spec1 w)) = (dat1 (V3 m ρ) c).arrAt w cfg1.N :=
  Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) :=
  Pipeline.withArrays_of_ne spec1 c _ _ b hb
def W5 (c : Dev nD) : Valuation τ sig (Elt F) :=
  Pipeline.withArrays spec2 c (W4 m ρ c) fun w => (dat2 (V4 m ρ) c).arrAt w cfg2.N
abbrev V5 := tcOf (W5 m ρ)
theorem W5_arr (c : Dev nD) (w : Fin cfg2.W) :
    W5 m ρ c (Proc.devRef .tc (Pipeline.arrRef spec2 w)) = (dat2 (V4 m ρ) c).arrAt w cfg2.N :=
  Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) :=
  Pipeline.withArrays_of_ne spec2 c _ _ b hb
abbrev W6 (c : Dev nD) : Valuation τ sig (Elt F) := StableHlo.after hostOps3 (W5 m ρ c)
abbrev V6 := tcOf (W6 m ρ)
theorem W6_of (c : Dev nD) (r : Ref sig .tc) (h : r ∉ hostOps3_W) : W6 m ρ c (Proc.devRef .tc r) = W5 m ρ c (Proc.devRef .tc r) :=
  StableHlo.after_of_writes_sub hostOps3 _ hostOps3_writes h
def W7 (c : Dev nD) : Valuation τ sig (Elt F) :=
  Pipeline.withArrays spec3 c (W6 m ρ c) fun w => (dat3 (V6 m ρ) c).arrAt w cfg3.N
abbrev V7 := tcOf (W7 m ρ)
theorem W7_arr (c : Dev nD) (w : Fin cfg3.W) :
    W7 m ρ c (Proc.devRef .tc (Pipeline.arrRef spec3 w)) = (dat3 (V6 m ρ) c).arrAt w cfg3.N :=
  Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) :=
  Pipeline.withArrays_of_ne spec3 c _ _ b hb
def W8 (c : Dev nD) : Valuation τ sig (Elt F) :=
  Pipeline.withArrays spec4 c (W7 m ρ c) fun w => (dat4 (V7 m ρ) c).arrAt w cfg4.N
abbrev V8 := tcOf (W8 m ρ)
theorem W8_arr (c : Dev nD) (w : Fin cfg4.W) :
    W8 m ρ c (Proc.devRef .tc (Pipeline.arrRef spec4 w)) = (dat4 (V7 m ρ) c).arrAt w cfg4.N :=
  Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) :=
  Pipeline.withArrays_of_ne spec4 c _ _ b hb
abbrev W9 (c : Dev nD) : Valuation τ sig (Elt F) := StableHlo.after hostOps5 (W8 m ρ c)
abbrev V9 := tcOf (W9 m ρ)
theorem W9_of (c : Dev nD) (r : Ref sig .tc) (h : r ∉ hostOps5_W) : W9 m ρ c (Proc.devRef .tc r) = W8 m ρ c (Proc.devRef .tc r) :=
  StableHlo.after_of_writes_sub hostOps5 _ hostOps5_writes h
def W10 (c : Dev nD) : Valuation τ sig (Elt F) :=
  Pipeline.withArrays spec5 c (W9 m ρ c) fun w => (dat5 (V9 m ρ) c).arrAt w cfg5.N
abbrev V10 := tcOf (W10 m ρ)
theorem W10_arr (c : Dev nD) (w : Fin cfg5.W) :
    W10 m ρ c (Proc.devRef .tc (Pipeline.arrRef spec5 w)) = (dat5 (V9 m ρ) c).arrAt w cfg5.N :=
  Pipeline.withArrays_arr spec5 launch5.win.arr_inj c _ _ w
theorem W10_of_ne (c : Dev nD) (b : Ref sig .tc) (hb : ∀ w, Pipeline.arrRef spec5 w ≠ b) :
    W10 m ρ c (Proc.devRef .tc b) = W9 m ρ c (Proc.devRef .tc b) :=
  Pipeline.withArrays_of_ne spec5 c _ _ b hb
def W11 (c : Dev nD) : Valuation τ sig (Elt F) :=
  Pipeline.withArrays spec6 c (W10 m ρ c) fun w => (dat6 (V10 m ρ) c).arrAt w cfg6.N
abbrev V11 := tcOf (W11 m ρ)
theorem W11_arr (c : Dev nD) (w : Fin cfg6.W) :
    W11 m ρ c (Proc.devRef .tc (Pipeline.arrRef spec6 w)) = (dat6 (V10 m ρ) c).arrAt w cfg6.N :=
  Pipeline.withArrays_arr spec6 launch6.win.arr_inj c _ _ w
theorem W11_of_ne (c : Dev nD) (b : Ref sig .tc) (hb : ∀ w, Pipeline.arrRef spec6 w ≠ b) :
    W11 m ρ c (Proc.devRef .tc b) = W10 m ρ c (Proc.devRef .tc b) :=
  Pipeline.withArrays_of_ne spec6 c _ _ b hb
abbrev W12 (c : Dev nD) : Valuation τ sig (Elt F) := StableHlo.after hostOps7 (W11 m ρ c)
abbrev V12 := tcOf (W12 m ρ)
theorem W12_of (c : Dev nD) (r : Ref sig .tc) (h : r ∉ hostOps7_W) : W12 m ρ c (Proc.devRef .tc r) = W11 m ρ c (Proc.devRef .tc r) :=
  StableHlo.after_of_writes_sub hostOps7 _ hostOps7_writes h
def W13 (c : Dev nD) : Valuation τ sig (Elt F) :=
  Pipeline.withArrays spec7 c (W12 m ρ c) fun w => (dat7 (V12 m ρ) c).arrAt w cfg7.N
abbrev V13 := tcOf (W13 m ρ)
theorem W13_arr (c : Dev nD) (w : Fin cfg7.W) :
    W13 m ρ c (Proc.devRef .tc (Pipeline.arrRef spec7 w)) = (dat7 (V12 m ρ) c).arrAt w cfg7.N :=
  Pipeline.withArrays_arr spec7 launch7.win.arr_inj c _ _ w
theorem W13_of_ne (c : Dev nD) (b : Ref sig .tc) (hb : ∀ w, Pipeline.arrRef spec7 w ≠ b) :
    W13 m ρ c (Proc.devRef .tc b) = W12 m ρ c (Proc.devRef .tc b) :=
  Pipeline.withArrays_of_ne spec7 c _ _ b hb
def W14 (c : Dev nD) : Valuation τ sig (Elt F) :=
  Pipeline.withArrays spec8 c (W13 m ρ c) fun w => (dat8 (V13 m ρ) c).arrAt w cfg8.N
abbrev V14 := tcOf (W14 m ρ)
theorem W14_arr (c : Dev nD) (w : Fin cfg8.W) :
    W14 m ρ c (Proc.devRef .tc (Pipeline.arrRef spec8 w)) = (dat8 (V13 m ρ) c).arrAt w cfg8.N :=
  Pipeline.withArrays_arr spec8 launch8.win.arr_inj c _ _ w
theorem W14_of_ne (c : Dev nD) (b : Ref sig .tc) (hb : ∀ w, Pipeline.arrRef spec8 w ≠ b) :
    W14 m ρ c (Proc.devRef .tc b) = W13 m ρ c (Proc.devRef .tc b) :=
  Pipeline.withArrays_of_ne spec8 c _ _ b hb
abbrev W15 (c : Dev nD) : Valuation τ sig (Elt F) := StableHlo.after hostOps9 (W14 m ρ c)
abbrev V15 := tcOf (W15 m ρ)
theorem W15_of (c : Dev nD) (r : Ref sig .tc) (h : r ∉ hostOps9_W) : W15 m ρ c (Proc.devRef .tc r) = W14 m ρ c (Proc.devRef .tc r) :=
  StableHlo.after_of_writes_sub hostOps9 _ hostOps9_writes h
def W16 (c : Dev nD) : Valuation τ sig (Elt F) :=
  Pipeline.withArrays spec9 c (W15 m ρ c) fun w => (dat9 (V15 m ρ) c).arrAt w cfg9.N
abbrev V16 := tcOf (W16 m ρ)
theorem W16_arr (c : Dev nD) (w : Fin cfg9.W) :
    W16 m ρ c (Proc.devRef .tc (Pipeline.arrRef spec9 w)) = (dat9 (V15 m ρ) c).arrAt w cfg9.N :=
  Pipeline.withArrays_arr spec9 launch9.win.arr_inj c _ _ w
theorem W16_of_ne (c : Dev nD) (b : Ref sig .tc) (hb : ∀ w, Pipeline.arrRef spec9 w ≠ b) :
    W16 m ρ c (Proc.devRef .tc b) = W15 m ρ c (Proc.devRef .tc b) :=
  Pipeline.withArrays_of_ne spec9 c _ _ b hb
abbrev W17 (c : Dev nD) : Valuation τ sig (Elt F) := StableHlo.after hostOps10 (W16 m ρ c)
abbrev V17 := tcOf (W17 m ρ)
theorem W17_of (c : Dev nD) (r : Ref sig .tc) (h : r ∉ hostOps10_W) : W17 m ρ c (Proc.devRef .tc r) = W16 m ρ c (Proc.devRef .tc r) :=
  StableHlo.after_of_writes_sub hostOps10 _ hostOps10_writes h

/-- The argument arrays. -/
abbrev args : List (Ref sig .tc) := [main_arg0, main_arg1, main_arg2, main_arg3, main_arg4, main_arg5, main_arg6, main_arg7, main_arg8, main_arg9, main_arg10, main_arg11, main_arg12, main_arg13, main_arg14]

/-- No host operation writes an argument and no region has one as an output window's array. -/
theorem W17_arg (c : Dev nD) : ∀ r ∈ args, W17 m ρ c (Proc.devRef .tc r) = m ((c : Thread nD τ).loc r) := by
  have key : ∀ r ∈ args, r ∉ hostOps10_W
      ∧ (∀ w, Pipeline.arrRef spec9 w = r → (cfg9.win w).isOut = false)
      ∧ r ∉ hostOps9_W
      ∧ (∀ w, Pipeline.arrRef spec8 w = r → (cfg8.win w).isOut = false)
      ∧ (∀ w, Pipeline.arrRef spec7 w = r → (cfg7.win w).isOut = false)
      ∧ r ∉ hostOps7_W
      ∧ (∀ w, Pipeline.arrRef spec6 w = r → (cfg6.win w).isOut = false)
      ∧ (∀ w, Pipeline.arrRef spec5 w = r → (cfg5.win w).isOut = false)
      ∧ r ∉ hostOps5_W
      ∧ (∀ w, Pipeline.arrRef spec4 w = r → (cfg4.win w).isOut = false)
      ∧ (∀ w, Pipeline.arrRef spec3 w = r → (cfg3.win w).isOut = false)
      ∧ r ∉ hostOps3_W
      ∧ (∀ w, Pipeline.arrRef spec2 w = r → (cfg2.win w).isOut = false)
      ∧ (∀ w, Pipeline.arrRef spec1 w = r → (cfg1.win w).isOut = false)
      ∧ r ∉ hostOps1_W
      ∧ (∀ w, Pipeline.arrRef spec0 w = r → (cfg0.win w).isOut = false)
      ∧ r ∉ hostOps0_W := by decide
  intro r hr
  obtain ⟨h0, h1, h2, h3, h4, h5, h6, h7, h8, h9, h10, h11, h12, h13, h14, h15, h16⟩ := key r hr
  exact (W17_of m ρ c r h0).trans <|
    (withArrays_kept launch9 c _ (dat9 (V15 m ρ) c) (A_eq9 (V15 m ρ) c) r h1).trans <|
    (W15_of m ρ c r h2).trans <|
    (withArrays_kept launch8 c _ (dat8 (V13 m ρ) c) (A_eq8 (V13 m ρ) c) r h3).trans <|
    (withArrays_kept launch7 c _ (dat7 (V12 m ρ) c) (A_eq7 (V12 m ρ) c) r h4).trans <|
    (W12_of m ρ c r h5).trans <|
    (withArrays_kept launch6 c _ (dat6 (V10 m ρ) c) (A_eq6 (V10 m ρ) c) r h6).trans <|
    (withArrays_kept launch5 c _ (dat5 (V9 m ρ) c) (A_eq5 (V9 m ρ) c) r h7).trans <|
    (W9_of m ρ c r h8).trans <|
    (withArrays_kept launch4 c _ (dat4 (V7 m ρ) c) (A_eq4 (V7 m ρ) c) r h9).trans <|
    (withArrays_kept launch3 c _ (dat3 (V6 m ρ) c) (A_eq3 (V6 m ρ) c) r h10).trans <|
    (W6_of m ρ c r h11).trans <|
    (withArrays_kept launch2 c _ (dat2 (V4 m ρ) c) (A_eq2 (V4 m ρ) c) r h12).trans <|
    (withArrays_kept launch1 c _ (dat1 (V3 m ρ) c) (A_eq1 (V3 m ρ) c) r h13).trans <|
    (W3_of m ρ c r h14).trans <|
    (withArrays_kept launch0 c _ (dat0 (V1 m ρ) c) (A_eq0 (V1 m ρ) c) r h15).trans <|
    (W1_of m ρ c r h16)

abbrev padm : (p : Fin 10) → (pcfgs (F := F) p).Adm := fun p => (cfgs p).toPCfg_adm
def pdats : (p : Fin 10) → (c : Dev nD) → Dat τ (Elt F) Unit ℕ (Pipeline.UD sig nD τ) ℕ (Pipeline.pin (pcfgs (F := F)) padm p) c
  | ⟨0, _⟩ => fun c => dat0 (V1 m ρ) c
  | ⟨1, _⟩ => fun c => dat1 (V3 m ρ) c
  | ⟨2, _⟩ => fun c => dat2 (V4 m ρ) c
  | ⟨3, _⟩ => fun c => dat3 (V6 m ρ) c
  | ⟨4, _⟩ => fun c => dat4 (V7 m ρ) c
  | ⟨5, _⟩ => fun c => dat5 (V9 m ρ) c
  | ⟨6, _⟩ => fun c => dat6 (V10 m ρ) c
  | ⟨7, _⟩ => fun c => dat7 (V12 m ρ) c
  | ⟨8, _⟩ => fun c => dat8 (V13 m ρ) c
  | ⟨9, _⟩ => fun c => dat9 (V15 m ρ) c
abbrev 𝒱₀ : Variants := Variants.none
abbrev L : GSem nD τ sig → Finset Unit := fun _ => ∅
abbrev lv : GSem nD τ sig → Unit → ℕ := fun _ _ => 0
abbrev Rst (c : Dev nD) : sProp 𝕄 := iprop((∃ r, prngReg c r) ∗ ∃ W, owes (c : Thread nD τ) (0 : CellTallies nD τ sig Unit) W)
abbrev St (W : Dev nD → Valuation τ sig (Elt F)) (c : Dev nD) : sProp 𝕄 :=
  iprop(StableHlo.held (c : Thread nD τ) (Pipeline.ucRefs τ sig) (W c) ∗ Rst c)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W17 m ρ c) ∗ ∃ r, prngReg c r)

theorem ΦA_in {gr W : ℕ} (spec : Fin W → Pipeline.WinSpec sig gr) (c : Dev nD) :
    (iprop((∃ r, prngReg c r) ∗ Pipeline.scopedRest (Ix := Unit) (Name := ℕ) (U := Pipeline.UD sig nD τ) (Lvl := ℕ) (Val := Elt F) spec c) : sProp 𝕄)
      ⊢ Pipeline.ΦA spec c := by
  unfold Pipeline.ΦA; iintro ⟨Hp, Hr⟩; isplitl [Hr]; · iexact Hr
  iexact Hp
theorem ΦA_out {gr W : ℕ} (spec : Fin W → Pipeline.WinSpec sig gr) (c : Dev nD) :
    Pipeline.ΦA spec c ⊢ (iprop((∃ r, prngReg c r) ∗ Pipeline.scopedRest (Ix := Unit) (Name := ℕ) (U := Pipeline.UD sig nD τ) (Lvl := ℕ) (Val := Elt F) spec c) : sProp 𝕄) := by
  unfold Pipeline.ΦA; iintro ⟨Hr, Hp⟩; isplitl [Hp]; · iexact Hp
  iexact Hr

set_option backward.isDefEq.respectTransparency.types false in
/-- A region as a segment from the contents Win to the contents Wout. -/
def regSeg (p : Fin 10) (lf : Pipeline.LaunchFacts (nD := nD) (τ := τ) cfgs p) (Win Wout : Dev nD → Valuation τ sig (Elt F))
    (hbody : ∀ c, Pipeline.BodyObligationLoose (pdats m ρ p c) (defs₀ (F := F)) 𝒱₀ () Set.univ)
    (hshare : ∀ c w, (pdats m ρ p c).share w = fullShare) (howed : ∀ c t, (pdats m ρ p c).owed t = 0)
    (hrec : ∀ c t, (pdats m ρ p c).recorded t = Set.univ)
    (hA : ∀ c w, (pdats m ρ p c).A w = tcOf Win c (Pipeline.arrRef (Pipeline.pin (pcfgs (F := F)) padm p).spec w))
    (hF : ∀ c w, (pdats m ρ p c).arrAt w (Pipeline.pin (pcfgs (F := F)) padm p).N = tcOf Wout c (Pipeline.arrRef (Pipeline.pin (pcfgs (F := F)) padm p).spec w))
    (hne : ∀ c b, (∀ w, Pipeline.arrRef (Pipeline.pin (pcfgs (F := F)) padm p).spec w ≠ b) → tcOf Wout c b = tcOf Win c b)
    (hΦin : ∀ c, (iprop((∃ r, prngReg c r) ∗ Pipeline.scopedRest (Pipeline.pin (pcfgs (F := F)) padm p).spec c) : sProp 𝕄) ⊢ (pdats m ρ p c).Φ 0)
    (hΦout : ∀ c, (pdats m ρ p c).Φ (Fin.last _) ⊢ (iprop((∃ r, prngReg c r) ∗ Pipeline.scopedRest (Pipeline.pin (pcfgs (F := F)) padm p).spec c) : sProp 𝕄)) :
    Pipeline.RegionSeg (pcfgs (F := F)) padm (pdats m ρ) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p howed
  pre := St Win
  post := St Wout
  X c := iprop(∃ r, prngReg c r)
  Y c := iprop(∃ r, prngReg c r)
  Z c := Pipeline.unscopedRest (Ix := Unit) (Name := ℕ) (U := Pipeline.UD sig nD τ) (Lvl := ℕ) (Pipeline.pin (pcfgs (F := F)) padm p).spec c (tcOf Win c)
  hentry c := by
    rw [Pipeline.ownSems0_none]
    have hsplit := Pipeline.arrays_of_unscopedBufs (p := p) (pcfgs (F := F)) padm (pdats m ρ) lf.win lf.arr_whole c (hshare c) (tcOf Win c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [howed c, hrec c]
      icases HO with ⟨%W, HO⟩; iexists W; isplitr; · ipureintro; exact fun _ _ => Or.inl trivial
      iexact HO
    isplitl [Hp]; · iexact Hp
    iexact Hrest
  hin c := by
    iintro ⟨Hp, -, Hr⟩
    iapply (hΦin c)
    isplitl [Hp]; · iexact Hp
    iexact Hr
  hout c := by
    rw [Pipeline.ownSems0_none]
    iintro HΦ
    ihave H := (hΦout c) $$ HΦ
    icases H with ⟨Hp, Hr⟩
    isplitl [Hp]; · iexact Hp
    isplitr; · iempintro
    iexact Hr
  hexit c := by
    have hjoin := Pipeline.unscopedBufs_of_arrays (p := p) (pcfgs (F := F)) padm (Ix := Unit) (Name := ℕ) (U := Pipeline.UD sig nD τ) (Lvl := ℕ)
      lf.win lf.arr_whole c (pdats m ρ) (hshare c) (tcOf Win c) (tcOf Wout c) ((pdats m ρ p c).arrAt · (Pipeline.pin (pcfgs (F := F)) padm p).N) (hF c)
      fun b hb => hne c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

set_option backward.isDefEq.respectTransparency.types false in
def reg0 : Pipeline.RegionSeg (pcfgs (F := F)) padm (pdats m ρ) () defs₀ 𝒱₀ L lv 0 :=
  regSeg m ρ 0 launch0 (W1 m ρ) (W2 m ρ) (fun c => (body_obligation0 (V1 m ρ) c).loose) (fun c => (pdats m ρ 0 c).share_full fun _ => rfl)
    (fun _ _ => rfl) (fun _ _ => rfl) (fun _ _ => rfl) (fun c w => (W2_arr m ρ c w).symm) (W2_of_ne m ρ) (ΦA_in spec0) (ΦA_out spec0)
set_option backward.isDefEq.respectTransparency.types false in
def reg1 : Pipeline.RegionSeg (pcfgs (F := F)) padm (pdats m ρ) () defs₀ 𝒱₀ L lv 1 :=
  regSeg m ρ 1 launch1 (W3 m ρ) (W4 m ρ) (fun c => (body_obligation1 (V3 m ρ) c).loose) (fun c => (pdats m ρ 1 c).share_full fun _ => rfl)
    (fun _ _ => rfl) (fun _ _ => rfl) (fun _ _ => rfl) (fun c w => (W4_arr m ρ c w).symm) (W4_of_ne m ρ) (ΦA_in spec1) (ΦA_out spec1)
set_option backward.isDefEq.respectTransparency.types false in
def reg2 : Pipeline.RegionSeg (pcfgs (F := F)) padm (pdats m ρ) () defs₀ 𝒱₀ L lv 2 :=
  regSeg m ρ 2 launch2 (W4 m ρ) (W5 m ρ) (fun c => (body_obligation2 (V4 m ρ) c).loose) (fun c => (pdats m ρ 2 c).share_full fun _ => rfl)
    (fun _ _ => rfl) (fun _ _ => rfl) (fun _ _ => rfl) (fun c w => (W5_arr m ρ c w).symm) (W5_of_ne m ρ) (Phi2_in (V4 m ρ)) (Phi2_out (V4 m ρ))
set_option backward.isDefEq.respectTransparency.types false in
def reg3 : Pipeline.RegionSeg (pcfgs (F := F)) padm (pdats m ρ) () defs₀ 𝒱₀ L lv 3 :=
  regSeg m ρ 3 launch3 (W6 m ρ) (W7 m ρ) (fun c => (body_obligation3 (V6 m ρ) c).loose) (fun c => (pdats m ρ 3 c).share_full fun _ => rfl)
    (fun _ _ => rfl) (fun _ _ => rfl) (fun _ _ => rfl) (fun c w => (W7_arr m ρ c w).symm) (W7_of_ne m ρ) (ΦA_in spec3) (ΦA_out spec3)
set_option backward.isDefEq.respectTransparency.types false in
def reg4 : Pipeline.RegionSeg (pcfgs (F := F)) padm (pdats m ρ) () defs₀ 𝒱₀ L lv 4 :=
  regSeg m ρ 4 launch4 (W7 m ρ) (W8 m ρ) (fun c => (body_obligation4 (V7 m ρ) c).loose) (fun c => (pdats m ρ 4 c).share_full fun _ => rfl)
    (fun _ _ => rfl) (fun _ _ => rfl) (fun _ _ => rfl) (fun c w => (W8_arr m ρ c w).symm) (W8_of_ne m ρ) (ΦA_in spec4) (ΦA_out spec4)
set_option backward.isDefEq.respectTransparency.types false in
def reg5 : Pipeline.RegionSeg (pcfgs (F := F)) padm (pdats m ρ) () defs₀ 𝒱₀ L lv 5 :=
  regSeg m ρ 5 launch5 (W9 m ρ) (W10 m ρ) (fun c => (body_obligation5 (V9 m ρ) c).loose) (fun c => (pdats m ρ 5 c).share_full fun _ => rfl)
    (fun _ _ => rfl) (fun _ _ => rfl) (fun _ _ => rfl) (fun c w => (W10_arr m ρ c w).symm) (W10_of_ne m ρ) (ΦA_in spec5) (ΦA_out spec5)
set_option backward.isDefEq.respectTransparency.types false in
def reg6 : Pipeline.RegionSeg (pcfgs (F := F)) padm (pdats m ρ) () defs₀ 𝒱₀ L lv 6 :=
  regSeg m ρ 6 launch6 (W10 m ρ) (W11 m ρ) (fun c => (body_obligation6 (V10 m ρ) c).loose) (fun c => (pdats m ρ 6 c).share_full fun _ => rfl)
    (fun _ _ => rfl) (fun _ _ => rfl) (fun _ _ => rfl) (fun c w => (W11_arr m ρ c w).symm) (W11_of_ne m ρ) (Phi6_in (V10 m ρ)) (Phi6_out (V10 m ρ))
set_option backward.isDefEq.respectTransparency.types false in
def reg7 : Pipeline.RegionSeg (pcfgs (F := F)) padm (pdats m ρ) () defs₀ 𝒱₀ L lv 7 :=
  regSeg m ρ 7 launch7 (W12 m ρ) (W13 m ρ) (fun c => (body_obligation7 (V12 m ρ) c).loose) (fun c => (pdats m ρ 7 c).share_full fun _ => rfl)
    (fun _ _ => rfl) (fun _ _ => rfl) (fun _ _ => rfl) (fun c w => (W13_arr m ρ c w).symm) (W13_of_ne m ρ) (ΦA_in spec7) (ΦA_out spec7)
set_option backward.isDefEq.respectTransparency.types false in
def reg8 : Pipeline.RegionSeg (pcfgs (F := F)) padm (pdats m ρ) () defs₀ 𝒱₀ L lv 8 :=
  regSeg m ρ 8 launch8 (W13 m ρ) (W14 m ρ) (fun c => (body_obligation8 (V13 m ρ) c).loose) (fun c => (pdats m ρ 8 c).share_full fun _ => rfl)
    (fun _ _ => rfl) (fun _ _ => rfl) (fun _ _ => rfl) (fun c w => (W14_arr m ρ c w).symm) (W14_of_ne m ρ) (ΦA_in spec8) (ΦA_out spec8)
set_option backward.isDefEq.respectTransparency.types false in
def reg9 : Pipeline.RegionSeg (pcfgs (F := F)) padm (pdats m ρ) () defs₀ 𝒱₀ L lv 9 :=
  regSeg m ρ 9 launch9 (W15 m ρ) (W16 m ρ) (fun c => (body_obligation9 (V15 m ρ) c).loose) (fun c => (pdats m ρ 9 c).share_full fun _ => rfl)
    (fun _ _ => rfl) (fun _ _ => rfl) (fun _ _ => rfl) (fun c w => (W16_arr m ρ c w).symm) (W16_of_ne m ρ) (ΦA_in spec9) (ΦA_out spec9)

theorem last_link (c : Dev nD) : St (W17 m ρ) c ⊢ iprop(Tₙ m ρ c ∗ ∃ W, owes (c : Thread nD τ) (0 : CellTallies nD τ sig Unit) W) := by
  iintro ⟨Hh, Hp, Ho⟩
  isplitl [Hh Hp]
  · isplitl [Hh]
    · iexact Hh
    · iexact Hp
  · iexact Ho

/-- @main's 17 segments in order. -/
abbrev segs : List (Pipeline.Seg (pcfgs (F := F)) padm (pdats m ρ) () defs₀ 𝒱₀ L lv) :=
  [.host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)),
    .region (reg3 m ρ),
    .region (reg4 m ρ),
    .host (hseg hostOps5 hostOps5_sub hostOps5_fresh (W8 m ρ)),
    .region (reg5 m ρ),
    .region (reg6 m ρ),
    .host (hseg hostOps7 hostOps7_sub hostOps7_fresh (W11 m ρ)),
    .region (reg7 m ρ),
    .region (reg8 m ρ),
    .host (hseg hostOps9 hostOps9_sub hostOps9_fresh (W14 m ρ)),
    .region (reg9 m ρ),
    .host (hseg hostOps10 hostOps10_sub hostOps10_fresh (W16 m ρ))]

set_option backward.isDefEq.respectTransparency.types false in
/-- Every weakly fair execution of @main ends with every unscoped buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W17 m ρ c b) :=
  Pipeline.θ_run_regions_kit_dev (pcfgs (F := F)) padm (pdats m ρ) () cellOf_inj embL defs₀ 𝒱₀ L lv m ρ main (fun _ => segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          Prog.lift (.customCall (Pipeline.entry 6) ()),
          StableHlo.seq hostOps7,
          Prog.lift (.customCall (Pipeline.entry 7) ()),
          Prog.lift (.customCall (Pipeline.entry 8) ()),
          StableHlo.seq hostOps9,
          Prog.lift (.customCall (Pipeline.entry 9) ()),
          StableHlo.seq hostOps10 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := St (W0 m ρ)) (Tₙ := Tₙ m ρ)
    (hch := fun c => ⟨.rfl, .rfl, .rfl, .rfl, .rfl, .rfl, .rfl, .rfl, .rfl, .rfl, .rfl, .rfl, .rfl, .rfl, .rfl, .rfl, .rfl, last_link m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c => h c)

/-- A final memory that holds the last boundary's contents holds every argument as launched. -/
theorem args_kept {s : (ℓ : Loc nD τ sig) → Buf (Elt F) ℓ} (c : Dev nD) (h : ∀ b ∈ Pipeline.ucRefs τ sig, s (((c : Thread nD τ)).1, b) = W17 m ρ c b) :
    ∀ r ∈ args, s ((c.tc : Thread nD τ).loc r) = m ((c.tc : Thread nD τ).loc r) := fun r hr =>
  (h _ (mem_uc r ((by decide : ∀ r ∈ args, ¬ (Proc.devRef .tc r : DevRef τ sig).isScoped) r hr))).trans (W17_arg m ρ c r hr)

end Cert.KernelIdeal.Hand

end
-- ==== Proof.Ref.Ops.lean ====
/-
  The reference program's @main as lists of StableHLO operations, one list per printed window, and the references each
  window writes. Five of @main's statements are calls of module-local functions (@_var twice, each with its own call of
  @_where; @relu three times). A call executes the callee's body on the operands, each value of the body in a buffer of
  its own (the call's record), so in a call's place stand the callee's operations over the record's buffers: 283
  operations in all, the 230 plain statements as printed and 2 × 22 + 3 × 3 from the calls.
-/
import proofs.«171585_j55456617726008_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's statements 1 … 60: the two index rows of the edge list, the first layer's product `x W₁`, the in-degree
    count (a scatter-add of ones) plus the self-loop, its inverse square root, the edge weights gathered at source and
    target, the weighted messages scattered to their targets, the self-loop term and the bias, and the column sums of
    the layer's output. -/
abbrev ops0 : List (HloOp τ sig (Elt F)) :=
  [ StableHlo.unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000,
    StableHlo.binary main_arg0 main_arg3 main_v4 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_cst (constant S_ .f32 0x3F800000#32),
    StableHlo.unary main_cst main_v5 (broadcastInDim S600000 ![] bcast_S_S600000 : (⟨S_, .f32⟩ : BufTy).Contents (Elt F) → (⟨S600000, .f32⟩ : BufTy).Contents (Elt F)),
    StableHlo.nullary main_cst_0 (constant S_ .f32 0x00000000#32),
    StableHlo.unary main_cst_0 main_v6 (broadcastInDim S50000 ![] bcast_S_S50000 : (⟨S_, .f32⟩ : BufTy).Contents (Elt F) → (⟨S50000, .f32⟩ : BufTy).Contents (Elt F)),
    StableHlo.unary main_v3 main_v7 (broadcastInDim S600000x1 ![0] bcast_S600000_S600000x1_0 : (⟨S600000, .i32⟩ : BufTy).Contents (Elt F) → (⟨S600000x1, .i32⟩ : BufTy).Contents (Elt F)),
    StableHlo.ternary main_v6 main_v7 main_v5 main_v8 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    StableHlo.nullary main_cst_1 (constant S_ .f32 0x3F800000#32),
    StableHlo.unary main_cst_1 main_v9 (broadcastInDim S50000 ![] bcast_S_S50000 : (⟨S_, .f32⟩ : BufTy).Contents (Elt F) → (⟨S50000, .f32⟩ : BufTy).Contents (Elt F)),
    StableHlo.binary main_v8 main_v9 main_v10 (addf : (⟨S50000, .f32⟩ : BufTy).Contents (Elt F) → (⟨S50000, .f32⟩ : BufTy).Contents (Elt F) → (⟨S50000, .f32⟩ : BufTy).Contents (Elt F)),
    StableHlo.unary main_v10 main_v11 (Host.rsqrt : (⟨S50000, .f32⟩ : BufTy).Contents (Elt F) → (⟨S50000, .f32⟩ : BufTy).Contents (Elt F)),
    StableHlo.nullary main_c (constantI S_ 32 0#32),
    StableHlo.unary main_c main_v12 (broadcastInDim S600000 ![] bcast_S_S600000 : (⟨S_, .i32⟩ : BufTy).Contents (Elt F) → (⟨S600000, .i32⟩ : BufTy).Contents (Elt F)),
    StableHlo.binary main_v1 main_v12 main_v13 (cmpi .slt : (⟨S600000, .i32⟩ : BufTy).Contents (Elt F) → (⟨S600000, .i32⟩ : BufTy).Contents (Elt F) → (⟨S600000, .i1⟩ : BufTy).Contents (Elt F)),
    StableHlo.nullary main_c_2 (constantI S_ 32 50000#32),
    StableHlo.unary main_c_2 main_v14 (broadcastInDim S600000 ![] bcast_S_S600000 : (⟨S_, .i32⟩ : BufTy).Contents (Elt F) → (⟨S600000, .i32⟩ : BufTy).Contents (Elt F)),
    StableHlo.binary main_v1 main_v14 main_v15 (addi : (⟨S600000, .i32⟩ : BufTy).Contents (Elt F) → (⟨S600000, .i32⟩ : BufTy).Contents (Elt F) → (⟨S600000, .i32⟩ : BufTy).Contents (Elt F)),
    StableHlo.ternary main_v13 main_v15 main_v1 main_v16 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v16 main_v17 (broadcastInDim S600000x1 ![0] bcast_S600000_S600000x1_0 : (⟨S600000, .i32⟩ : BufTy).Contents (Elt F) → (⟨S600000x1, .i32⟩ : BufTy).Contents (Elt F)),
    StableHlo.binary main_v11 main_v17 main_v18 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    StableHlo.nullary main_c_3 (constantI S_ 32 0#32),
    StableHlo.unary main_c_3 main_v19 (broadcastInDim S600000 ![] bcast_S_S600000 : (⟨S_, .i32⟩ : BufTy).Contents (Elt F) → (⟨S600000, .i32⟩ : BufTy).Contents (Elt F)),
    StableHlo.binary main_v3 main_v19 main_v20 (cmpi .slt : (⟨S600000, .i32⟩ : BufTy).Contents (Elt F) → (⟨S600000, .i32⟩ : BufTy).Contents (Elt F) → (⟨S600000, .i1⟩ : BufTy).Contents (Elt F)),
    StableHlo.nullary main_c_4 (constantI S_ 32 50000#32),
    StableHlo.unary main_c_4 main_v21 (broadcastInDim S600000 ![] bcast_S_S600000 : (⟨S_, .i32⟩ : BufTy).Contents (Elt F) → (⟨S600000, .i32⟩ : BufTy).Contents (Elt F)),
    StableHlo.binary main_v3 main_v21 main_v22 (addi : (⟨S600000, .i32⟩ : BufTy).Contents (Elt F) → (⟨S600000, .i32⟩ : BufTy).Contents (Elt F) → (⟨S600000, .i32⟩ : BufTy).Contents (Elt F)),
    StableHlo.ternary main_v20 main_v22 main_v3 main_v23 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v23 main_v24 (broadcastInDim S600000x1 ![0] bcast_S600000_S600000x1_0 : (⟨S600000, .i32⟩ : BufTy).Contents (Elt F) → (⟨S600000x1, .i32⟩ : BufTy).Contents (Elt F)),
    StableHlo.binary main_v11 main_v24 main_v25 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    StableHlo.binary main_v18 main_v25 main_v26 (mulf : (⟨S600000, .f32⟩ : BufTy).Contents (Elt F) → (⟨S600000, .f32⟩ : BufTy).Contents (Elt F) → (⟨S600000, .f32⟩ : BufTy).Contents (Elt F)),
    StableHlo.unary main_v26 main_v27 (broadcastInDim S600000x1 ![0] bcast_S600000_S600000x1_0 : (⟨S600000, .f32⟩ : BufTy).Contents (Elt F) → (⟨S600000x1, .f32⟩ : BufTy).Contents (Elt F)),
    StableHlo.nullary main_c_5 (constantI S_ 32 0#32),
    StableHlo.unary main_c_5 main_v28 (broadcastInDim S600000 ![] bcast_S_S600000 : (⟨S_, .i32⟩ : BufTy).Contents (Elt F) → (⟨S600000, .i32⟩ : BufTy).Contents (Elt F)),
    StableHlo.binary main_v1 main_v28 main_v29 (cmpi .slt : (⟨S600000, .i32⟩ : BufTy).Contents (Elt F) → (⟨S600000, .i32⟩ : BufTy).Contents (Elt F) → (⟨S600000, .i1⟩ : BufTy).Contents (Elt F)),
    StableHlo.nullary main_c_6 (constantI S_ 32 50000#32),
    StableHlo.unary main_c_6 main_v30 (broadcastInDim S600000 ![] bcast_S_S600000 : (⟨S_, .i32⟩ : BufTy).Contents (Elt F) → (⟨S600000, .i32⟩ : BufTy).Contents (Elt F)),
    StableHlo.binary main_v1 main_v30 main_v31 (addi : (⟨S600000, .i32⟩ : BufTy).Contents (Elt F) → (⟨S600000, .i32⟩ : BufTy).Contents (Elt F) → (⟨S600000, .i32⟩ : BufTy).Contents (Elt F)),
    StableHlo.ternary main_v29 main_v31 main_v1 main_v32 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v32 main_v33 (broadcastInDim S600000x1 ![0] bcast_S600000_S600000x1_0 : (⟨S600000, .i32⟩ : BufTy).Contents (Elt F) → (⟨S600000x1, .i32⟩ : BufTy).Contents (Elt F)),
    StableHlo.binary main_v4 main_v33 main_v34 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.unary main_v27 main_v35 (broadcastInDim S600000x128 ![0, 1] bcast_S600000x1_S600000x128_0_1 : (⟨S600000x1, .f32⟩ : BufTy).Contents (Elt F) → (⟨S600000x128, .f32⟩ : BufTy).Contents (Elt F)),
    StableHlo.binary main_v35 main_v34 main_v36 (mulf : (⟨S600000x128, .f32⟩ : BufTy).Contents (Elt F) → (⟨S600000x128, .f32⟩ : BufTy).Contents (Elt F) → (⟨S600000x128, .f32⟩ : BufTy).Contents (Elt F)),
    StableHlo.nullary main_cst_7 (constant S_ .f32 0x00000000#32),
    StableHlo.unary main_cst_7 main_v37 (broadcastInDim S50000x128 ![] bcast_S_S50000x128 : (⟨S_, .f32⟩ : BufTy).Contents (Elt F) → (⟨S50000x128, .f32⟩ : BufTy).Contents (Elt F)),
    StableHlo.unary main_v3 main_v38 (broadcastInDim S600000x1 ![0] bcast_S600000_S600000x1_0 : (⟨S600000, .i32⟩ : BufTy).Contents (Elt F) → (⟨S600000x1, .i32⟩ : BufTy).Contents (Elt F)),
    StableHlo.ternary main_v37 main_v38 main_v36 main_v39 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v11 main_v11 main_v40 (mulf : (⟨S50000, .f32⟩ : BufTy).Contents (Elt F) → (⟨S50000, .f32⟩ : BufTy).Contents (Elt F) → (⟨S50000, .f32⟩ : BufTy).Contents (Elt F)),
    StableHlo.unary main_v40 main_v41 (broadcastInDim S50000x1 ![0] bcast_S50000_S50000x1_0 : (⟨S50000, .f32⟩ : BufTy).Contents (Elt F) → (⟨S50000x1, .f32⟩ : BufTy).Contents (Elt F)),
    StableHlo.unary main_v41 main_v42 (broadcastInDim S50000x128 ![0, 1] bcast_S50000x1_S50000x128_0_1 : (⟨S50000x1, .f32⟩ : BufTy).Contents (Elt F) → (⟨S50000x128, .f32⟩ : BufTy).Contents (Elt F)),
    StableHlo.binary main_v42 main_v4 main_v43 (mulf : (⟨S50000x128, .f32⟩ : BufTy).Contents (Elt F) → (⟨S50000x128, .f32⟩ : BufTy).Contents (Elt F) → (⟨S50000x128, .f32⟩ : BufTy).Contents (Elt F)),
    StableHlo.binary main_v39 main_v43 main_v44 (addf : (⟨S50000x128, .f32⟩ : BufTy).Contents (Elt F) → (⟨S50000x128, .f32⟩ : BufTy).Contents (Elt F) → (⟨S50000x128, .f32⟩ : BufTy).Contents (Elt F)),
    StableHlo.unary main_arg4 main_v45 (broadcastInDim S1x128 ![1] bcast_S128_S1x128_1 : (⟨S128, .f32⟩ : BufTy).Contents (Elt F) → (⟨S1x128, .f32⟩ : BufTy).Contents (Elt F)),
    StableHlo.unary main_v45 main_v46 (broadcastInDim S50000x128 ![0, 1] bcast_S1x128_S50000x128_0_1 : (⟨S1x128, .f32⟩ : BufTy).Contents (Elt F) → (⟨S50000x128, .f32⟩ : BufTy).Contents (Elt F)),
    StableHlo.binary main_v44 main_v46 main_v47 (addf : (⟨S50000x128, .f32⟩ : BufTy).Contents (Elt F) → (⟨S50000x128, .f32⟩ : BufTy).Contents (Elt F) → (⟨S50000x128, .f32⟩ : BufTy).Contents (Elt F)),
    StableHlo.nullary main_cst_8 (constant S_ .f32 0x00000000#32),
    StableHlo.binary main_v47 main_cst_8 main_v48 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) ]
/-- The references the first window's operations write, in order. -/
abbrev ops0_W : List (Ref sig .tc) :=
  [main_v0, main_v1, main_v2, main_v3, main_v4, main_cst, main_v5, main_cst_0,
   main_v6, main_v7, main_v8, main_cst_1, main_v9, main_v10, main_v11, main_c,
   main_v12, main_v13, main_c_2, main_v14, main_v15, main_v16, main_v17, main_v18,
   main_c_3, main_v19, main_v20, main_c_4, main_v21, main_v22, main_v23, main_v24,
   main_v25, main_v26, main_v27, main_c_5, main_v28, main_v29, main_c_6, main_v30,
   main_v31, main_v32, main_v33, main_v34, main_v35, main_v36, main_cst_7, main_v37,
   main_v38, main_v39, main_v40, main_v41, main_v42, main_v43, main_v44, main_v45,
   main_v46, main_v47, main_cst_8, main_v48]

/-- @main's statements 61 … 120, the two calls unfolded: the column mean, the biased column variance (the call of
    @_var, whose own call of @_where selects the quotient where the divisor is positive), the normalization
    `γ (h - μ) / √(σ² + ε) + β`, the rectifier (the call of @relu), the second layer's product, and again the degrees,
    their inverse square roots and the gathered edge weights. -/
abbrev ops1 : List (HloOp τ sig (Elt F)) :=
  [ StableHlo.nullary main_cst_9 (constant S_ .f32 0x47435000#32),
    StableHlo.unary main_cst_9 main_v49 (broadcastInDim S128 ![] bcast_S_S128 : (⟨S_, .f32⟩ : BufTy).Contents (Elt F) → (⟨S128, .f32⟩ : BufTy).Contents (Elt F)),
    StableHlo.binary main_v48 main_v49 main_v50 (Host.divf : (⟨S128, .f32⟩ : BufTy).Contents (Elt F) → (⟨S128, .f32⟩ : BufTy).Contents (Elt F) → (⟨S128, .f32⟩ : BufTy).Contents (Elt F)),
    StableHlo.nullary main_c_10 (constantI S_ 32 0#32),
    -- the call of @_var on main_v47, main_c_10 (record main_call0; its own call of @_where over main_call0.call0), result main_v51
    TRef.nullary main_call0.cst (constant S_ .f32 0x00000000#32),
    TRef.binary (TRef.of main_v47 : TRef sig ⟨S50000x128, .f32⟩) main_call0.cst main_call0.v0 (fun x v => Host.reduceAdd x v reducesTo_S50000x128_S128_d0 h_S_),
    TRef.unary main_call0.v0 main_call0.v1 (broadcastInDim S1x128 ![1] bcast_S128_S1x128_1),
    TRef.nullary main_call0.cst_0 (constant S_ .f32 0x47435000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S50000x128 ![0, 1] bcast_S1x128_S50000x128_0_1),
    TRef.binary (TRef.of main_v47 : TRef sig ⟨S50000x128, .f32⟩) main_call0.v4 main_call0.v5 subf,
    TRef.binary main_call0.v5 main_call0.v5 main_call0.v6 mulf,
    TRef.unary (TRef.of main_c_10 : TRef sig ⟨S_, .i32⟩) main_call0.v7 (sitofp .f32),
    TRef.nullary main_call0.cst_1 (constant S_ .f32 0x47435000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S50000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b),
    StableHlo.unary main_v50 main_v52 (broadcastInDim S1x128 ![1] bcast_S128_S1x128_1 : (⟨S128, .f32⟩ : BufTy).Contents (Elt F) → (⟨S1x128, .f32⟩ : BufTy).Contents (Elt F)),
    StableHlo.unary main_v52 main_v53 (broadcastInDim S50000x128 ![0, 1] bcast_S1x128_S50000x128_0_1 : (⟨S1x128, .f32⟩ : BufTy).Contents (Elt F) → (⟨S50000x128, .f32⟩ : BufTy).Contents (Elt F)),
    StableHlo.binary main_v47 main_v53 main_v54 (subf : (⟨S50000x128, .f32⟩ : BufTy).Contents (Elt F) → (⟨S50000x128, .f32⟩ : BufTy).Contents (Elt F) → (⟨S50000x128, .f32⟩ : BufTy).Contents (Elt F)),
    StableHlo.unary main_arg5 main_v55 (broadcastInDim S1x128 ![1] bcast_S128_S1x128_1 : (⟨S128, .f32⟩ : BufTy).Contents (Elt F) → (⟨S1x128, .f32⟩ : BufTy).Contents (Elt F)),
    StableHlo.unary main_v55 main_v56 (broadcastInDim S50000x128 ![0, 1] bcast_S1x128_S50000x128_0_1 : (⟨S1x128, .f32⟩ : BufTy).Contents (Elt F) → (⟨S50000x128, .f32⟩ : BufTy).Contents (Elt F)),
    StableHlo.binary main_v56 main_v54 main_v57 (mulf : (⟨S50000x128, .f32⟩ : BufTy).Contents (Elt F) → (⟨S50000x128, .f32⟩ : BufTy).Contents (Elt F) → (⟨S50000x128, .f32⟩ : BufTy).Contents (Elt F)),
    StableHlo.nullary main_cst_11 (constant S_ .f32 0x3727C5AC#32),
    StableHlo.unary main_cst_11 main_v58 (broadcastInDim S128 ![] bcast_S_S128 : (⟨S_, .f32⟩ : BufTy).Contents (Elt F) → (⟨S128, .f32⟩ : BufTy).Contents (Elt F)),
    StableHlo.binary main_v51 main_v58 main_v59 (addf : (⟨S128, .f32⟩ : BufTy).Contents (Elt F) → (⟨S128, .f32⟩ : BufTy).Contents (Elt F) → (⟨S128, .f32⟩ : BufTy).Contents (Elt F)),
    StableHlo.unary main_v59 main_v60 (Host.rsqrt : (⟨S128, .f32⟩ : BufTy).Contents (Elt F) → (⟨S128, .f32⟩ : BufTy).Contents (Elt F)),
    StableHlo.unary main_v60 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S50000x128 ![0, 1] bcast_S1x128_S50000x128_0_1 : (⟨S1x128, .f32⟩ : BufTy).Contents (Elt F) → (⟨S50000x128, .f32⟩ : BufTy).Contents (Elt F)),
    StableHlo.binary main_v57 main_v62 main_v63 (mulf : (⟨S50000x128, .f32⟩ : BufTy).Contents (Elt F) → (⟨S50000x128, .f32⟩ : BufTy).Contents (Elt F) → (⟨S50000x128, .f32⟩ : BufTy).Contents (Elt F)),
    StableHlo.unary main_arg6 main_v64 (broadcastInDim S1x128 ![1] bcast_S128_S1x128_1 : (⟨S128, .f32⟩ : BufTy).Contents (Elt F) → (⟨S1x128, .f32⟩ : BufTy).Contents (Elt F)),
    StableHlo.unary main_v64 main_v65 (broadcastInDim S50000x128 ![0, 1] bcast_S1x128_S50000x128_0_1 : (⟨S1x128, .f32⟩ : BufTy).Contents (Elt F) → (⟨S50000x128, .f32⟩ : BufTy).Contents (Elt F)),
    StableHlo.binary main_v63 main_v65 main_v66 (addf : (⟨S50000x128, .f32⟩ : BufTy).Contents (Elt F) → (⟨S50000x128, .f32⟩ : BufTy).Contents (Elt F) → (⟨S50000x128, .f32⟩ : BufTy).Contents (Elt F)),
    -- the call of @relu on main_v66 (record main_call1), result main_v67
    TRef.nullary main_call1.cst (constant S_ .f32 0x00000000#32),
    TRef.unary main_call1.cst main_call1.v0 (broadcastInDim S50000x128 ![] bcast_S_S50000x128),
    TRef.binary (TRef.of main_v66 : TRef sig ⟨S50000x128, .f32⟩) main_call1.v0 main_call1.v1 maximumf,
    StableHlo.binary main_v67 main_arg7 main_v68 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_cst_12 (constant S_ .f32 0x3F800000#32),
    StableHlo.unary main_cst_12 main_v69 (broadcastInDim S600000 ![] bcast_S_S600000 : (⟨S_, .f32⟩ : BufTy).Contents (Elt F) → (⟨S600000, .f32⟩ : BufTy).Contents (Elt F)),
    StableHlo.nullary main_cst_13 (constant S_ .f32 0x00000000#32),
    StableHlo.unary main_cst_13 main_v70 (broadcastInDim S50000 ![] bcast_S_S50000 : (⟨S_, .f32⟩ : BufTy).Contents (Elt F) → (⟨S50000, .f32⟩ : BufTy).Contents (Elt F)),
    StableHlo.unary main_v3 main_v71 (broadcastInDim S600000x1 ![0] bcast_S600000_S600000x1_0 : (⟨S600000, .i32⟩ : BufTy).Contents (Elt F) → (⟨S600000x1, .i32⟩ : BufTy).Contents (Elt F)),
    StableHlo.ternary main_v70 main_v71 main_v69 main_v72 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    StableHlo.nullary main_cst_14 (constant S_ .f32 0x3F800000#32),
    StableHlo.unary main_cst_14 main_v73 (broadcastInDim S50000 ![] bcast_S_S50000 : (⟨S_, .f32⟩ : BufTy).Contents (Elt F) → (⟨S50000, .f32⟩ : BufTy).Contents (Elt F)),
    StableHlo.binary main_v72 main_v73 main_v74 (addf : (⟨S50000, .f32⟩ : BufTy).Contents (Elt F) → (⟨S50000, .f32⟩ : BufTy).Contents (Elt F) → (⟨S50000, .f32⟩ : BufTy).Contents (Elt F)),
    StableHlo.unary main_v74 main_v75 (Host.rsqrt : (⟨S50000, .f32⟩ : BufTy).Contents (Elt F) → (⟨S50000, .f32⟩ : BufTy).Contents (Elt F)),
    StableHlo.nullary main_c_15 (constantI S_ 32 0#32),
    StableHlo.unary main_c_15 main_v76 (broadcastInDim S600000 ![] bcast_S_S600000 : (⟨S_, .i32⟩ : BufTy).Contents (Elt F) → (⟨S600000, .i32⟩ : BufTy).Contents (Elt F)),
    StableHlo.binary main_v1 main_v76 main_v77 (cmpi .slt : (⟨S600000, .i32⟩ : BufTy).Contents (Elt F) → (⟨S600000, .i32⟩ : BufTy).Contents (Elt F) → (⟨S600000, .i1⟩ : BufTy).Contents (Elt F)),
    StableHlo.nullary main_c_16 (constantI S_ 32 50000#32),
    StableHlo.unary main_c_16 main_v78 (broadcastInDim S600000 ![] bcast_S_S600000 : (⟨S_, .i32⟩ : BufTy).Contents (Elt F) → (⟨S600000, .i32⟩ : BufTy).Contents (Elt F)),
    StableHlo.binary main_v1 main_v78 main_v79 (addi : (⟨S600000, .i32⟩ : BufTy).Contents (Elt F) → (⟨S600000, .i32⟩ : BufTy).Contents (Elt F) → (⟨S600000, .i32⟩ : BufTy).Contents (Elt F)),
    StableHlo.ternary main_v77 main_v79 main_v1 main_v80 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v80 main_v81 (broadcastInDim S600000x1 ![0] bcast_S600000_S600000x1_0 : (⟨S600000, .i32⟩ : BufTy).Contents (Elt F) → (⟨S600000x1, .i32⟩ : BufTy).Contents (Elt F)),
    StableHlo.binary main_v75 main_v81 main_v82 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    StableHlo.nullary main_c_17 (constantI S_ 32 0#32),
    StableHlo.unary main_c_17 main_v83 (broadcastInDim S600000 ![] bcast_S_S600000 : (⟨S_, .i32⟩ : BufTy).Contents (Elt F) → (⟨S600000, .i32⟩ : BufTy).Contents (Elt F)),
    StableHlo.binary main_v3 main_v83 main_v84 (cmpi .slt : (⟨S600000, .i32⟩ : BufTy).Contents (Elt F) → (⟨S600000, .i32⟩ : BufTy).Contents (Elt F) → (⟨S600000, .i1⟩ : BufTy).Contents (Elt F)),
    StableHlo.nullary main_c_18 (constantI S_ 32 50000#32),
    StableHlo.unary main_c_18 main_v85 (broadcastInDim S600000 ![] bcast_S_S600000 : (⟨S_, .i32⟩ : BufTy).Contents (Elt F) → (⟨S600000, .i32⟩ : BufTy).Contents (Elt F)),
    StableHlo.binary main_v3 main_v85 main_v86 (addi : (⟨S600000, .i32⟩ : BufTy).Contents (Elt F) → (⟨S600000, .i32⟩ : BufTy).Contents (Elt F) → (⟨S600000, .i32⟩ : BufTy).Contents (Elt F)),
    StableHlo.ternary main_v84 main_v86 main_v3 main_v87 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v87 main_v88 (broadcastInDim S600000x1 ![0] bcast_S600000_S600000x1_0 : (⟨S600000, .i32⟩ : BufTy).Contents (Elt F) → (⟨S600000x1, .i32⟩ : BufTy).Contents (Elt F)),
    StableHlo.binary main_v75 main_v88 main_v89 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    StableHlo.binary main_v82 main_v89 main_v90 (mulf : (⟨S600000, .f32⟩ : BufTy).Contents (Elt F) → (⟨S600000, .f32⟩ : BufTy).Contents (Elt F) → (⟨S600000, .f32⟩ : BufTy).Contents (Elt F)),
    StableHlo.unary main_v90 main_v91 (broadcastInDim S600000x1 ![0] bcast_S600000_S600000x1_0 : (⟨S600000, .f32⟩ : BufTy).Contents (Elt F) → (⟨S600000x1, .f32⟩ : BufTy).Contents (Elt F)),
    StableHlo.nullary main_c_19 (constantI S_ 32 0#32),
    StableHlo.unary main_c_19 main_v92 (broadcastInDim S600000 ![] bcast_S_S600000 : (⟨S_, .i32⟩ : BufTy).Contents (Elt F) → (⟨S600000, .i32⟩ : BufTy).Contents (Elt F)),
    StableHlo.binary main_v1 main_v92 main_v93 (cmpi .slt : (⟨S600000, .i32⟩ : BufTy).Contents (Elt F) → (⟨S600000, .i32⟩ : BufTy).Contents (Elt F) → (⟨S600000, .i1⟩ : BufTy).Contents (Elt F)),
    StableHlo.nullary main_c_20 (constantI S_ 32 50000#32),
    StableHlo.unary main_c_20 main_v94 (broadcastInDim S600000 ![] bcast_S_S600000 : (⟨S_, .i32⟩ : BufTy).Contents (Elt F) → (⟨S600000, .i32⟩ : BufTy).Contents (Elt F)),
    StableHlo.binary main_v1 main_v94 main_v95 (addi : (⟨S600000, .i32⟩ : BufTy).Contents (Elt F) → (⟨S600000, .i32⟩ : BufTy).Contents (Elt F) → (⟨S600000, .i32⟩ : BufTy).Contents (Elt F)),
    StableHlo.ternary main_v93 main_v95 main_v1 main_v96 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) ]
/-- The references the second window's operations write, in order. -/
abbrev ops1_W : List (Ref sig .tc) :=
  [main_cst_9, main_v49, main_v50, main_c_10, main_call0_cst, main_call0_v0, main_call0_v1, main_call0_cst_0,
   main_call0_v2, main_call0_v3, main_call0_v4, main_call0_v5, main_call0_v6, main_call0_v7, main_call0_cst_1, main_call0_v8,
   main_call0_cst_2, main_call0_v9, main_call0_v10, main_call0_v11, main_call0_cst_3, main_call0_v12, main_call0_cst_4, main_call0_call0_v0,
   main_call0_call0_v1, main_v51, main_v52, main_v53, main_v54, main_v55, main_v56, main_v57,
   main_cst_11, main_v58, main_v59, main_v60, main_v61, main_v62, main_v63, main_v64,
   main_v65, main_v66, main_call1_cst, main_call1_v0, main_v67, main_v68, main_cst_12, main_v69,
   main_cst_13, main_v70, main_v71, main_v72, main_cst_14, main_v73, main_v74, main_v75,
   main_c_15, main_v76, main_v77, main_c_16, main_v78, main_v79, main_v80, main_v81,
   main_v82, main_c_17, main_v83, main_v84, main_c_18, main_v85, main_v86, main_v87,
   main_v88, main_v89, main_v90, main_v91, main_c_19, main_v92, main_v93, main_c_20,
   main_v94, main_v95, main_v96]

/-- @main's statements 121 … 180, the two calls unfolded: the second layer's messages, aggregation, self-loop term and
    bias, its column mean and variance (@_var), normalization and rectifier (@relu), the third layer's product, the
    degrees and the gathered edge weights. -/
abbrev ops2 : List (HloOp τ sig (Elt F)) :=
  [ StableHlo.unary main_v96 main_v97 (broadcastInDim S600000x1 ![0] bcast_S600000_S600000x1_0 : (⟨S600000, .i32⟩ : BufTy).Contents (Elt F) → (⟨S600000x1, .i32⟩ : BufTy).Contents (Elt F)),
    StableHlo.binary main_v68 main_v97 main_v98 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.unary main_v91 main_v99 (broadcastInDim S600000x128 ![0, 1] bcast_S600000x1_S600000x128_0_1 : (⟨S600000x1, .f32⟩ : BufTy).Contents (Elt F) → (⟨S600000x128, .f32⟩ : BufTy).Contents (Elt F)),
    StableHlo.binary main_v99 main_v98 main_v100 (mulf : (⟨S600000x128, .f32⟩ : BufTy).Contents (Elt F) → (⟨S600000x128, .f32⟩ : BufTy).Contents (Elt F) → (⟨S600000x128, .f32⟩ : BufTy).Contents (Elt F)),
    StableHlo.nullary main_cst_21 (constant S_ .f32 0x00000000#32),
    StableHlo.unary main_cst_21 main_v101 (broadcastInDim S50000x128 ![] bcast_S_S50000x128 : (⟨S_, .f32⟩ : BufTy).Contents (Elt F) → (⟨S50000x128, .f32⟩ : BufTy).Contents (Elt F)),
    StableHlo.unary main_v3 main_v102 (broadcastInDim S600000x1 ![0] bcast_S600000_S600000x1_0 : (⟨S600000, .i32⟩ : BufTy).Contents (Elt F) → (⟨S600000x1, .i32⟩ : BufTy).Contents (Elt F)),
    StableHlo.ternary main_v101 main_v102 main_v100 main_v103 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v75 main_v75 main_v104 (mulf : (⟨S50000, .f32⟩ : BufTy).Contents (Elt F) → (⟨S50000, .f32⟩ : BufTy).Contents (Elt F) → (⟨S50000, .f32⟩ : BufTy).Contents (Elt F)),
    StableHlo.unary main_v104 main_v105 (broadcastInDim S50000x1 ![0] bcast_S50000_S50000x1_0 : (⟨S50000, .f32⟩ : BufTy).Contents (Elt F) → (⟨S50000x1, .f32⟩ : BufTy).Contents (Elt F)),
    StableHlo.unary main_v105 main_v106 (broadcastInDim S50000x128 ![0, 1] bcast_S50000x1_S50000x128_0_1 : (⟨S50000x1, .f32⟩ : BufTy).Contents (Elt F) → (⟨S50000x128, .f32⟩ : BufTy).Contents (Elt F)),
    StableHlo.binary main_v106 main_v68 main_v107 (mulf : (⟨S50000x128, .f32⟩ : BufTy).Contents (Elt F) → (⟨S50000x128, .f32⟩ : BufTy).Contents (Elt F) → (⟨S50000x128, .f32⟩ : BufTy).Contents (Elt F)),
    StableHlo.binary main_v103 main_v107 main_v108 (addf : (⟨S50000x128, .f32⟩ : BufTy).Contents (Elt F) → (⟨S50000x128, .f32⟩ : BufTy).Contents (Elt F) → (⟨S50000x128, .f32⟩ : BufTy).Contents (Elt F)),
    StableHlo.unary main_arg8 main_v109 (broadcastInDim S1x128 ![1] bcast_S128_S1x128_1 : (⟨S128, .f32⟩ : BufTy).Contents (Elt F) → (⟨S1x128, .f32⟩ : BufTy).Contents (Elt F)),
    StableHlo.unary main_v109 main_v110 (broadcastInDim S50000x128 ![0, 1] bcast_S1x128_S50000x128_0_1 : (⟨S1x128, .f32⟩ : BufTy).Contents (Elt F) → (⟨S50000x128, .f32⟩ : BufTy).Contents (Elt F)),
    StableHlo.binary main_v108 main_v110 main_v111 (addf : (⟨S50000x128, .f32⟩ : BufTy).Contents (Elt F) → (⟨S50000x128, .f32⟩ : BufTy).Contents (Elt F) → (⟨S50000x128, .f32⟩ : BufTy).Contents (Elt F)),
    StableHlo.nullary main_cst_22 (constant S_ .f32 0x00000000#32),
    StableHlo.binary main_v111 main_cst_22 main_v112 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_23 (constant S_ .f32 0x47435000#32),
    StableHlo.unary main_cst_23 main_v113 (broadcastInDim S128 ![] bcast_S_S128 : (⟨S_, .f32⟩ : BufTy).Contents (Elt F) → (⟨S128, .f32⟩ : BufTy).Contents (Elt F)),
    StableHlo.binary main_v112 main_v113 main_v114 (Host.divf : (⟨S128, .f32⟩ : BufTy).Contents (Elt F) → (⟨S128, .f32⟩ : BufTy).Contents (Elt F) → (⟨S128, .f32⟩ : BufTy).Contents (Elt F)),
    StableHlo.nullary main_c_24 (constantI S_ 32 0#32),
    -- the call of @_var on main_v111, main_c_24 (record main_call2; its own call of @_where over main_call2.call0), result main_v115
    TRef.nullary main_call2.cst (constant S_ .f32 0x00000000#32),
    TRef.binary (TRef.of main_v111 : TRef sig ⟨S50000x128, .f32⟩) main_call2.cst main_call2.v0 (fun x v => Host.reduceAdd x v reducesTo_S50000x128_S128_d0 h_S_),
    TRef.unary main_call2.v0 main_call2.v1 (broadcastInDim S1x128 ![1] bcast_S128_S1x128_1),
    TRef.nullary main_call2.cst_0 (constant S_ .f32 0x47435000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S50000x128 ![0, 1] bcast_S1x128_S50000x128_0_1),
    TRef.binary (TRef.of main_v111 : TRef sig ⟨S50000x128, .f32⟩) main_call2.v4 main_call2.v5 subf,
    TRef.binary main_call2.v5 main_call2.v5 main_call2.v6 mulf,
    TRef.unary (TRef.of main_c_24 : TRef sig ⟨S_, .i32⟩) main_call2.v7 (sitofp .f32),
    TRef.nullary main_call2.cst_1 (constant S_ .f32 0x47435000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S50000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b),
    StableHlo.unary main_v114 main_v116 (broadcastInDim S1x128 ![1] bcast_S128_S1x128_1 : (⟨S128, .f32⟩ : BufTy).Contents (Elt F) → (⟨S1x128, .f32⟩ : BufTy).Contents (Elt F)),
    StableHlo.unary main_v116 main_v117 (broadcastInDim S50000x128 ![0, 1] bcast_S1x128_S50000x128_0_1 : (⟨S1x128, .f32⟩ : BufTy).Contents (Elt F) → (⟨S50000x128, .f32⟩ : BufTy).Contents (Elt F)),
    StableHlo.binary main_v111 main_v117 main_v118 (subf : (⟨S50000x128, .f32⟩ : BufTy).Contents (Elt F) → (⟨S50000x128, .f32⟩ : BufTy).Contents (Elt F) → (⟨S50000x128, .f32⟩ : BufTy).Contents (Elt F)),
    StableHlo.unary main_arg9 main_v119 (broadcastInDim S1x128 ![1] bcast_S128_S1x128_1 : (⟨S128, .f32⟩ : BufTy).Contents (Elt F) → (⟨S1x128, .f32⟩ : BufTy).Contents (Elt F)),
    StableHlo.unary main_v119 main_v120 (broadcastInDim S50000x128 ![0, 1] bcast_S1x128_S50000x128_0_1 : (⟨S1x128, .f32⟩ : BufTy).Contents (Elt F) → (⟨S50000x128, .f32⟩ : BufTy).Contents (Elt F)),
    StableHlo.binary main_v120 main_v118 main_v121 (mulf : (⟨S50000x128, .f32⟩ : BufTy).Contents (Elt F) → (⟨S50000x128, .f32⟩ : BufTy).Contents (Elt F) → (⟨S50000x128, .f32⟩ : BufTy).Contents (Elt F)),
    StableHlo.nullary main_cst_25 (constant S_ .f32 0x3727C5AC#32),
    StableHlo.unary main_cst_25 main_v122 (broadcastInDim S128 ![] bcast_S_S128 : (⟨S_, .f32⟩ : BufTy).Contents (Elt F) → (⟨S128, .f32⟩ : BufTy).Contents (Elt F)),
    StableHlo.binary main_v115 main_v122 main_v123 (addf : (⟨S128, .f32⟩ : BufTy).Contents (Elt F) → (⟨S128, .f32⟩ : BufTy).Contents (Elt F) → (⟨S128, .f32⟩ : BufTy).Contents (Elt F)),
    StableHlo.unary main_v123 main_v124 (Host.rsqrt : (⟨S128, .f32⟩ : BufTy).Contents (Elt F) → (⟨S128, .f32⟩ : BufTy).Contents (Elt F)),
    StableHlo.unary main_v124 main_v125 (broadcastInDim S1x128 ![1] bcast_S128_S1x128_1 : (⟨S128, .f32⟩ : BufTy).Contents (Elt F) → (⟨S1x128, .f32⟩ : BufTy).Contents (Elt F)),
    StableHlo.unary main_v125 main_v126 (broadcastInDim S50000x128 ![0, 1] bcast_S1x128_S50000x128_0_1 : (⟨S1x128, .f32⟩ : BufTy).Contents (Elt F) → (⟨S50000x128, .f32⟩ : BufTy).Contents (Elt F)),
    StableHlo.binary main_v121 main_v126 main_v127 (mulf : (⟨S50000x128, .f32⟩ : BufTy).Contents (Elt F) → (⟨S50000x128, .f32⟩ : BufTy).Contents (Elt F) → (⟨S50000x128, .f32⟩ : BufTy).Contents (Elt F)),
    StableHlo.unary main_arg10 main_v128 (broadcastInDim S1x128 ![1] bcast_S128_S1x128_1 : (⟨S128, .f32⟩ : BufTy).Contents (Elt F) → (⟨S1x128, .f32⟩ : BufTy).Contents (Elt F)),
    StableHlo.unary main_v128 main_v129 (broadcastInDim S50000x128 ![0, 1] bcast_S1x128_S50000x128_0_1 : (⟨S1x128, .f32⟩ : BufTy).Contents (Elt F) → (⟨S50000x128, .f32⟩ : BufTy).Contents (Elt F)),
    StableHlo.binary main_v127 main_v129 main_v130 (addf : (⟨S50000x128, .f32⟩ : BufTy).Contents (Elt F) → (⟨S50000x128, .f32⟩ : BufTy).Contents (Elt F) → (⟨S50000x128, .f32⟩ : BufTy).Contents (Elt F)),
    -- the call of @relu on main_v130 (record main_call3), result main_v131
    TRef.nullary main_call3.cst (constant S_ .f32 0x00000000#32),
    TRef.unary main_call3.cst main_call3.v0 (broadcastInDim S50000x128 ![] bcast_S_S50000x128),
    TRef.binary (TRef.of main_v130 : TRef sig ⟨S50000x128, .f32⟩) main_call3.v0 main_call3.v1 maximumf,
    StableHlo.binary main_v131 main_arg11 main_v132 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_cst_26 (constant S_ .f32 0x3F800000#32),
    StableHlo.unary main_cst_26 main_v133 (broadcastInDim S600000 ![] bcast_S_S600000 : (⟨S_, .f32⟩ : BufTy).Contents (Elt F) → (⟨S600000, .f32⟩ : BufTy).Contents (Elt F)),
    StableHlo.nullary main_cst_27 (constant S_ .f32 0x00000000#32),
    StableHlo.unary main_cst_27 main_v134 (broadcastInDim S50000 ![] bcast_S_S50000 : (⟨S_, .f32⟩ : BufTy).Contents (Elt F) → (⟨S50000, .f32⟩ : BufTy).Contents (Elt F)),
    StableHlo.unary main_v3 main_v135 (broadcastInDim S600000x1 ![0] bcast_S600000_S600000x1_0 : (⟨S600000, .i32⟩ : BufTy).Contents (Elt F) → (⟨S600000x1, .i32⟩ : BufTy).Contents (Elt F)),
    StableHlo.ternary main_v134 main_v135 main_v133 main_v136 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    StableHlo.nullary main_cst_28 (constant S_ .f32 0x3F800000#32),
    StableHlo.unary main_cst_28 main_v137 (broadcastInDim S50000 ![] bcast_S_S50000 : (⟨S_, .f32⟩ : BufTy).Contents (Elt F) → (⟨S50000, .f32⟩ : BufTy).Contents (Elt F)),
    StableHlo.binary main_v136 main_v137 main_v138 (addf : (⟨S50000, .f32⟩ : BufTy).Contents (Elt F) → (⟨S50000, .f32⟩ : BufTy).Contents (Elt F) → (⟨S50000, .f32⟩ : BufTy).Contents (Elt F)),
    StableHlo.unary main_v138 main_v139 (Host.rsqrt : (⟨S50000, .f32⟩ : BufTy).Contents (Elt F) → (⟨S50000, .f32⟩ : BufTy).Contents (Elt F)),
    StableHlo.nullary main_c_29 (constantI S_ 32 0#32),
    StableHlo.unary main_c_29 main_v140 (broadcastInDim S600000 ![] bcast_S_S600000 : (⟨S_, .i32⟩ : BufTy).Contents (Elt F) → (⟨S600000, .i32⟩ : BufTy).Contents (Elt F)),
    StableHlo.binary main_v1 main_v140 main_v141 (cmpi .slt : (⟨S600000, .i32⟩ : BufTy).Contents (Elt F) → (⟨S600000, .i32⟩ : BufTy).Contents (Elt F) → (⟨S600000, .i1⟩ : BufTy).Contents (Elt F)),
    StableHlo.nullary main_c_30 (constantI S_ 32 50000#32),
    StableHlo.unary main_c_30 main_v142 (broadcastInDim S600000 ![] bcast_S_S600000 : (⟨S_, .i32⟩ : BufTy).Contents (Elt F) → (⟨S600000, .i32⟩ : BufTy).Contents (Elt F)),
    StableHlo.binary main_v1 main_v142 main_v143 (addi : (⟨S600000, .i32⟩ : BufTy).Contents (Elt F) → (⟨S600000, .i32⟩ : BufTy).Contents (Elt F) → (⟨S600000, .i32⟩ : BufTy).Contents (Elt F)),
    StableHlo.ternary main_v141 main_v143 main_v1 main_v144 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v144 main_v145 (broadcastInDim S600000x1 ![0] bcast_S600000_S600000x1_0 : (⟨S600000, .i32⟩ : BufTy).Contents (Elt F) → (⟨S600000x1, .i32⟩ : BufTy).Contents (Elt F)),
    StableHlo.binary main_v139 main_v145 main_v146 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)) ]
/-- The references the third window's operations write, in order. -/
abbrev ops2_W : List (Ref sig .tc) :=
  [main_v97, main_v98, main_v99, main_v100, main_cst_21, main_v101, main_v102, main_v103,
   main_v104, main_v105, main_v106, main_v107, main_v108, main_v109, main_v110, main_v111,
   main_cst_22, main_v112, main_cst_23, main_v113, main_v114, main_c_24, main_call2_cst, main_call2_v0,
   main_call2_v1, main_call2_cst_0, main_call2_v2, main_call2_v3, main_call2_v4, main_call2_v5, main_call2_v6, main_call2_v7,
   main_call2_cst_1, main_call2_v8, main_call2_cst_2, main_call2_v9, main_call2_v10, main_call2_v11, main_call2_cst_3, main_call2_v12,
   main_call2_cst_4, main_call2_call0_v0, main_call2_call0_v1, main_v115, main_v116, main_v117, main_v118, main_v119,
   main_v120, main_v121, main_cst_25, main_v122, main_v123, main_v124, main_v125, main_v126,
   main_v127, main_v128, main_v129, main_v130, main_call3_cst, main_call3_v0, main_v131, main_v132,
   main_cst_26, main_v133, main_cst_27, main_v134, main_v135, main_v136, main_cst_28, main_v137,
   main_v138, main_v139, main_c_29, main_v140, main_v141, main_c_30, main_v142, main_v143,
   main_v144, main_v145, main_v146]

/-- @main's statements 181 … 236, the call unfolded: the third layer's messages, aggregation, self-loop term and bias,
    the rectifier (@relu), the per-graph sums and node counts (scatter-adds over the batch vector), the mean pool
    `sums / max(count, 1)` and the final affine map. -/
abbrev ops3 : List (HloOp τ sig (Elt F)) :=
  [ StableHlo.nullary main_c_31 (constantI S_ 32 0#32),
    StableHlo.unary main_c_31 main_v147 (broadcastInDim S600000 ![] bcast_S_S600000 : (⟨S_, .i32⟩ : BufTy).Contents (Elt F) → (⟨S600000, .i32⟩ : BufTy).Contents (Elt F)),
    StableHlo.binary main_v3 main_v147 main_v148 (cmpi .slt : (⟨S600000, .i32⟩ : BufTy).Contents (Elt F) → (⟨S600000, .i32⟩ : BufTy).Contents (Elt F) → (⟨S600000, .i1⟩ : BufTy).Contents (Elt F)),
    StableHlo.nullary main_c_32 (constantI S_ 32 50000#32),
    StableHlo.unary main_c_32 main_v149 (broadcastInDim S600000 ![] bcast_S_S600000 : (⟨S_, .i32⟩ : BufTy).Contents (Elt F) → (⟨S600000, .i32⟩ : BufTy).Contents (Elt F)),
    StableHlo.binary main_v3 main_v149 main_v150 (addi : (⟨S600000, .i32⟩ : BufTy).Contents (Elt F) → (⟨S600000, .i32⟩ : BufTy).Contents (Elt F) → (⟨S600000, .i32⟩ : BufTy).Contents (Elt F)),
    StableHlo.ternary main_v148 main_v150 main_v3 main_v151 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v151 main_v152 (broadcastInDim S600000x1 ![0] bcast_S600000_S600000x1_0 : (⟨S600000, .i32⟩ : BufTy).Contents (Elt F) → (⟨S600000x1, .i32⟩ : BufTy).Contents (Elt F)),
    StableHlo.binary main_v139 main_v152 main_v153 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    StableHlo.binary main_v146 main_v153 main_v154 (mulf : (⟨S600000, .f32⟩ : BufTy).Contents (Elt F) → (⟨S600000, .f32⟩ : BufTy).Contents (Elt F) → (⟨S600000, .f32⟩ : BufTy).Contents (Elt F)),
    StableHlo.unary main_v154 main_v155 (broadcastInDim S600000x1 ![0] bcast_S600000_S600000x1_0 : (⟨S600000, .f32⟩ : BufTy).Contents (Elt F) → (⟨S600000x1, .f32⟩ : BufTy).Contents (Elt F)),
    StableHlo.nullary main_c_33 (constantI S_ 32 0#32),
    StableHlo.unary main_c_33 main_v156 (broadcastInDim S600000 ![] bcast_S_S600000 : (⟨S_, .i32⟩ : BufTy).Contents (Elt F) → (⟨S600000, .i32⟩ : BufTy).Contents (Elt F)),
    StableHlo.binary main_v1 main_v156 main_v157 (cmpi .slt : (⟨S600000, .i32⟩ : BufTy).Contents (Elt F) → (⟨S600000, .i32⟩ : BufTy).Contents (Elt F) → (⟨S600000, .i1⟩ : BufTy).Contents (Elt F)),
    StableHlo.nullary main_c_34 (constantI S_ 32 50000#32),
    StableHlo.unary main_c_34 main_v158 (broadcastInDim S600000 ![] bcast_S_S600000 : (⟨S_, .i32⟩ : BufTy).Contents (Elt F) → (⟨S600000, .i32⟩ : BufTy).Contents (Elt F)),
    StableHlo.binary main_v1 main_v158 main_v159 (addi : (⟨S600000, .i32⟩ : BufTy).Contents (Elt F) → (⟨S600000, .i32⟩ : BufTy).Contents (Elt F) → (⟨S600000, .i32⟩ : BufTy).Contents (Elt F)),
    StableHlo.ternary main_v157 main_v159 main_v1 main_v160 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v160 main_v161 (broadcastInDim S600000x1 ![0] bcast_S600000_S600000x1_0 : (⟨S600000, .i32⟩ : BufTy).Contents (Elt F) → (⟨S600000x1, .i32⟩ : BufTy).Contents (Elt F)),
    StableHlo.binary main_v132 main_v161 main_v162 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.unary main_v155 main_v163 (broadcastInDim S600000x128 ![0, 1] bcast_S600000x1_S600000x128_0_1 : (⟨S600000x1, .f32⟩ : BufTy).Contents (Elt F) → (⟨S600000x128, .f32⟩ : BufTy).Contents (Elt F)),
    StableHlo.binary main_v163 main_v162 main_v164 (mulf : (⟨S600000x128, .f32⟩ : BufTy).Contents (Elt F) → (⟨S600000x128, .f32⟩ : BufTy).Contents (Elt F) → (⟨S600000x128, .f32⟩ : BufTy).Contents (Elt F)),
    StableHlo.nullary main_cst_35 (constant S_ .f32 0x00000000#32),
    StableHlo.unary main_cst_35 main_v165 (broadcastInDim S50000x128 ![] bcast_S_S50000x128 : (⟨S_, .f32⟩ : BufTy).Contents (Elt F) → (⟨S50000x128, .f32⟩ : BufTy).Contents (Elt F)),
    StableHlo.unary main_v3 main_v166 (broadcastInDim S600000x1 ![0] bcast_S600000_S600000x1_0 : (⟨S600000, .i32⟩ : BufTy).Contents (Elt F) → (⟨S600000x1, .i32⟩ : BufTy).Contents (Elt F)),
    StableHlo.ternary main_v165 main_v166 main_v164 main_v167 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v139 main_v139 main_v168 (mulf : (⟨S50000, .f32⟩ : BufTy).Contents (Elt F) → (⟨S50000, .f32⟩ : BufTy).Contents (Elt F) → (⟨S50000, .f32⟩ : BufTy).Contents (Elt F)),
    StableHlo.unary main_v168 main_v169 (broadcastInDim S50000x1 ![0] bcast_S50000_S50000x1_0 : (⟨S50000, .f32⟩ : BufTy).Contents (Elt F) → (⟨S50000x1, .f32⟩ : BufTy).Contents (Elt F)),
    StableHlo.unary main_v169 main_v170 (broadcastInDim S50000x128 ![0, 1] bcast_S50000x1_S50000x128_0_1 : (⟨S50000x1, .f32⟩ : BufTy).Contents (Elt F) → (⟨S50000x128, .f32⟩ : BufTy).Contents (Elt F)),
    StableHlo.binary main_v170 main_v132 main_v171 (mulf : (⟨S50000x128, .f32⟩ : BufTy).Contents (Elt F) → (⟨S50000x128, .f32⟩ : BufTy).Contents (Elt F) → (⟨S50000x128, .f32⟩ : BufTy).Contents (Elt F)),
    StableHlo.binary main_v167 main_v171 main_v172 (addf : (⟨S50000x128, .f32⟩ : BufTy).Contents (Elt F) → (⟨S50000x128, .f32⟩ : BufTy).Contents (Elt F) → (⟨S50000x128, .f32⟩ : BufTy).Contents (Elt F)),
    StableHlo.unary main_arg12 main_v173 (broadcastInDim S1x128 ![1] bcast_S128_S1x128_1 : (⟨S128, .f32⟩ : BufTy).Contents (Elt F) → (⟨S1x128, .f32⟩ : BufTy).Contents (Elt F)),
    StableHlo.unary main_v173 main_v174 (broadcastInDim S50000x128 ![0, 1] bcast_S1x128_S50000x128_0_1 : (⟨S1x128, .f32⟩ : BufTy).Contents (Elt F) → (⟨S50000x128, .f32⟩ : BufTy).Contents (Elt F)),
    StableHlo.binary main_v172 main_v174 main_v175 (addf : (⟨S50000x128, .f32⟩ : BufTy).Contents (Elt F) → (⟨S50000x128, .f32⟩ : BufTy).Contents (Elt F) → (⟨S50000x128, .f32⟩ : BufTy).Contents (Elt F)),
    -- the call of @relu on main_v175 (record main_call4), result main_v176
    TRef.nullary main_call4.cst (constant S_ .f32 0x00000000#32),
    TRef.unary main_call4.cst main_call4.v0 (broadcastInDim S50000x128 ![] bcast_S_S50000x128),
    TRef.binary (TRef.of main_v175 : TRef sig ⟨S50000x128, .f32⟩) main_call4.v0 main_call4.v1 maximumf,
    StableHlo.nullary main_cst_36 (constant S_ .f32 0x00000000#32),
    StableHlo.unary main_cst_36 main_v177 (broadcastInDim S256x128 ![] bcast_S_S256x128 : (⟨S_, .f32⟩ : BufTy).Contents (Elt F) → (⟨S256x128, .f32⟩ : BufTy).Contents (Elt F)),
    StableHlo.unary main_arg2 main_v178 (broadcastInDim S50000x1 ![0] bcast_S50000_S50000x1_0 : (⟨S50000, .i32⟩ : BufTy).Contents (Elt F) → (⟨S50000x1, .i32⟩ : BufTy).Contents (Elt F)),
    StableHlo.ternary main_v177 main_v178 main_v176 main_v179 ((fun x i u => Host.scatterAdd scatter_S256x128_S50000x1_S50000x128_1_0_0_1 x i u) : (⟨S256x128, .f32⟩ : BufTy).Contents (Elt F) → (⟨S50000x1, .i32⟩ : BufTy).Contents (Elt F) → (⟨S50000x128, .f32⟩ : BufTy).Contents (Elt F) → (⟨S256x128, .f32⟩ : BufTy).Contents (Elt F)),
    StableHlo.nullary main_cst_37 (constant S_ .f32 0x3F800000#32),
    StableHlo.unary main_cst_37 main_v180 (broadcastInDim S50000 ![] bcast_S_S50000 : (⟨S_, .f32⟩ : BufTy).Contents (Elt F) → (⟨S50000, .f32⟩ : BufTy).Contents (Elt F)),
    StableHlo.nullary main_cst_38 (constant S_ .f32 0x00000000#32),
    StableHlo.unary main_cst_38 main_v181 (broadcastInDim S256 ![] bcast_S_S256 : (⟨S_, .f32⟩ : BufTy).Contents (Elt F) → (⟨S256, .f32⟩ : BufTy).Contents (Elt F)),
    StableHlo.unary main_arg2 main_v182 (broadcastInDim S50000x1 ![0] bcast_S50000_S50000x1_0 : (⟨S50000, .i32⟩ : BufTy).Contents (Elt F) → (⟨S50000x1, .i32⟩ : BufTy).Contents (Elt F)),
    StableHlo.ternary main_v181 main_v182 main_v180 main_v183 ((fun x i u => Host.scatterAdd scatter_S256_S50000x1_S50000_n_0_0_1 x i u) : (⟨S256, .f32⟩ : BufTy).Contents (Elt F) → (⟨S50000x1, .i32⟩ : BufTy).Contents (Elt F) → (⟨S50000, .f32⟩ : BufTy).Contents (Elt F) → (⟨S256, .f32⟩ : BufTy).Contents (Elt F)),
    StableHlo.nullary main_cst_39 (constant S_ .f32 0x3F800000#32),
    StableHlo.unary main_cst_39 main_v184 (broadcastInDim S256 ![] bcast_S_S256 : (⟨S_, .f32⟩ : BufTy).Contents (Elt F) → (⟨S256, .f32⟩ : BufTy).Contents (Elt F)),
    StableHlo.binary main_v183 main_v184 main_v185 (maximumf : (⟨S256, .f32⟩ : BufTy).Contents (Elt F) → (⟨S256, .f32⟩ : BufTy).Contents (Elt F) → (⟨S256, .f32⟩ : BufTy).Contents (Elt F)),
    StableHlo.unary main_v185 main_v186 (broadcastInDim S256x1 ![0] bcast_S256_S256x1_0 : (⟨S256, .f32⟩ : BufTy).Contents (Elt F) → (⟨S256x1, .f32⟩ : BufTy).Contents (Elt F)),
    StableHlo.unary main_v186 main_v187 (broadcastInDim S256x128 ![0, 1] bcast_S256x1_S256x128_0_1 : (⟨S256x1, .f32⟩ : BufTy).Contents (Elt F) → (⟨S256x128, .f32⟩ : BufTy).Contents (Elt F)),
    StableHlo.binary main_v179 main_v187 main_v188 (Host.divf : (⟨S256x128, .f32⟩ : BufTy).Contents (Elt F) → (⟨S256x128, .f32⟩ : BufTy).Contents (Elt F) → (⟨S256x128, .f32⟩ : BufTy).Contents (Elt F)),
    StableHlo.binary main_v188 main_arg13 main_v189 ((fun l r => Host.dotGeneral dot_S256x128_S128x1_S256x1_1_0_0_1_n_n none l r) : (⟨S256x128, .f32⟩ : BufTy).Contents (Elt F) → (⟨S128x1, .f32⟩ : BufTy).Contents (Elt F) → (⟨S256x1, .f32⟩ : BufTy).Contents (Elt F)),
    StableHlo.unary main_arg14 main_v190 (broadcastInDim S1x1 ![1] bcast_S1_S1x1_1 : (⟨S1, .f32⟩ : BufTy).Contents (Elt F) → (⟨S1x1, .f32⟩ : BufTy).Contents (Elt F)),
    StableHlo.unary main_v190 main_v191 (broadcastInDim S256x1 ![0, 1] bcast_S1x1_S256x1_0_1 : (⟨S1x1, .f32⟩ : BufTy).Contents (Elt F) → (⟨S256x1, .f32⟩ : BufTy).Contents (Elt F)),
    StableHlo.binary main_v189 main_v191 main_v192 (addf : (⟨S256x1, .f32⟩ : BufTy).Contents (Elt F) → (⟨S256x1, .f32⟩ : BufTy).Contents (Elt F) → (⟨S256x1, .f32⟩ : BufTy).Contents (Elt F)) ]
/-- The references the last window's operations write, in order. -/
abbrev ops3_W : List (Ref sig .tc) :=
  [main_c_31, main_v147, main_v148, main_c_32, main_v149, main_v150, main_v151, main_v152,
   main_v153, main_v154, main_v155, main_c_33, main_v156, main_v157, main_c_34, main_v158,
   main_v159, main_v160, main_v161, main_v162, main_v163, main_v164, main_cst_35, main_v165,
   main_v166, main_v167, main_v168, main_v169, main_v170, main_v171, main_v172, main_v173,
   main_v174, main_v175, main_call4_cst, main_call4_v0, main_v176, main_cst_36, main_v177, main_v178,
   main_v179, main_cst_37, main_v180, main_cst_38, main_v181, main_v182, main_v183, main_cst_39,
   main_v184, main_v185, main_v186, main_v187, main_v188, main_v189, main_v190, main_v191,
   main_v192]

/-- @main's 283 operations, in order. -/
abbrev ops : List (HloOp τ sig (Elt F)) := ops0 ++ (ops1 ++ (ops2 ++ ops3))

end Cert.ReferenceIdeal.Hand

end
-- ==== Proof.Ref.Run.lean ====
import proofs.«171585_j55456617726008_1_alg».proof.Defs
import proofs.«171585_j55456617726008_1_alg».proof.Proof.Gen.ReferenceIdeal
import proofs.«171585_j55456617726008_1_alg».proof.Proof.Gen.Pre_finite_inputs
import proofs.«171585_j55456617726008_1_alg».proof.Proof.Ref.Ops
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in

theorem main_part0_eq (c : Dev nD) : main_part0 (F := F) c = seq ops0 := rfl

set_option maxRecDepth 8192 in
set_option maxHeartbeats 4000000 in

theorem main_part1_eq (c : Dev nD) : main_part1 (F := F) c = seq ops1 := by
  simp only [main_part1, fn_var.body, fn_where.body, fn_relu.body, seq, bind_assoc, pure_bind]
  rfl

set_option maxRecDepth 8192 in
set_option maxHeartbeats 4000000 in

theorem main_part2_eq (c : Dev nD) : main_part2 (F := F) c = seq ops2 := by
  simp only [main_part2, fn_var.body, fn_where.body, fn_relu.body, seq, bind_assoc, pure_bind]
  rfl

set_option maxRecDepth 8192 in
set_option maxHeartbeats 4000000 in

theorem main_part3_eq (c : Dev nD) : main_part3 (F := F) c = seq ops3 := by
  simp only [main_part3, fn_relu.body, seq, bind_assoc, pure_bind]

theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem forall_mem_append4 {α : Type} {p : α → Prop} {l₀ l₁ l₂ l₃ : List α} (h₀ : l₀.Forall p) (h₁ : l₁.Forall p)
    (h₂ : l₂.Forall p) (h₃ : l₃.Forall p) : ∀ x ∈ l₀ ++ (l₁ ++ (l₂ ++ l₃)), p x := by
  intro x h
  simp only [List.mem_append] at h
  rcases h with h | h | h | h
  exacts [List.forall_iff_forall_mem.mp h₀ x h, List.forall_iff_forall_mem.mp h₁ x h,
    List.forall_iff_forall_mem.mp h₂ x h, List.forall_iff_forall_mem.mp h₃ x h]

set_option maxRecDepth 8192 in
theorem ops0_sub : (ops0 : List (HloOp τ sig (Elt F))).Forall fun op => op.bufs ⊆ tcRefs τ sig := by
  simp only [ops0, List.Forall, nullary_bufs_sub, unary_bufs_sub, binary_bufs_sub, ternary_bufs_sub, reshape_bufs_sub, and_self]
set_option maxRecDepth 8192 in
theorem ops1_sub : (ops1 : List (HloOp τ sig (Elt F))).Forall fun op => op.bufs ⊆ tcRefs τ sig := by
  simp only [ops1, List.Forall, nullary_bufs_sub, unary_bufs_sub, binary_bufs_sub, ternary_bufs_sub, reshape_bufs_sub, and_self]
set_option maxRecDepth 8192 in
theorem ops2_sub : (ops2 : List (HloOp τ sig (Elt F))).Forall fun op => op.bufs ⊆ tcRefs τ sig := by
  simp only [ops2, List.Forall, nullary_bufs_sub, unary_bufs_sub, binary_bufs_sub, ternary_bufs_sub, reshape_bufs_sub, and_self]
set_option maxRecDepth 8192 in
theorem ops3_sub : (ops3 : List (HloOp τ sig (Elt F))).Forall fun op => op.bufs ⊆ tcRefs τ sig := by
  simp only [ops3, List.Forall, nullary_bufs_sub, unary_bufs_sub, binary_bufs_sub, ternary_bufs_sub, reshape_bufs_sub, and_self]

theorem ops_sub : (ops : List (HloOp τ sig (Elt F))).Forall fun op => op.bufs ⊆ tcRefs τ sig :=
  List.forall_iff_forall_mem.mpr (forall_mem_append4 ops0_sub ops1_sub ops2_sub ops3_sub)

set_option maxRecDepth 8192 in
theorem ops0_fresh : (ops0 : List (HloOp τ sig (Elt F))).Forall fun op => op.fresh = ∅ := by
  simp only [ops0, List.Forall]
  repeat' apply And.intro
  all_goals rfl
set_option maxRecDepth 8192 in
theorem ops1_fresh : (ops1 : List (HloOp τ sig (Elt F))).Forall fun op => op.fresh = ∅ := by
  simp only [ops1, List.Forall]
  repeat' apply And.intro
  all_goals rfl
set_option maxRecDepth 8192 in
theorem ops2_fresh : (ops2 : List (HloOp τ sig (Elt F))).Forall fun op => op.fresh = ∅ := by
  simp only [ops2, List.Forall]
  repeat' apply And.intro
  all_goals rfl
set_option maxRecDepth 8192 in
theorem ops3_fresh : (ops3 : List (HloOp τ sig (Elt F))).Forall fun op => op.fresh = ∅ := by
  simp only [ops3, List.Forall]
  repeat' apply And.intro
  all_goals rfl

theorem ops_fresh : ∀ op ∈ (ops : List (HloOp τ sig (Elt F))), op.fresh = ∅ :=
  forall_mem_append4 ops0_fresh ops1_fresh ops2_fresh ops3_fresh

theorem writes_sub_of {op : HloOp τ sig (Elt F)} {W : List (Ref sig .tc)} (y : Ref sig .tc)
    (hw : op.writes = {Proc.devRef .tc y}) (hy : y ∈ W) : op.writes ⊆ (W.map (Proc.devRef (τ := τ) .tc)).toFinset := by
  rw [hw, Finset.singleton_subset_iff, List.mem_toFinset]
  exact List.mem_map_of_mem hy

set_option maxRecDepth 8192 in
theorem ops0_writes : (ops0 : List (HloOp τ sig (Elt F))).Forall fun op => op.writes ⊆ (ops0_W.map (Proc.devRef (τ := τ) .tc)).toFinset := by
  simp only [ops0, List.Forall]
  repeat' apply And.intro
  all_goals exact writes_sub_of _ rfl (by decide)
set_option maxRecDepth 8192 in
theorem ops1_writes : (ops1 : List (HloOp τ sig (Elt F))).Forall fun op => op.writes ⊆ (ops1_W.map (Proc.devRef (τ := τ) .tc)).toFinset := by
  simp only [ops1, List.Forall]
  repeat' apply And.intro
  all_goals exact writes_sub_of _ rfl (by decide)
set_option maxRecDepth 8192 in
theorem ops2_writes : (ops2 : List (HloOp τ sig (Elt F))).Forall fun op => op.writes ⊆ (ops2_W.map (Proc.devRef (τ := τ) .tc)).toFinset := by
  simp only [ops2, List.Forall]
  repeat' apply And.intro
  all_goals exact writes_sub_of _ rfl (by decide)
set_option maxRecDepth 8192 in
theorem ops3_writes : (ops3 : List (HloOp τ sig (Elt F))).Forall fun op => op.writes ⊆ (ops3_W.map (Proc.devRef (τ := τ) .tc)).toFinset := by
  simp only [ops3, List.Forall]
  repeat' apply And.intro
  all_goals exact writes_sub_of _ rfl (by decide)

theorem after_keep (V : Valuation τ sig (Elt F)) (r : Ref sig .tc) (h₀ : r ∉ ops0_W) (h₁ : r ∉ ops1_W) (h₂ : r ∉ ops2_W)
    (h₃ : r ∉ ops3_W) : after ops V (Proc.devRef .tc r) = V (Proc.devRef .tc r) := by
  simp only [ops, after_append]
  rw [after_of_writes_sub ops3 _ ops3_writes h₃, after_of_writes_sub ops2 _ ops2_writes h₂,
    after_of_writes_sub ops1 _ ops1_writes h₁, after_of_writes_sub ops0 _ ops0_writes h₀]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v192) = after ops (launchContents m c) (Proc.devRef .tc main_v192)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨h c main_v192,
      (h c main_arg0).trans (after_keep _ main_arg0 (by decide) (by decide) (by decide) (by decide)),
      (h c main_arg1).trans (after_keep _ main_arg1 (by decide) (by decide) (by decide) (by decide)),
      (h c main_arg2).trans (after_keep _ main_arg2 (by decide) (by decide) (by decide) (by decide)),
      (h c main_arg3).trans (after_keep _ main_arg3 (by decide) (by decide) (by decide) (by decide)),
      (h c main_arg4).trans (after_keep _ main_arg4 (by decide) (by decide) (by decide) (by decide)),
      (h c main_arg5).trans (after_keep _ main_arg5 (by decide) (by decide) (by decide) (by decide)),
      (h c main_arg6).trans (after_keep _ main_arg6 (by decide) (by decide) (by decide) (by decide)),
      (h c main_arg7).trans (after_keep _ main_arg7 (by decide) (by decide) (by decide) (by decide)),
      (h c main_arg8).trans (after_keep _ main_arg8 (by decide) (by decide) (by decide) (by decide)),
      (h c main_arg9).trans (after_keep _ main_arg9 (by decide) (by decide) (by decide) (by decide)),
      (h c main_arg10).trans (after_keep _ main_arg10 (by decide) (by decide) (by decide) (by decide)),
      (h c main_arg11).trans (after_keep _ main_arg11 (by decide) (by decide) (by decide) (by decide)),
      (h c main_arg12).trans (after_keep _ main_arg12 (by decide) (by decide) (by decide) (by decide)),
      (h c main_arg13).trans (after_keep _ main_arg13 (by decide) (by decide) (by decide) (by decide)),
      (h c main_arg14).trans (after_keep _ main_arg14 (by decide) (by decide) (by decide) (by decide))⟩)
    (run_seq scopedRefs_eq scopedSems_eq defs main (fun _ => ops) main_eq (fun _ => ops_sub) m ρ (fun _ => ops_fresh))

theorem frame_ri : Cert.frame_ReferenceIdeal (hReferenceIdeal := Cert.ReferenceIdeal.Gen.facts)
    (hPre_finite_inputs := Cert.Pre_finite_inputs.Gen.facts) :=
  fun m g _ => (θ_run _ _ _).mono (fun _ h c => (h c).2) (run (F := Ideal) m g)

end Cert.ReferenceIdeal.Hand

end
-- ==== Proof.KI.Host.lean ====
import proofs.«171585_j55456617726008_1_alg».proof.Proof.Gen.KernelIdeal.Launch
import Idealize.ShloMosaic.Lib.StableHlo.Run

noncomputable section

namespace Cert.KernelIdeal.Hand

open Idealize.ShloMosaic Idealize.SL.Sem
open Cert.KernelIdeal.Gen

variable {F : FTy → Type} [FloatOps F] [Named F]

def srcOf (ei : IVec S2x600000 32) : IVec S600000 32 :=
  shapeCast S600000 (extractStridedSlice S1x600000 ![0, 0] ei slices_S2x600000_S1x600000_0_0) shapeCasts_S1x600000_S600000

def dstOf (ei : IVec S2x600000 32) : IVec S600000 32 :=
  shapeCast S600000 (extractStridedSlice S1x600000 ![1, 0] ei slices_S2x600000_S1x600000_1_0) shapeCasts_S1x600000_S600000

def wrapOf (v : IVec S600000 32) : IVec S600000 32 :=
  select (cmpi .slt v (broadcastInDim S600000 ![] bcast_S_S600000 (constantI S_ 32 0#32)))
    (addi v (broadcastInDim S600000 ![] bcast_S_S600000 (constantI S_ 32 50000#32))) v

def colOf (v : IVec S600000 32) : IVec S600000x1 32 :=
  broadcastInDim S600000x1 ![0] bcast_S600000_S600000x1_0 v

def degOf (ei : IVec S2x600000 32) : Vec F S50000 .f32 :=
  addf
    (Host.scatterAdd scatter_S50000_S600000x1_S600000_n_0_0_1
      (broadcastInDim S50000 ![] bcast_S_S50000 (constant (F := F) S_ .f32 0x00000000#32))
      (colOf (dstOf ei))
      (broadcastInDim S600000 ![] bcast_S_S600000 (constant (F := F) S_ .f32 0x3F800000#32)))
    (broadcastInDim S50000 ![] bcast_S_S50000 (constant (F := F) S_ .f32 0x3F800000#32))

def disOf (ei : IVec S2x600000 32) : Vec F S50000 .f32 :=
  Host.rsqrt (F := F) (degOf ei)

def dsdOf (ei : IVec S2x600000 32) : Vec F S600000 .f32 :=
  mulf
    (Host.gather gather_S50000_S600000x1_S600000_n_0_n_n_0_1_1 (disOf ei) (colOf (wrapOf (srcOf ei))))
    (Host.gather gather_S50000_S600000x1_S600000_n_0_n_n_0_1_1 (disOf ei) (colOf (wrapOf (dstOf ei))))

def dis2Of (ei : IVec S2x600000 32) : Vec F S50000x1 .f32 :=
  broadcastInDim S50000x1 ![0] bcast_S50000_S50000x1_0 (mulf (disOf ei) (disOf ei))

def aggOf (src dst : IVec S600000 32) (w : Vec F S600000 .f32) (h : Vec F S50000x128 .f32) : Vec F S50000x128 .f32 :=
  Host.scatterAdd (F := F) scatter_S50000x128_S600000x1_S600000x128_1_0_0_1
    (broadcastInDim S50000x128 ![] bcast_S_S50000x128 (constant (F := F) S_ .f32 0x00000000#32))
    (colOf dst)
    (mulf
      (broadcastInDim S600000x128 ![0, 1] bcast_S600000x1_S600000x128_0_1
        (broadcastInDim S600000x1 ![0] bcast_S600000_S600000x1_0 w))
      (Host.gather gather_S50000x128_S600000x1_S600000x128_1_0_n_n_0_1_1128 h (colOf (wrapOf src))))

def rowOf (b : Vec F S128 .f32) : Vec F S1x128 .f32 :=
  shapeCast S1x128 b shapeCasts_S128_S1x128

def poolOf (batch : IVec S50000 32) (a : Vec F S50000x128 .f32) (wl : Vec F S128x1 .f32) (bl : Vec F S1 .f32) : Vec F S256x1 .f32 :=
  addf
    (Host.dotGeneral (F := F) dot_S256x128_S128x1_S256x1_1_0_0_1_n_n none
      (Host.divf (F := F)
        (Host.scatterAdd (F := F) scatter_S256x128_S50000x1_S50000x128_1_0_0_1
          (broadcastInDim S256x128 ![] bcast_S_S256x128 (constant (F := F) S_ .f32 0x00000000#32))
          (broadcastInDim S50000x1 ![0] bcast_S50000_S50000x1_0 batch)
          a)
        (broadcastInDim S256x128 ![0, 1] bcast_S256x1_S256x128_0_1
          (broadcastInDim S256x1 ![0] bcast_S256_S256x1_0
            (maximumf
              (Host.scatterAdd (F := F) scatter_S256_S50000x1_S50000_n_0_0_1
                (broadcastInDim S256 ![] bcast_S_S256 (constant (F := F) S_ .f32 0x00000000#32))
                (broadcastInDim S50000x1 ![0] bcast_S50000_S50000x1_0 batch)
                (broadcastInDim S50000 ![] bcast_S_S50000 (constant (F := F) S_ .f32 0x3F800000#32)))
              (broadcastInDim S256 ![] bcast_S_S256 (constant (F := F) S_ .f32 0x3F800000#32))))))
      wl)
    (broadcastInDim S256x1 ![0, 1] bcast_S1x1_S256x1_0_1 (broadcastInDim S1x1 ![1] bcast_S1_S1x1_1 bl))

variable (W : Valuation τ sig (Elt F))

theorem hostOps0_v1 :
    (StableHlo.after hostOps0 W (Proc.devRef .tc main_v1) : Vec F S600000 .i32) = srcOf (W (Proc.devRef .tc main_arg1)) := by
  after_results; rfl

theorem hostOps0_v3 :
    (StableHlo.after hostOps0 W (Proc.devRef .tc main_v3) : Vec F S600000 .i32) = dstOf (W (Proc.devRef .tc main_arg1)) := by
  after_results; rfl

theorem hostOps0_v25 :
    (StableHlo.after hostOps0 W (Proc.devRef .tc main_v25) : Vec F S600000 .f32) = dsdOf (F := F) (W (Proc.devRef .tc main_arg1)) := by
  after_results_simp; rfl

theorem hostOps0_v27 :
    (StableHlo.after hostOps0 W (Proc.devRef .tc main_v27) : Vec F S50000x1 .f32) = dis2Of (F := F) (W (Proc.devRef .tc main_arg1)) := by
  after_results_simp; rfl

theorem hostOps1_v41 :
    (StableHlo.after hostOps1 W (Proc.devRef .tc main_v41) : Vec F S50000x128 .f32)
      = aggOf (F := F) (W (Proc.devRef .tc main_v1)) (W (Proc.devRef .tc main_v3)) (W (Proc.devRef .tc main_v25)) (W (Proc.devRef .tc main_v28)) := by
  after_results_simp; rfl

theorem hostOps1_v42 :
    (StableHlo.after hostOps1 W (Proc.devRef .tc main_v42) : Vec F S1x128 .f32) = rowOf (F := F) (W (Proc.devRef .tc main_arg4)) := by
  after_results; rfl

theorem hostOps5_v61 :
    (StableHlo.after hostOps5 W (Proc.devRef .tc main_v61) : Vec F S50000x128 .f32)
      = aggOf (F := F) (W (Proc.devRef .tc main_v1)) (W (Proc.devRef .tc main_v3)) (W (Proc.devRef .tc main_v25)) (W (Proc.devRef .tc main_v48)) := by
  after_results_simp; rfl

theorem hostOps5_v62 :
    (StableHlo.after hostOps5 W (Proc.devRef .tc main_v62) : Vec F S1x128 .f32) = rowOf (F := F) (W (Proc.devRef .tc main_arg8)) := by
  after_results; rfl

theorem hostOps9_v81 :
    (StableHlo.after hostOps9 W (Proc.devRef .tc main_v81) : Vec F S50000x128 .f32)
      = aggOf (F := F) (W (Proc.devRef .tc main_v1)) (W (Proc.devRef .tc main_v3)) (W (Proc.devRef .tc main_v25)) (W (Proc.devRef .tc main_v68)) := by
  after_results_simp; rfl

theorem hostOps9_v82 :
    (StableHlo.after hostOps9 W (Proc.devRef .tc main_v82) : Vec F S1x128 .f32) = rowOf (F := F) (W (Proc.devRef .tc main_arg12)) := by
  after_results; rfl

theorem hostOps3_v45 :
    (StableHlo.after hostOps3 W (Proc.devRef .tc main_v45) : Vec F S1x128 .f32) = rowOf (F := F) (W (Proc.devRef .tc main_arg5)) := by
  after_results; rfl

theorem hostOps3_v46 :
    (StableHlo.after hostOps3 W (Proc.devRef .tc main_v46) : Vec F S1x128 .f32) = rowOf (F := F) (W (Proc.devRef .tc main_arg6)) := by
  after_results; rfl

theorem hostOps7_v65 :
    (StableHlo.after hostOps7 W (Proc.devRef .tc main_v65) : Vec F S1x128 .f32) = rowOf (F := F) (W (Proc.devRef .tc main_arg9)) := by
  after_results; rfl

theorem hostOps7_v66 :
    (StableHlo.after hostOps7 W (Proc.devRef .tc main_v66) : Vec F S1x128 .f32) = rowOf (F := F) (W (Proc.devRef .tc main_arg10)) := by
  after_results; rfl

theorem hostOps10_v99 :
    (StableHlo.after hostOps10 W (Proc.devRef .tc main_v99) : Vec F S256x1 .f32)
      = poolOf (F := F) (W (Proc.devRef .tc main_arg2)) (W (Proc.devRef .tc main_v83)) (W (Proc.devRef .tc main_arg13)) (W (Proc.devRef .tc main_arg14)) := by
  after_results_simp; rfl

end Cert.KernelIdeal.Hand
-- ==== Proof.SpecFns.lean ====
import proofs.«171585_j55456617726008_1_alg».proof.Proof.KI.Host
import Idealize.ShloMosaic.PureOps.Ideal
import Idealize.ShloMosaic.Lib.ValueIdx

noncomputable section

open scoped BigOperators

namespace Cert.Spec

open Idealize.ShloMosaic Idealize.ShloMosaic.ValueIdx
open Cert.KernelIdeal Cert.KernelIdeal.Hand

def mmOf (x : Vec Ideal S50000x128 .f32) (w : Vec Ideal S128x128 .f32) : Vec Ideal S50000x128 .f32 :=
  fun i => ∑ k : Fin 128, x (ix2 (i 0) k) * w (ix2 k (i 1))

@[simp] theorem mmOf_apply (x : Vec Ideal S50000x128 .f32) (w : Vec Ideal S128x128 .f32) (r : Fin 50000) (j : Fin 128) :
    mmOf x w (ix2 r j) = ∑ k : Fin 128, x (ix2 r k) * w (ix2 k j) := rfl

def cmbOf (agg h : Vec Ideal S50000x128 .f32) (d2 : Vec Ideal S50000x1 .f32) (b : Vec Ideal S1x128 .f32) :
    Vec Ideal S50000x128 .f32 :=
  fun i => (agg (ix2 (i 0) (i 1)) + d2 (ix2 (i 0) (0 : Fin 1)) * h (ix2 (i 0) (i 1))) + b (ix2 (0 : Fin 1) (i 1))

@[simp] theorem cmbOf_apply (agg h : Vec Ideal S50000x128 .f32) (d2 : Vec Ideal S50000x1 .f32) (b : Vec Ideal S1x128 .f32)
    (r : Fin 50000) (j : Fin 128) :
    cmbOf agg h d2 b (ix2 r j) = (agg (ix2 r j) + d2 (ix2 r (0 : Fin 1)) * h (ix2 r j)) + b (ix2 (0 : Fin 1) j) := rfl

def cmbReluOf (agg h : Vec Ideal S50000x128 .f32) (d2 : Vec Ideal S50000x1 .f32) (b : Vec Ideal S1x128 .f32) :
    Vec Ideal S50000x128 .f32 :=
  fun i => max (cmbOf agg h d2 b i) 0

@[simp] theorem cmbReluOf_apply (agg h : Vec Ideal S50000x128 .f32) (d2 : Vec Ideal S50000x1 .f32) (b : Vec Ideal S1x128 .f32)
    (r : Fin 50000) (j : Fin 128) :
    cmbReluOf agg h d2 b (ix2 r j) = max (cmbOf agg h d2 b (ix2 r j)) 0 := rfl

def epsBN : EReal := Ideal.ofBits .f32 0x3727C5AC#32

def bnReluOf (z : Vec Ideal S50000x128 .f32) (mean var g be : Vec Ideal S1x128 .f32) : Vec Ideal S50000x128 .f32 :=
  fun i => max ((g (ix2 (0 : Fin 1) (i 1)) * (z (ix2 (i 0) (i 1)) - mean (ix2 (0 : Fin 1) (i 1))))
      * Ideal.rsqrt (var (ix2 (0 : Fin 1) (i 1)) + epsBN) + be (ix2 (0 : Fin 1) (i 1))) 0

@[simp] theorem bnReluOf_apply (z : Vec Ideal S50000x128 .f32) (mean var g be : Vec Ideal S1x128 .f32) (r : Fin 50000) (j : Fin 128) :
    bnReluOf z mean var g be (ix2 r j)
      = max ((g (ix2 (0 : Fin 1) j) * (z (ix2 r j) - mean (ix2 (0 : Fin 1) j)))
          * Ideal.rsqrt (var (ix2 (0 : Fin 1) j) + epsBN) + be (ix2 (0 : Fin 1) j)) 0 := rfl

def colSum (z : Vec Ideal S50000x128 .f32) (j : Fin 128) : EReal := ∑ r : Fin 50000, z (ix2 r j)

def invN : EReal := ((1 / 50000 : ℝ) : EReal)

def meanKOf (z : Vec Ideal S50000x128 .f32) : Vec Ideal S1x128 .f32 :=
  fun i => colSum z (i 1) * invN

@[simp] theorem meanKOf_apply (z : Vec Ideal S50000x128 .f32) (a : Fin 1) (j : Fin 128) :
    meanKOf z (ix2 a j) = colSum z j * invN := rfl

def varKOf (z : Vec Ideal S50000x128 .f32) : Vec Ideal S1x128 .f32 :=
  fun i => (∑ r : Fin 50000, z (ix2 r (i 1)) * z (ix2 r (i 1))) * invN - (colSum z (i 1) * invN) * (colSum z (i 1) * invN)

@[simp] theorem varKOf_apply (z : Vec Ideal S50000x128 .f32) (a : Fin 1) (j : Fin 128) :
    varKOf z (ix2 a j) = (∑ r : Fin 50000, z (ix2 r j) * z (ix2 r j)) * invN - (colSum z j * invN) * (colSum z j * invN) := rfl

def meanROf (z : Vec Ideal S50000x128 .f32) : Vec Ideal S128 .f32 :=
  fun i => Ideal.div (colSum z (i 0)) ((50000 : ℝ) : EReal)

@[simp] theorem meanROf_apply (z : Vec Ideal S50000x128 .f32) (j : Fin 128) :
    meanROf z (ix1 j) = Ideal.div (colSum z j) ((50000 : ℝ) : EReal) := rfl

def varROf (z : Vec Ideal S50000x128 .f32) : Vec Ideal S128 .f32 :=
  fun i => Ideal.div
    (∑ r : Fin 50000, (z (ix2 r (i 0)) - Ideal.div (colSum z (i 0)) ((50000 : ℝ) : EReal))
        * (z (ix2 r (i 0)) - Ideal.div (colSum z (i 0)) ((50000 : ℝ) : EReal)))
    ((50000 : ℝ) : EReal)

@[simp] theorem varROf_apply (z : Vec Ideal S50000x128 .f32) (j : Fin 128) :
    varROf z (ix1 j) = Ideal.div
      (∑ r : Fin 50000, (z (ix2 r j) - Ideal.div (colSum z j) ((50000 : ℝ) : EReal))
          * (z (ix2 r j) - Ideal.div (colSum z j) ((50000 : ℝ) : EReal)))
      ((50000 : ℝ) : EReal) := rfl

def layerZ (ei : IVec S2x600000 32) (hin : Vec Ideal S50000x128 .f32) (w : Vec Ideal S128x128 .f32) (b : Vec Ideal S128 .f32) :
    Vec Ideal S50000x128 .f32 :=
  cmbOf (aggOf (F := Ideal) (srcOf ei) (dstOf ei) (dsdOf (F := Ideal) ei) (mmOf hin w)) (mmOf hin w)
    (dis2Of (F := Ideal) ei) (rowOf (F := Ideal) b)

def kernelSpec (x : Vec Ideal S50000x128 .f32) (ei : IVec S2x600000 32) (batch : IVec S50000 32)
    (W1 : Vec Ideal S128x128 .f32) (b1 g1 be1 : Vec Ideal S128 .f32)
    (W2 : Vec Ideal S128x128 .f32) (b2 g2 be2 : Vec Ideal S128 .f32)
    (W3 : Vec Ideal S128x128 .f32) (b3 : Vec Ideal S128 .f32)
    (Wl : Vec Ideal S128x1 .f32) (bl : Vec Ideal S1 .f32) : Vec Ideal S256x1 .f32 :=
  let z1 := layerZ ei x W1 b1
  let a1 := bnReluOf z1 (meanKOf z1) (varKOf z1) (rowOf (F := Ideal) g1) (rowOf (F := Ideal) be1)
  let z2 := layerZ ei a1 W2 b2
  let a2 := bnReluOf z2 (meanKOf z2) (varKOf z2) (rowOf (F := Ideal) g2) (rowOf (F := Ideal) be2)
  let h3 := mmOf a2 W3
  let a3 := cmbReluOf (aggOf (F := Ideal) (srcOf ei) (dstOf ei) (dsdOf (F := Ideal) ei) h3) h3
    (dis2Of (F := Ideal) ei) (rowOf (F := Ideal) b3)
  poolOf (F := Ideal) batch a3 Wl bl

def refSpec (x : Vec Ideal S50000x128 .f32) (ei : IVec S2x600000 32) (batch : IVec S50000 32)
    (W1 : Vec Ideal S128x128 .f32) (b1 g1 be1 : Vec Ideal S128 .f32)
    (W2 : Vec Ideal S128x128 .f32) (b2 g2 be2 : Vec Ideal S128 .f32)
    (W3 : Vec Ideal S128x128 .f32) (b3 : Vec Ideal S128 .f32)
    (Wl : Vec Ideal S128x1 .f32) (bl : Vec Ideal S1 .f32) : Vec Ideal S256x1 .f32 :=
  let z1 := layerZ ei x W1 b1
  let a1 := bnReluOf z1 (rowOf (F := Ideal) (meanROf z1)) (rowOf (F := Ideal) (varROf z1)) (rowOf (F := Ideal) g1) (rowOf (F := Ideal) be1)
  let z2 := layerZ ei a1 W2 b2
  let a2 := bnReluOf z2 (rowOf (F := Ideal) (meanROf z2)) (rowOf (F := Ideal) (varROf z2)) (rowOf (F := Ideal) g2) (rowOf (F := Ideal) be2)
  let h3 := mmOf a2 W3
  let a3 := cmbReluOf (aggOf (F := Ideal) (srcOf ei) (dstOf ei) (dsdOf (F := Ideal) ei) h3) h3
    (dis2Of (F := Ideal) ei) (rowOf (F := Ideal) b3)
  poolOf (F := Ideal) batch a3 Wl bl

end Cert.Spec
-- ==== Proof.Ref.Chain.lean ====
import proofs.«171585_j55456617726008_1_alg».proof.Proof.Ref.Run
import proofs.«171585_j55456617726008_1_alg».proof.Proof.SpecFns
import Idealize.ShloMosaic.Lib.IdealHost
import Idealize.ShloMosaic.Lib.KernelVsHost
import Idealize.ShloMosaic.Lib.ValueLayout

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx
open Cert.KernelIdeal.Hand (srcOf dstOf wrapOf colOf degOf disOf dsdOf dis2Of aggOf rowOf poolOf)
open scoped BigOperators

variable {F : FTy → Type} [FloatOps F]

def cmbT (agg h : Vec F S50000x128 .f32) (d2 : Vec F S50000x1 .f32) (b : Vec F S128 .f32) : Vec F S50000x128 .f32 :=
  addf (addf agg (mulf (broadcastInDim S50000x128 ![0, 1] bcast_S50000x1_S50000x128_0_1 d2) h))
    (broadcastInDim S50000x128 ![0, 1] bcast_S1x128_S50000x128_0_1 (broadcastInDim S1x128 ![1] bcast_S128_S1x128_1 b))

def sumT (z : Vec F S50000x128 .f32) : Vec F S128 .f32 :=
  Host.reduceAdd z (constant (F := F) S_ .f32 0x00000000#32) reducesTo_S50000x128_S128_d0 h_S_

def dotT (x : Vec F S50000x128 .f32) (w : Vec F S128x128 .f32) : Vec F S50000x128 .f32 :=
  Host.dotGeneral (F := F) dot_S50000x128_S128x128_S50000x128_1_0_0_1_n_n none x w

def layerT (ei : IVec S2x600000 32) (hin : Vec F S50000x128 .f32) (w : Vec F S128x128 .f32) (b : Vec F S128 .f32) : Vec F S50000x128 .f32 :=
  cmbT (aggOf (F := F) (srcOf ei) (dstOf ei) (dsdOf (F := F) ei) (dotT hin w)) (dotT hin w) (dis2Of (F := F) ei) b

def meanT (s : Vec F S128 .f32) : Vec F S128 .f32 :=
  Host.divf s (broadcastInDim S128 ![] bcast_S_S128 (constant (F := F) S_ .f32 0x47435000#32))

def cntT : Vec F S_ .f32 :=
  subf (constant (F := F) S_ .f32 0x47435000#32) (sitofp .f32 (constantI S_ 32 0#32))

def devT (z : Vec F S50000x128 .f32) : Vec F S50000x128 .f32 :=
  subf z (broadcastInDim S50000x128 ![0, 1] bcast_S1x128_S50000x128_0_1
    (Host.divf (broadcastInDim S1x128 ![1] bcast_S128_S1x128_1 (sumT z))
      (broadcastInDim S1x128 ![] bcast_S_S1x128 (constant (F := F) S_ .f32 0x47435000#32))))

def varT (z : Vec F S50000x128 .f32) : Vec F S128 .f32 :=
  select (broadcastInDim S128 ![] bcast_S_S128 (cmpf .ogt (cntT (F := F)) (constant (F := F) S_ .f32 0x00000000#32)))
    (Host.divf (sumT (mulf (devT z) (devT z))) (broadcastInDim S128 ![] bcast_S_S128 (cntT (F := F))))
    (broadcastInDim S128 ![] bcast_S_S128 (id (constant (F := F) S_ .f32 0x7FC00000#32)))

def reluT (x : Vec F S50000x128 .f32) : Vec F S50000x128 .f32 :=
  maximumf x (broadcastInDim S50000x128 ![] bcast_S_S50000x128 (constant (F := F) S_ .f32 0x00000000#32))

def bnT (z : Vec F S50000x128 .f32) (mean var g be : Vec F S128 .f32) : Vec F S50000x128 .f32 :=
  reluT (addf
    (mulf
      (mulf (broadcastInDim S50000x128 ![0, 1] bcast_S1x128_S50000x128_0_1 (broadcastInDim S1x128 ![1] bcast_S128_S1x128_1 g))
        (subf z (broadcastInDim S50000x128 ![0, 1] bcast_S1x128_S50000x128_0_1 (broadcastInDim S1x128 ![1] bcast_S128_S1x128_1 mean))))
      (broadcastInDim S50000x128 ![0, 1] bcast_S1x128_S50000x128_0_1 (broadcastInDim S1x128 ![1] bcast_S128_S1x128_1
        (Host.rsqrt (addf var (broadcastInDim S128 ![] bcast_S_S128 (constant (F := F) S_ .f32 0x3727C5AC#32)))))))
    (broadcastInDim S50000x128 ![0, 1] bcast_S1x128_S50000x128_0_1 (broadcastInDim S1x128 ![1] bcast_S128_S1x128_1 be)))

def bnSelfT (z : Vec F S50000x128 .f32) (g be : Vec F S128 .f32) : Vec F S50000x128 .f32 :=
  bnT z (meanT (sumT z)) (varT z) g be

section Windows

variable (W : Valuation τ sig (Elt F)) (ei : IVec S2x600000 32)

theorem ops0_v1 :
    (after ops0 W (Proc.devRef .tc main_v1) : Vec F S600000 .i32) = srcOf (W (Proc.devRef .tc main_arg1)) := by
  after_results_simp; rfl

theorem ops0_v3 :
    (after ops0 W (Proc.devRef .tc main_v3) : Vec F S600000 .i32) = dstOf (W (Proc.devRef .tc main_arg1)) := by
  after_results_simp; rfl

theorem ops0_v47 :
    (after ops0 W (Proc.devRef .tc main_v47) : Vec F S50000x128 .f32)
      = layerT (F := F) (W (Proc.devRef .tc main_arg1)) (W (Proc.devRef .tc main_arg0)) (W (Proc.devRef .tc main_arg3))
          (W (Proc.devRef .tc main_arg4)) := by
  after_results_simp; rfl

theorem ops0_v48 :
    (after ops0 W (Proc.devRef .tc main_v48) : Vec F S128 .f32)
      = sumT (layerT (F := F) (W (Proc.devRef .tc main_arg1)) (W (Proc.devRef .tc main_arg0)) (W (Proc.devRef .tc main_arg3))
          (W (Proc.devRef .tc main_arg4))) := by
  after_results_simp; rfl

theorem ops1_v68 (z : Vec F S50000x128 .f32) (g be : Vec F S128 .f32) (w : Vec F S128x128 .f32)
    (h47 : (W (Proc.devRef .tc main_v47) : Vec F S50000x128 .f32) = z)
    (h48 : (W (Proc.devRef .tc main_v48) : Vec F S128 .f32) = sumT z)
    (h5 : (W (Proc.devRef .tc main_arg5) : Vec F S128 .f32) = g)
    (h6 : (W (Proc.devRef .tc main_arg6) : Vec F S128 .f32) = be)
    (h7 : (W (Proc.devRef .tc main_arg7) : Vec F S128x128 .f32) = w) :
    (after ops1 W (Proc.devRef .tc main_v68) : Vec F S50000x128 .f32) = dotT (bnSelfT z g be) w := by
  after_results_simp
  rw [h47, h48, h5, h6, h7]
  rfl

theorem ops1_v75 (h3 : (W (Proc.devRef .tc main_v3) : Vec F S600000 .i32) = dstOf ei) :
    (after ops1 W (Proc.devRef .tc main_v75) : Vec F S50000 .f32) = disOf (F := F) ei := by
  after_results_simp
  rw [h3]
  rfl

theorem ops1_v91 (h1 : (W (Proc.devRef .tc main_v1) : Vec F S600000 .i32) = srcOf ei)
    (h3 : (W (Proc.devRef .tc main_v3) : Vec F S600000 .i32) = dstOf ei) :
    (after ops1 W (Proc.devRef .tc main_v91) : Vec F S600000x1 .f32)
      = broadcastInDim S600000x1 ![0] bcast_S600000_S600000x1_0 (dsdOf (F := F) ei) := by
  after_results_simp
  rw [h1, h3]
  rfl

theorem ops1_v96 (h1 : (W (Proc.devRef .tc main_v1) : Vec F S600000 .i32) = srcOf ei) :
    (after ops1 W (Proc.devRef .tc main_v96) : Vec F S600000 .i32) = wrapOf (srcOf ei) := by
  after_results_simp
  rw [h1]
  rfl

theorem ops2_v132 (a : Vec F S50000x128 .f32) (w w' : Vec F S128x128 .f32) (b g be : Vec F S128 .f32)
    (h3 : (W (Proc.devRef .tc main_v3) : Vec F S600000 .i32) = dstOf ei)
    (h68 : (W (Proc.devRef .tc main_v68) : Vec F S50000x128 .f32) = dotT a w)
    (h75 : (W (Proc.devRef .tc main_v75) : Vec F S50000 .f32) = disOf (F := F) ei)
    (h91 : (W (Proc.devRef .tc main_v91) : Vec F S600000x1 .f32)
      = broadcastInDim S600000x1 ![0] bcast_S600000_S600000x1_0 (dsdOf (F := F) ei))
    (h96 : (W (Proc.devRef .tc main_v96) : Vec F S600000 .i32) = wrapOf (srcOf ei))
    (h8 : (W (Proc.devRef .tc main_arg8) : Vec F S128 .f32) = b)
    (h9 : (W (Proc.devRef .tc main_arg9) : Vec F S128 .f32) = g)
    (h10 : (W (Proc.devRef .tc main_arg10) : Vec F S128 .f32) = be)
    (h11 : (W (Proc.devRef .tc main_arg11) : Vec F S128x128 .f32) = w') :
    (after ops2 W (Proc.devRef .tc main_v132) : Vec F S50000x128 .f32)
      = dotT (bnSelfT (layerT ei a w b) g be) w' := by
  after_results_simp
  rw [h3, h68, h75, h91, h96, h8, h9, h10, h11]
  rfl

theorem ops2_v139 (h3 : (W (Proc.devRef .tc main_v3) : Vec F S600000 .i32) = dstOf ei) :
    (after ops2 W (Proc.devRef .tc main_v139) : Vec F S50000 .f32) = disOf (F := F) ei := by
  after_results_simp
  rw [h3]
  rfl

theorem ops2_v146 (h1 : (W (Proc.devRef .tc main_v1) : Vec F S600000 .i32) = srcOf ei)
    (h3 : (W (Proc.devRef .tc main_v3) : Vec F S600000 .i32) = dstOf ei) :
    (after ops2 W (Proc.devRef .tc main_v146) : Vec F S600000 .f32)
      = Host.gather gather_S50000_S600000x1_S600000_n_0_n_n_0_1_1 (disOf (F := F) ei) (colOf (wrapOf (srcOf ei))) := by
  after_results_simp
  rw [h1, h3]
  rfl

theorem ops3_v192 (h : Vec F S50000x128 .f32) (b : Vec F S128 .f32) (batch : IVec S50000 32) (wl : Vec F S128x1 .f32)
    (bl : Vec F S1 .f32)
    (h1 : (W (Proc.devRef .tc main_v1) : Vec F S600000 .i32) = srcOf ei)
    (h3 : (W (Proc.devRef .tc main_v3) : Vec F S600000 .i32) = dstOf ei)
    (h132 : (W (Proc.devRef .tc main_v132) : Vec F S50000x128 .f32) = h)
    (h139 : (W (Proc.devRef .tc main_v139) : Vec F S50000 .f32) = disOf (F := F) ei)
    (h146 : (W (Proc.devRef .tc main_v146) : Vec F S600000 .f32)
      = Host.gather gather_S50000_S600000x1_S600000_n_0_n_n_0_1_1 (disOf (F := F) ei) (colOf (wrapOf (srcOf ei))))
    (h12 : (W (Proc.devRef .tc main_arg12) : Vec F S128 .f32) = b)
    (h2 : (W (Proc.devRef .tc main_arg2) : Vec F S50000 .i32) = batch)
    (h13 : (W (Proc.devRef .tc main_arg13) : Vec F S128x1 .f32) = wl)
    (h14 : (W (Proc.devRef .tc main_arg14) : Vec F S1 .f32) = bl) :
    (after ops3 W (Proc.devRef .tc main_v192) : Vec F S256x1 .f32)
      = poolOf (F := F) batch
          (reluT (cmbT (aggOf (F := F) (srcOf ei) (dstOf ei) (dsdOf (F := F) ei) h) h (dis2Of (F := F) ei) b)) wl bl := by
  after_results_simp
  rw [h1, h3, h132, h139, h146, h12, h2, h13, h14]
  rfl

end Windows

def refT (x : Vec F S50000x128 .f32) (ei : IVec S2x600000 32) (batch : IVec S50000 32)
    (W1 : Vec F S128x128 .f32) (b1 g1 be1 : Vec F S128 .f32)
    (W2 : Vec F S128x128 .f32) (b2 g2 be2 : Vec F S128 .f32)
    (W3 : Vec F S128x128 .f32) (b3 : Vec F S128 .f32)
    (Wl : Vec F S128x1 .f32) (bl : Vec F S1 .f32) : Vec F S256x1 .f32 :=
  poolOf (F := F) batch
    (reluT (cmbT
      (aggOf (F := F) (srcOf ei) (dstOf ei) (dsdOf (F := F) ei)
        (dotT (bnSelfT (layerT ei (bnSelfT (layerT ei x W1 b1) g1 be1) W2 b2) g2 be2) W3))
      (dotT (bnSelfT (layerT ei (bnSelfT (layerT ei x W1 b1) g1 be1) W2 b2) g2 be2) W3)
      (dis2Of (F := F) ei) b3))
    Wl bl

theorem keep0 (W : Valuation τ sig (Elt F)) (r : Ref sig .tc) (h : r ∉ ops0_W) :
    after ops0 W (Proc.devRef .tc r) = W (Proc.devRef .tc r) := after_of_writes_sub ops0 W ops0_writes h
theorem keep1 (W : Valuation τ sig (Elt F)) (r : Ref sig .tc) (h : r ∉ ops1_W) :
    after ops1 W (Proc.devRef .tc r) = W (Proc.devRef .tc r) := after_of_writes_sub ops1 W ops1_writes h
theorem keep2 (W : Valuation τ sig (Elt F)) (r : Ref sig .tc) (h : r ∉ ops2_W) :
    after ops2 W (Proc.devRef .tc r) = W (Proc.devRef .tc r) := after_of_writes_sub ops2 W ops2_writes h

theorem after_ops_v192 (V : Valuation τ sig (Elt F)) :
    (after ops V (Proc.devRef .tc main_v192) : Vec F S256x1 .f32)
      = refT (F := F) (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8))
          (V (Proc.devRef .tc main_arg9)) (V (Proc.devRef .tc main_arg10)) (V (Proc.devRef .tc main_arg11))
          (V (Proc.devRef .tc main_arg12)) (V (Proc.devRef .tc main_arg13)) (V (Proc.devRef .tc main_arg14)) := by
  simp only [ops, after_append]

  have A1 := ops0_v1 V
  have A3 := ops0_v3 V
  have A47 := ops0_v47 V
  have A48 := ops0_v48 V

  have B1 := (keep1 (after ops0 V) main_v1 (by decide)).trans A1
  have B3 := (keep1 (after ops0 V) main_v3 (by decide)).trans A3
  have B68 := ops1_v68 (after ops0 V) _ _ _ _ A47 A48 (keep0 V main_arg5 (by decide)) (keep0 V main_arg6 (by decide))
    (keep0 V main_arg7 (by decide))
  have B75 := ops1_v75 (after ops0 V) _ A3
  have B91 := ops1_v91 (after ops0 V) _ A1 A3
  have B96 := ops1_v96 (after ops0 V) _ A1

  have C1 := (keep2 (after ops1 (after ops0 V)) main_v1 (by decide)).trans B1
  have C3 := (keep2 (after ops1 (after ops0 V)) main_v3 (by decide)).trans B3
  have C132 := ops2_v132 (after ops1 (after ops0 V)) _ _ _ _ _ _ _ B3 B68 B75 B91 B96
    ((keep1 _ main_arg8 (by decide)).trans (keep0 V main_arg8 (by decide)))
    ((keep1 _ main_arg9 (by decide)).trans (keep0 V main_arg9 (by decide)))
    ((keep1 _ main_arg10 (by decide)).trans (keep0 V main_arg10 (by decide)))
    ((keep1 _ main_arg11 (by decide)).trans (keep0 V main_arg11 (by decide)))
  have C139 := ops2_v139 (after ops1 (after ops0 V)) _ B3
  have C146 := ops2_v146 (after ops1 (after ops0 V)) _ B1 B3

  exact ops3_v192 (after ops2 (after ops1 (after ops0 V))) _ _ _ _ _ _ C1 C3 C132 C139 C146
    (((keep2 _ main_arg12 (by decide)).trans (keep1 _ main_arg12 (by decide))).trans (keep0 V main_arg12 (by decide)))
    (((keep2 _ main_arg2 (by decide)).trans (keep1 _ main_arg2 (by decide))).trans (keep0 V main_arg2 (by decide)))
    (((keep2 _ main_arg13 (by decide)).trans (keep1 _ main_arg13 (by decide))).trans (keep0 V main_arg13 (by decide)))
    (((keep2 _ main_arg14 (by decide)).trans (keep1 _ main_arg14 (by decide))).trans (keep0 V main_arg14 (by decide)))

theorem ofBits_50000 : Ideal.ofBits .f32 0x47435000#32 = ((50000 : ℝ) : EReal) := by
  simp [Ideal.ofBits, Ideal.ieee, -EReal.coe_mul]; norm_num

theorem dot_apply (x : FVec Ideal S50000x128 .f32) (w : FVec Ideal S128x128 .f32) (r : Fin 50000) (j : Fin 128) :
    Host.dotGeneral (F := Ideal) dot_S50000x128_S128x128_S50000x128_1_0_0_1_n_n none x w (ix2 r j)
      = ∑ k : Fin 128, x (ix2 r k) * w (ix2 k j) := by
  show FloatOps.dotGeneral _ none _ x w (ix2 r j) = _
  rw [Ideal.dotGeneral_apply,
    ← Equiv.sum_comp (contrEquiv1 dot_S50000x128_S128x128_S50000x128_1_0_0_1_n_n 128 rfl rfl).symm]
  refine Finset.sum_congr rfl fun c _ => ?_
  have c2 := contrEquiv1_symm_val dot_S50000x128_S128x128_S50000x128_1_0_0_1_n_n 128 rfl rfl c
  have l2 : dot_S50000x128_S128x128_S50000x128_1_0_0_1_n_n.lhsIdx (ix2 r j) ((contrEquiv1 _ 128 rfl rfl).symm c) = ix2 r c := by
    funext ax; apply Fin.ext
    match ax with
    | ⟨0, _⟩ => simp [DotDims.lhsIdx, dot_S50000x128_S128x128_S50000x128_1_0_0_1_n_n]; rfl
    | ⟨1, _⟩ => simp [DotDims.lhsIdx, dot_S50000x128_S128x128_S50000x128_1_0_0_1_n_n]; exact c2
  have r2 : dot_S50000x128_S128x128_S50000x128_1_0_0_1_n_n.rhsIdx (ix2 r j) ((contrEquiv1 _ 128 rfl rfl).symm c) = ix2 c j := by
    funext ax; apply Fin.ext
    match ax with
    | ⟨0, _⟩ => simp [DotDims.rhsIdx, dot_S50000x128_S128x128_S50000x128_1_0_0_1_n_n]; exact c2
    | ⟨1, _⟩ => simp [DotDims.rhsIdx, dot_S50000x128_S128x128_S50000x128_1_0_0_1_n_n]; rfl
  rw [l2, r2]

theorem row_apply {α : Type} (b : S128.Idx → α) (u : Fin 1) (j : Fin 128) :
    broadcastInDim S1x128 (no_index ![1]) bcast_S128_S1x128_1 b (ix2 u j) = b (ix1 j) := by
  refine broadcastInDim_apply _ _ b (ix2 u j) (ix1 j) ?_
  intro a
  match a with
  | ⟨0, _⟩ => rfl

theorem rowOf_apply (b : FVec Ideal S128 .f32) (u : Fin 1) (j : Fin 128) :
    Cert.KernelIdeal.Hand.rowOf (F := Ideal) b (ix2 u j) = b (ix1 j) := by
  unfold Cert.KernelIdeal.Hand.rowOf
  exact shapeCast_a_1a_apply b _ u j

theorem bcRows_apply {α : Type} (y : S1x128.Idx → α) (r : Fin 50000) (j : Fin 128) :
    broadcastInDim S50000x128 (no_index ![0, 1]) bcast_S1x128_S50000x128_0_1 y (ix2 r j) = y (ix2 (0 : Fin 1) j) :=
  broadcastInDim_oneRow_apply _ y r j

theorem bcCols_apply {α : Type} (d : S50000x1.Idx → α) (r : Fin 50000) (j : Fin 128) :
    broadcastInDim S50000x128 (no_index ![0, 1]) bcast_S50000x1_S50000x128_0_1 d (ix2 r j) = d (ix2 r (0 : Fin 1)) := by
  refine broadcastInDim_apply _ _ d (ix2 r j) (ix2 r (0 : Fin 1)) ?_
  intro a
  match a with
  | ⟨0, _⟩ => rfl
  | ⟨1, _⟩ => rfl

theorem colSum_apply (z : FVec Ideal S50000x128 .f32) (j : Fin 128) :
    Host.reduceAdd (F := Ideal) z (constant (F := Ideal) S_ .f32 0x00000000#32) reducesTo_S50000x128_S128_d0 h_S_ (ix1 j)
      = ∑ r : Fin 50000, z (ix2 r j) := by
  rw [hostReduceAdd_apply, Ideal.hostReduceAdd_single _ (by decide : S50000x128.Reduces [0] S128), constant_apply,
    Ideal.ofBits_zero_f32, zero_add]
  refine Finset.sum_congr rfl fun r _ => congrArg z ?_
  funext ax
  match ax with
  | ⟨0, _⟩ => rfl
  | ⟨1, _⟩ => rfl

theorem bcVec_apply {α : Type} (x : S_.Idx → α) (j : S128.Idx) :
    broadcastInDim S128 (no_index ![]) bcast_S_S128 x j = x ix0 := broadcastInDim_scalar_apply _ x j
theorem bcRow_apply {α : Type} (x : S_.Idx → α) (j : S1x128.Idx) :
    broadcastInDim S1x128 (no_index ![]) bcast_S_S1x128 x j = x ix0 := broadcastInDim_scalar_apply _ x j
theorem bcMat_apply {α : Type} (x : S_.Idx → α) (j : S50000x128.Idx) :
    broadcastInDim S50000x128 (no_index ![]) bcast_S_S50000x128 x j = x ix0 := broadcastInDim_scalar_apply _ x j

theorem dotT_eq (x : Vec Ideal S50000x128 .f32) (w : Vec Ideal S128x128 .f32) : dotT (F := Ideal) x w = Cert.Spec.mmOf x w := by
  funext i
  obtain ⟨r, j, rfl⟩ : ∃ (r : Fin 50000) (j : Fin 128), i = ix2 r j := ⟨i 0, i 1, eq_ix2 i⟩
  exact dot_apply x w r j

theorem cmbT_eq (agg h : Vec Ideal S50000x128 .f32) (d2 : Vec Ideal S50000x1 .f32) (b : Vec Ideal S128 .f32) :
    cmbT (F := Ideal) agg h d2 b = Cert.Spec.cmbOf agg h d2 (rowOf (F := Ideal) b) := by
  funext i
  obtain ⟨r, j, rfl⟩ : ∃ (r : Fin 50000) (j : Fin 128), i = ix2 r j := ⟨i 0, i 1, eq_ix2 i⟩
  simp only [cmbT, addf_apply, mulf_apply, bcRows_apply, bcCols_apply, row_apply, Cert.Spec.cmbOf_apply, rowOf_apply]

theorem layerT_eq (ei : IVec S2x600000 32) (hin : Vec Ideal S50000x128 .f32) (w : Vec Ideal S128x128 .f32) (b : Vec Ideal S128 .f32) :
    layerT (F := Ideal) ei hin w b = Cert.Spec.layerZ ei hin w b := by
  unfold layerT Cert.Spec.layerZ
  rw [dotT_eq, cmbT_eq]

theorem sumT_apply (z : Vec Ideal S50000x128 .f32) (j : Fin 128) : sumT (F := Ideal) z (ix1 j) = ∑ r : Fin 50000, z (ix2 r j) :=
  colSum_apply z j

theorem meanT_eq (z : Vec Ideal S50000x128 .f32) : meanT (F := Ideal) (sumT z) = Cert.Spec.meanROf z := by
  funext i
  obtain ⟨j, rfl⟩ : ∃ j : Fin 128, i = ix1 j := ⟨i 0, eq_ix1 i⟩
  simp only [meanT, hostDivf_apply, bcVec_apply, bcRow_apply, bcMat_apply, constant_apply, ofBits_50000, sumT_apply,
    Cert.Spec.meanROf_apply, Cert.Spec.colSum]

theorem cntT_val : cntT (F := Ideal) ix0 = ((50000 : ℝ) : EReal) := by
  simp only [cntT, subf_apply, constant_apply, sitofp_apply, constantI_apply, ofBits_50000]
  show ((50000 : ℝ) : EReal) - ((((0#32 : BitVec 32).toInt : ℤ) : ℝ) : EReal) = _
  simp

theorem devT_apply (z : Vec Ideal S50000x128 .f32) (r : Fin 50000) (j : Fin 128) :
    devT (F := Ideal) z (ix2 r j) = z (ix2 r j) - Ideal.div (Cert.Spec.colSum z j) ((50000 : ℝ) : EReal) := by
  simp only [devT, subf_apply, bcRows_apply, hostDivf_apply, row_apply, bcVec_apply, bcRow_apply, bcMat_apply, constant_apply,
    ofBits_50000, sumT_apply, Cert.Spec.colSum]

theorem cnt_pos : FloatOps.cmpf (F := Ideal) (φ := .f32) .ogt ((50000 : ℝ) : EReal) (0 : EReal) = 1#1 := by
  rw [Ideal.cmpf_def]
  simp [Ideal.cmp]

theorem varT_eq (z : Vec Ideal S50000x128 .f32) : varT (F := Ideal) z = Cert.Spec.varROf z := by
  funext i
  obtain ⟨j, rfl⟩ : ∃ j : Fin 128, i = ix1 j := ⟨i 0, eq_ix1 i⟩
  simp only [varT, select_apply, bcVec_apply, bcRow_apply, bcMat_apply, cmpf_apply, cntT_val, constant_apply, Ideal.ofBits_zero_f32,
    cnt_pos, select_one, hostDivf_apply, sumT_apply, mulf_apply, devT_apply, Cert.Spec.varROf_apply]

theorem hostRsqrt_apply (x : FVec Ideal S128 .f32) (i : S128.Idx) : Host.rsqrt (F := Ideal) x i = Ideal.rsqrt (x i) := rfl

theorem bnT_eq (z : Vec Ideal S50000x128 .f32) (mean var g be : Vec Ideal S128 .f32) :
    bnT (F := Ideal) z mean var g be
      = Cert.Spec.bnReluOf z (rowOf (F := Ideal) mean) (rowOf (F := Ideal) var) (rowOf (F := Ideal) g) (rowOf (F := Ideal) be) := by
  funext i
  obtain ⟨r, j, rfl⟩ : ∃ (r : Fin 50000) (j : Fin 128), i = ix2 r j := ⟨i 0, i 1, eq_ix2 i⟩
  simp only [bnT, reluT, maximumf_apply, addf_apply, mulf_apply, subf_apply, bcRows_apply, row_apply, bcMat_apply, bcVec_apply,
    constant_apply, Ideal.ofBits_zero_f32, hostRsqrt_apply, Cert.Spec.bnReluOf_apply, rowOf_apply, Cert.Spec.epsBN]

theorem bnSelfT_eq (z : Vec Ideal S50000x128 .f32) (g be : Vec Ideal S128 .f32) :
    bnSelfT (F := Ideal) z g be
      = Cert.Spec.bnReluOf z (rowOf (F := Ideal) (Cert.Spec.meanROf z)) (rowOf (F := Ideal) (Cert.Spec.varROf z))
          (rowOf (F := Ideal) g) (rowOf (F := Ideal) be) := by
  unfold bnSelfT
  rw [meanT_eq, varT_eq, bnT_eq]

theorem reluCmbT_eq (agg h : Vec Ideal S50000x128 .f32) (d2 : Vec Ideal S50000x1 .f32) (b : Vec Ideal S128 .f32) :
    reluT (F := Ideal) (cmbT agg h d2 b) = Cert.Spec.cmbReluOf agg h d2 (rowOf (F := Ideal) b) := by
  rw [cmbT_eq]
  funext i
  obtain ⟨r, j, rfl⟩ : ∃ (r : Fin 50000) (j : Fin 128), i = ix2 r j := ⟨i 0, i 1, eq_ix2 i⟩
  simp only [reluT, maximumf_apply, bcMat_apply, constant_apply, Ideal.ofBits_zero_f32, Cert.Spec.cmbReluOf_apply]

theorem refT_eq (x : Vec Ideal S50000x128 .f32) (ei : IVec S2x600000 32) (batch : IVec S50000 32)
    (W1 : Vec Ideal S128x128 .f32) (b1 g1 be1 : Vec Ideal S128 .f32)
    (W2 : Vec Ideal S128x128 .f32) (b2 g2 be2 : Vec Ideal S128 .f32)
    (W3 : Vec Ideal S128x128 .f32) (b3 : Vec Ideal S128 .f32)
    (Wl : Vec Ideal S128x1 .f32) (bl : Vec Ideal S1 .f32) :
    refT (F := Ideal) x ei batch W1 b1 g1 be1 W2 b2 g2 be2 W3 b3 Wl bl
      = Cert.Spec.refSpec x ei batch W1 b1 g1 be1 W2 b2 g2 be2 W3 b3 Wl bl := by
  unfold refT Cert.Spec.refSpec
  simp only [layerT_eq, bnSelfT_eq, dotT_eq, reluCmbT_eq]

theorem ref_value (V : Valuation τ sig (Elt Ideal)) :
    (after (ops (F := Ideal)) V (Proc.devRef .tc main_v192) : Vec Ideal S256x1 .f32)
      = Cert.Spec.refSpec (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8))
          (V (Proc.devRef .tc main_arg9)) (V (Proc.devRef .tc main_arg10)) (V (Proc.devRef .tc main_arg11))
          (V (Proc.devRef .tc main_arg12)) (V (Proc.devRef .tc main_arg13)) (V (Proc.devRef .tc main_arg14)) :=
  (after_ops_v192 V).trans (refT_eq _ _ _ _ _ _ _ _ _ _ _ _ _ _ _)

end Cert.ReferenceIdeal.Hand

end
-- ==== Proof.KI.Chain.lean ====
import proofs.«171585_j55456617726008_1_alg».proof.Proof.KI.Run
import proofs.«171585_j55456617726008_1_alg».proof.Proof.SpecFns

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Cert.Spec

abbrev Entry : Type := (c : Dev nD) → (b : Ref sig .tc) → Buf (Elt Ideal) ((c : Thread nD τ).loc b)

def Final0 : Prop := ∀ (V : Entry) (c : Dev nD),
    (dat0 (F := Ideal) V c).arrAt 2 cfg0.N = mmOf (V c (Pipeline.arrRef spec0 0)) (V c (Pipeline.arrRef spec0 1))

def Final1 : Prop := ∀ (V : Entry) (c : Dev nD),
    (dat1 (F := Ideal) V c).arrAt 4 cfg1.N = cmbOf (V c (Pipeline.arrRef spec1 0)) (V c (Pipeline.arrRef spec1 1))
      (V c (Pipeline.arrRef spec1 2)) (V c (Pipeline.arrRef spec1 3))

def Final2_1 : Prop := ∀ (V : Entry) (c : Dev nD),
    (dat2 (F := Ideal) V c).arrAt 1 cfg2.N = meanKOf (V c (Pipeline.arrRef spec2 0))

def Final2_2 : Prop := ∀ (V : Entry) (c : Dev nD),
    (dat2 (F := Ideal) V c).arrAt 2 cfg2.N = varKOf (V c (Pipeline.arrRef spec2 0))

def Final3 : Prop := ∀ (V : Entry) (c : Dev nD),
    (dat3 (F := Ideal) V c).arrAt 5 cfg3.N = bnReluOf (V c (Pipeline.arrRef spec3 0)) (V c (Pipeline.arrRef spec3 1))
      (V c (Pipeline.arrRef spec3 2)) (V c (Pipeline.arrRef spec3 3)) (V c (Pipeline.arrRef spec3 4))

def Final4 : Prop := ∀ (V : Entry) (c : Dev nD),
    (dat4 (F := Ideal) V c).arrAt 2 cfg4.N = mmOf (V c (Pipeline.arrRef spec4 0)) (V c (Pipeline.arrRef spec4 1))

def Final5 : Prop := ∀ (V : Entry) (c : Dev nD),
    (dat5 (F := Ideal) V c).arrAt 4 cfg5.N = cmbOf (V c (Pipeline.arrRef spec5 0)) (V c (Pipeline.arrRef spec5 1))
      (V c (Pipeline.arrRef spec5 2)) (V c (Pipeline.arrRef spec5 3))

def Final6_1 : Prop := ∀ (V : Entry) (c : Dev nD),
    (dat6 (F := Ideal) V c).arrAt 1 cfg6.N = meanKOf (V c (Pipeline.arrRef spec6 0))

def Final6_2 : Prop := ∀ (V : Entry) (c : Dev nD),
    (dat6 (F := Ideal) V c).arrAt 2 cfg6.N = varKOf (V c (Pipeline.arrRef spec6 0))

def Final7 : Prop := ∀ (V : Entry) (c : Dev nD),
    (dat7 (F := Ideal) V c).arrAt 5 cfg7.N = bnReluOf (V c (Pipeline.arrRef spec7 0)) (V c (Pipeline.arrRef spec7 1))
      (V c (Pipeline.arrRef spec7 2)) (V c (Pipeline.arrRef spec7 3)) (V c (Pipeline.arrRef spec7 4))

def Final8 : Prop := ∀ (V : Entry) (c : Dev nD),
    (dat8 (F := Ideal) V c).arrAt 2 cfg8.N = mmOf (V c (Pipeline.arrRef spec8 0)) (V c (Pipeline.arrRef spec8 1))

def Final9 : Prop := ∀ (V : Entry) (c : Dev nD),
    (dat9 (F := Ideal) V c).arrAt 4 cfg9.N = cmbReluOf (V c (Pipeline.arrRef spec9 0)) (V c (Pipeline.arrRef spec9 1))
      (V c (Pipeline.arrRef spec9 2)) (V c (Pipeline.arrRef spec9 3))

structure RegionValues : Prop where
  final0 : Final0
  final1 : Final1
  final2_1 : Final2_1
  final2_2 : Final2_2
  final3 : Final3
  final4 : Final4
  final5 : Final5
  final6_1 : Final6_1
  final6_2 : Final6_2
  final7 : Final7
  final8 : Final8
  final9 : Final9

variable (m : (ℓ : Loc nD τ sig) → Buf (Elt Ideal) ℓ) (ρ : Dev nD → PrngReg) (c : Dev nD)

abbrev aX : Vec Ideal S50000x128 .f32 := m ((c : Thread nD τ).loc main_arg0)

abbrev aEi : IVec S2x600000 32 := m ((c : Thread nD τ).loc main_arg1)

abbrev aBatch : IVec S50000 32 := m ((c : Thread nD τ).loc main_arg2)

abbrev aW1 : Vec Ideal S128x128 .f32 := m ((c : Thread nD τ).loc main_arg3)
abbrev aB1 : Vec Ideal S128 .f32 := m ((c : Thread nD τ).loc main_arg4)
abbrev aG1 : Vec Ideal S128 .f32 := m ((c : Thread nD τ).loc main_arg5)
abbrev aBe1 : Vec Ideal S128 .f32 := m ((c : Thread nD τ).loc main_arg6)

abbrev aW2 : Vec Ideal S128x128 .f32 := m ((c : Thread nD τ).loc main_arg7)
abbrev aB2 : Vec Ideal S128 .f32 := m ((c : Thread nD τ).loc main_arg8)
abbrev aG2 : Vec Ideal S128 .f32 := m ((c : Thread nD τ).loc main_arg9)
abbrev aBe2 : Vec Ideal S128 .f32 := m ((c : Thread nD τ).loc main_arg10)

abbrev aW3 : Vec Ideal S128x128 .f32 := m ((c : Thread nD τ).loc main_arg11)
abbrev aB3 : Vec Ideal S128 .f32 := m ((c : Thread nD τ).loc main_arg12)

abbrev aWl : Vec Ideal S128x1 .f32 := m ((c : Thread nD τ).loc main_arg13)
abbrev aBl : Vec Ideal S1 .f32 := m ((c : Thread nD τ).loc main_arg14)

def aggE (h : Vec Ideal S50000x128 .f32) : Vec Ideal S50000x128 .f32 :=
  aggOf (F := Ideal) (srcOf (aEi m c)) (dstOf (aEi m c)) (dsdOf (F := Ideal) (aEi m c)) h

def h1 : Vec Ideal S50000x128 .f32 := mmOf (aX m c) (aW1 m c)
def z1 : Vec Ideal S50000x128 .f32 := layerZ (aEi m c) (aX m c) (aW1 m c) (aB1 m c)
def a1 : Vec Ideal S50000x128 .f32 :=
  bnReluOf (z1 m c) (meanKOf (z1 m c)) (varKOf (z1 m c)) (rowOf (F := Ideal) (aG1 m c)) (rowOf (F := Ideal) (aBe1 m c))

def h2 : Vec Ideal S50000x128 .f32 := mmOf (a1 m c) (aW2 m c)
def z2 : Vec Ideal S50000x128 .f32 := layerZ (aEi m c) (a1 m c) (aW2 m c) (aB2 m c)
def a2 : Vec Ideal S50000x128 .f32 :=
  bnReluOf (z2 m c) (meanKOf (z2 m c)) (varKOf (z2 m c)) (rowOf (F := Ideal) (aG2 m c)) (rowOf (F := Ideal) (aBe2 m c))

def h3 : Vec Ideal S50000x128 .f32 := mmOf (a2 m c) (aW3 m c)
def a3 : Vec Ideal S50000x128 .f32 :=
  cmbReluOf (aggE m c (h3 m c)) (h3 m c) (dis2Of (F := Ideal) (aEi m c)) (rowOf (F := Ideal) (aB3 m c))

theorem z1_eq : z1 m c = cmbOf (aggE m c (h1 m c)) (h1 m c) (dis2Of (F := Ideal) (aEi m c)) (rowOf (F := Ideal) (aB1 m c)) := rfl
theorem z2_eq : z2 m c = cmbOf (aggE m c (h2 m c)) (h2 m c) (dis2Of (F := Ideal) (aEi m c)) (rowOf (F := Ideal) (aB2 m c)) := rfl

macro "back" : tactic => `(tactic| first
  | (rw [W17_of]; rotate_left; decide) | (rw [W16_of_ne]; rotate_left; decide) | (rw [W15_of]; rotate_left; decide)
  | (rw [W14_of_ne]; rotate_left; decide) | (rw [W13_of_ne]; rotate_left; decide) | (rw [W12_of]; rotate_left; decide)
  | (rw [W11_of_ne]; rotate_left; decide) | (rw [W10_of_ne]; rotate_left; decide) | (rw [W9_of]; rotate_left; decide)
  | (rw [W8_of_ne]; rotate_left; decide) | (rw [W7_of_ne]; rotate_left; decide) | (rw [W6_of]; rotate_left; decide)
  | (rw [W5_of_ne]; rotate_left; decide) | (rw [W4_of_ne]; rotate_left; decide) | (rw [W3_of]; rotate_left; decide)
  | (rw [W2_of_ne]; rotate_left; decide) | (rw [W1_of]; rotate_left; decide))

macro "back_to_launch" : tactic => `(tactic| ((repeat back); first | done | rfl))

macro "from_end " h:term : tactic => `(tactic| (refine Eq.trans ?_ $h; symm; (repeat back); first | done | rfl))

theorem congr4 {α β γ δ ε : Type} (f : α → β → γ → δ → ε) {x x' : α} {y y' : β} {u u' : γ} {v v' : δ}
    (e1 : x = x') (e2 : y = y') (e3 : u = u') (e4 : v = v') : f x y u v = f x' y' u' v' := by
  subst e1 e2 e3 e4; rfl

theorem congr5 {α β γ δ ε ζ : Type} (f : α → β → γ → δ → ε → ζ) {x x' : α} {y y' : β} {u u' : γ} {v v' : δ} {w w' : ε}
    (e1 : x = x') (e2 : y = y') (e3 : u = u') (e4 : v = v') (e5 : w = w') : f x y u v w = f x' y' u' v' w' := by
  subst e1 e2 e3 e4 e5; rfl

theorem W1_v1 : (W1 m ρ c (Proc.devRef .tc main_v1) : IVec S600000 32) = srcOf (aEi m c) := hostOps0_v1 (W0 m ρ c)
theorem W1_v3 : (W1 m ρ c (Proc.devRef .tc main_v3) : IVec S600000 32) = dstOf (aEi m c) := hostOps0_v3 (W0 m ρ c)
theorem W1_v25 : (W1 m ρ c (Proc.devRef .tc main_v25) : Vec Ideal S600000 .f32) = dsdOf (F := Ideal) (aEi m c) :=
  hostOps0_v25 (W0 m ρ c)
theorem W1_v27 : (W1 m ρ c (Proc.devRef .tc main_v27) : Vec Ideal S50000x1 .f32) = dis2Of (F := Ideal) (aEi m c) :=
  hostOps0_v27 (W0 m ρ c)
theorem W1_arg0 : (W1 m ρ c (Proc.devRef .tc main_arg0) : Vec Ideal S50000x128 .f32) = aX m c := by back_to_launch
theorem W1_arg3 : (W1 m ρ c (Proc.devRef .tc main_arg3) : Vec Ideal S128x128 .f32) = aW1 m c := by back_to_launch

variable (H : RegionValues)
include H

theorem W2_v28 : (W2 m ρ c (Proc.devRef .tc main_v28) : Vec Ideal S50000x128 .f32) = h1 m c :=
  (W2_arr m ρ c 2).trans ((H.final0 (V1 m ρ) c).trans (congrArg₂ mmOf (W1_arg0 m ρ c) (W1_arg3 m ρ c)))
omit H in
theorem W2_v1 : (W2 m ρ c (Proc.devRef .tc main_v1) : IVec S600000 32) = srcOf (aEi m c) := by
  back; exact W1_v1 m ρ c
omit H in
theorem W2_v3 : (W2 m ρ c (Proc.devRef .tc main_v3) : IVec S600000 32) = dstOf (aEi m c) := by
  back; exact W1_v3 m ρ c
omit H in
theorem W2_v25 : (W2 m ρ c (Proc.devRef .tc main_v25) : Vec Ideal S600000 .f32) = dsdOf (F := Ideal) (aEi m c) := by
  back; exact W1_v25 m ρ c
omit H in
theorem W2_arg4 : (W2 m ρ c (Proc.devRef .tc main_arg4) : Vec Ideal S128 .f32) = aB1 m c := by back_to_launch

theorem W3_v41 : (W3 m ρ c (Proc.devRef .tc main_v41) : Vec Ideal S50000x128 .f32) = aggE m c (h1 m c) :=
  (hostOps1_v41 (W2 m ρ c)).trans
    (congr4 (aggOf (F := Ideal)) (W2_v1 m ρ c) (W2_v3 m ρ c) (W2_v25 m ρ c) (W2_v28 m ρ c H))
omit H in
theorem W3_v42 : (W3 m ρ c (Proc.devRef .tc main_v42) : Vec Ideal S1x128 .f32) = rowOf (F := Ideal) (aB1 m c) :=
  (hostOps1_v42 (W2 m ρ c)).trans (congrArg (rowOf (F := Ideal)) (W2_arg4 m ρ c))
theorem W3_v28 : (W3 m ρ c (Proc.devRef .tc main_v28) : Vec Ideal S50000x128 .f32) = h1 m c := by
  back; exact W2_v28 m ρ c H
omit H in
theorem W3_v27 : (W3 m ρ c (Proc.devRef .tc main_v27) : Vec Ideal S50000x1 .f32) = dis2Of (F := Ideal) (aEi m c) := by
  repeat back
  exact W1_v27 m ρ c

theorem W4_v43 : (W4 m ρ c (Proc.devRef .tc main_v43) : Vec Ideal S50000x128 .f32) = z1 m c :=
  (W4_arr m ρ c 4).trans ((H.final1 (V3 m ρ) c).trans
    ((congr4 cmbOf (W3_v41 m ρ c H) (W3_v28 m ρ c H) (W3_v27 m ρ c) (W3_v42 m ρ c)).trans (z1_eq m c).symm))
omit H in

theorem W4_v27 : (W4 m ρ c (Proc.devRef .tc main_v27) : Vec Ideal S50000x1 .f32) = dis2Of (F := Ideal) (aEi m c) :=
  (W4_arr m ρ c 2).trans (((dat1 (V3 m ρ) c).arrAt_in 2 rfl _).trans ((A_eq1 (V3 m ρ) c 2).trans (W3_v27 m ρ c)))

theorem W5_v43 : (W5 m ρ c (Proc.devRef .tc main_v43) : Vec Ideal S50000x128 .f32) = z1 m c :=
  (W5_arr m ρ c 0).trans (((dat2 (V4 m ρ) c).arrAt_in 0 rfl _).trans ((A_eq2 (V4 m ρ) c 0).trans (W4_v43 m ρ c H)))
theorem W5_v44_0 : (W5 m ρ c (Proc.devRef .tc main_v44_0) : Vec Ideal S1x128 .f32) = meanKOf (z1 m c) :=
  (W5_arr m ρ c 1).trans ((H.final2_1 (V4 m ρ) c).trans (congrArg meanKOf (W4_v43 m ρ c H)))
theorem W5_v44_1 : (W5 m ρ c (Proc.devRef .tc main_v44_1) : Vec Ideal S1x128 .f32) = varKOf (z1 m c) :=
  (W5_arr m ρ c 2).trans ((H.final2_2 (V4 m ρ) c).trans (congrArg varKOf (W4_v43 m ρ c H)))
omit H in
theorem W5_arg5 : (W5 m ρ c (Proc.devRef .tc main_arg5) : Vec Ideal S128 .f32) = aG1 m c := by back_to_launch
omit H in
theorem W5_arg6 : (W5 m ρ c (Proc.devRef .tc main_arg6) : Vec Ideal S128 .f32) = aBe1 m c := by back_to_launch

omit H in
theorem W6_v45 : (W6 m ρ c (Proc.devRef .tc main_v45) : Vec Ideal S1x128 .f32) = rowOf (F := Ideal) (aG1 m c) :=
  (hostOps3_v45 (W5 m ρ c)).trans (congrArg (rowOf (F := Ideal)) (W5_arg5 m ρ c))
omit H in
theorem W6_v46 : (W6 m ρ c (Proc.devRef .tc main_v46) : Vec Ideal S1x128 .f32) = rowOf (F := Ideal) (aBe1 m c) :=
  (hostOps3_v46 (W5 m ρ c)).trans (congrArg (rowOf (F := Ideal)) (W5_arg6 m ρ c))
theorem W6_v43 : (W6 m ρ c (Proc.devRef .tc main_v43) : Vec Ideal S50000x128 .f32) = z1 m c := by
  back; exact W5_v43 m ρ c H
theorem W6_v44_0 : (W6 m ρ c (Proc.devRef .tc main_v44_0) : Vec Ideal S1x128 .f32) = meanKOf (z1 m c) := by
  back; exact W5_v44_0 m ρ c H
theorem W6_v44_1 : (W6 m ρ c (Proc.devRef .tc main_v44_1) : Vec Ideal S1x128 .f32) = varKOf (z1 m c) := by
  back; exact W5_v44_1 m ρ c H

theorem W7_v47 : (W7 m ρ c (Proc.devRef .tc main_v47) : Vec Ideal S50000x128 .f32) = a1 m c :=
  (W7_arr m ρ c 5).trans ((H.final3 (V6 m ρ) c).trans
    (congr5 bnReluOf (W6_v43 m ρ c H) (W6_v44_0 m ρ c H) (W6_v44_1 m ρ c H) (W6_v45 m ρ c) (W6_v46 m ρ c)))
omit H in
theorem W7_arg7 : (W7 m ρ c (Proc.devRef .tc main_arg7) : Vec Ideal S128x128 .f32) = aW2 m c := by back_to_launch

theorem W8_v48 : (W8 m ρ c (Proc.devRef .tc main_v48) : Vec Ideal S50000x128 .f32) = h2 m c :=
  (W8_arr m ρ c 2).trans ((H.final4 (V7 m ρ) c).trans (congrArg₂ mmOf (W7_v47 m ρ c H) (W7_arg7 m ρ c)))
omit H in
theorem W8_v1 : (W8 m ρ c (Proc.devRef .tc main_v1) : IVec S600000 32) = srcOf (aEi m c) := by
  repeat back
  exact W1_v1 m ρ c
omit H in
theorem W8_v3 : (W8 m ρ c (Proc.devRef .tc main_v3) : IVec S600000 32) = dstOf (aEi m c) := by
  repeat back
  exact W1_v3 m ρ c
omit H in
theorem W8_v25 : (W8 m ρ c (Proc.devRef .tc main_v25) : Vec Ideal S600000 .f32) = dsdOf (F := Ideal) (aEi m c) := by
  repeat back
  exact W1_v25 m ρ c
omit H in
theorem W8_arg8 : (W8 m ρ c (Proc.devRef .tc main_arg8) : Vec Ideal S128 .f32) = aB2 m c := by back_to_launch

theorem W9_v61 : (W9 m ρ c (Proc.devRef .tc main_v61) : Vec Ideal S50000x128 .f32) = aggE m c (h2 m c) :=
  (hostOps5_v61 (W8 m ρ c)).trans
    (congr4 (aggOf (F := Ideal)) (W8_v1 m ρ c) (W8_v3 m ρ c) (W8_v25 m ρ c) (W8_v48 m ρ c H))
omit H in
theorem W9_v62 : (W9 m ρ c (Proc.devRef .tc main_v62) : Vec Ideal S1x128 .f32) = rowOf (F := Ideal) (aB2 m c) :=
  (hostOps5_v62 (W8 m ρ c)).trans (congrArg (rowOf (F := Ideal)) (W8_arg8 m ρ c))
theorem W9_v48 : (W9 m ρ c (Proc.devRef .tc main_v48) : Vec Ideal S50000x128 .f32) = h2 m c := by
  back; exact W8_v48 m ρ c H
omit H in
theorem W9_v27 : (W9 m ρ c (Proc.devRef .tc main_v27) : Vec Ideal S50000x1 .f32) = dis2Of (F := Ideal) (aEi m c) := by
  repeat back
  exact W4_v27 m ρ c

theorem W10_v63 : (W10 m ρ c (Proc.devRef .tc main_v63) : Vec Ideal S50000x128 .f32) = z2 m c :=
  (W10_arr m ρ c 4).trans ((H.final5 (V9 m ρ) c).trans
    ((congr4 cmbOf (W9_v61 m ρ c H) (W9_v48 m ρ c H) (W9_v27 m ρ c) (W9_v62 m ρ c)).trans (z2_eq m c).symm))
omit H in
theorem W10_v27 : (W10 m ρ c (Proc.devRef .tc main_v27) : Vec Ideal S50000x1 .f32) = dis2Of (F := Ideal) (aEi m c) :=
  (W10_arr m ρ c 2).trans (((dat5 (V9 m ρ) c).arrAt_in 2 rfl _).trans ((A_eq5 (V9 m ρ) c 2).trans (W9_v27 m ρ c)))

theorem W11_v63 : (W11 m ρ c (Proc.devRef .tc main_v63) : Vec Ideal S50000x128 .f32) = z2 m c :=
  (W11_arr m ρ c 0).trans (((dat6 (V10 m ρ) c).arrAt_in 0 rfl _).trans ((A_eq6 (V10 m ρ) c 0).trans (W10_v63 m ρ c H)))
theorem W11_v64_0 : (W11 m ρ c (Proc.devRef .tc main_v64_0) : Vec Ideal S1x128 .f32) = meanKOf (z2 m c) :=
  (W11_arr m ρ c 1).trans ((H.final6_1 (V10 m ρ) c).trans (congrArg meanKOf (W10_v63 m ρ c H)))
theorem W11_v64_1 : (W11 m ρ c (Proc.devRef .tc main_v64_1) : Vec Ideal S1x128 .f32) = varKOf (z2 m c) :=
  (W11_arr m ρ c 2).trans ((H.final6_2 (V10 m ρ) c).trans (congrArg varKOf (W10_v63 m ρ c H)))
omit H in
theorem W11_arg9 : (W11 m ρ c (Proc.devRef .tc main_arg9) : Vec Ideal S128 .f32) = aG2 m c := by from_end (W17_arg m ρ c main_arg9 (by decide))
omit H in
theorem W11_arg10 : (W11 m ρ c (Proc.devRef .tc main_arg10) : Vec Ideal S128 .f32) = aBe2 m c := by from_end (W17_arg m ρ c main_arg10 (by decide))

omit H in
theorem W12_v65 : (W12 m ρ c (Proc.devRef .tc main_v65) : Vec Ideal S1x128 .f32) = rowOf (F := Ideal) (aG2 m c) :=
  (hostOps7_v65 (W11 m ρ c)).trans (congrArg (rowOf (F := Ideal)) (W11_arg9 m ρ c))
omit H in
theorem W12_v66 : (W12 m ρ c (Proc.devRef .tc main_v66) : Vec Ideal S1x128 .f32) = rowOf (F := Ideal) (aBe2 m c) :=
  (hostOps7_v66 (W11 m ρ c)).trans (congrArg (rowOf (F := Ideal)) (W11_arg10 m ρ c))
theorem W12_v63 : (W12 m ρ c (Proc.devRef .tc main_v63) : Vec Ideal S50000x128 .f32) = z2 m c := by
  back; exact W11_v63 m ρ c H
theorem W12_v64_0 : (W12 m ρ c (Proc.devRef .tc main_v64_0) : Vec Ideal S1x128 .f32) = meanKOf (z2 m c) := by
  back; exact W11_v64_0 m ρ c H
theorem W12_v64_1 : (W12 m ρ c (Proc.devRef .tc main_v64_1) : Vec Ideal S1x128 .f32) = varKOf (z2 m c) := by
  back; exact W11_v64_1 m ρ c H

theorem W13_v67 : (W13 m ρ c (Proc.devRef .tc main_v67) : Vec Ideal S50000x128 .f32) = a2 m c :=
  (W13_arr m ρ c 5).trans ((H.final7 (V12 m ρ) c).trans
    (congr5 bnReluOf (W12_v63 m ρ c H) (W12_v64_0 m ρ c H) (W12_v64_1 m ρ c H) (W12_v65 m ρ c) (W12_v66 m ρ c)))
omit H in
theorem W14_arg11 : (W14 m ρ c (Proc.devRef .tc main_arg11) : Vec Ideal S128x128 .f32) = aW3 m c := by from_end (W17_arg m ρ c main_arg11 (by decide))
omit H in

theorem W13_arg11 : (W13 m ρ c (Proc.devRef .tc main_arg11) : Vec Ideal S128x128 .f32) = aW3 m c :=
  ((W14_arr m ρ c 1).trans (((dat8 (V13 m ρ) c).arrAt_in 1 rfl _).trans (A_eq8 (V13 m ρ) c 1))).symm.trans (W14_arg11 m ρ c)

theorem W14_v68 : (W14 m ρ c (Proc.devRef .tc main_v68) : Vec Ideal S50000x128 .f32) = h3 m c :=
  (W14_arr m ρ c 2).trans ((H.final8 (V13 m ρ) c).trans (congrArg₂ mmOf (W13_v67 m ρ c H) (W13_arg11 m ρ c)))
omit H in
theorem W14_v1 : (W14 m ρ c (Proc.devRef .tc main_v1) : IVec S600000 32) = srcOf (aEi m c) := by
  iterate 6 back
  exact W8_v1 m ρ c
omit H in
theorem W14_v3 : (W14 m ρ c (Proc.devRef .tc main_v3) : IVec S600000 32) = dstOf (aEi m c) := by
  iterate 6 back
  exact W8_v3 m ρ c
omit H in
theorem W14_v25 : (W14 m ρ c (Proc.devRef .tc main_v25) : Vec Ideal S600000 .f32) = dsdOf (F := Ideal) (aEi m c) := by
  iterate 6 back
  exact W8_v25 m ρ c
omit H in
theorem W14_arg12 : (W14 m ρ c (Proc.devRef .tc main_arg12) : Vec Ideal S128 .f32) = aB3 m c := by from_end (W17_arg m ρ c main_arg12 (by decide))

theorem W15_v81 : (W15 m ρ c (Proc.devRef .tc main_v81) : Vec Ideal S50000x128 .f32) = aggE m c (h3 m c) :=
  (hostOps9_v81 (W14 m ρ c)).trans
    (congr4 (aggOf (F := Ideal)) (W14_v1 m ρ c) (W14_v3 m ρ c) (W14_v25 m ρ c) (W14_v68 m ρ c H))
omit H in
theorem W15_v82 : (W15 m ρ c (Proc.devRef .tc main_v82) : Vec Ideal S1x128 .f32) = rowOf (F := Ideal) (aB3 m c) :=
  (hostOps9_v82 (W14 m ρ c)).trans (congrArg (rowOf (F := Ideal)) (W14_arg12 m ρ c))
theorem W15_v68 : (W15 m ρ c (Proc.devRef .tc main_v68) : Vec Ideal S50000x128 .f32) = h3 m c := by
  back; exact W14_v68 m ρ c H
omit H in
theorem W15_v27 : (W15 m ρ c (Proc.devRef .tc main_v27) : Vec Ideal S50000x1 .f32) = dis2Of (F := Ideal) (aEi m c) := by
  repeat back
  exact W10_v27 m ρ c

theorem W16_v83 : (W16 m ρ c (Proc.devRef .tc main_v83) : Vec Ideal S50000x128 .f32) = a3 m c :=
  (W16_arr m ρ c 4).trans ((H.final9 (V15 m ρ) c).trans
    (congr4 cmbReluOf (W15_v81 m ρ c H) (W15_v68 m ρ c H) (W15_v27 m ρ c) (W15_v82 m ρ c)))
omit H in
theorem W16_arg2 : (W16 m ρ c (Proc.devRef .tc main_arg2) : IVec S50000 32) = aBatch m c := by from_end (W17_arg m ρ c main_arg2 (by decide))
omit H in
theorem W16_arg13 : (W16 m ρ c (Proc.devRef .tc main_arg13) : Vec Ideal S128x1 .f32) = aWl m c := by from_end (W17_arg m ρ c main_arg13 (by decide))
omit H in
theorem W16_arg14 : (W16 m ρ c (Proc.devRef .tc main_arg14) : Vec Ideal S1 .f32) = aBl m c := by from_end (W17_arg m ρ c main_arg14 (by decide))

theorem W17_v99 : (W17 m ρ c (Proc.devRef .tc main_v99) : Vec Ideal S256x1 .f32)
    = poolOf (F := Ideal) (aBatch m c) (a3 m c) (aWl m c) (aBl m c) :=
  (hostOps10_v99 (W16 m ρ c)).trans
    (congr4 (poolOf (F := Ideal)) (W16_arg2 m ρ c) (W16_v83 m ρ c H) (W16_arg13 m ρ c) (W16_arg14 m ρ c))

omit H in

theorem stages_eq_kernelSpec :
    poolOf (F := Ideal) (aBatch m c) (a3 m c) (aWl m c) (aBl m c)
      = kernelSpec (aX m c) (aEi m c) (aBatch m c) (aW1 m c) (aB1 m c) (aG1 m c) (aBe1 m c) (aW2 m c) (aB2 m c) (aG2 m c)
          (aBe2 m c) (aW3 m c) (aB3 m c) (aWl m c) (aBl m c) := rfl

theorem kernel_value : (W17 m ρ c (Proc.devRef .tc main_v99) : Vec Ideal S256x1 .f32)
    = kernelSpec (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) (m ((c : Thread nD τ).loc main_arg13)) (m ((c : Thread nD τ).loc main_arg14)) :=
  (W17_v99 m ρ c H).trans (stages_eq_kernelSpec m c)

end Cert.KernelIdeal.Hand
-- ==== Proof.KI.Val0.lean ====
import proofs.«171585_j55456617726008_1_alg».proof.Proof.KI.Reg0
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

theorem lhs0_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

theorem lhs0_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

theorem rhs0_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

theorem rhs0_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem pay0_apply (x : FVec Ideal S5000x128 .f32) (w : FVec Ideal S128x128 .f32) (p : Fin 5000) (q : Fin 128) :
    k0_pay1 (F := Ideal) x w (ix2 p q) = ∑ k : Fin 128, x (ix2 p k) * w (ix2 k q) := by
  unfold k0_pay1
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs0_0 _ _
    | ⟨1, _⟩ => exact (lhs0_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs0_0 _ _).trans hk
    | ⟨1, _⟩ => exact rhs0_1 _ _)
  rw [el, er]

  first
    | (rw [shapeCast_self]; rfl)
    | rfl

def matProd0 (X : S50000x128.Idx → EReal) (W : S128x128.Idx → EReal) : S50000x128.Idx → EReal :=
  fun i => ∑ k : Fin 128, X (ix2 (i 0) k) * W (ix2 k (i 1))

theorem matProd0_apply (X : S50000x128.Idx → EReal) (W : S128x128.Idx → EReal) (i : S50000x128.Idx) :
    matProd0 X W i = ∑ k : Fin 128, X (ix2 (i 0) k) * W (ix2 k (i 1)) := rfl

theorem matProd0_ix2 (X : S50000x128.Idx → EReal) (W : S128x128.Idx → EReal) (r : Fin 50000) (q : Fin 128) :
    matProd0 X W (ix2 r q) = ∑ k : Fin 128, X (ix2 r k) * W (ix2 k q) := rfl

theorem blk0_apply (X : S50000x128.Idx → EReal) (W : S128x128.Idx → EReal)
    (xb : FVec Ideal S5000x128 .f32) (wb : FVec Ideal S128x128 .f32) (p : Fin 5000) (q : Fin 128) (i : S50000x128.Idx)
    (hx : ∀ k : Fin 128, xb (ix2 p k) = X (ix2 (i 0) k)) (hw : ∀ k : Fin 128, wb (ix2 k q) = W (ix2 k (i 1))) :
    k0_pay1 (F := Ideal) xb wb (ix2 p q) = matProd0 X W i := by
  rw [pay0_apply, matProd0_apply]
  exact Finset.sum_congr rfl fun k _ => by rw [hx k, hw k]

variable (V : (c : Dev nD) → (b : Ref sig .tc) → Buf (Elt Ideal) ((c : Thread nD τ).loc b))

theorem hz0 : (![0, 0] : Fin 2 → Nat) = fun _ => 0 := funext fun a => by fin_cases a <;> rfl

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem flushed0_eq (c : Dev nD) (t : Fin cfg0.N) :
    (dat0 (F := Ideal) V c).flushed 2 t = ((cfg0.win 2).blk t).view.read (Elt Ideal)
      (matProd0 (V c (Pipeline.arrRef spec0 0)) (V c (Pipeline.arrRef spec0 1))) := by
  show (cfg0.win 2).cut (grid0.coords t) ((dat0 V c).after 2 t) = _
  rw [after0_2]
  unfold out0_2
  rw [View.canon_unit_zero hz0]
  simp only [View.ld_unit_zero (S := S5000x128) hz0, View.ld_unit_zero (S := S128x128) hz0]
  obtain ⟨ea, eb, ec, ed, ee, ef⟩ := idx_facts0 t
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (ix2 p q)
    = matProd0 (V c (Pipeline.arrRef spec0 0)) (V c (Pipeline.arrRef spec0 1)) (((cfg0.win 2).blk t).view.emb (ix2 p q))
  refine blk0_apply _ _ _ _ p q _ (fun k => ?_) (fun k => ?_)
  · show V c (Pipeline.arrRef spec0 0) (((cfg0.win 0).blk t).view.emb (ix2 p k)) = _
    refine congrArg _ (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  · show V c (Pipeline.arrRef spec0 1) (((cfg0.win 1).blk t).view.emb (ix2 k q)) = _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega

theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v28).slice (win0_2.rect t)).set ↔ _
  rw [View.set_slice_whole, Rect.mem_set_unit]
  exact Iff.rfl

theorem covered0 (i : S50000x128.Idx) :
    ∃ t : Fin cfg0.N, (cfg0.win 2).flush t = true ∧ i ∈ ((cfg0.win 2).blk t).view.set := by
  have hr : (i 0).val < 50000 := (i 0).isLt
  have hc : (i 1).val < 128 := (i 1).isLt
  obtain ⟨t, ht⟩ : ∃ t : Fin cfg0.N, t.val = (i 0).val / 5000 := ⟨⟨(i 0).val / 5000, by show _ < grid0.N; rw [N_0]; omega⟩, rfl⟩
  obtain ⟨ea, eb, ec, ed, ee, ef⟩ := idx_facts0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

theorem final0 (c : Dev nD) : (dat0 (F := Ideal) V c).arrAt 2 cfg0.N
    = matProd0 (V c (Pipeline.arrRef spec0 0)) (V c (Pipeline.arrRef spec0 1)) :=
  (dat0 V c).arrAt_eq_of_cover 2 _ (fun t _ => flushed0_eq V c t) covered0

end Cert.KernelIdeal.Hand

end
-- ==== Proof.KI.Val1.lean ====
import proofs.«171585_j55456617726008_1_alg».proof.Proof.KI.Reg1
import proofs.«171585_j55456617726008_1_alg».proof.Proof.SpecFns
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem offZero1 : (![0, 0] : Fin 2 → Nat) = fun _ => 0 := funext fun a => by fin_cases a <;> rfl

theorem rowBroadcast1 {α : Type} (x : S1x128.Idx → α) (h : S1x128.Broadcasts S5000x128) (p : Fin 5000) (q : Fin 128) :
    broadcastTo S5000x128 x h (ix2 p q) = x (ix2 (0 : Fin 1) q) :=
  broadcastTo_apply x h _ _ fun a => by
    match a with
    | ⟨0, _⟩ => rfl
    | ⟨1, _⟩ => rfl

theorem colBroadcast1 {α : Type} (x : S5000x1.Idx → α) (h : S5000x1.Broadcasts S5000x128) (p : Fin 5000) (q : Fin 128) :
    broadcastTo S5000x128 x h (ix2 p q) = x (ix2 p (0 : Fin 1)) :=
  broadcastTo_apply x h _ _ fun a => by
    match a with
    | ⟨0, _⟩ => rfl
    | ⟨1, _⟩ => rfl

theorem pay1_apply (xa : Vec Ideal S5000x128 .f32) (xd : Vec Ideal S5000x1 .f32) (xh : Vec Ideal S5000x128 .f32) (xb : Vec Ideal S1x128 .f32)
    (p : Fin 5000) (q : Fin 128) :
    k1_pay1 xa xd xh xb (ix2 p q) = (xa (ix2 p q) + xd (ix2 p (0 : Fin 1)) * xh (ix2 p q)) + xb (ix2 (0 : Fin 1) q) := by
  unfold k1_pay1
  simp only [shapeCast_self]
  rw [addf_apply, addf_apply, mulf_apply, colBroadcast1, rowBroadcast1]

theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem iblk1_0_apply (c : Dev nD) (t : Fin cfg1.N) (p : Fin 5000) (q : Fin 128) (r : Fin 50000) (hr : r.val = t.val * 5000 + p.val) :
    (iblk1 V c 0 t : Vec Ideal S5000x128 .f32) (ix2 p q) = (V c (Pipeline.arrRef spec1 0) : S50000x128.Idx → EReal) (ix2 r q) := by
  obtain ⟨e0, e1, -⟩ := idx_facts1 t
  show V c (Pipeline.arrRef spec1 0) (((cfg1.win 0).blk t).view.emb (ix2 p q)) = V c (Pipeline.arrRef spec1 0) (ix2 r q)
  refine congrArg (V c (Pipeline.arrRef spec1 0)) (funext fun a => Fin.ext ?_)
  match a with
  | ⟨0, _⟩ => show win1_0.index t (0 : Fin 2) * 5000 + 1 * p.val = r.val; omega
  | ⟨1, _⟩ => show win1_0.index t (1 : Fin 2) * 128 + 1 * q.val = q.val; omega

theorem iblk1_1_apply (c : Dev nD) (t : Fin cfg1.N) (p : Fin 5000) (q : Fin 128) (r : Fin 50000) (hr : r.val = t.val * 5000 + p.val) :
    (iblk1 V c 1 t : Vec Ideal S5000x128 .f32) (ix2 p q) = (V c (Pipeline.arrRef spec1 1) : S50000x128.Idx → EReal) (ix2 r q) := by
  obtain ⟨-, -, e0, e1, -⟩ := idx_facts1 t
  show V c (Pipeline.arrRef spec1 1) (((cfg1.win 1).blk t).view.emb (ix2 p q)) = V c (Pipeline.arrRef spec1 1) (ix2 r q)
  refine congrArg (V c (Pipeline.arrRef spec1 1)) (funext fun a => Fin.ext ?_)
  match a with
  | ⟨0, _⟩ => show win1_1.index t (0 : Fin 2) * 5000 + 1 * p.val = r.val; omega
  | ⟨1, _⟩ => show win1_1.index t (1 : Fin 2) * 128 + 1 * q.val = q.val; omega

theorem iblk1_2_apply (c : Dev nD) (t : Fin cfg1.N) (p : Fin 5000) (r : Fin 50000) (hr : r.val = t.val * 5000 + p.val) :
    (iblk1 V c 2 t : Vec Ideal S5000x1 .f32) (ix2 p (0 : Fin 1)) = (V c (Pipeline.arrRef spec1 2) : S50000x1.Idx → EReal) (ix2 r (0 : Fin 1)) := by
  obtain ⟨-, -, -, -, e0, e1, -⟩ := idx_facts1 t
  show V c (Pipeline.arrRef spec1 2) (((cfg1.win 2).blk t).view.emb (ix2 p (0 : Fin 1))) = V c (Pipeline.arrRef spec1 2) (ix2 r (0 : Fin 1))
  refine congrArg (V c (Pipeline.arrRef spec1 2)) (funext fun a => Fin.ext ?_)
  match a with
  | ⟨0, _⟩ => show win1_2.index t (0 : Fin 2) * 5000 + 1 * p.val = r.val; omega
  | ⟨1, _⟩ => show win1_2.index t (1 : Fin 2) * 1 + 1 * 0 = 0; omega

theorem iblk1_3_apply (c : Dev nD) (t : Fin cfg1.N) (q : Fin 128) :
    (iblk1 V c 3 t : Vec Ideal S1x128 .f32) (ix2 (0 : Fin 1) q) = (V c (Pipeline.arrRef spec1 3) : S1x128.Idx → EReal) (ix2 (0 : Fin 1) q) := by
  obtain ⟨-, -, -, -, -, -, e0, e1, -⟩ := idx_facts1 t
  show V c (Pipeline.arrRef spec1 3) (((cfg1.win 3).blk t).view.emb (ix2 (0 : Fin 1) q)) = V c (Pipeline.arrRef spec1 3) (ix2 (0 : Fin 1) q)
  refine congrArg (V c (Pipeline.arrRef spec1 3)) (funext fun a => Fin.ext ?_)
  match a with
  | ⟨0, _⟩ => show win1_3.index t (0 : Fin 2) * 1 + 1 * 0 = 0; omega
  | ⟨1, _⟩ => show win1_3.index t (1 : Fin 2) * 128 + 1 * q.val = q.val; omega

abbrev G1 (c : Dev nD) : Vec Ideal S50000x128 .f32 :=
  Cert.Spec.cmbOf (V c (Pipeline.arrRef spec1 0)) (V c (Pipeline.arrRef spec1 1)) (V c (Pipeline.arrRef spec1 2)) (V c (Pipeline.arrRef spec1 3))

theorem flushed1_eq (c : Dev nD) (t : Fin cfg1.N) :
    (dat1 V c).flushed 4 t = ((cfg1.win 4).blk t).view.read (Elt Ideal) (G1 V c) := by
  show (cfg1.win 4).cut (grid1.coords t) ((dat1 V c).after 4 t) = _
  rw [after1_4]
  unfold out1_4
  rw [View.canon_unit_zero offZero1]
  simp only [View.ld_unit_zero (S := S5000x128) offZero1, View.ld_unit_zero (S := S5000x1) offZero1, View.ld_unit_zero (S := S1x128) offZero1]
  obtain ⟨-, -, -, -, -, -, -, -, e2, e3⟩ := idx_facts1 t
  have ht : t.val < 10 := lt_of_lt_of_eq t.isLt N_1
  funext j
  obtain ⟨p, q, rfl⟩ : ∃ (p : Fin 5000) (q : Fin 128), j = ix2 p q := ⟨j 0, j 1, eq_ix2 j⟩
  have hp : p.val < 5000 := p.isLt
  show k1_pay1 (F := Ideal) _ _ _ _ (ix2 p q) = G1 V c (((cfg1.win 4).blk t).view.emb (ix2 p q))
  have he : ((cfg1.win 4).blk t).view.emb (ix2 p q) = ix2 (⟨t.val * 5000 + p.val, by omega⟩ : Fin 50000) q :=
    funext fun a => Fin.ext (by
      match a with
      | ⟨0, _⟩ => show win1_4.index t (0 : Fin 2) * 5000 + 1 * p.val = t.val * 5000 + p.val; omega
      | ⟨1, _⟩ => show win1_4.index t (1 : Fin 2) * 128 + 1 * q.val = q.val; omega)
  rw [he, pay1_apply, iblk1_0_apply V c t p q ⟨t.val * 5000 + p.val, by omega⟩ rfl,
    iblk1_1_apply V c t p q ⟨t.val * 5000 + p.val, by omega⟩ rfl,
    iblk1_2_apply V c t p ⟨t.val * 5000 + p.val, by omega⟩ rfl, iblk1_3_apply]
  rfl

theorem mem_blk1 (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v43).slice (win1_4.rect t)).set ↔ _
  rw [View.set_slice_whole, Rect.mem_set_unit]
  exact Iff.rfl

theorem cover1 (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ : ∃ t : Fin cfg1.N, t.val = (i 0).val / 5000 :=
    ⟨⟨(i 0).val / 5000, by rw [show cfg1.N = 10 from N_1]; omega⟩, rfl⟩
  obtain ⟨-, -, -, -, -, -, -, -, e2, e3⟩ := idx_facts1 t
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

theorem final1 (c : Dev nD) : (dat1 V c).arrAt 4 cfg1.N
    = Cert.Spec.cmbOf (V c (Pipeline.arrRef spec1 0)) (V c (Pipeline.arrRef spec1 1)) (V c (Pipeline.arrRef spec1 2)) (V c (Pipeline.arrRef spec1 3)) :=
  (dat1 V c).arrAt_eq_of_cover 4 (G1 V c) (fun t _ => flushed1_eq V c t) cover1

end Cert.KernelIdeal.Hand

end
-- ==== Proof.KI.Val3.lean ====
import proofs.«171585_j55456617726008_1_alg».proof.Proof.KI.Reg3
import proofs.«171585_j55456617726008_1_alg».proof.Proof.SpecFns
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

def bnRelu3 (z : S50000x128.Idx → EReal) (mean var g beta : S1x128.Idx → EReal) (r : Fin 50000) (j : Fin 128) : EReal :=
  max (g (ix2 (0 : Fin 1) j) * (z (ix2 r j) - mean (ix2 (0 : Fin 1) j))
      * Ideal.rsqrt (var (ix2 (0 : Fin 1) j) + Ideal.ofBits .f32 0x3727C5AC#32) + beta (ix2 (0 : Fin 1) j)) 0

theorem offZero3 : (![0, 0] : Fin 2 → Nat) = fun _ => 0 := funext fun a => by fin_cases a <;> rfl

theorem rowBroadcast3 {α : Type} (x : S1x128.Idx → α) (h : S1x128.Broadcasts S5000x128) (p : Fin 5000) (q : Fin 128) :
    broadcastTo S5000x128 x h (ix2 p q) = x (ix2 (0 : Fin 1) q) :=
  broadcastTo_apply x h _ _ fun a => by
    match a with
    | ⟨0, _⟩ => rfl
    | ⟨1, _⟩ => rfl

theorem pay3_apply (x0 : Vec Ideal S5000x128 .f32) (x1 x2 x3 x4 : Vec Ideal S1x128 .f32) (p : Fin 5000) (q : Fin 128) :
    k3_pay1 x0 x1 x2 x3 x4 (ix2 p q)
      = max (x3 (ix2 (0 : Fin 1) q) * (x0 (ix2 p q) - x1 (ix2 (0 : Fin 1) q))
          * Ideal.rsqrt (x2 (ix2 (0 : Fin 1) q) + Ideal.ofBits .f32 0x3727C5AC#32) + x4 (ix2 (0 : Fin 1) q)) 0 := by
  unfold k3_pay1
  simp only [shapeCast_self]
  rw [maximumf_apply, addf_apply, mulf_apply, mulf_apply, subf_apply, rowBroadcast3, rowBroadcast3, rowBroadcast3, rowBroadcast3,
    broadcast_apply]
  show max (x3 (ix2 (0 : Fin 1) q) * (x0 (ix2 p q) - x1 (ix2 (0 : Fin 1) q))
      * Ideal.rsqrt (x2 (ix2 (0 : Fin 1) q) + Ideal.ofBits .f32 0x3727C5AC#32) + x4 (ix2 (0 : Fin 1) q)) (Ideal.ofBits .f32 0x00000000#32) = _
  rw [Ideal.ofBits_zero_f32]

theorem idx_facts3 : ∀ t : Fin cfg3.N, win3_0.index t (0 : Fin 2) = t.val ∧ win3_0.index t (1 : Fin 2) = 0
    ∧ win3_5.index t (0 : Fin 2) = t.val ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

theorem iblk3_0_apply (c : Dev nD) (t : Fin cfg3.N) (p : Fin 5000) (q : Fin 128) (r : Fin 50000) (hr : r.val = t.val * 5000 + p.val) :
    (iblk3 V c 0 t : Vec Ideal S5000x128 .f32) (ix2 p q) = (V c (Pipeline.arrRef spec3 0) : S50000x128.Idx → EReal) (ix2 r q) := by
  obtain ⟨e0, e1, -⟩ := idx_facts3 t
  show V c (Pipeline.arrRef spec3 0) (((cfg3.win 0).blk t).view.emb (ix2 p q)) = V c (Pipeline.arrRef spec3 0) (ix2 r q)
  refine congrArg (V c (Pipeline.arrRef spec3 0)) (funext fun a => Fin.ext ?_)
  match a with
  | ⟨0, _⟩ => show win3_0.index t (0 : Fin 2) * 5000 + 1 * p.val = r.val; omega
  | ⟨1, _⟩ => show win3_0.index t (1 : Fin 2) * 128 + 1 * q.val = q.val; omega

theorem iblk3_1_apply (c : Dev nD) (t : Fin cfg3.N) (q : Fin 128) :
    (iblk3 V c 1 t : Vec Ideal S1x128 .f32) (ix2 (0 : Fin 1) q) = (V c (Pipeline.arrRef spec3 1) : S1x128.Idx → EReal) (ix2 (0 : Fin 1) q) := by
  obtain ⟨-, -, -, -, e0, e1, -⟩ := idx_facts3 t
  show V c (Pipeline.arrRef spec3 1) (((cfg3.win 1).blk t).view.emb (ix2 (0 : Fin 1) q)) = V c (Pipeline.arrRef spec3 1) (ix2 (0 : Fin 1) q)
  refine congrArg (V c (Pipeline.arrRef spec3 1)) (funext fun a => Fin.ext ?_)
  match a with
  | ⟨0, _⟩ => show win3_1.index t (0 : Fin 2) * 1 + 1 * 0 = 0; omega
  | ⟨1, _⟩ => show win3_1.index t (1 : Fin 2) * 128 + 1 * q.val = q.val; omega
theorem iblk3_2_apply (c : Dev nD) (t : Fin cfg3.N) (q : Fin 128) :
    (iblk3 V c 2 t : Vec Ideal S1x128 .f32) (ix2 (0 : Fin 1) q) = (V c (Pipeline.arrRef spec3 2) : S1x128.Idx → EReal) (ix2 (0 : Fin 1) q) := by
  obtain ⟨-, -, -, -, -, -, e0, e1, -⟩ := idx_facts3 t
  show V c (Pipeline.arrRef spec3 2) (((cfg3.win 2).blk t).view.emb (ix2 (0 : Fin 1) q)) = V c (Pipeline.arrRef spec3 2) (ix2 (0 : Fin 1) q)
  refine congrArg (V c (Pipeline.arrRef spec3 2)) (funext fun a => Fin.ext ?_)
  match a with
  | ⟨0, _⟩ => show win3_2.index t (0 : Fin 2) * 1 + 1 * 0 = 0; omega
  | ⟨1, _⟩ => show win3_2.index t (1 : Fin 2) * 128 + 1 * q.val = q.val; omega
theorem iblk3_3_apply (c : Dev nD) (t : Fin cfg3.N) (q : Fin 128) :
    (iblk3 V c 3 t : Vec Ideal S1x128 .f32) (ix2 (0 : Fin 1) q) = (V c (Pipeline.arrRef spec3 3) : S1x128.Idx → EReal) (ix2 (0 : Fin 1) q) := by
  obtain ⟨-, -, -, -, -, -, -, -, e0, e1, -⟩ := idx_facts3 t
  show V c (Pipeline.arrRef spec3 3) (((cfg3.win 3).blk t).view.emb (ix2 (0 : Fin 1) q)) = V c (Pipeline.arrRef spec3 3) (ix2 (0 : Fin 1) q)
  refine congrArg (V c (Pipeline.arrRef spec3 3)) (funext fun a => Fin.ext ?_)
  match a with
  | ⟨0, _⟩ => show win3_3.index t (0 : Fin 2) * 1 + 1 * 0 = 0; omega
  | ⟨1, _⟩ => show win3_3.index t (1 : Fin 2) * 128 + 1 * q.val = q.val; omega
theorem iblk3_4_apply (c : Dev nD) (t : Fin cfg3.N) (q : Fin 128) :
    (iblk3 V c 4 t : Vec Ideal S1x128 .f32) (ix2 (0 : Fin 1) q) = (V c (Pipeline.arrRef spec3 4) : S1x128.Idx → EReal) (ix2 (0 : Fin 1) q) := by
  obtain ⟨-, -, -, -, -, -, -, -, -, -, e0, e1⟩ := idx_facts3 t
  show V c (Pipeline.arrRef spec3 4) (((cfg3.win 4).blk t).view.emb (ix2 (0 : Fin 1) q)) = V c (Pipeline.arrRef spec3 4) (ix2 (0 : Fin 1) q)
  refine congrArg (V c (Pipeline.arrRef spec3 4)) (funext fun a => Fin.ext ?_)
  match a with
  | ⟨0, _⟩ => show win3_4.index t (0 : Fin 2) * 1 + 1 * 0 = 0; omega
  | ⟨1, _⟩ => show win3_4.index t (1 : Fin 2) * 128 + 1 * q.val = q.val; omega

abbrev G3 (c : Dev nD) : S50000x128.Idx → EReal := fun i =>
  bnRelu3 (V c (Pipeline.arrRef spec3 0)) (V c (Pipeline.arrRef spec3 1)) (V c (Pipeline.arrRef spec3 2))
    (V c (Pipeline.arrRef spec3 3)) (V c (Pipeline.arrRef spec3 4)) (i 0) (i 1)

theorem flushed3_eq (c : Dev nD) (t : Fin cfg3.N) :
    (dat3 V c).flushed 5 t = ((cfg3.win 5).blk t).view.read (Elt Ideal) (G3 V c) := by
  show (cfg3.win 5).cut (grid3.coords t) ((dat3 V c).after 5 t) = _
  rw [after3_5]
  unfold out3_5
  rw [View.canon_unit_zero offZero3]
  simp only [View.ld_unit_zero (S := S5000x128) offZero3, View.ld_unit_zero (S := S1x128) offZero3]
  obtain ⟨-, -, e2, e3, -⟩ := idx_facts3 t
  have ht : t.val < 10 := lt_of_lt_of_eq t.isLt N_3
  funext j
  obtain ⟨p, q, rfl⟩ : ∃ (p : Fin 5000) (q : Fin 128), j = ix2 p q := ⟨j 0, j 1, eq_ix2 j⟩
  have hp : p.val < 5000 := p.isLt
  show k3_pay1 (F := Ideal) _ _ _ _ _ (ix2 p q) = G3 V c (((cfg3.win 5).blk t).view.emb (ix2 p q))
  have he : ((cfg3.win 5).blk t).view.emb (ix2 p q) = ix2 (⟨t.val * 5000 + p.val, by omega⟩ : Fin 50000) q :=
    funext fun a => Fin.ext (by
      match a with
      | ⟨0, _⟩ => show win3_5.index t (0 : Fin 2) * 5000 + 1 * p.val = t.val * 5000 + p.val; omega
      | ⟨1, _⟩ => show win3_5.index t (1 : Fin 2) * 128 + 1 * q.val = q.val; omega)
  rw [he, pay3_apply, iblk3_0_apply V c t p q ⟨t.val * 5000 + p.val, by omega⟩ rfl, iblk3_1_apply, iblk3_2_apply, iblk3_3_apply, iblk3_4_apply]
  rfl

theorem mem_blk3 (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v47).slice (win3_5.rect t)).set ↔ _
  rw [View.set_slice_whole, Rect.mem_set_unit]
  exact Iff.rfl

theorem cover3 (i : S50000x128.Idx) : ∃ t : Fin cfg3.N, (cfg3.win 5).flush t = true ∧ i ∈ ((cfg3.win 5).blk t).view.set := by
  have hi0 : (i 0).val < 50000 := (i 0).isLt
  have hi1 : (i 1).val < 128 := (i 1).isLt
  obtain ⟨t, ht⟩ : ∃ t : Fin cfg3.N, t.val = (i 0).val / 5000 :=
    ⟨⟨(i 0).val / 5000, by rw [show cfg3.N = 10 from N_3]; omega⟩, rfl⟩
  obtain ⟨-, -, e2, e3, -⟩ := idx_facts3 t
  refine ⟨t, flush3_5 t, ?_⟩
  rw [mem_blk3]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 128 ≤ (i 1).val ∧ (i 1).val < win3_5.index t (1 : Fin 2) * 128 + 128; omega

theorem final3 (c : Dev nD) : (dat3 V c).arrAt 5 cfg3.N = fun i =>
    bnRelu3 (V c (Pipeline.arrRef spec3 0)) (V c (Pipeline.arrRef spec3 1)) (V c (Pipeline.arrRef spec3 2))
      (V c (Pipeline.arrRef spec3 3)) (V c (Pipeline.arrRef spec3 4)) (i 0) (i 1) :=
  (dat3 V c).arrAt_eq_of_cover 5 (G3 V c) (fun t _ => flushed3_eq V c t) cover3

theorem final3' (c : Dev nD) : (dat3 V c).arrAt 5 cfg3.N
    = Cert.Spec.bnReluOf (V c (Pipeline.arrRef spec3 0)) (V c (Pipeline.arrRef spec3 1)) (V c (Pipeline.arrRef spec3 2))
        (V c (Pipeline.arrRef spec3 3)) (V c (Pipeline.arrRef spec3 4)) :=
  (final3 V c).trans (funext fun i => by
    obtain ⟨r, j, rfl⟩ : ∃ (r : Fin 50000) (j : Fin 128), i = ix2 r j := ⟨i 0, i 1, eq_ix2 i⟩
    rw [Cert.Spec.bnReluOf_apply]
    rfl)

end Cert.KernelIdeal.Hand

end
-- ==== Proof.KI.Val4.lean ====
import proofs.«171585_j55456617726008_1_alg».proof.Proof.KI.Reg4
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

theorem lhs4_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

theorem lhs4_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

theorem rhs4_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

theorem rhs4_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem pay4_apply (x : FVec Ideal S5000x128 .f32) (w : FVec Ideal S128x128 .f32) (p : Fin 5000) (q : Fin 128) :
    k4_pay1 (F := Ideal) x w (ix2 p q) = ∑ k : Fin 128, x (ix2 p k) * w (ix2 k q) := by
  unfold k4_pay1
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs4_0 _ _
    | ⟨1, _⟩ => exact (lhs4_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs4_0 _ _).trans hk
    | ⟨1, _⟩ => exact rhs4_1 _ _)
  rw [el, er]

  first
    | (rw [shapeCast_self]; rfl)
    | rfl

def matProd4 (X : S50000x128.Idx → EReal) (W : S128x128.Idx → EReal) : S50000x128.Idx → EReal :=
  fun i => ∑ k : Fin 128, X (ix2 (i 0) k) * W (ix2 k (i 1))

theorem matProd4_apply (X : S50000x128.Idx → EReal) (W : S128x128.Idx → EReal) (i : S50000x128.Idx) :
    matProd4 X W i = ∑ k : Fin 128, X (ix2 (i 0) k) * W (ix2 k (i 1)) := rfl

theorem matProd4_ix2 (X : S50000x128.Idx → EReal) (W : S128x128.Idx → EReal) (r : Fin 50000) (q : Fin 128) :
    matProd4 X W (ix2 r q) = ∑ k : Fin 128, X (ix2 r k) * W (ix2 k q) := rfl

theorem blk4_apply (X : S50000x128.Idx → EReal) (W : S128x128.Idx → EReal)
    (xb : FVec Ideal S5000x128 .f32) (wb : FVec Ideal S128x128 .f32) (p : Fin 5000) (q : Fin 128) (i : S50000x128.Idx)
    (hx : ∀ k : Fin 128, xb (ix2 p k) = X (ix2 (i 0) k)) (hw : ∀ k : Fin 128, wb (ix2 k q) = W (ix2 k (i 1))) :
    k4_pay1 (F := Ideal) xb wb (ix2 p q) = matProd4 X W i := by
  rw [pay4_apply, matProd4_apply]
  exact Finset.sum_congr rfl fun k _ => by rw [hx k, hw k]

variable (V : (c : Dev nD) → (b : Ref sig .tc) → Buf (Elt Ideal) ((c : Thread nD τ).loc b))

theorem hz4 : (![0, 0] : Fin 2 → Nat) = fun _ => 0 := funext fun a => by fin_cases a <;> rfl

theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

theorem flushed4_eq (c : Dev nD) (t : Fin cfg4.N) :
    (dat4 (F := Ideal) V c).flushed 2 t = ((cfg4.win 2).blk t).view.read (Elt Ideal)
      (matProd4 (V c (Pipeline.arrRef spec4 0)) (V c (Pipeline.arrRef spec4 1))) := by
  show (cfg4.win 2).cut (grid4.coords t) ((dat4 V c).after 2 t) = _
  rw [after4_2]
  unfold out4_2
  rw [View.canon_unit_zero hz4]
  simp only [View.ld_unit_zero (S := S5000x128) hz4, View.ld_unit_zero (S := S128x128) hz4]
  obtain ⟨ea, eb, ec, ed, ee, ef⟩ := idx_facts4 t
  funext j
  obtain ⟨p, q, rfl⟩ : ∃ (p : Fin 5000) (q : Fin 128), j = ix2 p q := ⟨j 0, j 1, eq_ix2 j⟩
  show k4_pay1 (F := Ideal) (iblk4 V c 0 t) (iblk4 V c 1 t) (ix2 p q)
    = matProd4 (V c (Pipeline.arrRef spec4 0)) (V c (Pipeline.arrRef spec4 1)) (((cfg4.win 2).blk t).view.emb (ix2 p q))
  refine blk4_apply _ _ _ _ p q _ (fun k => ?_) (fun k => ?_)
  · show V c (Pipeline.arrRef spec4 0) (((cfg4.win 0).blk t).view.emb (ix2 p k)) = _
    refine congrArg _ (funext fun a => Fin.ext ?_)
    match a with
    | ⟨0, _⟩ => show win4_0.index t (0 : Fin 2) * 5000 + 1 * p.val = win4_2.index t (0 : Fin 2) * 5000 + 1 * p.val; omega
    | ⟨1, _⟩ => show win4_0.index t (1 : Fin 2) * 128 + 1 * k.val = k.val; omega
  · show V c (Pipeline.arrRef spec4 1) (((cfg4.win 1).blk t).view.emb (ix2 k q)) = _
    refine congrArg _ (funext fun a => Fin.ext ?_)
    match a with
    | ⟨0, _⟩ => show win4_1.index t (0 : Fin 2) * 128 + 1 * k.val = k.val; omega
    | ⟨1, _⟩ => show win4_1.index t (1 : Fin 2) * 128 + 1 * q.val = win4_2.index t (1 : Fin 2) * 128 + 1 * q.val; omega

theorem mem_blk4 (t : Fin cfg4.N) (i : S50000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v48).slice (win4_2.rect t)).set ↔ _
  rw [View.set_slice_whole, Rect.mem_set_unit]
  exact Iff.rfl

theorem covered4 (i : S50000x128.Idx) :
    ∃ t : Fin cfg4.N, (cfg4.win 2).flush t = true ∧ i ∈ ((cfg4.win 2).blk t).view.set := by
  have hr : (i 0).val < 50000 := (i 0).isLt
  have hc : (i 1).val < 128 := (i 1).isLt
  obtain ⟨t, ht⟩ : ∃ t : Fin cfg4.N, t.val = (i 0).val / 5000 := ⟨⟨(i 0).val / 5000, by show _ < grid4.N; rw [N_4]; omega⟩, rfl⟩
  obtain ⟨ea, eb, ec, ed, ee, ef⟩ := idx_facts4 t
  refine ⟨t, flush4_2 t, ?_⟩
  rw [mem_blk4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

theorem final4 (c : Dev nD) : (dat4 (F := Ideal) V c).arrAt 2 cfg4.N
    = matProd4 (V c (Pipeline.arrRef spec4 0)) (V c (Pipeline.arrRef spec4 1)) :=
  (dat4 V c).arrAt_eq_of_cover 2 _ (fun t _ => flushed4_eq V c t) covered4

end Cert.KernelIdeal.Hand

end
-- ==== Proof.KI.Val5.lean ====
import proofs.«171585_j55456617726008_1_alg».proof.Proof.KI.Reg5
import proofs.«171585_j55456617726008_1_alg».proof.Proof.SpecFns
import Idealize.ShloMosaic.Lib.Pipeline.Value
import Idealize.ShloMosaic.Lib.ValueIdx
import Idealize.ShloMosaic.PureOps.Ideal.Laws
import proofs.«171585_j55456617726008_1_alg».proof.Proof.KI.Val1

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

theorem iblk5_0_apply (c : Dev nD) (t : Fin cfg5.N) (p : Fin 5000) (q : Fin 128) (r : Fin 50000) (hr : r.val = t.val * 5000 + p.val) :
    (iblk5 V c 0 t : Vec Ideal S5000x128 .f32) (ix2 p q) = (V c (Pipeline.arrRef spec5 0) : S50000x128.Idx → EReal) (ix2 r q) := by
  obtain ⟨e0, e1, -⟩ := idx_facts5 t
  show V c (Pipeline.arrRef spec5 0) (((cfg5.win 0).blk t).view.emb (ix2 p q)) = V c (Pipeline.arrRef spec5 0) (ix2 r q)
  refine congrArg (V c (Pipeline.arrRef spec5 0)) (funext fun a => Fin.ext ?_)
  match a with
  | ⟨0, _⟩ => show win5_0.index t (0 : Fin 2) * 5000 + 1 * p.val = r.val; omega
  | ⟨1, _⟩ => show win5_0.index t (1 : Fin 2) * 128 + 1 * q.val = q.val; omega

theorem iblk5_1_apply (c : Dev nD) (t : Fin cfg5.N) (p : Fin 5000) (q : Fin 128) (r : Fin 50000) (hr : r.val = t.val * 5000 + p.val) :
    (iblk5 V c 1 t : Vec Ideal S5000x128 .f32) (ix2 p q) = (V c (Pipeline.arrRef spec5 1) : S50000x128.Idx → EReal) (ix2 r q) := by
  obtain ⟨-, -, e0, e1, -⟩ := idx_facts5 t
  show V c (Pipeline.arrRef spec5 1) (((cfg5.win 1).blk t).view.emb (ix2 p q)) = V c (Pipeline.arrRef spec5 1) (ix2 r q)
  refine congrArg (V c (Pipeline.arrRef spec5 1)) (funext fun a => Fin.ext ?_)
  match a with
  | ⟨0, _⟩ => show win5_1.index t (0 : Fin 2) * 5000 + 1 * p.val = r.val; omega
  | ⟨1, _⟩ => show win5_1.index t (1 : Fin 2) * 128 + 1 * q.val = q.val; omega

theorem iblk5_2_apply (c : Dev nD) (t : Fin cfg5.N) (p : Fin 5000) (r : Fin 50000) (hr : r.val = t.val * 5000 + p.val) :
    (iblk5 V c 2 t : Vec Ideal S5000x1 .f32) (ix2 p (0 : Fin 1)) = (V c (Pipeline.arrRef spec5 2) : S50000x1.Idx → EReal) (ix2 r (0 : Fin 1)) := by
  obtain ⟨-, -, -, -, e0, e1, -⟩ := idx_facts5 t
  show V c (Pipeline.arrRef spec5 2) (((cfg5.win 2).blk t).view.emb (ix2 p (0 : Fin 1))) = V c (Pipeline.arrRef spec5 2) (ix2 r (0 : Fin 1))
  refine congrArg (V c (Pipeline.arrRef spec5 2)) (funext fun a => Fin.ext ?_)
  match a with
  | ⟨0, _⟩ => show win5_2.index t (0 : Fin 2) * 5000 + 1 * p.val = r.val; omega
  | ⟨1, _⟩ => show win5_2.index t (1 : Fin 2) * 1 + 1 * 0 = 0; omega

theorem iblk5_3_apply (c : Dev nD) (t : Fin cfg5.N) (q : Fin 128) :
    (iblk5 V c 3 t : Vec Ideal S1x128 .f32) (ix2 (0 : Fin 1) q) = (V c (Pipeline.arrRef spec5 3) : S1x128.Idx → EReal) (ix2 (0 : Fin 1) q) := by
  obtain ⟨-, -, -, -, -, -, e0, e1, -⟩ := idx_facts5 t
  show V c (Pipeline.arrRef spec5 3) (((cfg5.win 3).blk t).view.emb (ix2 (0 : Fin 1) q)) = V c (Pipeline.arrRef spec5 3) (ix2 (0 : Fin 1) q)
  refine congrArg (V c (Pipeline.arrRef spec5 3)) (funext fun a => Fin.ext ?_)
  match a with
  | ⟨0, _⟩ => show win5_3.index t (0 : Fin 2) * 1 + 1 * 0 = 0; omega
  | ⟨1, _⟩ => show win5_3.index t (1 : Fin 2) * 128 + 1 * q.val = q.val; omega

abbrev G5 (c : Dev nD) : Vec Ideal S50000x128 .f32 :=
  Cert.Spec.cmbOf (V c (Pipeline.arrRef spec5 0)) (V c (Pipeline.arrRef spec5 1)) (V c (Pipeline.arrRef spec5 2)) (V c (Pipeline.arrRef spec5 3))

theorem flushed5_eq (c : Dev nD) (t : Fin cfg5.N) :
    (dat5 V c).flushed 4 t = ((cfg5.win 4).blk t).view.read (Elt Ideal) (G5 V c) := by
  show (cfg5.win 4).cut (grid5.coords t) ((dat5 V c).after 4 t) = _
  rw [after5_4]
  unfold out1_4
  rw [View.canon_unit_zero offZero1]
  simp only [View.ld_unit_zero (S := S5000x128) offZero1, View.ld_unit_zero (S := S5000x1) offZero1, View.ld_unit_zero (S := S1x128) offZero1]
  obtain ⟨-, -, -, -, -, -, -, -, e2, e3⟩ := idx_facts5 t
  have ht : t.val < 10 := lt_of_lt_of_eq t.isLt N_5
  funext j
  obtain ⟨p, q, rfl⟩ : ∃ (p : Fin 5000) (q : Fin 128), j = ix2 p q := ⟨j 0, j 1, eq_ix2 j⟩
  have hp : p.val < 5000 := p.isLt
  show k1_pay1 (F := Ideal) _ _ _ _ (ix2 p q) = G5 V c (((cfg5.win 4).blk t).view.emb (ix2 p q))
  have he : ((cfg5.win 4).blk t).view.emb (ix2 p q) = ix2 (⟨t.val * 5000 + p.val, by omega⟩ : Fin 50000) q :=
    funext fun a => Fin.ext (by
      match a with
      | ⟨0, _⟩ => show win5_4.index t (0 : Fin 2) * 5000 + 1 * p.val = t.val * 5000 + p.val; omega
      | ⟨1, _⟩ => show win5_4.index t (1 : Fin 2) * 128 + 1 * q.val = q.val; omega)
  rw [he, pay1_apply, iblk5_0_apply V c t p q ⟨t.val * 5000 + p.val, by omega⟩ rfl,
    iblk5_1_apply V c t p q ⟨t.val * 5000 + p.val, by omega⟩ rfl,
    iblk5_2_apply V c t p ⟨t.val * 5000 + p.val, by omega⟩ rfl, iblk5_3_apply]
  rfl

theorem mem_blk5 (t : Fin cfg5.N) (i : S50000x128.Idx) :
    i ∈ ((cfg5.win 4).blk t).view.set ↔ ∀ a : Fin 2, win5_4.index t a * S5000x128.size a ≤ (i a).val ∧ (i a).val < win5_4.index t a * S5000x128.size a + S5000x128.size a := by
  show i ∈ ((View.whole main_v63).slice (win5_4.rect t)).set ↔ _
  rw [View.set_slice_whole, Rect.mem_set_unit]
  exact Iff.rfl

theorem cover5 (i : S50000x128.Idx) : ∃ t : Fin cfg5.N, (cfg5.win 4).flush t = true ∧ i ∈ ((cfg5.win 4).blk t).view.set := by
  have hi0 : (i 0).val < 50000 := (i 0).isLt
  have hi1 : (i 1).val < 128 := (i 1).isLt
  obtain ⟨t, ht⟩ : ∃ t : Fin cfg5.N, t.val = (i 0).val / 5000 :=
    ⟨⟨(i 0).val / 5000, by rw [show cfg5.N = 10 from N_5]; omega⟩, rfl⟩
  obtain ⟨-, -, -, -, -, -, -, -, e2, e3⟩ := idx_facts5 t
  refine ⟨t, flush5_4 t, ?_⟩
  rw [mem_blk5]
  intro a
  match a with
  | ⟨0, _⟩ => show win5_4.index t (0 : Fin 2) * 5000 ≤ (i 0).val ∧ (i 0).val < win5_4.index t (0 : Fin 2) * 5000 + 5000; omega
  | ⟨1, _⟩ => show win5_4.index t (1 : Fin 2) * 128 ≤ (i 1).val ∧ (i 1).val < win5_4.index t (1 : Fin 2) * 128 + 128; omega

theorem final5 (c : Dev nD) : (dat5 V c).arrAt 4 cfg5.N
    = Cert.Spec.cmbOf (V c (Pipeline.arrRef spec5 0)) (V c (Pipeline.arrRef spec5 1)) (V c (Pipeline.arrRef spec5 2)) (V c (Pipeline.arrRef spec5 3)) :=
  (dat5 V c).arrAt_eq_of_cover 4 (G5 V c) (fun t _ => flushed5_eq V c t) cover5

end Cert.KernelIdeal.Hand

end
-- ==== Proof.KI.Val7.lean ====
import proofs.«171585_j55456617726008_1_alg».proof.Proof.KI.Reg7
import proofs.«171585_j55456617726008_1_alg».proof.Proof.SpecFns
import Idealize.ShloMosaic.Lib.Pipeline.Value
import Idealize.ShloMosaic.Lib.ValueIdx
import Idealize.ShloMosaic.PureOps.Ideal.Laws
import proofs.«171585_j55456617726008_1_alg».proof.Proof.KI.Val3

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem idx_facts7 : ∀ t : Fin cfg7.N, win7_0.index t (0 : Fin 2) = t.val ∧ win7_0.index t (1 : Fin 2) = 0
    ∧ win7_5.index t (0 : Fin 2) = t.val ∧ win7_5.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0 :=
  (by decide +kernel : ∀ t : Fin grid7.N, _)

theorem iblk7_0_apply (c : Dev nD) (t : Fin cfg7.N) (p : Fin 5000) (q : Fin 128) (r : Fin 50000) (hr : r.val = t.val * 5000 + p.val) :
    (iblk7 V c 0 t : Vec Ideal S5000x128 .f32) (ix2 p q) = (V c (Pipeline.arrRef spec7 0) : S50000x128.Idx → EReal) (ix2 r q) := by
  obtain ⟨e0, e1, -⟩ := idx_facts7 t
  show V c (Pipeline.arrRef spec7 0) (((cfg7.win 0).blk t).view.emb (ix2 p q)) = V c (Pipeline.arrRef spec7 0) (ix2 r q)
  refine congrArg (V c (Pipeline.arrRef spec7 0)) (funext fun a => Fin.ext ?_)
  match a with
  | ⟨0, _⟩ => show win7_0.index t (0 : Fin 2) * 5000 + 1 * p.val = r.val; omega
  | ⟨1, _⟩ => show win7_0.index t (1 : Fin 2) * 128 + 1 * q.val = q.val; omega

theorem iblk7_1_apply (c : Dev nD) (t : Fin cfg7.N) (q : Fin 128) :
    (iblk7 V c 1 t : Vec Ideal S1x128 .f32) (ix2 (0 : Fin 1) q) = (V c (Pipeline.arrRef spec7 1) : S1x128.Idx → EReal) (ix2 (0 : Fin 1) q) := by
  obtain ⟨-, -, -, -, e0, e1, -⟩ := idx_facts7 t
  show V c (Pipeline.arrRef spec7 1) (((cfg7.win 1).blk t).view.emb (ix2 (0 : Fin 1) q)) = V c (Pipeline.arrRef spec7 1) (ix2 (0 : Fin 1) q)
  refine congrArg (V c (Pipeline.arrRef spec7 1)) (funext fun a => Fin.ext ?_)
  match a with
  | ⟨0, _⟩ => show win7_1.index t (0 : Fin 2) * 1 + 1 * 0 = 0; omega
  | ⟨1, _⟩ => show win7_1.index t (1 : Fin 2) * 128 + 1 * q.val = q.val; omega
theorem iblk7_2_apply (c : Dev nD) (t : Fin cfg7.N) (q : Fin 128) :
    (iblk7 V c 2 t : Vec Ideal S1x128 .f32) (ix2 (0 : Fin 1) q) = (V c (Pipeline.arrRef spec7 2) : S1x128.Idx → EReal) (ix2 (0 : Fin 1) q) := by
  obtain ⟨-, -, -, -, -, -, e0, e1, -⟩ := idx_facts7 t
  show V c (Pipeline.arrRef spec7 2) (((cfg7.win 2).blk t).view.emb (ix2 (0 : Fin 1) q)) = V c (Pipeline.arrRef spec7 2) (ix2 (0 : Fin 1) q)
  refine congrArg (V c (Pipeline.arrRef spec7 2)) (funext fun a => Fin.ext ?_)
  match a with
  | ⟨0, _⟩ => show win7_2.index t (0 : Fin 2) * 1 + 1 * 0 = 0; omega
  | ⟨1, _⟩ => show win7_2.index t (1 : Fin 2) * 128 + 1 * q.val = q.val; omega
theorem iblk7_3_apply (c : Dev nD) (t : Fin cfg7.N) (q : Fin 128) :
    (iblk7 V c 3 t : Vec Ideal S1x128 .f32) (ix2 (0 : Fin 1) q) = (V c (Pipeline.arrRef spec7 3) : S1x128.Idx → EReal) (ix2 (0 : Fin 1) q) := by
  obtain ⟨-, -, -, -, -, -, -, -, e0, e1, -⟩ := idx_facts7 t
  show V c (Pipeline.arrRef spec7 3) (((cfg7.win 3).blk t).view.emb (ix2 (0 : Fin 1) q)) = V c (Pipeline.arrRef spec7 3) (ix2 (0 : Fin 1) q)
  refine congrArg (V c (Pipeline.arrRef spec7 3)) (funext fun a => Fin.ext ?_)
  match a with
  | ⟨0, _⟩ => show win7_3.index t (0 : Fin 2) * 1 + 1 * 0 = 0; omega
  | ⟨1, _⟩ => show win7_3.index t (1 : Fin 2) * 128 + 1 * q.val = q.val; omega
theorem iblk7_4_apply (c : Dev nD) (t : Fin cfg7.N) (q : Fin 128) :
    (iblk7 V c 4 t : Vec Ideal S1x128 .f32) (ix2 (0 : Fin 1) q) = (V c (Pipeline.arrRef spec7 4) : S1x128.Idx → EReal) (ix2 (0 : Fin 1) q) := by
  obtain ⟨-, -, -, -, -, -, -, -, -, -, e0, e1⟩ := idx_facts7 t
  show V c (Pipeline.arrRef spec7 4) (((cfg7.win 4).blk t).view.emb (ix2 (0 : Fin 1) q)) = V c (Pipeline.arrRef spec7 4) (ix2 (0 : Fin 1) q)
  refine congrArg (V c (Pipeline.arrRef spec7 4)) (funext fun a => Fin.ext ?_)
  match a with
  | ⟨0, _⟩ => show win7_4.index t (0 : Fin 2) * 1 + 1 * 0 = 0; omega
  | ⟨1, _⟩ => show win7_4.index t (1 : Fin 2) * 128 + 1 * q.val = q.val; omega

abbrev G7 (c : Dev nD) : S50000x128.Idx → EReal := fun i =>
  bnRelu3 (V c (Pipeline.arrRef spec7 0)) (V c (Pipeline.arrRef spec7 1)) (V c (Pipeline.arrRef spec7 2))
    (V c (Pipeline.arrRef spec7 3)) (V c (Pipeline.arrRef spec7 4)) (i 0) (i 1)

theorem flushed7_eq (c : Dev nD) (t : Fin cfg7.N) :
    (dat7 V c).flushed 5 t = ((cfg7.win 5).blk t).view.read (Elt Ideal) (G7 V c) := by
  show (cfg7.win 5).cut (grid7.coords t) ((dat7 V c).after 5 t) = _
  rw [after7_5]
  unfold out3_5
  rw [View.canon_unit_zero offZero3]
  simp only [View.ld_unit_zero (S := S5000x128) offZero3, View.ld_unit_zero (S := S1x128) offZero3]
  obtain ⟨-, -, e2, e3, -⟩ := idx_facts7 t
  have ht : t.val < 10 := lt_of_lt_of_eq t.isLt N_7
  funext j
  obtain ⟨p, q, rfl⟩ : ∃ (p : Fin 5000) (q : Fin 128), j = ix2 p q := ⟨j 0, j 1, eq_ix2 j⟩
  have hp : p.val < 5000 := p.isLt
  show k3_pay1 (F := Ideal) _ _ _ _ _ (ix2 p q) = G7 V c (((cfg7.win 5).blk t).view.emb (ix2 p q))
  have he : ((cfg7.win 5).blk t).view.emb (ix2 p q) = ix2 (⟨t.val * 5000 + p.val, by omega⟩ : Fin 50000) q :=
    funext fun a => Fin.ext (by
      match a with
      | ⟨0, _⟩ => show win7_5.index t (0 : Fin 2) * 5000 + 1 * p.val = t.val * 5000 + p.val; omega
      | ⟨1, _⟩ => show win7_5.index t (1 : Fin 2) * 128 + 1 * q.val = q.val; omega)
  rw [he, pay3_apply, iblk7_0_apply V c t p q ⟨t.val * 5000 + p.val, by omega⟩ rfl, iblk7_1_apply, iblk7_2_apply, iblk7_3_apply, iblk7_4_apply]
  rfl

theorem mem_blk7 (t : Fin cfg7.N) (i : S50000x128.Idx) :
    i ∈ ((cfg7.win 5).blk t).view.set ↔ ∀ a : Fin 2, win7_5.index t a * S5000x128.size a ≤ (i a).val ∧ (i a).val < win7_5.index t a * S5000x128.size a + S5000x128.size a := by
  show i ∈ ((View.whole main_v67).slice (win7_5.rect t)).set ↔ _
  rw [View.set_slice_whole, Rect.mem_set_unit]
  exact Iff.rfl

theorem cover7 (i : S50000x128.Idx) : ∃ t : Fin cfg7.N, (cfg7.win 5).flush t = true ∧ i ∈ ((cfg7.win 5).blk t).view.set := by
  have hi0 : (i 0).val < 50000 := (i 0).isLt
  have hi1 : (i 1).val < 128 := (i 1).isLt
  obtain ⟨t, ht⟩ : ∃ t : Fin cfg7.N, t.val = (i 0).val / 5000 :=
    ⟨⟨(i 0).val / 5000, by rw [show cfg7.N = 10 from N_7]; omega⟩, rfl⟩
  obtain ⟨-, -, e2, e3, -⟩ := idx_facts7 t
  refine ⟨t, flush7_5 t, ?_⟩
  rw [mem_blk7]
  intro a
  match a with
  | ⟨0, _⟩ => show win7_5.index t (0 : Fin 2) * 5000 ≤ (i 0).val ∧ (i 0).val < win7_5.index t (0 : Fin 2) * 5000 + 5000; omega
  | ⟨1, _⟩ => show win7_5.index t (1 : Fin 2) * 128 ≤ (i 1).val ∧ (i 1).val < win7_5.index t (1 : Fin 2) * 128 + 128; omega

theorem final7 (c : Dev nD) : (dat7 V c).arrAt 5 cfg7.N = fun i =>
    bnRelu3 (V c (Pipeline.arrRef spec7 0)) (V c (Pipeline.arrRef spec7 1)) (V c (Pipeline.arrRef spec7 2))
      (V c (Pipeline.arrRef spec7 3)) (V c (Pipeline.arrRef spec7 4)) (i 0) (i 1) :=
  (dat7 V c).arrAt_eq_of_cover 5 (G7 V c) (fun t _ => flushed7_eq V c t) cover7

theorem final7' (c : Dev nD) : (dat7 V c).arrAt 5 cfg7.N
    = Cert.Spec.bnReluOf (V c (Pipeline.arrRef spec7 0)) (V c (Pipeline.arrRef spec7 1)) (V c (Pipeline.arrRef spec7 2))
        (V c (Pipeline.arrRef spec7 3)) (V c (Pipeline.arrRef spec7 4)) :=
  (final7 V c).trans (funext fun i => by
    obtain ⟨r, j, rfl⟩ : ∃ (r : Fin 50000) (j : Fin 128), i = ix2 r j := ⟨i 0, i 1, eq_ix2 i⟩
    rw [Cert.Spec.bnReluOf_apply]
    rfl)

end Cert.KernelIdeal.Hand

end
-- ==== Proof.KI.Val8.lean ====
import proofs.«171585_j55456617726008_1_alg».proof.Proof.KI.Reg8
import Idealize.ShloMosaic.Lib.Pipeline.Value
import Idealize.ShloMosaic.Lib.ValueIdx
import Idealize.ShloMosaic.PureOps.Ideal.Laws
import proofs.«171585_j55456617726008_1_alg».proof.Proof.KI.Val4

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz8 : (![0, 0] : Fin 2 → Nat) = fun _ => 0 := funext fun a => by fin_cases a <;> rfl

theorem idx_facts8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

theorem flushed8_eq (c : Dev nD) (t : Fin cfg8.N) :
    (dat8 (F := Ideal) V c).flushed 2 t = ((cfg8.win 2).blk t).view.read (Elt Ideal)
      (matProd4 (V c (Pipeline.arrRef spec8 0)) (V c (Pipeline.arrRef spec8 1))) := by
  show (cfg8.win 2).cut (grid8.coords t) ((dat8 V c).after 2 t) = _
  rw [after8_2]
  unfold out4_2
  rw [View.canon_unit_zero hz8]
  simp only [View.ld_unit_zero (S := S5000x128) hz8, View.ld_unit_zero (S := S128x128) hz8]
  obtain ⟨ea, eb, ec, ed, ee, ef⟩ := idx_facts8 t
  funext j
  obtain ⟨p, q, rfl⟩ : ∃ (p : Fin 5000) (q : Fin 128), j = ix2 p q := ⟨j 0, j 1, eq_ix2 j⟩
  show k4_pay1 (F := Ideal) (iblk8 V c 0 t) (iblk8 V c 1 t) (ix2 p q)
    = matProd4 (V c (Pipeline.arrRef spec8 0)) (V c (Pipeline.arrRef spec8 1)) (((cfg8.win 2).blk t).view.emb (ix2 p q))
  refine blk4_apply _ _ _ _ p q _ (fun k => ?_) (fun k => ?_)
  · show V c (Pipeline.arrRef spec8 0) (((cfg8.win 0).blk t).view.emb (ix2 p k)) = _
    refine congrArg _ (funext fun a => Fin.ext ?_)
    match a with
    | ⟨0, _⟩ => show win8_0.index t (0 : Fin 2) * 5000 + 1 * p.val = win8_2.index t (0 : Fin 2) * 5000 + 1 * p.val; omega
    | ⟨1, _⟩ => show win8_0.index t (1 : Fin 2) * 128 + 1 * k.val = k.val; omega
  · show V c (Pipeline.arrRef spec8 1) (((cfg8.win 1).blk t).view.emb (ix2 k q)) = _
    refine congrArg _ (funext fun a => Fin.ext ?_)
    match a with
    | ⟨0, _⟩ => show win8_1.index t (0 : Fin 2) * 128 + 1 * k.val = k.val; omega
    | ⟨1, _⟩ => show win8_1.index t (1 : Fin 2) * 128 + 1 * q.val = win8_2.index t (1 : Fin 2) * 128 + 1 * q.val; omega

theorem mem_blk8 (t : Fin cfg8.N) (i : S50000x128.Idx) :
    i ∈ ((cfg8.win 2).blk t).view.set ↔ ∀ a : Fin 2, win8_2.index t a * S5000x128.size a ≤ (i a).val ∧ (i a).val < win8_2.index t a * S5000x128.size a + S5000x128.size a := by
  show i ∈ ((View.whole main_v68).slice (win8_2.rect t)).set ↔ _
  rw [View.set_slice_whole, Rect.mem_set_unit]
  exact Iff.rfl

theorem covered8 (i : S50000x128.Idx) :
    ∃ t : Fin cfg8.N, (cfg8.win 2).flush t = true ∧ i ∈ ((cfg8.win 2).blk t).view.set := by
  have hr : (i 0).val < 50000 := (i 0).isLt
  have hc : (i 1).val < 128 := (i 1).isLt
  obtain ⟨t, ht⟩ : ∃ t : Fin cfg8.N, t.val = (i 0).val / 5000 := ⟨⟨(i 0).val / 5000, by show _ < grid8.N; rw [N_8]; omega⟩, rfl⟩
  obtain ⟨ea, eb, ec, ed, ee, ef⟩ := idx_facts8 t
  refine ⟨t, flush8_2 t, ?_⟩
  rw [mem_blk8]
  intro a
  match a with
  | ⟨0, _⟩ => show win8_2.index t (0 : Fin 2) * 5000 ≤ (i 0).val ∧ (i 0).val < win8_2.index t (0 : Fin 2) * 5000 + 5000; omega
  | ⟨1, _⟩ => show win8_2.index t (1 : Fin 2) * 128 ≤ (i 1).val ∧ (i 1).val < win8_2.index t (1 : Fin 2) * 128 + 128; omega

theorem final8 (c : Dev nD) : (dat8 (F := Ideal) V c).arrAt 2 cfg8.N
    = matProd4 (V c (Pipeline.arrRef spec8 0)) (V c (Pipeline.arrRef spec8 1)) :=
  (dat8 V c).arrAt_eq_of_cover 2 _ (fun t _ => flushed8_eq V c t) covered8

end Cert.KernelIdeal.Hand

end
-- ==== Proof.KI.Val9.lean ====
import proofs.«171585_j55456617726008_1_alg».proof.Proof.KI.Reg9
import proofs.«171585_j55456617726008_1_alg».proof.Proof.SpecFns
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem offZero9 : (![0, 0] : Fin 2 → Nat) = fun _ => 0 := funext fun a => by fin_cases a <;> rfl

theorem rowBroadcast9 {α : Type} (x : S1x128.Idx → α) (h : S1x128.Broadcasts S5000x128) (p : Fin 5000) (q : Fin 128) :
    broadcastTo S5000x128 x h (ix2 p q) = x (ix2 (0 : Fin 1) q) :=
  broadcastTo_apply x h _ _ fun a => by
    match a with
    | ⟨0, _⟩ => rfl
    | ⟨1, _⟩ => rfl

theorem colBroadcast9 {α : Type} (x : S5000x1.Idx → α) (h : S5000x1.Broadcasts S5000x128) (p : Fin 5000) (q : Fin 128) :
    broadcastTo S5000x128 x h (ix2 p q) = x (ix2 p (0 : Fin 1)) :=
  broadcastTo_apply x h _ _ fun a => by
    match a with
    | ⟨0, _⟩ => rfl
    | ⟨1, _⟩ => rfl

theorem pay9_apply (xa : Vec Ideal S5000x128 .f32) (xd : Vec Ideal S5000x1 .f32) (xh : Vec Ideal S5000x128 .f32) (xb : Vec Ideal S1x128 .f32)
    (p : Fin 5000) (q : Fin 128) :
    k9_pay1 xa xd xh xb (ix2 p q) = max ((xa (ix2 p q) + xd (ix2 p (0 : Fin 1)) * xh (ix2 p q)) + xb (ix2 (0 : Fin 1) q)) 0 := by
  unfold k9_pay1
  simp only [shapeCast_self]
  rw [maximumf_apply, addf_apply, addf_apply, mulf_apply, colBroadcast9, rowBroadcast9, broadcast_apply]
  show max ((xa (ix2 p q) + xd (ix2 p (0 : Fin 1)) * xh (ix2 p q)) + xb (ix2 (0 : Fin 1) q)) (Ideal.ofBits .f32 0x00000000#32) = _
  rw [Ideal.ofBits_zero_f32]

theorem idx_facts9 : ∀ t : Fin cfg9.N, win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0
    ∧ win9_3.index t (0 : Fin 2) = 0 ∧ win9_3.index t (1 : Fin 2) = 0
    ∧ win9_4.index t (0 : Fin 2) = t.val ∧ win9_4.index t (1 : Fin 2) = 0 :=
  (by decide +kernel : ∀ t : Fin grid9.N, _)

theorem iblk9_0_apply (c : Dev nD) (t : Fin cfg9.N) (p : Fin 5000) (q : Fin 128) (r : Fin 50000) (hr : r.val = t.val * 5000 + p.val) :
    (iblk9 V c 0 t : Vec Ideal S5000x128 .f32) (ix2 p q) = (V c (Pipeline.arrRef spec9 0) : S50000x128.Idx → EReal) (ix2 r q) := by
  obtain ⟨e0, e1, -⟩ := idx_facts9 t
  show V c (Pipeline.arrRef spec9 0) (((cfg9.win 0).blk t).view.emb (ix2 p q)) = V c (Pipeline.arrRef spec9 0) (ix2 r q)
  refine congrArg (V c (Pipeline.arrRef spec9 0)) (funext fun a => Fin.ext ?_)
  match a with
  | ⟨0, _⟩ => show win9_0.index t (0 : Fin 2) * 5000 + 1 * p.val = r.val; omega
  | ⟨1, _⟩ => show win9_0.index t (1 : Fin 2) * 128 + 1 * q.val = q.val; omega

theorem iblk9_1_apply (c : Dev nD) (t : Fin cfg9.N) (p : Fin 5000) (q : Fin 128) (r : Fin 50000) (hr : r.val = t.val * 5000 + p.val) :
    (iblk9 V c 1 t : Vec Ideal S5000x128 .f32) (ix2 p q) = (V c (Pipeline.arrRef spec9 1) : S50000x128.Idx → EReal) (ix2 r q) := by
  obtain ⟨-, -, e0, e1, -⟩ := idx_facts9 t
  show V c (Pipeline.arrRef spec9 1) (((cfg9.win 1).blk t).view.emb (ix2 p q)) = V c (Pipeline.arrRef spec9 1) (ix2 r q)
  refine congrArg (V c (Pipeline.arrRef spec9 1)) (funext fun a => Fin.ext ?_)
  match a with
  | ⟨0, _⟩ => show win9_1.index t (0 : Fin 2) * 5000 + 1 * p.val = r.val; omega
  | ⟨1, _⟩ => show win9_1.index t (1 : Fin 2) * 128 + 1 * q.val = q.val; omega

theorem iblk9_2_apply (c : Dev nD) (t : Fin cfg9.N) (p : Fin 5000) (r : Fin 50000) (hr : r.val = t.val * 5000 + p.val) :
    (iblk9 V c 2 t : Vec Ideal S5000x1 .f32) (ix2 p (0 : Fin 1)) = (V c (Pipeline.arrRef spec9 2) : S50000x1.Idx → EReal) (ix2 r (0 : Fin 1)) := by
  obtain ⟨-, -, -, -, e0, e1, -⟩ := idx_facts9 t
  show V c (Pipeline.arrRef spec9 2) (((cfg9.win 2).blk t).view.emb (ix2 p (0 : Fin 1))) = V c (Pipeline.arrRef spec9 2) (ix2 r (0 : Fin 1))
  refine congrArg (V c (Pipeline.arrRef spec9 2)) (funext fun a => Fin.ext ?_)
  match a with
  | ⟨0, _⟩ => show win9_2.index t (0 : Fin 2) * 5000 + 1 * p.val = r.val; omega
  | ⟨1, _⟩ => show win9_2.index t (1 : Fin 2) * 1 + 1 * 0 = 0; omega

theorem iblk9_3_apply (c : Dev nD) (t : Fin cfg9.N) (q : Fin 128) :
    (iblk9 V c 3 t : Vec Ideal S1x128 .f32) (ix2 (0 : Fin 1) q) = (V c (Pipeline.arrRef spec9 3) : S1x128.Idx → EReal) (ix2 (0 : Fin 1) q) := by
  obtain ⟨-, -, -, -, -, -, e0, e1, -⟩ := idx_facts9 t
  show V c (Pipeline.arrRef spec9 3) (((cfg9.win 3).blk t).view.emb (ix2 (0 : Fin 1) q)) = V c (Pipeline.arrRef spec9 3) (ix2 (0 : Fin 1) q)
  refine congrArg (V c (Pipeline.arrRef spec9 3)) (funext fun a => Fin.ext ?_)
  match a with
  | ⟨0, _⟩ => show win9_3.index t (0 : Fin 2) * 1 + 1 * 0 = 0; omega
  | ⟨1, _⟩ => show win9_3.index t (1 : Fin 2) * 128 + 1 * q.val = q.val; omega

abbrev G9 (c : Dev nD) : Vec Ideal S50000x128 .f32 :=
  Cert.Spec.cmbReluOf (V c (Pipeline.arrRef spec9 0)) (V c (Pipeline.arrRef spec9 1)) (V c (Pipeline.arrRef spec9 2)) (V c (Pipeline.arrRef spec9 3))

theorem flushed9_eq (c : Dev nD) (t : Fin cfg9.N) :
    (dat9 V c).flushed 4 t = ((cfg9.win 4).blk t).view.read (Elt Ideal) (G9 V c) := by
  show (cfg9.win 4).cut (grid9.coords t) ((dat9 V c).after 4 t) = _
  rw [after9_4]
  unfold out9_4
  rw [View.canon_unit_zero offZero9]
  simp only [View.ld_unit_zero (S := S5000x128) offZero9, View.ld_unit_zero (S := S5000x1) offZero9, View.ld_unit_zero (S := S1x128) offZero9]
  obtain ⟨-, -, -, -, -, -, -, -, e2, e3⟩ := idx_facts9 t
  have ht : t.val < 10 := lt_of_lt_of_eq t.isLt N_9
  funext j
  obtain ⟨p, q, rfl⟩ : ∃ (p : Fin 5000) (q : Fin 128), j = ix2 p q := ⟨j 0, j 1, eq_ix2 j⟩
  have hp : p.val < 5000 := p.isLt
  show k9_pay1 (F := Ideal) _ _ _ _ (ix2 p q) = G9 V c (((cfg9.win 4).blk t).view.emb (ix2 p q))
  have he : ((cfg9.win 4).blk t).view.emb (ix2 p q) = ix2 (⟨t.val * 5000 + p.val, by omega⟩ : Fin 50000) q :=
    funext fun a => Fin.ext (by
      match a with
      | ⟨0, _⟩ => show win9_4.index t (0 : Fin 2) * 5000 + 1 * p.val = t.val * 5000 + p.val; omega
      | ⟨1, _⟩ => show win9_4.index t (1 : Fin 2) * 128 + 1 * q.val = q.val; omega)
  rw [he, pay9_apply, iblk9_0_apply V c t p q ⟨t.val * 5000 + p.val, by omega⟩ rfl,
    iblk9_1_apply V c t p q ⟨t.val * 5000 + p.val, by omega⟩ rfl,
    iblk9_2_apply V c t p ⟨t.val * 5000 + p.val, by omega⟩ rfl, iblk9_3_apply]
  rfl

theorem mem_blk9 (t : Fin cfg9.N) (i : S50000x128.Idx) :
    i ∈ ((cfg9.win 4).blk t).view.set ↔ ∀ a : Fin 2, win9_4.index t a * S5000x128.size a ≤ (i a).val ∧ (i a).val < win9_4.index t a * S5000x128.size a + S5000x128.size a := by
  show i ∈ ((View.whole main_v83).slice (win9_4.rect t)).set ↔ _
  rw [View.set_slice_whole, Rect.mem_set_unit]
  exact Iff.rfl

theorem cover9 (i : S50000x128.Idx) : ∃ t : Fin cfg9.N, (cfg9.win 4).flush t = true ∧ i ∈ ((cfg9.win 4).blk t).view.set := by
  have hi0 : (i 0).val < 50000 := (i 0).isLt
  have hi1 : (i 1).val < 128 := (i 1).isLt
  obtain ⟨t, ht⟩ : ∃ t : Fin cfg9.N, t.val = (i 0).val / 5000 :=
    ⟨⟨(i 0).val / 5000, by rw [show cfg9.N = 10 from N_9]; omega⟩, rfl⟩
  obtain ⟨-, -, -, -, -, -, -, -, e2, e3⟩ := idx_facts9 t
  refine ⟨t, flush9_4 t, ?_⟩
  rw [mem_blk9]
  intro a
  match a with
  | ⟨0, _⟩ => show win9_4.index t (0 : Fin 2) * 5000 ≤ (i 0).val ∧ (i 0).val < win9_4.index t (0 : Fin 2) * 5000 + 5000; omega
  | ⟨1, _⟩ => show win9_4.index t (1 : Fin 2) * 128 ≤ (i 1).val ∧ (i 1).val < win9_4.index t (1 : Fin 2) * 128 + 128; omega

theorem final9 (c : Dev nD) : (dat9 V c).arrAt 4 cfg9.N
    = Cert.Spec.cmbReluOf (V c (Pipeline.arrRef spec9 0)) (V c (Pipeline.arrRef spec9 1)) (V c (Pipeline.arrRef spec9 2)) (V c (Pipeline.arrRef spec9 3)) :=
  (dat9 V c).arrAt_eq_of_cover 4 (G9 V c) (fun t _ => flushed9_eq V c t) cover9

end Cert.KernelIdeal.Hand

end
-- ==== Proof.KI.Final2.lean ====
import proofs.«171585_j55456617726008_1_alg».proof.Proof.KI.Reg2
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (V : (c : Dev nD) → (b : Ref sig .tc) → Buf (Elt F) ((c : Thread nD τ).loc b))

private theorem index2_1 : ∀ (t : Fin cfg2.N) (a : Fin (cfg2.win 1).shape.rank), (cfg2.win 1).index t a = 0 :=
  (by decide +kernel : ∀ (t : Fin grid2.N) (a : Fin win2_1.shape.rank), win2_1.index t a = 0)
private theorem index2_2 : ∀ (t : Fin cfg2.N) (a : Fin (cfg2.win 2).shape.rank), (cfg2.win 2).index t a = 0 :=
  (by decide +kernel : ∀ (t : Fin grid2.N) (a : Fin win2_2.shape.rank), win2_2.index t a = 0)

private theorem emb2_1 (t : Fin cfg2.N) (y : ((cfg2.win 1).xblock (cfg2.grid.coords t)).Idx) :
    ((cfg2.win 1).blk t).view.emb y = y :=
  funext fun a => Fin.ext ((cfg2.win 1).rect_emb_val_of_index_zero t a (index2_1 t a) y)
private theorem emb2_2 (t : Fin cfg2.N) (y : ((cfg2.win 2).xblock (cfg2.grid.coords t)).Idx) :
    ((cfg2.win 2).blk t).view.emb y = y :=
  funext fun a => Fin.ext ((cfg2.win 2).rect_emb_val_of_index_zero t a (index2_2 t a) y)

theorem final2_1 (c : Dev nD) : (dat2 V c).arrAt 1 cfg2.N = (k2_pay6 (scAt2 V c 10).1 : Vec F S1x128 .f32) := by
  refine (dat2 V c).arrAt_eq_of_cover 1 _ (fun t hf => ?_) (fun i => ⟨t2_9, (flush2_1 t2_9).mpr rfl, ?_⟩)
  · have h9 : t.val = 9 := by
      have h1 := (flush2_1 t).mp hf
      have hN : t.val < 10 := lt_of_lt_of_eq t.isLt (show cfg2.N = 10 from N_2)
      omega
    show (cfg2.win 1).cut (cfg2.grid.coords t) ((dat2 V c).after 1 t) = _
    rw [dat2_after_1, h9]
    funext y
    rw [View.read_apply, emb2_1 t y]
    rfl
  · have h := ((cfg2.win 1).blk t2_9).view.emb_mem_set i
    rwa [emb2_1 t2_9 i] at h

theorem final2_2 (c : Dev nD) :
    (dat2 V c).arrAt 2 cfg2.N = (k2_pay7 (scAt2 V c 10).1 (scAt2 V c 10).2 : Vec F S1x128 .f32) := by
  refine (dat2 V c).arrAt_eq_of_cover 2 _ (fun t hf => ?_) (fun i => ⟨t2_9, (flush2_2 t2_9).mpr rfl, ?_⟩)
  · have h9 : t.val = 9 := by
      have h1 := (flush2_2 t).mp hf
      have hN : t.val < 10 := lt_of_lt_of_eq t.isLt (show cfg2.N = 10 from N_2)
      omega
    show (cfg2.win 2).cut (cfg2.grid.coords t) ((dat2 V c).after 2 t) = _
    rw [dat2_after_2, h9]
    funext y
    rw [View.read_apply, emb2_2 t y]
    rfl
  · have h := ((cfg2.win 2).blk t2_9).view.emb_mem_set i
    rwa [emb2_2 t2_9 i] at h

end Cert.KernelIdeal.Hand

end
-- ==== Proof.LibMoments.lean ====
import Mathlib.Data.EReal.Inv
import Mathlib.Data.Fintype.BigOperators
import Mathlib.Algebra.BigOperators.Fin
import Mathlib.Algebra.Order.BigOperators.Group.Finset
import Mathlib.Logic.Equiv.Fin.Basic
import Mathlib.Tactic.FieldSimp
import Mathlib.Tactic.Ring
import Mathlib.Tactic.Positivity
import Idealize.ShloMosaic.PureOps.Ideal

open scoped BigOperators
open Idealize.ShloMosaic

noncomputable section

namespace Cert.Moments

theorem coe_sum {ι : Type*} (s : Finset ι) (r : ι → ℝ) :
    (∑ i ∈ s, ((r i : ℝ) : EReal)) = ((∑ i ∈ s, r i : ℝ) : EReal) := by
  classical
  induction s using Finset.induction_on with
  | empty => simp
  | insert a s ha ih => rw [Finset.sum_insert ha, Finset.sum_insert ha, ih, EReal.coe_add]

theorem mean_mul_eq_div {ι : Type*} [Fintype ι] (f : ι → EReal) {n : ℝ} (hn : n ≠ 0) :
    (∑ i, f i) * ((1 / n : ℝ) : EReal) = Ideal.div (∑ i, f i) (n : EReal) :=
  (Ideal.div_coe hn _).symm

theorem mul_inv_eq_div (x : EReal) {n : ℝ} (hn : n ≠ 0) :
    x * ((1 / n : ℝ) : EReal) = Ideal.div x (n : EReal) :=
  (Ideal.div_coe hn x).symm

theorem real_variance_identity {ι : Type*} [Fintype ι] (r : ι → ℝ) {n : ℝ}
    (hcard : (Fintype.card ι : ℝ) = n) (hn : n ≠ 0) :
    (∑ i, r i * r i) * (1 / n) - ((∑ i, r i) * (1 / n)) * ((∑ i, r i) * (1 / n))
      = (∑ i, (r i - (∑ i, r i) * (1 / n)) * (r i - (∑ i, r i) * (1 / n))) * (1 / n) := by
  generalize hS : (∑ i, r i) = S
  generalize hm : S * (1 / n) = m
  have hexp : ∑ i, (r i - m) * (r i - m) = (∑ i, r i * r i) - 2 * m * S + n * (m * m) := by
    have h1 : ∀ i, (r i - m) * (r i - m) = r i * r i - 2 * m * r i + m * m := fun i => by ring
    simp only [h1, Finset.sum_add_distrib, Finset.sum_sub_distrib, ← Finset.mul_sum,
      Finset.sum_const, Finset.card_univ, nsmul_eq_mul, hcard, hS]
    ring
  rw [hexp, ← hm]
  field_simp
  ring

theorem real_centred_moment_nonneg {ι : Type*} [Fintype ι] (r : ι → ℝ) (m : ℝ) {n : ℝ} (hn : 0 < n) :
    0 ≤ (∑ i, (r i - m) * (r i - m)) * (1 / n) :=
  mul_nonneg (Finset.sum_nonneg fun i _ => mul_self_nonneg _) (by positivity)

theorem variance_identity {ι : Type*} [Fintype ι] (f : ι → EReal)
    (hf : ∀ i, ∃ r : ℝ, f i = (r : EReal)) {n : ℝ} (hcard : (Fintype.card ι : ℝ) = n) (hn : n ≠ 0) :
    (∑ i, f i * f i) * ((1 / n : ℝ) : EReal)
        - ((∑ i, f i) * ((1 / n : ℝ) : EReal)) * ((∑ i, f i) * ((1 / n : ℝ) : EReal))
      = Ideal.div (∑ i, (f i - (∑ i, f i) * ((1 / n : ℝ) : EReal))
                        * (f i - (∑ i, f i) * ((1 / n : ℝ) : EReal))) (n : EReal) := by
  choose r hr using hf
  obtain rfl : f = fun i => (r i : EReal) := funext hr
  rw [Ideal.div_coe hn]
  simp only [← EReal.coe_mul, coe_sum, ← EReal.coe_sub]
  exact congrArg _ (real_variance_identity r hcard hn)

theorem variance_identity_div {ι : Type*} [Fintype ι] (f : ι → EReal)
    (hf : ∀ i, ∃ r : ℝ, f i = (r : EReal)) {n : ℝ} (hcard : (Fintype.card ι : ℝ) = n) (hn : n ≠ 0) :
    (∑ i, f i * f i) * ((1 / n : ℝ) : EReal)
        - ((∑ i, f i) * ((1 / n : ℝ) : EReal)) * ((∑ i, f i) * ((1 / n : ℝ) : EReal))
      = Ideal.div (∑ i, (f i - Ideal.div (∑ i, f i) (n : EReal))
                        * (f i - Ideal.div (∑ i, f i) (n : EReal))) (n : EReal) := by
  rw [← mean_mul_eq_div f hn]
  exact variance_identity f hf hcard hn

theorem variance_identity_add_neg {ι : Type*} [Fintype ι] (f : ι → EReal)
    (hf : ∀ i, ∃ r : ℝ, f i = (r : EReal)) {n : ℝ} (hcard : (Fintype.card ι : ℝ) = n) (hn : n ≠ 0) :
    (∑ i, f i * f i) * ((1 / n : ℝ) : EReal)
        + -(((∑ i, f i) * ((1 / n : ℝ) : EReal)) * ((∑ i, f i) * ((1 / n : ℝ) : EReal)))
      = Ideal.div (∑ i, (f i + -((∑ i, f i) * ((1 / n : ℝ) : EReal)))
                        * (f i + -((∑ i, f i) * ((1 / n : ℝ) : EReal)))) (n : EReal) := by
  simpa only [sub_eq_add_neg] using variance_identity f hf hcard hn

theorem card_pos_of_ne_zero {ι : Type*} [Fintype ι] {n : ℝ} (hcard : (Fintype.card ι : ℝ) = n) (hn : n ≠ 0) :
    0 < n :=
  lt_of_le_of_ne (hcard ▸ Nat.cast_nonneg _) (Ne.symm hn)

theorem mean_finite {ι : Type*} [Fintype ι] (f : ι → EReal)
    (hf : ∀ i, ∃ r : ℝ, f i = (r : EReal)) (n : ℝ) :
    ∃ m : ℝ, (∑ i, f i) * ((1 / n : ℝ) : EReal) = (m : EReal) := by
  choose r hr using hf
  obtain rfl : f = fun i => (r i : EReal) := funext hr
  exact ⟨(∑ i, r i) * (1 / n), by rw [coe_sum, ← EReal.coe_mul]⟩

theorem var_nonneg_finite {ι : Type*} [Fintype ι] (f : ι → EReal)
    (hf : ∀ i, ∃ r : ℝ, f i = (r : EReal)) {n : ℝ} (hcard : (Fintype.card ι : ℝ) = n) (hn : n ≠ 0) :
    ∃ v : ℝ, 0 ≤ v ∧
      Ideal.div (∑ i, (f i - (∑ i, f i) * ((1 / n : ℝ) : EReal))
                      * (f i - (∑ i, f i) * ((1 / n : ℝ) : EReal))) (n : EReal) = (v : EReal) := by
  choose r hr using hf
  obtain rfl : f = fun i => (r i : EReal) := funext hr
  refine ⟨(∑ i, (r i - (∑ i, r i) * (1 / n)) * (r i - (∑ i, r i) * (1 / n))) * (1 / n),
    real_centred_moment_nonneg r _ (card_pos_of_ne_zero hcard hn), ?_⟩
  rw [Ideal.div_coe hn]
  simp only [← EReal.coe_mul, coe_sum, ← EReal.coe_sub]

theorem var_nonneg_finite_div {ι : Type*} [Fintype ι] (f : ι → EReal)
    (hf : ∀ i, ∃ r : ℝ, f i = (r : EReal)) {n : ℝ} (hcard : (Fintype.card ι : ℝ) = n) (hn : n ≠ 0) :
    ∃ v : ℝ, 0 ≤ v ∧
      Ideal.div (∑ i, (f i - Ideal.div (∑ i, f i) (n : EReal))
                      * (f i - Ideal.div (∑ i, f i) (n : EReal))) (n : EReal) = (v : EReal) := by
  rw [← mean_mul_eq_div f hn]
  exact var_nonneg_finite f hf hcard hn

theorem var_moment_nonneg_finite {ι : Type*} [Fintype ι] (f : ι → EReal)
    (hf : ∀ i, ∃ r : ℝ, f i = (r : EReal)) {n : ℝ} (hcard : (Fintype.card ι : ℝ) = n) (hn : n ≠ 0) :
    ∃ v : ℝ, 0 ≤ v ∧
      (∑ i, f i * f i) * ((1 / n : ℝ) : EReal)
        - ((∑ i, f i) * ((1 / n : ℝ) : EReal)) * ((∑ i, f i) * ((1 / n : ℝ) : EReal)) = (v : EReal) := by
  rw [variance_identity f hf hcard hn]
  exact var_nonneg_finite f hf hcard hn

theorem rsqrt_coe_of_pos {x : ℝ} (hx : 0 < x) :
    Ideal.rsqrt (x : EReal) = (((Real.sqrt x)⁻¹ : ℝ) : EReal) ∧ 0 < (Real.sqrt x)⁻¹ := by
  refine ⟨?_, inv_pos.mpr (Real.sqrt_pos.mpr hx)⟩
  rw [Ideal.rsqrt_coe, if_neg (not_lt.mpr hx.le), if_neg hx.ne']

theorem rsqrt_nonneg_add_pos_finite {v ε : ℝ} (hv : 0 ≤ v) (hε : 0 < ε) :
    ∃ s : ℝ, 0 < s ∧ Ideal.rsqrt ((v : EReal) + (ε : EReal)) = (s : EReal) := by
  have hpos : 0 < v + ε := add_pos_of_nonneg_of_pos hv hε
  exact ⟨(Real.sqrt (v + ε))⁻¹, (rsqrt_coe_of_pos hpos).2, by
    rw [← EReal.coe_add]; exact (rsqrt_coe_of_pos hpos).1⟩

theorem rsqrt_var_add_eps_finite {ι : Type*} [Fintype ι] (f : ι → EReal)
    (hf : ∀ i, ∃ r : ℝ, f i = (r : EReal)) {n : ℝ} (hcard : (Fintype.card ι : ℝ) = n) (hn : n ≠ 0)
    {ε : ℝ} (hε : 0 < ε) :
    ∃ s : ℝ, 0 < s ∧
      Ideal.rsqrt (Ideal.div (∑ i, (f i - (∑ i, f i) * ((1 / n : ℝ) : EReal))
                                  * (f i - (∑ i, f i) * ((1 / n : ℝ) : EReal))) (n : EReal)
                    + (ε : EReal)) = (s : EReal) := by
  obtain ⟨v, hv, hveq⟩ := var_nonneg_finite f hf hcard hn
  rw [hveq]
  exact rsqrt_nonneg_add_pos_finite hv hε

theorem rsqrt_var_moment_add_eps_finite {ι : Type*} [Fintype ι] (f : ι → EReal)
    (hf : ∀ i, ∃ r : ℝ, f i = (r : EReal)) {n : ℝ} (hcard : (Fintype.card ι : ℝ) = n) (hn : n ≠ 0)
    {ε : ℝ} (hε : 0 < ε) :
    ∃ s : ℝ, 0 < s ∧
      Ideal.rsqrt ((∑ i, f i * f i) * ((1 / n : ℝ) : EReal)
                    - ((∑ i, f i) * ((1 / n : ℝ) : EReal)) * ((∑ i, f i) * ((1 / n : ℝ) : EReal))
                    + (ε : EReal)) = (s : EReal) := by
  obtain ⟨v, hv, hveq⟩ := var_moment_nonneg_finite f hf hcard hn
  rw [hveq]
  exact rsqrt_nonneg_add_pos_finite hv hε

theorem glue_lt {nb bk : ℕ} (t : Fin nb) (r : Fin bk) : bk * t.val + r.val < nb * bk := by
  have h1 : bk * t.val + r.val < bk * (t.val + 1) := by
    rw [Nat.mul_succ]; exact Nat.add_lt_add_left r.isLt _
  have h2 : bk * (t.val + 1) ≤ bk * nb := Nat.mul_le_mul_left _ t.isLt
  rw [Nat.mul_comm nb bk]
  exact lt_of_lt_of_le h1 h2

theorem sum_blocks {M : Type*} [AddCommMonoid M] (nb bk : ℕ) (g : Fin (nb * bk) → M) :
    ∑ t : Fin nb, ∑ r : Fin bk, g ⟨bk * t.val + r.val, glue_lt t r⟩ = ∑ i : Fin (nb * bk), g i := by
  rw [← Fintype.sum_prod_type', ← Equiv.sum_comp finProdFinEquiv g]
  refine Fintype.sum_congr _ _ fun p => congrArg g (Fin.ext ?_)
  simp only [finProdFinEquiv_apply_val]
  exact Nat.add_comm _ _

theorem sum_blocks_50000 {M : Type*} [AddCommMonoid M] (g : Fin 50000 → M) :
    ∑ t : Fin 10, ∑ r : Fin 5000, g ⟨5000 * t.val + r.val, by have := t.isLt; have := r.isLt; omega⟩
      = ∑ i : Fin 50000, g i :=
  sum_blocks 10 5000 g

theorem foldl_add_eq_sum {M : Type*} [AddCommMonoid M] (nb : ℕ) (b : Fin nb → M) (a : M) :
    (List.finRange nb).foldl (fun acc t => acc + b t) a = a + ∑ t : Fin nb, b t := by
  rw [← List.sum_ofFn, List.ofFn_eq_map]
  generalize List.finRange nb = l
  induction l generalizing a with
  | nil => simp
  | cons x l ih => rw [List.foldl_cons, ih, List.map_cons, List.sum_cons, add_assoc]

theorem rec_add_eq_sum {M : Type*} [AddCommMonoid M] (nb : ℕ) (b : Fin nb → M) (A : ℕ → M) (a : M)
    (h0 : A 0 = a) (hstep : ∀ t : Fin nb, A (t.val + 1) = A t.val + b t) :
    A nb = a + ∑ t : Fin nb, b t := by
  induction nb with
  | zero => simpa using h0
  | succ k ih =>
    rw [Fin.sum_univ_castSucc, ← add_assoc,
      ← ih (fun t => b t.castSucc) (fun t => by simpa using hstep t.castSucc)]
    simpa using hstep (Fin.last k)

theorem foldl_blocks_50000 {M : Type*} [AddCommMonoid M] (g : Fin 50000 → M) :
    (List.finRange 10).foldl
        (fun acc t => acc + ∑ r : Fin 5000, g ⟨5000 * t.val + r.val, by have := t.isLt; have := r.isLt; omega⟩) 0
      = ∑ i : Fin 50000, g i := by
  rw [foldl_add_eq_sum, zero_add]
  exact sum_blocks_50000 g

end Cert.Moments
-- ==== Proof.KI.Stats2.lean ====
import proofs.«171585_j55456617726008_1_alg».proof.Proof.KI.Reg2
import proofs.«171585_j55456617726008_1_alg».proof.Proof.SpecFns
import proofs.«171585_j55456617726008_1_alg».proof.Proof.LibMoments
import Idealize.ShloMosaic.Lib.Pipeline.Value
import Idealize.ShloMosaic.Lib.ValueIdx
import Idealize.ShloMosaic.PureOps.Ideal.Laws
import Idealize.ShloMosaic.PureOps.IdealRules

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

theorem row2_apply (v : FVec Ideal S128 .f32) (a : Fin 1) (j : Fin 128) :
    shapeCast S1x128 v shapeCasts_S128_S1x128 (ix2 a j) = v (ix1 j) := by
  refine (shapeCast_addUnit_apply (n := 1) ![128] v shapeCasts_S128_S1x128 (ix2 a j)).trans (congrArg v ?_)
  funext b; apply Fin.ext
  match b with
  | ⟨0, _⟩ => rfl

theorem colred2_apply (y : FVec Ideal S5000x128 .f32) (j : Fin 128) :
    multiReduction (F := Ideal) .add [0] S128 y 0x00000000#32 reduces_S5000x128_S128 (.inl rfl) rfl (ix1 j)
      = ∑ r : Fin 5000, y (ix2 r j) := by
  refine (Ideal.multiReduction_add_single y 0x00000000#32 reduces_S5000x128_S128 (.inl rfl) rfl (ix1 j)).trans ?_
  show ∑ r : Fin 5000, y (reduces_S5000x128_S128.lift (ix1 j) r) = _
  refine Finset.sum_congr rfl fun r _ => congrArg y ?_
  funext b; apply Fin.ext
  match b with
  | ⟨0, _⟩ => rfl
  | ⟨1, _⟩ => rfl

theorem pay2_1_apply (a : Fin 1) (j : Fin 128) : k2_pay1 (F := Ideal) (ix2 a j) = 0 := by
  unfold k2_pay1
  rw [shapeCast_self]
  exact Ideal.ofBits_zero_f32

theorem pay2_2_apply (a : Fin 1) (j : Fin 128) : k2_pay2 (F := Ideal) (ix2 a j) = 0 := by
  unfold k2_pay2
  rw [shapeCast_self]
  exact Ideal.ofBits_zero_f32

theorem pay2_4_apply (x : FVec Ideal S5000x128 .f32) (s : FVec Ideal S1x128 .f32) (a : Fin 1) (j : Fin 128) :
    k2_pay4 (F := Ideal) x s (ix2 a j) = s (ix2 a j) + ∑ r : Fin 5000, x (ix2 r j) := by
  unfold k2_pay4 k2_pay3
  rw [shapeCast_self, shapeCast_self]
  show s (ix2 a j) + shapeCast S1x128 _ shapeCasts_S128_S1x128 (ix2 a j) = _
  rw [row2_apply, colred2_apply]

theorem pay2_5_apply (x : FVec Ideal S5000x128 .f32) (s : FVec Ideal S1x128 .f32) (a : Fin 1) (j : Fin 128) :
    k2_pay5 (F := Ideal) x s (ix2 a j) = s (ix2 a j) + ∑ r : Fin 5000, x (ix2 r j) * x (ix2 r j) := by
  unfold k2_pay5 k2_pay3
  rw [shapeCast_self, shapeCast_self]
  show s (ix2 a j) + shapeCast S1x128 _ shapeCasts_S128_S1x128 (ix2 a j) = _
  rw [row2_apply, colred2_apply]
  rfl

theorem inv2_named : Named.named (F := Ideal) Cert.KernelIdeal.κ "inv_50000" (φ := .f32) 0x37A7C5AC#32 = Cert.Spec.invN :=
  IdealRules.named_const.ideal_named_scalar _ _ _ _ rfl

theorem pay2_6_apply (s : FVec Ideal S1x128 .f32) (a : Fin 1) (j : Fin 128) :
    k2_pay6 (F := Ideal) s (ix2 a j) = s (ix2 a j) * Cert.Spec.invN := by
  unfold k2_pay6
  show s (ix2 a j) * Named.named (F := Ideal) Cert.KernelIdeal.κ "inv_50000" (φ := .f32) 0x37A7C5AC#32 = _
  rw [inv2_named]

theorem pay2_7_apply (s q : FVec Ideal S1x128 .f32) (a : Fin 1) (j : Fin 128) :
    k2_pay7 (F := Ideal) s q (ix2 a j)
      = q (ix2 a j) * Cert.Spec.invN - (s (ix2 a j) * Cert.Spec.invN) * (s (ix2 a j) * Cert.Spec.invN) := by
  unfold k2_pay7
  show q (ix2 a j) * Named.named (F := Ideal) Cert.KernelIdeal.κ "inv_50000" (φ := .f32) 0x37A7C5AC#32
      - k2_pay6 (F := Ideal) s (ix2 a j) * k2_pay6 (F := Ideal) s (ix2 a j) = _
  rw [inv2_named, pay2_6_apply]

theorem acc2_closed (g : Fin 50000 → EReal) (A : ℕ → EReal) (hz : A 0 = 0)
    (hstep : ∀ t : Fin 10, A (t.val + 1)
      = A t.val + ∑ r : Fin 5000, g ⟨5000 * t.val + r.val, by have := t.isLt; have := r.isLt; omega⟩) :
    A 10 = ∑ i : Fin 50000, g i := by
  rw [Cert.Moments.rec_add_eq_sum 10 _ A 0 hz hstep, zero_add]
  exact Cert.Moments.sum_blocks_50000 g

def sqSum2 (z : Vec Ideal S50000x128 .f32) (j : Fin 128) : EReal := ∑ r : Fin 50000, z (ix2 r j) * z (ix2 r j)

theorem rows2_closed (z : Vec Ideal S50000x128 .f32) (j : Fin 128) (A B : ℕ → EReal) (x : Fin 10 → FVec Ideal S5000x128 .f32)
    (hx : ∀ (t : Fin 10) (r : Fin 5000),
      x t (ix2 r j) = z (ix2 ⟨5000 * t.val + r.val, by have := t.isLt; have := r.isLt; omega⟩ j))
    (hA : A 0 = 0) (hB : B 0 = 0)
    (hAs : ∀ t : Fin 10, A (t.val + 1) = A t.val + ∑ r : Fin 5000, x t (ix2 r j))
    (hBs : ∀ t : Fin 10, B (t.val + 1) = B t.val + ∑ r : Fin 5000, x t (ix2 r j) * x t (ix2 r j)) :
    A 10 = Cert.Spec.colSum z j ∧ B 10 = sqSum2 z j := by
  constructor
  · refine acc2_closed (fun i => z (ix2 i j)) A hA fun t => ?_
    rw [hAs t]
    exact congrArg _ (Finset.sum_congr rfl fun r _ => hx t r)
  · refine acc2_closed (fun i => z (ix2 i j) * z (ix2 i j)) B hB fun t => ?_
    rw [hBs t]
    exact congrArg _ (Finset.sum_congr rfl fun r _ => by rw [hx t r])

variable (V : (c : Dev nD) → (b : Ref sig .tc) → Buf (Elt Ideal) ((c : Thread nD τ).loc b))

theorem idx_facts2 : ∀ t : Fin cfg2.N, win2_0.index t (0 : Fin 2) = t.val ∧ win2_0.index t (1 : Fin 2) = 0 :=
  (by decide +kernel : ∀ t : Fin grid2.N, _)

theorem blk2_apply (c : Dev nD) (t : Fin cfg2.N) (r : Fin 5000) (j : Fin 128) (hr : 5000 * t.val + r.val < 50000) :
    iblk2 V c 0 t (ix2 r j) = V c (Pipeline.arrRef spec2 0) (ix2 ⟨5000 * t.val + r.val, hr⟩ j) := by
  obtain ⟨ea, eb⟩ := idx_facts2 t
  show V c (Pipeline.arrRef spec2 0) (((cfg2.win 0).blk t).view.emb (ix2 r j)) = _
  refine congrArg _ (funext fun a => Fin.ext ?_)
  match a with
  | ⟨0, _⟩ => show win2_0.index t (0 : Fin 2) * 5000 + 1 * r.val = 5000 * t.val + r.val; omega
  | ⟨1, _⟩ => show win2_0.index t (1 : Fin 2) * 128 + 1 * j.val = j.val; omega

theorem pt2_lt (t : Fin 10) : t.val < cfg2.N := by show _ < grid2.N; rw [N_2]; exact t.isLt

theorem scAt2_ten_apply (c : Dev nD) (a : Fin 1) (j : Fin 128) :
    (scAt2 V c 10).1 (ix2 a j) = Cert.Spec.colSum (V c (Pipeline.arrRef spec2 0)) j
    ∧ (scAt2 V c 10).2 (ix2 a j) = sqSum2 (V c (Pipeline.arrRef spec2 0)) j := by
  refine rows2_closed (V c (Pipeline.arrRef spec2 0)) j (fun n => (scAt2 V c n).1 (ix2 a j)) (fun n => (scAt2 V c n).2 (ix2 a j))
    (fun t => iblk2 V c 0 ⟨t.val, pt2_lt t⟩) (fun t r => blk2_apply V c ⟨t.val, pt2_lt t⟩ r j _) ?_ ?_ (fun t => ?_) (fun t => ?_)
  · show (scAt2 V c 0).1 (ix2 a j) = 0
    rw [scAt2_zero]
    exact pay2_1_apply a j
  · show (scAt2 V c 0).2 (ix2 a j) = 0
    rw [scAt2_zero]
    exact pay2_2_apply a j
  · have e : (scAt2 V c (t.val + 1)).1 = k2_pay4 (iblk2 V c 0 ⟨t.val, pt2_lt t⟩) (scAt2 V c t.val).1 :=
      congrArg Prod.fst (scAt2_succ V c ⟨t.val, pt2_lt t⟩)
    show (scAt2 V c (t.val + 1)).1 (ix2 a j) = _
    rw [e]
    exact pay2_4_apply _ _ a j
  · have e : (scAt2 V c (t.val + 1)).2 = k2_pay5 (iblk2 V c 0 ⟨t.val, pt2_lt t⟩) (scAt2 V c t.val).2 :=
      congrArg Prod.snd (scAt2_succ V c ⟨t.val, pt2_lt t⟩)
    show (scAt2 V c (t.val + 1)).2 (ix2 a j) = _
    rw [e]
    exact pay2_5_apply _ _ a j

theorem scAt2_ten (c : Dev nD) :
    (scAt2 V c 10).1 = (fun i : S1x128.Idx => Cert.Spec.colSum (V c (Pipeline.arrRef spec2 0)) (i 1))
    ∧ (scAt2 V c 10).2 = (fun i : S1x128.Idx => sqSum2 (V c (Pipeline.arrRef spec2 0)) (i 1)) := by
  constructor
  · funext i
    obtain ⟨a, j, rfl⟩ : ∃ (a : Fin 1) (j : Fin 128), i = ix2 a j := ⟨i 0, i 1, eq_ix2 i⟩
    exact (scAt2_ten_apply V c a j).1
  · funext i
    obtain ⟨a, j, rfl⟩ : ∃ (a : Fin 1) (j : Fin 128), i = ix2 a j := ⟨i 0, i 1, eq_ix2 i⟩
    exact (scAt2_ten_apply V c a j).2

theorem mean2_closed (c : Dev nD) :
    k2_pay6 (F := Ideal) (scAt2 V c 10).1 = Cert.Spec.meanKOf (V c (Pipeline.arrRef spec2 0)) := by
  funext i
  obtain ⟨a, j, rfl⟩ : ∃ (a : Fin 1) (j : Fin 128), i = ix2 a j := ⟨i 0, i 1, eq_ix2 i⟩
  refine (pay2_6_apply _ a j).trans ?_
  rw [(scAt2_ten_apply V c a j).1]
  rfl

theorem var2_closed (c : Dev nD) :
    k2_pay7 (F := Ideal) (scAt2 V c 10).1 (scAt2 V c 10).2 = Cert.Spec.varKOf (V c (Pipeline.arrRef spec2 0)) := by
  funext i
  obtain ⟨a, j, rfl⟩ : ∃ (a : Fin 1) (j : Fin 128), i = ix2 a j := ⟨i 0, i 1, eq_ix2 i⟩
  refine (pay2_7_apply _ _ a j).trans ?_
  rw [(scAt2_ten_apply V c a j).1, (scAt2_ten_apply V c a j).2]
  rfl

end Cert.KernelIdeal.Hand

end
-- ==== Proof.KI.Final6.lean ====
import proofs.«171585_j55456617726008_1_alg».proof.Proof.KI.Reg6
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (V : (c : Dev nD) → (b : Ref sig .tc) → Buf (Elt F) ((c : Thread nD τ).loc b))

private theorem index6_1 : ∀ (t : Fin cfg6.N) (a : Fin (cfg6.win 1).shape.rank), (cfg6.win 1).index t a = 0 :=
  (by decide +kernel : ∀ (t : Fin grid6.N) (a : Fin win6_1.shape.rank), win6_1.index t a = 0)
private theorem index6_2 : ∀ (t : Fin cfg6.N) (a : Fin (cfg6.win 2).shape.rank), (cfg6.win 2).index t a = 0 :=
  (by decide +kernel : ∀ (t : Fin grid6.N) (a : Fin win6_2.shape.rank), win6_2.index t a = 0)

private theorem emb6_1 (t : Fin cfg6.N) (y : ((cfg6.win 1).xblock (cfg6.grid.coords t)).Idx) :
    ((cfg6.win 1).blk t).view.emb y = y :=
  funext fun a => Fin.ext ((cfg6.win 1).rect_emb_val_of_index_zero t a (index6_1 t a) y)
private theorem emb6_2 (t : Fin cfg6.N) (y : ((cfg6.win 2).xblock (cfg6.grid.coords t)).Idx) :
    ((cfg6.win 2).blk t).view.emb y = y :=
  funext fun a => Fin.ext ((cfg6.win 2).rect_emb_val_of_index_zero t a (index6_2 t a) y)

theorem final6_1 (c : Dev nD) : (dat6 V c).arrAt 1 cfg6.N = (k2_pay6 (scAt6 V c 10).1 : Vec F S1x128 .f32) := by
  refine (dat6 V c).arrAt_eq_of_cover 1 _ (fun t hf => ?_) (fun i => ⟨t6_9, (flush6_1 t6_9).mpr rfl, ?_⟩)
  · have h9 : t.val = 9 := by
      have h1 := (flush6_1 t).mp hf
      have hN : t.val < 10 := lt_of_lt_of_eq t.isLt (show cfg6.N = 10 from N_6)
      omega
    show (cfg6.win 1).cut (cfg6.grid.coords t) ((dat6 V c).after 1 t) = _
    rw [dat6_after_1, h9]
    funext y
    rw [View.read_apply, emb6_1 t y]
    rfl
  · have h := ((cfg6.win 1).blk t6_9).view.emb_mem_set i
    rwa [emb6_1 t6_9 i] at h

theorem final6_2 (c : Dev nD) :
    (dat6 V c).arrAt 2 cfg6.N = (k2_pay7 (scAt6 V c 10).1 (scAt6 V c 10).2 : Vec F S1x128 .f32) := by
  refine (dat6 V c).arrAt_eq_of_cover 2 _ (fun t hf => ?_) (fun i => ⟨t6_9, (flush6_2 t6_9).mpr rfl, ?_⟩)
  · have h9 : t.val = 9 := by
      have h1 := (flush6_2 t).mp hf
      have hN : t.val < 10 := lt_of_lt_of_eq t.isLt (show cfg6.N = 10 from N_6)
      omega
    show (cfg6.win 2).cut (cfg6.grid.coords t) ((dat6 V c).after 2 t) = _
    rw [dat6_after_2, h9]
    funext y
    rw [View.read_apply, emb6_2 t y]
    rfl
  · have h := ((cfg6.win 2).blk t6_9).view.emb_mem_set i
    rwa [emb6_2 t6_9 i] at h

end Cert.KernelIdeal.Hand

end
-- ==== Proof.KI.Stats6.lean ====
import proofs.«171585_j55456617726008_1_alg».proof.Proof.KI.Reg6
import proofs.«171585_j55456617726008_1_alg».proof.Proof.SpecFns
import proofs.«171585_j55456617726008_1_alg».proof.Proof.LibMoments
import Idealize.ShloMosaic.Lib.Pipeline.Value
import Idealize.ShloMosaic.Lib.ValueIdx
import Idealize.ShloMosaic.PureOps.Ideal.Laws
import Idealize.ShloMosaic.PureOps.IdealRules
import proofs.«171585_j55456617726008_1_alg».proof.Proof.KI.Stats2

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem idx_facts6 : ∀ t : Fin cfg6.N, win6_0.index t (0 : Fin 2) = t.val ∧ win6_0.index t (1 : Fin 2) = 0 :=
  (by decide +kernel : ∀ t : Fin grid6.N, _)

theorem blk6_apply (c : Dev nD) (t : Fin cfg6.N) (r : Fin 5000) (j : Fin 128) (hr : 5000 * t.val + r.val < 50000) :
    iblk6 V c 0 t (ix2 r j) = V c (Pipeline.arrRef spec6 0) (ix2 ⟨5000 * t.val + r.val, hr⟩ j) := by
  obtain ⟨ea, eb⟩ := idx_facts6 t
  show V c (Pipeline.arrRef spec6 0) (((cfg6.win 0).blk t).view.emb (ix2 r j)) = _
  refine congrArg _ (funext fun a => Fin.ext ?_)
  match a with
  | ⟨0, _⟩ => show win6_0.index t (0 : Fin 2) * 5000 + 1 * r.val = 5000 * t.val + r.val; omega
  | ⟨1, _⟩ => show win6_0.index t (1 : Fin 2) * 128 + 1 * j.val = j.val; omega

theorem pt6_lt (t : Fin 10) : t.val < cfg6.N := by show _ < grid6.N; rw [N_6]; exact t.isLt

theorem scAt6_ten_apply (c : Dev nD) (a : Fin 1) (j : Fin 128) :
    (scAt6 V c 10).1 (ix2 a j) = Cert.Spec.colSum (V c (Pipeline.arrRef spec6 0)) j
    ∧ (scAt6 V c 10).2 (ix2 a j) = sqSum2 (V c (Pipeline.arrRef spec6 0)) j := by
  refine rows2_closed (V c (Pipeline.arrRef spec6 0)) j (fun n => (scAt6 V c n).1 (ix2 a j)) (fun n => (scAt6 V c n).2 (ix2 a j))
    (fun t => iblk6 V c 0 ⟨t.val, pt6_lt t⟩) (fun t r => blk6_apply V c ⟨t.val, pt6_lt t⟩ r j _) ?_ ?_ (fun t => ?_) (fun t => ?_)
  · show (scAt6 V c 0).1 (ix2 a j) = 0
    rw [scAt6_zero]
    exact pay2_1_apply a j
  · show (scAt6 V c 0).2 (ix2 a j) = 0
    rw [scAt6_zero]
    exact pay2_2_apply a j
  · have e : (scAt6 V c (t.val + 1)).1 = k2_pay4 (iblk6 V c 0 ⟨t.val, pt6_lt t⟩) (scAt6 V c t.val).1 :=
      congrArg Prod.fst (scAt6_succ V c ⟨t.val, pt6_lt t⟩)
    show (scAt6 V c (t.val + 1)).1 (ix2 a j) = _
    rw [e]
    exact pay2_4_apply _ _ a j
  · have e : (scAt6 V c (t.val + 1)).2 = k2_pay5 (iblk6 V c 0 ⟨t.val, pt6_lt t⟩) (scAt6 V c t.val).2 :=
      congrArg Prod.snd (scAt6_succ V c ⟨t.val, pt6_lt t⟩)
    show (scAt6 V c (t.val + 1)).2 (ix2 a j) = _
    rw [e]
    exact pay2_5_apply _ _ a j

theorem scAt6_ten (c : Dev nD) :
    (scAt6 V c 10).1 = (fun i : S1x128.Idx => Cert.Spec.colSum (V c (Pipeline.arrRef spec6 0)) (i 1))
    ∧ (scAt6 V c 10).2 = (fun i : S1x128.Idx => sqSum2 (V c (Pipeline.arrRef spec6 0)) (i 1)) := by
  constructor
  · funext i
    obtain ⟨a, j, rfl⟩ : ∃ (a : Fin 1) (j : Fin 128), i = ix2 a j := ⟨i 0, i 1, eq_ix2 i⟩
    exact (scAt6_ten_apply V c a j).1
  · funext i
    obtain ⟨a, j, rfl⟩ : ∃ (a : Fin 1) (j : Fin 128), i = ix2 a j := ⟨i 0, i 1, eq_ix2 i⟩
    exact (scAt6_ten_apply V c a j).2

theorem mean6_closed (c : Dev nD) :
    k2_pay6 (F := Ideal) (scAt6 V c 10).1 = Cert.Spec.meanKOf (V c (Pipeline.arrRef spec6 0)) := by
  funext i
  obtain ⟨a, j, rfl⟩ : ∃ (a : Fin 1) (j : Fin 128), i = ix2 a j := ⟨i 0, i 1, eq_ix2 i⟩
  refine (pay2_6_apply _ a j).trans ?_
  rw [(scAt6_ten_apply V c a j).1]
  rfl

theorem var6_closed (c : Dev nD) :
    k2_pay7 (F := Ideal) (scAt6 V c 10).1 (scAt6 V c 10).2 = Cert.Spec.varKOf (V c (Pipeline.arrRef spec6 0)) := by
  funext i
  obtain ⟨a, j, rfl⟩ : ∃ (a : Fin 1) (j : Fin 128), i = ix2 a j := ⟨i 0, i 1, eq_ix2 i⟩
  refine (pay2_7_apply _ _ a j).trans ?_
  rw [(scAt6_ten_apply V c a j).1, (scAt6_ten_apply V c a j).2]
  rfl

end Cert.KernelIdeal.Hand

end
-- ==== Proof.KI.Finals.lean ====
import proofs.«171585_j55456617726008_1_alg».proof.Proof.KI.Val0
import proofs.«171585_j55456617726008_1_alg».proof.Proof.KI.Val1
import proofs.«171585_j55456617726008_1_alg».proof.Proof.KI.Val3
import proofs.«171585_j55456617726008_1_alg».proof.Proof.KI.Val4
import proofs.«171585_j55456617726008_1_alg».proof.Proof.KI.Val5
import proofs.«171585_j55456617726008_1_alg».proof.Proof.KI.Val7
import proofs.«171585_j55456617726008_1_alg».proof.Proof.KI.Val8
import proofs.«171585_j55456617726008_1_alg».proof.Proof.KI.Val9
import proofs.«171585_j55456617726008_1_alg».proof.Proof.KI.Final2
import proofs.«171585_j55456617726008_1_alg».proof.Proof.KI.Stats2
import proofs.«171585_j55456617726008_1_alg».proof.Proof.KI.Final6
import proofs.«171585_j55456617726008_1_alg».proof.Proof.KI.Stats6
import proofs.«171585_j55456617726008_1_alg».proof.Proof.SpecFns

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem val0 (c : Dev nD) : (dat0 (F := Ideal) V c).arrAt 2 cfg0.N
    = Cert.Spec.mmOf (V c (Pipeline.arrRef spec0 0)) (V c (Pipeline.arrRef spec0 1)) :=
  final0 V c

theorem val4 (c : Dev nD) : (dat4 (F := Ideal) V c).arrAt 2 cfg4.N
    = Cert.Spec.mmOf (V c (Pipeline.arrRef spec4 0)) (V c (Pipeline.arrRef spec4 1)) :=
  final4 V c

theorem val8 (c : Dev nD) : (dat8 (F := Ideal) V c).arrAt 2 cfg8.N
    = Cert.Spec.mmOf (V c (Pipeline.arrRef spec8 0)) (V c (Pipeline.arrRef spec8 1)) :=
  final8 V c

theorem val1 (c : Dev nD) : (dat1 (F := Ideal) V c).arrAt 4 cfg1.N
    = Cert.Spec.cmbOf (V c (Pipeline.arrRef spec1 0)) (V c (Pipeline.arrRef spec1 1)) (V c (Pipeline.arrRef spec1 2)) (V c (Pipeline.arrRef spec1 3)) :=
  final1 V c

theorem val5 (c : Dev nD) : (dat5 (F := Ideal) V c).arrAt 4 cfg5.N
    = Cert.Spec.cmbOf (V c (Pipeline.arrRef spec5 0)) (V c (Pipeline.arrRef spec5 1)) (V c (Pipeline.arrRef spec5 2)) (V c (Pipeline.arrRef spec5 3)) :=
  final5 V c

theorem val9 (c : Dev nD) : (dat9 (F := Ideal) V c).arrAt 4 cfg9.N
    = Cert.Spec.cmbReluOf (V c (Pipeline.arrRef spec9 0)) (V c (Pipeline.arrRef spec9 1)) (V c (Pipeline.arrRef spec9 2)) (V c (Pipeline.arrRef spec9 3)) :=
  final9 V c

theorem val3 (c : Dev nD) : (dat3 (F := Ideal) V c).arrAt 5 cfg3.N
    = Cert.Spec.bnReluOf (V c (Pipeline.arrRef spec3 0)) (V c (Pipeline.arrRef spec3 1)) (V c (Pipeline.arrRef spec3 2))
        (V c (Pipeline.arrRef spec3 3)) (V c (Pipeline.arrRef spec3 4)) :=
  final3' V c

theorem val7 (c : Dev nD) : (dat7 (F := Ideal) V c).arrAt 5 cfg7.N
    = Cert.Spec.bnReluOf (V c (Pipeline.arrRef spec7 0)) (V c (Pipeline.arrRef spec7 1)) (V c (Pipeline.arrRef spec7 2))
        (V c (Pipeline.arrRef spec7 3)) (V c (Pipeline.arrRef spec7 4)) :=
  final7' V c

theorem val2_mean (c : Dev nD) : (dat2 (F := Ideal) V c).arrAt 1 cfg2.N = Cert.Spec.meanKOf (V c (Pipeline.arrRef spec2 0)) :=
  (final2_1 V c).trans (mean2_closed V c)

theorem val2_var (c : Dev nD) : (dat2 (F := Ideal) V c).arrAt 2 cfg2.N = Cert.Spec.varKOf (V c (Pipeline.arrRef spec2 0)) :=
  (final2_2 V c).trans (var2_closed V c)

theorem val6_mean (c : Dev nD) : (dat6 (F := Ideal) V c).arrAt 1 cfg6.N = Cert.Spec.meanKOf (V c (Pipeline.arrRef spec6 0)) :=
  (final6_1 V c).trans (mean6_closed V c)

theorem val6_var (c : Dev nD) : (dat6 (F := Ideal) V c).arrAt 2 cfg6.N = Cert.Spec.varKOf (V c (Pipeline.arrRef spec6 0)) :=
  (final6_2 V c).trans (var6_closed V c)

end Cert.KernelIdeal.Hand

end
-- ==== Proof.LibEFinite.lean ====
import Mathlib.Data.EReal.Inv
import Mathlib.Algebra.Order.BigOperators.Group.Finset
import Mathlib.Tactic.Positivity
import Idealize.ShloMosaic.PureOps.Ideal

open scoped BigOperators
open Idealize.ShloMosaic

noncomputable section

namespace Cert.EFinite

def IsFin (x : EReal) : Prop := ∃ r : ℝ, x = (r : EReal)

def IsNonnegFin (x : EReal) : Prop := ∃ r : ℝ, 0 ≤ r ∧ x = (r : EReal)

def IsPosFin (x : EReal) : Prop := ∃ r : ℝ, 0 < r ∧ x = (r : EReal)

theorem IsPosFin.isNonnegFin {x : EReal} (h : IsPosFin x) : IsNonnegFin x :=
  let ⟨r, hr, e⟩ := h; ⟨r, hr.le, e⟩

theorem IsNonnegFin.isFin {x : EReal} (h : IsNonnegFin x) : IsFin x :=
  let ⟨r, _, e⟩ := h; ⟨r, e⟩

theorem IsPosFin.isFin {x : EReal} (h : IsPosFin x) : IsFin x := h.isNonnegFin.isFin

theorem IsFin.ne_top {x : EReal} (h : IsFin x) : x ≠ ⊤ := by
  obtain ⟨r, rfl⟩ := h; exact EReal.coe_ne_top r

theorem IsFin.ne_bot {x : EReal} (h : IsFin x) : x ≠ ⊥ := by
  obtain ⟨r, rfl⟩ := h; exact EReal.coe_ne_bot r

theorem isFin_iff {x : EReal} : IsFin x ↔ x ≠ ⊤ ∧ x ≠ ⊥ := by
  refine ⟨fun h => ⟨h.ne_top, h.ne_bot⟩, fun ⟨ht, hb⟩ => ?_⟩
  induction x using EReal.rec with
  | bot => exact absurd rfl hb
  | top => exact absurd rfl ht
  | coe r => exact ⟨r, rfl⟩

theorem IsNonnegFin.nonneg {x : EReal} (h : IsNonnegFin x) : 0 ≤ x := by
  obtain ⟨r, hr, rfl⟩ := h; exact EReal.coe_nonneg.mpr hr

theorem IsPosFin.pos {x : EReal} (h : IsPosFin x) : 0 < x := by
  obtain ⟨r, hr, rfl⟩ := h; exact EReal.coe_pos.mpr hr

theorem IsPosFin.ne_zero {x : EReal} (h : IsPosFin x) : x ≠ 0 := h.pos.ne'

theorem IsFin.isNonnegFin {x : EReal} (h : IsFin x) (h0 : 0 ≤ x) : IsNonnegFin x := by
  obtain ⟨r, rfl⟩ := h; exact ⟨r, EReal.coe_nonneg.mp h0, rfl⟩

theorem IsFin.isPosFin {x : EReal} (h : IsFin x) (h0 : 0 < x) : IsPosFin x := by
  obtain ⟨r, rfl⟩ := h; exact ⟨r, EReal.coe_pos.mp h0, rfl⟩

theorem isFin_coe (r : ℝ) : IsFin (r : EReal) := ⟨r, rfl⟩

theorem isFin_zero : IsFin (0 : EReal) := ⟨0, rfl⟩

theorem isFin_one : IsFin (1 : EReal) := ⟨1, rfl⟩

theorem isNonnegFin_zero : IsNonnegFin (0 : EReal) := ⟨0, le_rfl, rfl⟩

theorem isPosFin_one : IsPosFin (1 : EReal) := ⟨1, one_pos, rfl⟩

theorem isNonnegFin_coe {r : ℝ} (h : 0 ≤ r) : IsNonnegFin (r : EReal) := ⟨r, h, rfl⟩

theorem isPosFin_coe {r : ℝ} (h : 0 < r) : IsPosFin (r : EReal) := ⟨r, h, rfl⟩

theorem IsFin.add {x y : EReal} (hx : IsFin x) (hy : IsFin y) : IsFin (x + y) := by
  obtain ⟨a, rfl⟩ := hx; obtain ⟨b, rfl⟩ := hy; exact ⟨a + b, (EReal.coe_add a b).symm⟩

theorem IsFin.mul {x y : EReal} (hx : IsFin x) (hy : IsFin y) : IsFin (x * y) := by
  obtain ⟨a, rfl⟩ := hx; obtain ⟨b, rfl⟩ := hy; exact ⟨a * b, (EReal.coe_mul a b).symm⟩

theorem IsFin.neg {x : EReal} (hx : IsFin x) : IsFin (-x) := by
  obtain ⟨a, rfl⟩ := hx; exact ⟨-a, (EReal.coe_neg a).symm⟩

theorem IsFin.sub {x y : EReal} (hx : IsFin x) (hy : IsFin y) : IsFin (x - y) := by
  obtain ⟨a, rfl⟩ := hx; obtain ⟨b, rfl⟩ := hy; exact ⟨a - b, (EReal.coe_sub a b).symm⟩

theorem IsFin.max {x y : EReal} (hx : IsFin x) (hy : IsFin y) : IsFin (max x y) := by
  rcases max_choice x y with h | h <;> rw [h] <;> assumption

theorem IsFin.min {x y : EReal} (hx : IsFin x) (hy : IsFin y) : IsFin (min x y) := by
  rcases min_choice x y with h | h <;> rw [h] <;> assumption

theorem IsFin.max_zero_isNonnegFin {x : EReal} (hx : IsFin x) : IsNonnegFin (Max.max x 0) :=
  (hx.max isFin_zero).isNonnegFin (le_max_right _ _)

theorem IsNonnegFin.add {x y : EReal} (hx : IsNonnegFin x) (hy : IsNonnegFin y) : IsNonnegFin (x + y) := by
  obtain ⟨a, ha, rfl⟩ := hx; obtain ⟨b, hb, rfl⟩ := hy
  exact ⟨a + b, add_nonneg ha hb, (EReal.coe_add a b).symm⟩

theorem IsNonnegFin.mul {x y : EReal} (hx : IsNonnegFin x) (hy : IsNonnegFin y) : IsNonnegFin (x * y) := by
  obtain ⟨a, ha, rfl⟩ := hx; obtain ⟨b, hb, rfl⟩ := hy
  exact ⟨a * b, mul_nonneg ha hb, (EReal.coe_mul a b).symm⟩

theorem IsNonnegFin.add_isPosFin {x y : EReal} (hx : IsNonnegFin x) (hy : IsPosFin y) : IsPosFin (x + y) := by
  obtain ⟨a, ha, rfl⟩ := hx; obtain ⟨b, hb, rfl⟩ := hy
  exact ⟨a + b, add_pos_of_nonneg_of_pos ha hb, (EReal.coe_add a b).symm⟩

theorem IsNonnegFin.add_one {x : EReal} (hx : IsNonnegFin x) : ∃ r : ℝ, 1 ≤ r ∧ x + 1 = (r : EReal) := by
  obtain ⟨a, ha, rfl⟩ := hx
  exact ⟨a + 1, by linarith, by rw [EReal.coe_add, EReal.coe_one]⟩

theorem IsPosFin.mul {x y : EReal} (hx : IsPosFin x) (hy : IsPosFin y) : IsPosFin (x * y) := by
  obtain ⟨a, ha, rfl⟩ := hx; obtain ⟨b, hb, rfl⟩ := hy
  exact ⟨a * b, mul_pos ha hb, (EReal.coe_mul a b).symm⟩

theorem IsFin.max_isPosFin {x y : EReal} (hx : IsFin x) (hy : IsPosFin y) : IsPosFin (Max.max x y) :=
  (hx.max hy.isFin).isPosFin (lt_of_lt_of_le hy.pos (le_max_right _ _))

theorem isFin_sum {ι : Type*} (s : Finset ι) (f : ι → EReal) (h : ∀ i ∈ s, IsFin (f i)) :
    IsFin (∑ i ∈ s, f i) := by
  classical
  induction s using Finset.induction_on with
  | empty => simpa using isFin_zero
  | insert a s ha ih =>
    rw [Finset.sum_insert ha]
    exact (h a (Finset.mem_insert_self a s)).add (ih fun i hi => h i (Finset.mem_insert_of_mem hi))

theorem isNonnegFin_sum {ι : Type*} (s : Finset ι) (f : ι → EReal) (h : ∀ i ∈ s, IsNonnegFin (f i)) :
    IsNonnegFin (∑ i ∈ s, f i) := by
  classical
  induction s using Finset.induction_on with
  | empty => simpa using isNonnegFin_zero
  | insert a s ha ih =>
    rw [Finset.sum_insert ha]
    exact (h a (Finset.mem_insert_self a s)).add (ih fun i hi => h i (Finset.mem_insert_of_mem hi))

theorem isFin_sum_univ {ι : Type*} [Fintype ι] (f : ι → EReal) (h : ∀ i, IsFin (f i)) : IsFin (∑ i, f i) :=
  isFin_sum _ f fun i _ => h i

theorem IsFin.div_coe {x : EReal} (hx : IsFin x) {y : ℝ} (hy : y ≠ 0) : IsFin (Ideal.div x (y : EReal)) := by
  rw [Ideal.div_coe hy]; exact hx.mul (isFin_coe _)

theorem IsFin.div_isPosFin {x y : EReal} (hx : IsFin x) (hy : IsPosFin y) : IsFin (Ideal.div x y) := by
  obtain ⟨b, hb, rfl⟩ := hy; exact hx.div_coe hb.ne'

theorem IsNonnegFin.div_isPosFin {x y : EReal} (hx : IsNonnegFin x) (hy : IsPosFin y) :
    IsNonnegFin (Ideal.div x y) := by
  obtain ⟨b, hb, rfl⟩ := hy
  rw [Ideal.div_coe hb.ne']
  exact hx.mul (isNonnegFin_coe (by positivity))

theorem rsqrt_coe_of_pos {x : ℝ} (hx : 0 < x) : Ideal.rsqrt (x : EReal) = (((Real.sqrt x)⁻¹ : ℝ) : EReal) := by
  rw [Ideal.rsqrt_coe, if_neg (not_lt.mpr hx.le), if_neg hx.ne']

theorem IsPosFin.rsqrt {x : EReal} (hx : IsPosFin x) : IsPosFin (Ideal.rsqrt x) := by
  obtain ⟨r, hr, rfl⟩ := hx
  exact ⟨(Real.sqrt r)⁻¹, inv_pos.mpr (Real.sqrt_pos.mpr hr), rsqrt_coe_of_pos hr⟩

theorem IsNonnegFin.rsqrt_add_isPosFin {x e : EReal} (hx : IsNonnegFin x) (he : IsPosFin e) :
    IsPosFin (Ideal.rsqrt (x + e)) :=
  (hx.add_isPosFin he).rsqrt

theorem isFin_gather {α β : Type*} (x : α → EReal) (π : β → α) (hx : ∀ i, IsFin (x i)) :
    ∀ j, IsFin ((fun j => x (π j)) j) := fun j => hx (π j)

theorem isPosFin_gather {α β : Type*} (x : α → EReal) (π : β → α) (hx : ∀ i, IsPosFin (x i)) :
    ∀ j, IsPosFin ((fun j => x (π j)) j) := fun j => hx (π j)

theorem isFin_matmul {sl sr so : Shape} (d : DotDims sl sr so) (lhs : sl.Idx → EReal) (rhs : sr.Idx → EReal)
    (acc : so.Idx → EReal) (hl : ∀ i, IsFin (lhs i)) (hr : ∀ i, IsFin (rhs i)) (ha : ∀ j, IsFin (acc j)) :
    ∀ j, IsFin (Ideal.matmul d lhs rhs acc j) := fun j =>
  (ha j).add (isFin_sum _ _ fun k _ => (hl _).mul (hr _))

theorem isFin_matmul_zero {sl sr so : Shape} (d : DotDims sl sr so) (lhs : sl.Idx → EReal) (rhs : sr.Idx → EReal)
    (hl : ∀ i, IsFin (lhs i)) (hr : ∀ i, IsFin (rhs i)) :
    ∀ j, IsFin (Ideal.matmul d lhs rhs (fun _ => 0) j) :=
  isFin_matmul d lhs rhs _ hl hr fun _ => isFin_zero

theorem isFin_hostReduceAdd {s : Shape} {axes : List (Fin s.rank)} {t : Shape} (h : s.ReducesTo axes t)
    (x : s.Idx → EReal) (init : EReal) (hx : ∀ i, IsFin (x i)) (hi : IsFin init) :
    ∀ j, IsFin (Ideal.hostReduceAdd h x init j) := fun _ =>
  hi.add (isFin_sum _ _ fun i _ => hx i)

theorem isFin_reduceAdd {s : Shape} {axes : List (Fin s.rank)} {t : Shape} (h : s.Reduces axes t)
    (x : s.Idx → EReal) (hx : ∀ i, IsFin (x i)) :
    ∀ j, IsFin (Ideal.reduceAdd h x j) := fun _ =>
  isFin_sum _ _ fun i _ => hx i

theorem isFin_hostScatterAdd {s si su : Shape} (d : ScatterDims s si su) {w : Nat} (x : s.Idx → EReal)
    (idx : IVec si w) (upd : su.Idx → EReal) (hx : ∀ i, IsFin (x i)) (hu : ∀ j, IsFin (upd j)) :
    ∀ i, IsFin (Ideal.hostScatterAdd d x idx upd i) := fun i =>
  (hx i).add (isFin_sum _ _ fun j _ => hu j)

theorem le_hostScatterAdd {s si su : Shape} (d : ScatterDims s si su) {w : Nat} (x : s.Idx → EReal)
    (idx : IVec si w) (upd : su.Idx → EReal) (hu : ∀ j, 0 ≤ upd j) :
    ∀ i, x i ≤ Ideal.hostScatterAdd d x idx upd i := fun i =>
  le_add_of_nonneg_right (Finset.sum_nonneg fun j _ => hu j)

theorem isNonnegFin_hostScatterAdd {s si su : Shape} (d : ScatterDims s si su) {w : Nat} (x : s.Idx → EReal)
    (idx : IVec si w) (upd : su.Idx → EReal) (hx : ∀ i, IsNonnegFin (x i)) (hu : ∀ j, IsNonnegFin (upd j)) :
    ∀ i, IsNonnegFin (Ideal.hostScatterAdd d x idx upd i) := fun i =>
  (hx i).add (isNonnegFin_sum _ _ fun j _ => hu j)

theorem isPosFin_hostScatterAdd_add {s si su : Shape} (d : ScatterDims s si su) {w : Nat} (x : s.Idx → EReal)
    (idx : IVec si w) (upd : su.Idx → EReal) (hx : ∀ i, IsNonnegFin (x i)) (hu : ∀ j, IsNonnegFin (upd j))
    {c : EReal} (hc : IsPosFin c) :
    ∀ i, IsPosFin (Ideal.hostScatterAdd d x idx upd i + c) := fun i =>
  (isNonnegFin_hostScatterAdd d x idx upd hx hu i).add_isPosFin hc

end Cert.EFinite
-- ==== Proof.PreFinite.lean ====
import proofs.«171585_j55456617726008_1_alg».proof.Defs
import proofs.«171585_j55456617726008_1_alg».proof.Proof.Gen.Pre_finite_inputs
import proofs.«171585_j55456617726008_1_alg».proof.Proof.LibEFinite
import Idealize.ShloMosaic.Lib.ReduceAll
import Idealize.ShloMosaic.Lib.ValueIdx

open Idealize.ShloMosaic Idealize.SL.Sem

noncomputable section

namespace Cert.PreFinite

open Cert.EFinite Cert.Pre_finite_inputs

instance subsingleton_scalarIdx : Subsingleton S_.Idx := ⟨fun a b => funext fun d => d.elim0⟩

theorem ofBits_inf : Ideal.ofBits .f32 0x7F800000#32 = (⊤ : EReal) := by
  simp [Ideal.ofBits, Ideal.ieee]

theorem isFin_of_abs_lt_inf (x : EReal)
    (h : Ideal.cmp .olt (max x (-x)) (Ideal.ofBits .f32 0x7F800000#32) = 1#1) : IsFin x := by
  rw [ofBits_inf] at h
  induction x using EReal.rec with
  | bot => simp [Ideal.cmp] at h
  | top => simp [Ideal.cmp] at h
  | coe r => exact ⟨r, rfl⟩

theorem all_finite {S : Shape} {axes : List (Fin S.rank)} (dims : Fin S_.rank → Fin S.rank)
    (hb : S_.BroadcastsInDim S dims) (hr : S.ReducesTo axes S_) (hu : 0 < S_.numel)
    (x : FVec Ideal S .f32)
    (h : Host.reduce IntOp.andi
          (cmpf .olt (Host.absf x) (broadcastInDim S dims hb (constant (F := Ideal) S_ .f32 0x7F800000#32)))
          (constantI S_ 1 1#1) hr hu ValueIdx.ix0 = 1#1) :
    ∀ i, IsFin (x i) := fun i =>
  isFin_of_abs_lt_inf (x i) (Host.reduce_andi_all _ _ hr hu ValueIdx.ix0 h i)

theorem andi_apply_eq_one {s : Shape} (x y : IVec s 1) (i : s.Idx) :
    andi x y i = 1#1 ↔ x i = 1#1 ∧ y i = 1#1 := IntOp.andi_eq_one

theorem fn_finite
    (a0 : FVec Ideal S50000x128 .f32) (a1 : IVec S2x600000 32) (a2 : IVec S50000 32)
    (a3 : FVec Ideal S128x128 .f32) (a4 : FVec Ideal S128 .f32) (a5 : FVec Ideal S128 .f32) (a6 : FVec Ideal S128 .f32)
    (a7 : FVec Ideal S128x128 .f32) (a8 : FVec Ideal S128 .f32) (a9 : FVec Ideal S128 .f32) (a10 : FVec Ideal S128 .f32)
    (a11 : FVec Ideal S128x128 .f32) (a12 : FVec Ideal S128 .f32) (a13 : FVec Ideal S128x1 .f32) (a14 : FVec Ideal S1 .f32)
    (h : Cert.Pre_finite_inputs.fn (F := Ideal) a0 a1 a2 a3 a4 a5 a6 a7 a8 a9 a10 a11 a12 a13 a14 = (fun _ => 1#1)) :
    (∀ i, IsFin (a0 i)) ∧ (∀ i, IsFin (a3 i)) ∧ (∀ i, IsFin (a4 i)) ∧ (∀ i, IsFin (a5 i)) ∧ (∀ i, IsFin (a6 i))
    ∧ (∀ i, IsFin (a7 i)) ∧ (∀ i, IsFin (a8 i)) ∧ (∀ i, IsFin (a9 i)) ∧ (∀ i, IsFin (a10 i))
    ∧ (∀ i, IsFin (a11 i)) ∧ (∀ i, IsFin (a12 i)) ∧ (∀ i, IsFin (a13 i)) ∧ (∀ i, IsFin (a14 i)) := by
  have e := congrFun h ValueIdx.ix0
  dsimp only [fn, fn_part1, fn_part2, fn_part3] at e
  simp only [andi_apply_eq_one] at e
  obtain ⟨⟨⟨⟨⟨⟨⟨⟨⟨⟨⟨⟨h0, h3⟩, h4⟩, h5⟩, h6⟩, h7⟩, h8⟩, h9⟩, h10⟩, h11⟩, h12⟩, h13⟩, h14⟩ := e
  exact ⟨all_finite _ _ _ _ a0 h0,
    all_finite _ _ _ _ a3 h3,
    all_finite _ _ _ _ a4 h4,
    all_finite _ _ _ _ a5 h5,
    all_finite _ _ _ _ a6 h6,
    all_finite _ _ _ _ a7 h7,
    all_finite _ _ _ _ a8 h8,
    all_finite _ _ _ _ a9 h9,
    all_finite _ _ _ _ a10 h10,
    all_finite _ _ _ _ a11 h11,
    all_finite _ _ _ _ a12 h12,
    all_finite _ _ _ _ a13 h13,
    all_finite _ _ _ _ a14 h14⟩

theorem finite_of_pre
    (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m)
    (c : Dev Cert.KernelIdeal.nD) :
    (∀ i, IsFin (m ((c.tc : Thread Cert.KernelIdeal.nD Cert.KernelIdeal.τ).loc Cert.KernelIdeal.main_arg0) i))
    ∧ (∀ i, IsFin (m ((c.tc : Thread Cert.KernelIdeal.nD Cert.KernelIdeal.τ).loc Cert.KernelIdeal.main_arg3) i))
    ∧ (∀ i, IsFin (m ((c.tc : Thread Cert.KernelIdeal.nD Cert.KernelIdeal.τ).loc Cert.KernelIdeal.main_arg4) i))
    ∧ (∀ i, IsFin (m ((c.tc : Thread Cert.KernelIdeal.nD Cert.KernelIdeal.τ).loc Cert.KernelIdeal.main_arg5) i))
    ∧ (∀ i, IsFin (m ((c.tc : Thread Cert.KernelIdeal.nD Cert.KernelIdeal.τ).loc Cert.KernelIdeal.main_arg6) i))
    ∧ (∀ i, IsFin (m ((c.tc : Thread Cert.KernelIdeal.nD Cert.KernelIdeal.τ).loc Cert.KernelIdeal.main_arg7) i))
    ∧ (∀ i, IsFin (m ((c.tc : Thread Cert.KernelIdeal.nD Cert.KernelIdeal.τ).loc Cert.KernelIdeal.main_arg8) i))
    ∧ (∀ i, IsFin (m ((c.tc : Thread Cert.KernelIdeal.nD Cert.KernelIdeal.τ).loc Cert.KernelIdeal.main_arg9) i))
    ∧ (∀ i, IsFin (m ((c.tc : Thread Cert.KernelIdeal.nD Cert.KernelIdeal.τ).loc Cert.KernelIdeal.main_arg10) i))
    ∧ (∀ i, IsFin (m ((c.tc : Thread Cert.KernelIdeal.nD Cert.KernelIdeal.τ).loc Cert.KernelIdeal.main_arg11) i))
    ∧ (∀ i, IsFin (m ((c.tc : Thread Cert.KernelIdeal.nD Cert.KernelIdeal.τ).loc Cert.KernelIdeal.main_arg12) i))
    ∧ (∀ i, IsFin (m ((c.tc : Thread Cert.KernelIdeal.nD Cert.KernelIdeal.τ).loc Cert.KernelIdeal.main_arg13) i))
    ∧ (∀ i, IsFin (m ((c.tc : Thread Cert.KernelIdeal.nD Cert.KernelIdeal.τ).loc Cert.KernelIdeal.main_arg14) i)) :=
  fn_finite _ _ _ _ _ _ _ _ _ _ _ _ _ _ _ (h c)

end Cert.PreFinite

end
-- ==== Proof.Consts.lean ====
import proofs.«171585_j55456617726008_1_alg».proof.Proof.LibEFinite
import Idealize.ShloMosaic.PureOps.Ideal.Laws

noncomputable section

namespace Cert.Consts

open Idealize.ShloMosaic
open Cert.EFinite

theorem ofBits_one_f32 : Ideal.ofBits .f32 0x3F800000#32 = 1 := by
  simp [Ideal.ofBits, Ideal.ieee, -EReal.coe_mul]; norm_num

theorem zeroWord_isNonnegFin : IsNonnegFin (Ideal.ofBits .f32 0x00000000#32) := by
  rw [Ideal.ofBits_zero_f32]; exact isNonnegFin_zero

theorem oneWord_isNonnegFin : IsNonnegFin (Ideal.ofBits .f32 0x3F800000#32) := by
  rw [ofBits_one_f32]; exact isPosFin_one.isNonnegFin

theorem oneWord_isPosFin : IsPosFin (Ideal.ofBits .f32 0x3F800000#32) := by
  rw [ofBits_one_f32]; exact isPosFin_one

theorem epsWord_isPosFin : IsPosFin (Ideal.ofBits .f32 0x3727C5AC#32) := by
  simp [Ideal.ofBits, Ideal.ieee, -EReal.coe_mul]; exact ⟨_, by norm_num, rfl⟩

end Cert.Consts
-- ==== Proof.KI.HostFinite.lean ====
import proofs.«171585_j55456617726008_1_alg».proof.Proof.KI.Host
import proofs.«171585_j55456617726008_1_alg».proof.Proof.LibEFinite
import proofs.«171585_j55456617726008_1_alg».proof.Proof.Consts
import Idealize.ShloMosaic.PureOps.Ideal.Laws
import Idealize.ShloMosaic.Lib.ValueIdx

noncomputable section

namespace Cert.KernelIdeal.Hand

open Idealize.ShloMosaic Idealize.ShloMosaic.ValueIdx
open Cert.KernelIdeal.Gen
open Cert.EFinite Cert.Consts

section Generic

variable {α : Type} {s t si su : Shape} {φ : FTy} {w : Nat}

theorem broadcastInDim_all (P : α → Prop) (dims : Fin s.rank → Fin t.rank) (h : s.BroadcastsInDim t dims)
    (x : s.Idx → α) (hx : ∀ i, P (x i)) (j : t.Idx) : P (broadcastInDim t dims h x j) := hx _

theorem gather_all (P : α → Prop) (d : GatherDims s si t) (x : s.Idx → α) (idx : IVec si w)
    (hx : ∀ i, P (x i)) (j : t.Idx) : P (Host.gather d x idx j) := hx _

theorem shapeCast_all (P : α → Prop) (x : s.Idx → α) (h : s.ShapeCasts t) (hx : ∀ i, P (x i)) (j : t.Idx) :
    P (shapeCast t x h j) := hx _

theorem constant_all (P : EReal → Prop) (b : BitVec φ.bits) (hb : P (Ideal.ofBits φ b)) (i : s.Idx) :
    P (constant (F := Ideal) s φ b i) := hb

theorem hostRsqrt_isPosFin (x : FVec Ideal s φ) (hx : ∀ i, IsPosFin (x i)) (i : s.Idx) :
    IsPosFin (Host.rsqrt x i) := (hx i).rsqrt

theorem mulf_isPosFin (x y : FVec Ideal s φ) (hx : ∀ i, IsPosFin (x i)) (hy : ∀ i, IsPosFin (y i)) (i : s.Idx) :
    IsPosFin (mulf x y i) := (hx i).mul (hy i)

theorem mulf_isFin (x y : FVec Ideal s φ) (hx : ∀ i, IsFin (x i)) (hy : ∀ i, IsFin (y i)) (i : s.Idx) :
    IsFin (mulf x y i) := (hx i).mul (hy i)

theorem addf_isPosFin (x y : FVec Ideal s φ) (hx : ∀ i, IsNonnegFin (x i)) (hy : ∀ i, IsPosFin (y i)) (i : s.Idx) :
    IsPosFin (addf x y i) := (hx i).add_isPosFin (hy i)

theorem scatterAdd_isNonnegFin (d : ScatterDims s si su) (x : FVec Ideal s φ) (idx : IVec si w) (upd : FVec Ideal su φ)
    (hx : ∀ i, IsNonnegFin (x i)) (hu : ∀ j, IsNonnegFin (upd j)) (i : s.Idx) :
    IsNonnegFin (Host.scatterAdd d x idx upd i) := isNonnegFin_hostScatterAdd d x idx upd hx hu i

theorem scatterAdd_isFin (d : ScatterDims s si su) (x : FVec Ideal s φ) (idx : IVec si w) (upd : FVec Ideal su φ)
    (hx : ∀ i, IsFin (x i)) (hu : ∀ j, IsFin (upd j)) (i : s.Idx) :
    IsFin (Host.scatterAdd d x idx upd i) := isFin_hostScatterAdd d x idx upd hx hu i

end Generic

theorem degOf_isPosFin (ei : IVec S2x600000 32) (i : S50000.Idx) : IsPosFin (degOf (F := Ideal) ei i) := by
  refine addf_isPosFin _ _ ?_ ?_ i
  · refine scatterAdd_isNonnegFin _ _ _ _ ?_ ?_
    · exact broadcastInDim_all IsNonnegFin _ _ _ (constant_all IsNonnegFin _ zeroWord_isNonnegFin)
    · exact broadcastInDim_all IsNonnegFin _ _ _ (constant_all IsNonnegFin _ oneWord_isNonnegFin)
  · exact broadcastInDim_all IsPosFin _ _ _ (constant_all IsPosFin _ oneWord_isPosFin)

theorem disOf_isPosFin (ei : IVec S2x600000 32) (i : S50000.Idx) : IsPosFin (disOf (F := Ideal) ei i) :=
  hostRsqrt_isPosFin _ (degOf_isPosFin ei) i

theorem dsdOf_isPosFin (ei : IVec S2x600000 32) (e : S600000.Idx) : IsPosFin (dsdOf (F := Ideal) ei e) := by
  refine mulf_isPosFin _ _ ?_ ?_ e
  · exact gather_all IsPosFin _ _ _ (disOf_isPosFin ei)
  · exact gather_all IsPosFin _ _ _ (disOf_isPosFin ei)

theorem dsdOf_isFin (ei : IVec S2x600000 32) (e : S600000.Idx) : IsFin (dsdOf (F := Ideal) ei e) :=
  (dsdOf_isPosFin ei e).isFin

theorem dis2Of_isPosFin (ei : IVec S2x600000 32) (i : S50000x1.Idx) : IsPosFin (dis2Of (F := Ideal) ei i) := by
  refine broadcastInDim_all IsPosFin _ _ _ ?_ i
  exact mulf_isPosFin _ _ (disOf_isPosFin ei) (disOf_isPosFin ei)

theorem dis2Of_isFin (ei : IVec S2x600000 32) (i : S50000x1.Idx) : IsFin (dis2Of (F := Ideal) ei i) :=
  (dis2Of_isPosFin ei i).isFin

theorem aggOf_isFin (src dst : IVec S600000 32) (w : Vec Ideal S600000 .f32) (h : Vec Ideal S50000x128 .f32)
    (hw : ∀ e, IsFin (w e)) (hh : ∀ i, IsFin (h i)) (i : S50000x128.Idx) :
    IsFin (aggOf (F := Ideal) src dst w h i) := by
  refine scatterAdd_isFin _ _ _ _ ?_ ?_ i
  · exact broadcastInDim_all IsFin _ _ _ (constant_all IsFin _ zeroWord_isNonnegFin.isFin)
  · refine mulf_isFin _ _ ?_ ?_
    · exact broadcastInDim_all IsFin _ _ _ (broadcastInDim_all IsFin _ _ _ hw)
    · exact gather_all IsFin _ _ _ hh

theorem rowOf_isFin (b : Vec Ideal S128 .f32) (hb : ∀ i, IsFin (b i)) (j : S1x128.Idx) :
    IsFin (rowOf (F := Ideal) b j) :=
  shapeCast_all IsFin b _ hb j

theorem rowOf_isPosFin (b : Vec Ideal S128 .f32) (hb : ∀ i, IsPosFin (b i)) (j : S1x128.Idx) :
    IsPosFin (rowOf (F := Ideal) b j) :=
  shapeCast_all IsPosFin b _ hb j

end Cert.KernelIdeal.Hand
-- ==== Proof.Bridge.lean ====
import proofs.«171585_j55456617726008_1_alg».proof.Proof.SpecFns
import proofs.«171585_j55456617726008_1_alg».proof.Proof.KI.HostFinite
import proofs.«171585_j55456617726008_1_alg».proof.Proof.LibMoments
import proofs.«171585_j55456617726008_1_alg».proof.Proof.LibEFinite
import Idealize.ShloMosaic.Lib.ValueLayout

noncomputable section

open scoped BigOperators

namespace Cert.Spec

open Idealize.ShloMosaic Idealize.ShloMosaic.ValueIdx
open Cert.KernelIdeal Cert.KernelIdeal.Hand Cert.KernelIdeal.Gen
open Cert.EFinite Cert.Consts

theorem rowOf_apply (b : Vec Ideal S128 .f32) (u : Fin 1) (j : Fin 128) :
    rowOf (F := Ideal) b (ix2 u j) = b (ix1 j) :=
  shapeCast_a_1a_apply b shapeCasts_S128_S1x128 u j

theorem card_nodes : (Fintype.card (Fin 50000) : ℝ) = 50000 := by simp

theorem meanKOf_eq_rowOf (z : Vec Ideal S50000x128 .f32) : meanKOf z = rowOf (F := Ideal) (meanROf z) := by
  funext i
  obtain ⟨a, j, rfl⟩ : ∃ a j, i = ix2 a j := ⟨_, _, eq_ix2 i⟩
  rw [meanKOf_apply, rowOf_apply, meanROf_apply]
  unfold invN
  exact Cert.Moments.mul_inv_eq_div _ (by norm_num)

theorem varKOf_eq_rowOf (z : Vec Ideal S50000x128 .f32) (hz : ∀ i, IsFin (z i)) :
    varKOf z = rowOf (F := Ideal) (varROf z) := by
  funext i
  obtain ⟨a, j, rfl⟩ : ∃ a j, i = ix2 a j := ⟨_, _, eq_ix2 i⟩
  rw [varKOf_apply, rowOf_apply, varROf_apply]
  unfold colSum invN
  exact Cert.Moments.variance_identity_div (fun r : Fin 50000 => z (ix2 r j)) (fun r => hz _) card_nodes (by norm_num)

theorem mmOf_isFin (x : Vec Ideal S50000x128 .f32) (w : Vec Ideal S128x128 .f32)
    (hx : ∀ i, IsFin (x i)) (hw : ∀ i, IsFin (w i)) : ∀ i, IsFin (mmOf x w i) := fun i => by
  obtain ⟨r, j, rfl⟩ : ∃ r j, i = ix2 r j := ⟨_, _, eq_ix2 i⟩
  rw [mmOf_apply]
  exact isFin_sum_univ _ fun _ => (hx _).mul (hw _)

theorem cmbOf_isFin (agg h : Vec Ideal S50000x128 .f32) (d2 : Vec Ideal S50000x1 .f32) (b : Vec Ideal S1x128 .f32)
    (hagg : ∀ i, IsFin (agg i)) (hh : ∀ i, IsFin (h i)) (hd2 : ∀ i, IsFin (d2 i)) (hb : ∀ i, IsFin (b i)) :
    ∀ i, IsFin (cmbOf agg h d2 b i) := fun i => by
  obtain ⟨r, j, rfl⟩ : ∃ r j, i = ix2 r j := ⟨_, _, eq_ix2 i⟩
  rw [cmbOf_apply]
  exact ((hagg _).add ((hd2 _).mul (hh _))).add (hb _)

theorem layerZ_isFin (ei : IVec S2x600000 32) (hin : Vec Ideal S50000x128 .f32) (w : Vec Ideal S128x128 .f32)
    (b : Vec Ideal S128 .f32) (hhin : ∀ i, IsFin (hin i)) (hw : ∀ i, IsFin (w i)) (hb : ∀ i, IsFin (b i)) :
    ∀ i, IsFin (layerZ ei hin w b i) := by
  refine cmbOf_isFin _ _ _ _ ?_ ?_ ?_ ?_
  · exact aggOf_isFin _ _ _ _ (dsdOf_isFin ei) (mmOf_isFin hin w hhin hw)
  · exact mmOf_isFin hin w hhin hw
  · exact dis2Of_isFin ei
  · exact rowOf_isFin b hb

theorem meanKOf_isFin (z : Vec Ideal S50000x128 .f32) (hz : ∀ i, IsFin (z i)) : ∀ i, IsFin (meanKOf z i) := fun i => by
  obtain ⟨a, j, rfl⟩ : ∃ a j, i = ix2 a j := ⟨_, _, eq_ix2 i⟩
  rw [meanKOf_apply]
  exact (isFin_sum_univ _ fun _ => hz _).mul (isFin_coe _)

theorem varKOf_isNonnegFin (z : Vec Ideal S50000x128 .f32) (hz : ∀ i, IsFin (z i)) :
    ∀ i, IsNonnegFin (varKOf z i) := fun i => by
  obtain ⟨a, j, rfl⟩ : ∃ a j, i = ix2 a j := ⟨_, _, eq_ix2 i⟩
  rw [varKOf_apply]
  exact Cert.Moments.var_moment_nonneg_finite (fun r : Fin 50000 => z (ix2 r j)) (fun r => hz _) card_nodes
    (by norm_num)

theorem varKOf_add_eps_isPosFin (z : Vec Ideal S50000x128 .f32) (hz : ∀ i, IsFin (z i)) :
    ∀ i, IsPosFin (varKOf z i + epsBN) := fun i =>
  (varKOf_isNonnegFin z hz i).add_isPosFin epsWord_isPosFin

theorem bnReluOf_isFin (z : Vec Ideal S50000x128 .f32) (mean var g be : Vec Ideal S1x128 .f32)
    (hz : ∀ i, IsFin (z i)) (hmean : ∀ i, IsFin (mean i)) (hvar : ∀ i, IsPosFin (var i + epsBN))
    (hg : ∀ i, IsFin (g i)) (hbe : ∀ i, IsFin (be i)) :
    ∀ i, IsFin (bnReluOf z mean var g be i) := fun i => by
  obtain ⟨r, j, rfl⟩ : ∃ r j, i = ix2 r j := ⟨_, _, eq_ix2 i⟩
  rw [bnReluOf_apply]
  exact ((((hg _).mul ((hz _).sub (hmean _))).mul (hvar _).rsqrt.isFin).add (hbe _)).max isFin_zero

theorem bnReluOf_own_isFin (z : Vec Ideal S50000x128 .f32) (g be : Vec Ideal S128 .f32)
    (hz : ∀ i, IsFin (z i)) (hg : ∀ i, IsFin (g i)) (hbe : ∀ i, IsFin (be i)) :
    ∀ i, IsFin (bnReluOf z (meanKOf z) (varKOf z) (rowOf (F := Ideal) g) (rowOf (F := Ideal) be) i) :=
  bnReluOf_isFin z _ _ _ _ hz (meanKOf_isFin z hz) (varKOf_add_eps_isPosFin z hz) (rowOf_isFin g hg) (rowOf_isFin be hbe)

theorem kernelSpec_eq_refSpec (x : Vec Ideal S50000x128 .f32) (ei : IVec S2x600000 32) (batch : IVec S50000 32)
    (W1 : Vec Ideal S128x128 .f32) (b1 g1 be1 : Vec Ideal S128 .f32)
    (W2 : Vec Ideal S128x128 .f32) (b2 g2 be2 : Vec Ideal S128 .f32)
    (W3 : Vec Ideal S128x128 .f32) (b3 : Vec Ideal S128 .f32)
    (Wl : Vec Ideal S128x1 .f32) (bl : Vec Ideal S1 .f32)
    (hx : ∀ i, IsFin (x i))
    (hW1 : ∀ i, IsFin (W1 i)) (hb1 : ∀ i, IsFin (b1 i)) (hg1 : ∀ i, IsFin (g1 i)) (hbe1 : ∀ i, IsFin (be1 i))
    (hW2 : ∀ i, IsFin (W2 i)) (hb2 : ∀ i, IsFin (b2 i)) (hg2 : ∀ i, IsFin (g2 i)) (hbe2 : ∀ i, IsFin (be2 i))
    (hW3 : ∀ i, IsFin (W3 i)) (hb3 : ∀ i, IsFin (b3 i))
    (hWl : ∀ i, IsFin (Wl i)) (hbl : ∀ i, IsFin (bl i)) :
    kernelSpec x ei batch W1 b1 g1 be1 W2 b2 g2 be2 W3 b3 Wl bl
      = refSpec x ei batch W1 b1 g1 be1 W2 b2 g2 be2 W3 b3 Wl bl := by
  have hz1 : ∀ i, IsFin (layerZ ei x W1 b1 i) := layerZ_isFin ei x W1 b1 hx hW1 hb1
  have e1m := meanKOf_eq_rowOf (layerZ ei x W1 b1)
  have e1v := varKOf_eq_rowOf (layerZ ei x W1 b1) hz1
  have ha1 := bnReluOf_own_isFin (layerZ ei x W1 b1) g1 be1 hz1 hg1 hbe1
  rw [e1m, e1v] at ha1
  have hz2 := layerZ_isFin ei _ W2 b2 ha1 hW2 hb2
  have e2m := meanKOf_eq_rowOf (layerZ ei (bnReluOf (layerZ ei x W1 b1) (rowOf (F := Ideal) (meanROf (layerZ ei x W1 b1)))
    (rowOf (F := Ideal) (varROf (layerZ ei x W1 b1))) (rowOf (F := Ideal) g1) (rowOf (F := Ideal) be1)) W2 b2)
  have e2v := varKOf_eq_rowOf _ hz2
  unfold kernelSpec refSpec
  dsimp only
  rw [e1m, e1v, e2m, e2v]

end Cert.Spec
-- ==== Proof.lean ====
/-
  On extended reals the kernel program and the reference compute the same network. They differ only in how the batch
  statistics are written: column sums times 1/50000 and E[z²] − E[z]² against column sums over 50000 and the mean
  squared deviation. These agree wherever z is finite, and z is finite because the float inputs are.
-/
import proofs.«171585_j55456617726008_1_alg».proof.Defs
import proofs.«171585_j55456617726008_1_alg».proof.Proof.Gen.Kernel
import proofs.«171585_j55456617726008_1_alg».proof.Proof.Gen.KernelIdeal
import proofs.«171585_j55456617726008_1_alg».proof.Proof.Gen.ReferenceIdeal
import proofs.«171585_j55456617726008_1_alg».proof.Proof.Gen.Pre_finite_inputs
import proofs.«171585_j55456617726008_1_alg».proof.Proof.K.Run
import proofs.«171585_j55456617726008_1_alg».proof.Proof.KI.Run
import proofs.«171585_j55456617726008_1_alg».proof.Proof.Ref.Run
import proofs.«171585_j55456617726008_1_alg».proof.Proof.Ref.Chain
import proofs.«171585_j55456617726008_1_alg».proof.Proof.KI.Chain
import proofs.«171585_j55456617726008_1_alg».proof.Proof.KI.Finals
import proofs.«171585_j55456617726008_1_alg».proof.Proof.PreFinite
import proofs.«171585_j55456617726008_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_p : Cert.frame_Kernel (hKernel := Cert.Kernel.Gen.facts) (hPre_finite_inputs := Cert.Pre_finite_inputs.Gen.facts) :=
  fun m ρ _ => (θ_run _ _ _).mono (fun r h c => by
    have k := Cert.Kernel.Hand.args_kept m ρ c (h c)
    exact ⟨k _ (by decide), k _ (by decide), k _ (by decide), k _ (by decide), k _ (by decide), k _ (by decide), k _ (by decide), k _ (by decide), k _ (by decide), k _ (by decide), k _ (by decide), k _ (by decide), k _ (by decide), k _ (by decide), k _ (by decide)⟩) (Cert.Kernel.Hand.run_all (F := Bits) m ρ)

theorem frame_pi : Cert.frame_KernelIdeal (hKernelIdeal := Cert.KernelIdeal.Gen.facts) (hPre_finite_inputs := Cert.Pre_finite_inputs.Gen.facts) :=
  fun m ρ _ => (θ_run _ _ _).mono (fun r h c => by
    have k := Cert.KernelIdeal.Hand.args_kept m ρ c (h c)
    exact ⟨k _ (by decide), k _ (by decide), k _ (by decide), k _ (by decide), k _ (by decide), k _ (by decide), k _ (by decide), k _ (by decide), k _ (by decide), k _ (by decide), k _ (by decide), k _ (by decide), k _ (by decide), k _ (by decide), k _ (by decide)⟩) (Cert.KernelIdeal.Hand.run_all (F := Ideal) m ρ)

theorem preserves : Cert.preserves_Kernel_KernelIdeal :=
  have st := IdealRules.named_const.statement Cert.KernelIdeal.κ "inv_50000" .f32 0x37A7C5AC#32 ((1 / 50000 : ℝ) : EReal) rfl
  ⟨st, st, st, st⟩

open Cert.KernelIdeal in

theorem refSpec_congr {x x' : Vec Ideal S50000x128 .f32} {ei ei' : IVec S2x600000 32} {bt bt' : IVec S50000 32}
    {W1 W1' : Vec Ideal S128x128 .f32} {b1 b1' g1 g1' be1 be1' : Vec Ideal S128 .f32}
    {W2 W2' : Vec Ideal S128x128 .f32} {b2 b2' g2 g2' be2 be2' : Vec Ideal S128 .f32}
    {W3 W3' : Vec Ideal S128x128 .f32} {b3 b3' : Vec Ideal S128 .f32}
    {Wl Wl' : Vec Ideal S128x1 .f32} {bl bl' : Vec Ideal S1 .f32}
    (e0 : x' = x) (e1 : ei' = ei) (e2 : bt' = bt) (e3 : W1' = W1) (e4 : b1' = b1) (e5 : g1' = g1) (e6 : be1' = be1)
    (e7 : W2' = W2) (e8 : b2' = b2) (e9 : g2' = g2) (e10 : be2' = be2) (e11 : W3' = W3) (e12 : b3' = b3)
    (e13 : Wl' = Wl) (e14 : bl' = bl) :
    Cert.Spec.refSpec x' ei' bt' W1' b1' g1' be1' W2' b2' g2' be2' W3' b3' Wl' bl'
      = Cert.Spec.refSpec x ei bt W1 b1 g1 be1 W2 b2 g2 be2 W3 b3 Wl bl := by
  subst e0 e1 e2 e3 e4 e5 e6 e7 e8 e9 e10 e11 e12 e13 e14; rfl

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.W17 (F := Ideal) m ρ c (Proc.devRef .tc Cert.KernelIdeal.main_v99), ?_, ?_⟩
  · refine (θ_run (Cert.KernelIdeal.defs (F := Ideal)) _ _).mono (fun r h c => ?_) (Cert.KernelIdeal.Hand.run_all (F := Ideal) m ρ)
    have k := Cert.KernelIdeal.Hand.args_kept m ρ c (h c)
    exact ⟨h c _ (Cert.KernelIdeal.Hand.mem_uc Cert.KernelIdeal.main_v99 (by decide)), k _ (by decide), k _ (by decide), k _ (by decide), k _ (by decide), k _ (by decide), k _ (by decide), k _ (by decide), k _ (by decide), k _ (by decide), k _ (by decide), k _ (by decide), k _ (by decide), k _ (by decide), k _ (by decide), k _ (by decide)⟩
  · refine (θ_run (Cert.ReferenceIdeal.defs (F := Ideal)) _ _).mono (fun r h c => ⟨(h c).1.trans ?_, (h c).2⟩)
      (Cert.ReferenceIdeal.Hand.run (F := Ideal) m' ρ')
    obtain ⟨a0, a1, a2, a3, a4, a5, a6, a7, a8, a9, a10, a11, a12, a13, a14⟩ := hagree c
    obtain ⟨h0, h3, h4, h5, h6, h7, h8, h9, h10, h11, h12, h13, h14⟩ := Cert.PreFinite.finite_of_pre m hpre c
    have hK := Cert.KernelIdeal.Hand.kernel_value m ρ c
      ⟨Cert.KernelIdeal.Hand.val0, Cert.KernelIdeal.Hand.val1, Cert.KernelIdeal.Hand.val2_mean, Cert.KernelIdeal.Hand.val2_var,
       Cert.KernelIdeal.Hand.val3, Cert.KernelIdeal.Hand.val4, Cert.KernelIdeal.Hand.val5, Cert.KernelIdeal.Hand.val6_mean,
       Cert.KernelIdeal.Hand.val6_var, Cert.KernelIdeal.Hand.val7, Cert.KernelIdeal.Hand.val8, Cert.KernelIdeal.Hand.val9⟩
    have hR := Cert.ReferenceIdeal.Hand.ref_value (StableHlo.launchContents m' c)
    refine hR.trans (Eq.trans ?_ hK.symm)
    exact (refSpec_congr a0 a1 a2 a3 a4 a5 a6 a7 a8 a9 a10 a11 a12 a13 a14).trans
      (Cert.Spec.kernelSpec_eq_refSpec _ _ _ _ _ _ _ _ _ _ _ _ _ _ _ h0 h3 h4 h5 h6 h7 h8 h9 h10 h11 h12 h13 h14).symm

theorem claim : Cert.Claim := ⟨Cert.Kernel.Gen.facts, Cert.KernelIdeal.Gen.facts, Cert.ReferenceIdeal.Gen.facts, Cert.Pre_finite_inputs.Gen.facts,
  frame_p, frame_pi, Cert.ReferenceIdeal.Hand.frame_ri, preserves, algebraic⟩

end Cert.Proof

end
